-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v152)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v152) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v734) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1200000 : Shape := ⟨2, ![2, 1200000]⟩
abbrev S1200000 : Shape := ⟨1, ![1200000]⟩
abbrev S100000 : Shape := ⟨1, ![100000]⟩
abbrev S3x64x64 : Shape := ⟨3, ![3, 64, 64]⟩
abbrev S3x64 : Shape := ⟨2, ![3, 64]⟩
abbrev S3x4x64x64 : Shape := ⟨4, ![3, 4, 64, 64]⟩
abbrev S3x4x64 : Shape := ⟨3, ![3, 4, 64]⟩
abbrev S_ : Shape := ⟨0, ![]⟩
abbrev S1x1200000 : Shape := ⟨2, ![1, 1200000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S3x4x64x64 : S_.BroadcastsInDim S3x4x64x64 (![] : Fin 0 → Fin S3x4x64x64.rank)
  reducesTo_S3x4x64x64_S_d0_1_2_3 : S3x4x64x64.ReducesTo [0, 1, 2, 3] S_
  bcast_S_S3x4x64 : S_.BroadcastsInDim S3x4x64 (![] : Fin 0 → Fin S3x4x64.rank)
  reducesTo_S3x4x64_S_d0_1_2 : S3x4x64.ReducesTo [0, 1, 2] S_
  slices_S2x1200000_S1x1200000_1_0 : S2x1200000.Slices ![1, 0] S1x1200000
  shapeCasts_S1x1200000_S1200000 : S1x1200000.ShapeCasts S1200000
  bcast_S_S1200000 : S_.BroadcastsInDim S1200000 (![] : Fin 0 → Fin S1200000.rank)
  reducesTo_S1200000_S_d0 : S1200000.ReducesTo [0] S_
  bcast_S_S100000 : S_.BroadcastsInDim S100000 (![] : Fin 0 → Fin S100000.rank)
  reducesTo_S100000_S_d0 : S100000.ReducesTo [0] S_

variable [Facts]

def fn_part4 {F : FTy → Type} [FloatOps F] (main_arg3 : IVec S100000 32) (main_v67 : IVec S_ 1) : IVec S_ 1 :=
  let main_c_26 : IVec S_ 32 := constantI S_ 32 128#32
  let main_v68 : IVec S100000 32 := broadcastInDim S100000 ![] bcast_S_S100000 main_c_26
  let main_v69 : IVec S100000 1 := cmpi .slt main_arg3 main_v68
  let main_c_27 : IVec S_ 1 := constantI S_ 1 1#1
  let main_v70 : IVec S_ 1 := (fun x v => Host.reduce IntOp.andi x v reducesTo_S100000_S_d0 h_S_) main_v69 main_c_27
  let main_v71 : IVec S_ 1 := andi main_v67 main_v70
  main_v71

def fn_part3 {F : FTy → Type} [FloatOps F] (main_arg2 : IVec S1200000 32) (main_arg3 : IVec S100000 32) (main_v49 : IVec S_ 1) (main_v51 : IVec S1200000 32) : IVec S_ 1 :=
  let main_c_18 : IVec S_ 32 := constantI S_ 32 100000#32
  let main_v52 : IVec S1200000 32 := broadcastInDim S1200000 ![] bcast_S_S1200000 main_c_18
  let main_v53 : IVec S1200000 1 := cmpi .slt main_v51 main_v52
  let main_c_19 : IVec S_ 1 := constantI S_ 1 1#1
  let main_v54 : IVec S_ 1 := (fun x v => Host.reduce IntOp.andi x v reducesTo_S1200000_S_d0 h_S_) main_v53 main_c_19
  let main_v55 : IVec S_ 1 := andi main_v49 main_v54
  let main_c_20 : IVec S_ 32 := constantI S_ 32 0#32
  let main_v56 : IVec S1200000 32 := broadcastInDim S1200000 ![] bcast_S_S1200000 main_c_20
  let main_v57 : IVec S1200000 1 := cmpi .sge main_arg2 main_v56
  let main_c_21 : IVec S_ 1 := constantI S_ 1 1#1
  let main_v58 : IVec S_ 1 := (fun x v => Host.reduce IntOp.andi x v reducesTo_S1200000_S_d0 h_S_) main_v57 main_c_21
  let main_v59 : IVec S_ 1 := andi main_v55 main_v58
  let main_c_22 : IVec S_ 32 := constantI S_ 32 4#32
  let main_v60 : IVec S1200000 32 := broadcastInDim S1200000 ![] bcast_S_S1200000 main_c_22
  let main_v61 : IVec S1200000 1 := cmpi .slt main_arg2 main_v60
  let main_c_23 : IVec S_ 1 := constantI S_ 1 1#1
  let main_v62 : IVec S_ 1 := (fun x v => Host.reduce IntOp.andi x v reducesTo_S1200000_S_d0 h_S_) main_v61 main_c_23
  let main_v63 : IVec S_ 1 := andi main_v59 main_v62
  let main_c_24 : IVec S_ 32 := constantI S_ 32 0#32
  let main_v64 : IVec S100000 32 := broadcastInDim S100000 ![] bcast_S_S100000 main_c_24
  let main_v65 : IVec S100000 1 := cmpi .sge main_arg3 main_v64
  let main_c_25 : IVec S_ 1 := constantI S_ 1 1#1
  let main_v66 : IVec S_ 1 := (fun x v => Host.reduce IntOp.andi x v reducesTo_S100000_S_d0 h_S_) main_v65 main_c_25
  let main_v67 : IVec S_ 1 := andi main_v63 main_v66
  fn_part4 (F := F) main_arg3 main_v67

def fn_part2 {F : FTy → Type} [FloatOps F] (main_arg1 : IVec S2x1200000 32) (main_arg2 : IVec S1200000 32) (main_arg3 : IVec S100000 32) (main_arg10 : FVec F S3x4x64x64 .f32) (main_arg11 : FVec F S3x4x64 .f32) (main_v33 : IVec S_ 1) : IVec S_ 1 :=
  let main_v34 : FVec F S3x4x64x64 .f32 := Host.absf main_arg10
  let main_cst_12 : FVec F S_ .f32 := constant S_ .f32 0x7F800000#32
  let main_v35 : FVec F S3x4x64x64 .f32 := broadcastInDim S3x4x64x64 ![] bcast_S_S3x4x64x64 main_cst_12
  let main_v36 : IVec S3x4x64x64 1 := cmpf .olt main_v34 main_v35
  let main_c_13 : IVec S_ 1 := constantI S_ 1 1#1
  let main_v37 : IVec S_ 1 := (fun x v => Host.reduce IntOp.andi x v reducesTo_S3x4x64x64_S_d0_1_2_3 h_S_) main_v36 main_c_13
  let main_v38 : IVec S_ 1 := andi main_v33 main_v37
  let main_v39 : FVec F S3x4x64 .f32 := Host.absf main_arg11
  let main_cst_14 : FVec F S_ .f32 := constant S_ .f32 0x7F800000#32
  let main_v40 : FVec F S3x4x64 .f32 := broadcastInDim S3x4x64 ![] bcast_S_S3x4x64 main_cst_14
  let main_v41 : IVec S3x4x64 1 := cmpf .olt main_v39 main_v40
  let main_c_15 : IVec S_ 1 := constantI S_ 1 1#1
  let main_v42 : IVec S_ 1 := (fun x v => Host.reduce IntOp.andi x v reducesTo_S3x4x64_S_d0_1_2 h_S_) main_v41 main_c_15
  let main_v43 : IVec S_ 1 := andi main_v38 main_v42
  let main_v44 : IVec S1x1200000 32 := (extractStridedSlice S1x1200000 ![1, 0] · slices_S2x1200000_S1x1200000_1_0) main_arg1
  let main_v45 : IVec S1200000 32 := shapeCast S1200000 main_v44 shapeCasts_S1x1200000_S1200000
  let main_c_16 : IVec S_ 32 := constantI S_ 32 0#32
  let main_v46 : IVec S1200000 32 := broadcastInDim S1200000 ![] bcast_S_S1200000 main_c_16
  let main_v47 : IVec S1200000 1 := cmpi .sge main_v45 main_v46
  let main_c_17 : IVec S_ 1 := constantI S_ 1 1#1
  let main_v48 : IVec S_ 1 := (fun x v => Host.reduce IntOp.andi x v reducesTo_S1200000_S_d0 h_S_) main_v47 main_c_17
  let main_v49 : IVec S_ 1 := andi main_v43 main_v48
  let main_v50 : IVec S1x1200000 32 := (extractStridedSlice S1x1200000 ![1, 0] · slices_S2x1200000_S1x1200000_1_0) main_arg1
  let main_v51 : IVec S1200000 32 := shapeCast S1200000 main_v50 shapeCasts_S1x1200000_S1200000
  fn_part3 (F := F) main_arg2 main_arg3 main_v49 main_v51

def fn_part1 {F : FTy → Type} [FloatOps F] (main_arg1 : IVec S2x1200000 32) (main_arg2 : IVec S1200000 32) (main_arg3 : IVec S100000 32) (main_arg7 : FVec F S3x4x64 .f32) (main_arg8 : FVec F S3x4x64 .f32) (main_arg9 : FVec F S3x4x64 .f32) (main_arg10 : FVec F S3x4x64x64 .f32) (main_arg11 : FVec F S3x4x64 .f32) (main_v13 : IVec S_ 1) (main_v16 : IVec S3x4x64x64 1) : IVec S_ 1 :=
  let main_c_5 : IVec S_ 1 := constantI S_ 1 1#1
  let main_v17 : IVec S_ 1 := (fun x v => Host.reduce IntOp.andi x v reducesTo_S3x4x64x64_S_d0_1_2_3 h_S_) main_v16 main_c_5
  let main_v18 : IVec S_ 1 := andi main_v13 main_v17
  let main_v19 : FVec F S3x4x64 .f32 := Host.absf main_arg7
  let main_cst_6 : FVec F S_ .f32 := constant S_ .f32 0x7F800000#32
  let main_v20 : FVec F S3x4x64 .f32 := broadcastInDim S3x4x64 ![] bcast_S_S3x4x64 main_cst_6
  let main_v21 : IVec S3x4x64 1 := cmpf .olt main_v19 main_v20
  let main_c_7 : IVec S_ 1 := constantI S_ 1 1#1
  let main_v22 : IVec S_ 1 := (fun x v => Host.reduce IntOp.andi x v reducesTo_S3x4x64_S_d0_1_2 h_S_) main_v21 main_c_7
  let main_v23 : IVec S_ 1 := andi main_v18 main_v22
  let main_v24 : FVec F S3x4x64 .f32 := Host.absf main_arg8
  let main_cst_8 : FVec F S_ .f32 := constant S_ .f32 0x7F800000#32
  let main_v25 : FVec F S3x4x64 .f32 := broadcastInDim S3x4x64 ![] bcast_S_S3x4x64 main_cst_8
  let main_v26 : IVec S3x4x64 1 := cmpf .olt main_v24 main_v25
  let main_c_9 : IVec S_ 1 := constantI S_ 1 1#1
  let main_v27 : IVec S_ 1 := (fun x v => Host.reduce IntOp.andi x v reducesTo_S3x4x64_S_d0_1_2 h_S_) main_v26 main_c_9
  let main_v28 : IVec S_ 1 := andi main_v23 main_v27
  let main_v29 : FVec F S3x4x64 .f32 := Host.absf main_arg9
  let main_cst_10 : FVec F S_ .f32 := constant S_ .f32 0x7F800000#32
  let main_v30 : FVec F S3x4x64 .f32 := broadcastInDim S3x4x64 ![] bcast_S_S3x4x64 main_cst_10
  let main_v31 : IVec S3x4x64 1 := cmpf .olt main_v29 main_v30
  let main_c_11 : IVec S_ 1 := constantI S_ 1 1#1
  let main_v32 : IVec S_ 1 := (fun x v => Host.reduce IntOp.andi x v reducesTo_S3x4x64_S_d0_1_2 h_S_) main_v31 main_c_11
  let main_v33 : IVec S_ 1 := andi main_v28 main_v32
  fn_part2 (F := F) main_arg1 main_arg2 main_arg3 main_arg10 main_arg11 main_v33

def fn {F : FTy → Type} [FloatOps F] (main_arg0 : FVec F S100000x64 .f32) (main_arg1 : IVec S2x1200000 32) (main_arg2 : IVec S1200000 32) (main_arg3 : IVec S100000 32) (main_arg4 : FVec F S3x64x64 .f32) (main_arg5 : FVec F S3x64 .f32) (main_arg6 : FVec F S3x4x64x64 .f32) (main_arg7 : FVec F S3x4x64 .f32) (main_arg8 : FVec F S3x4x64 .f32) (main_arg9 : FVec F S3x4x64 .f32) (main_arg10 : FVec F S3x4x64x64 .f32) (main_arg11 : FVec F S3x4x64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S3x64x64 .f32 := Host.absf main_arg4
  let main_cst_0 : FVec F S_ .f32 := constant S_ .f32 0x7F800000#32
  let main_v5 : FVec F S3x64x64 .f32 := broadcastInDim S3x64x64 ![] bcast_S_S3x64x64 main_cst_0
  let main_v6 : IVec S3x64x64 1 := cmpf .olt main_v4 main_v5
  let main_c_1 : IVec S_ 1 := constantI S_ 1 1#1
  let main_v7 : IVec S_ 1 := (fun x v => Host.reduce IntOp.andi x v reducesTo_S3x64x64_S_d0_1_2 h_S_) main_v6 main_c_1
  let main_v8 : IVec S_ 1 := andi main_v3 main_v7
  let main_v9 : FVec F S3x64 .f32 := Host.absf main_arg5
  let main_cst_2 : FVec F S_ .f32 := constant S_ .f32 0x7F800000#32
  let main_v10 : FVec F S3x64 .f32 := broadcastInDim S3x64 ![] bcast_S_S3x64 main_cst_2
  let main_v11 : IVec S3x64 1 := cmpf .olt main_v9 main_v10
  let main_c_3 : IVec S_ 1 := constantI S_ 1 1#1
  let main_v12 : IVec S_ 1 := (fun x v => Host.reduce IntOp.andi x v reducesTo_S3x64_S_d0_1 h_S_) main_v11 main_c_3
  let main_v13 : IVec S_ 1 := andi main_v8 main_v12
  let main_v14 : FVec F S3x4x64x64 .f32 := Host.absf main_arg6
  let main_cst_4 : FVec F S_ .f32 := constant S_ .f32 0x7F800000#32
  let main_v15 : FVec F S3x4x64x64 .f32 := broadcastInDim S3x4x64x64 ![] bcast_S_S3x4x64x64 main_cst_4
  let main_v16 : IVec S3x4x64x64 1 := cmpf .olt main_v14 main_v15
  fn_part1 (F := F) main_arg1 main_arg2 main_arg3 main_arg7 main_arg8 main_arg9 main_arg10 main_arg11 main_v13 main_v16
-- ==== Kernel.lean ====
abbrev S100000x64 : Shape := ⟨2, ![100000, 64]⟩
abbrev S2x1200000 : Shape := ⟨2, ![2, 1200000]⟩
abbrev S1200000 : Shape := ⟨1, ![1200000]⟩
abbrev S100000 : Shape := ⟨1, ![100000]⟩
abbrev S3x64x64 : Shape := ⟨3, ![3, 64, 64]⟩
abbrev S3x64 : Shape := ⟨2, ![3, 64]⟩
abbrev S3x4x64x64 : Shape := ⟨4, ![3, 4, 64, 64]⟩
abbrev S3x4x64 : Shape := ⟨3, ![3, 4, 64]⟩
abbrev S1x1200000 : Shape := ⟨2, ![1, 1200000]⟩
abbrev S_ : Shape := ⟨0, ![]⟩
abbrev S1200000x1 : Shape := ⟨2, ![1200000, 1]⟩
abbrev S1200000x64 : Shape := ⟨2, ![1200000, 64]⟩
abbrev S400000x64 : Shape := ⟨2, ![400000, 64]⟩
abbrev S4x100000x64 : Shape := ⟨3, ![4, 100000, 64]⟩
abbrev S1x4x64x64 : Shape := ⟨4, ![1, 4, 64, 64]⟩
abbrev S4x64x64 : Shape := ⟨3, ![4, 64, 64]⟩
abbrev S1x4x64 : Shape := ⟨3, ![1, 4, 64]⟩
abbrev S4x64 : Shape := ⟨2, ![4, 64]⟩
abbrev S20x4x64 : Shape := ⟨3, ![20, 4, 64]⟩
abbrev S5000x64 : Shape := ⟨2, ![5000, 64]⟩
abbrev S4x5000x64 : Shape := ⟨3, ![4, 5000, 64]⟩
abbrev S1x5000x64 : Shape := ⟨3, ![1, 5000, 64]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S1x1x64 : Shape := ⟨3, ![1, 1, 64]⟩
abbrev S100000x1 : Shape := ⟨2, ![100000, 1]⟩
abbrev S20x128x64 : Shape := ⟨3, ![20, 128, 64]⟩
abbrev S5000x1 : Shape := ⟨2, ![5000, 1]⟩
abbrev S1x128x64 : Shape := ⟨3, ![1, 128, 64]⟩
abbrev S5000x128 : Shape := ⟨2, ![5000, 128]⟩
abbrev S128x64 : Shape := ⟨2, ![128, 64]⟩
abbrev S128 : Shape := ⟨1, ![128]⟩
abbrev S128x1 : Shape := ⟨2, ![128, 1]⟩

abbrev nBuf : Space → Nat
  | .hbm => 199
  | .vmem => 84
  | .smem => 0
  | _ => 0

abbrev hbmTy0_0 (i : Nat) : BufTy := match i % 128 with
  | 0 => ⟨S100000x64, .f32⟩
  | 1 => ⟨S2x1200000, .i32⟩
  | 2 => ⟨S1200000, .i32⟩
  | 3 => ⟨S100000, .i32⟩
  | 4 => ⟨S3x64x64, .f32⟩
  | 5 => ⟨S3x64, .f32⟩
  | 6 => ⟨S3x4x64x64, .f32⟩
  | 7 => ⟨S3x4x64, .f32⟩
  | 8 => ⟨S3x4x64, .f32⟩
  | 9 => ⟨S3x4x64, .f32⟩
  | 10 => ⟨S3x4x64x64, .f32⟩
  | 11 => ⟨S3x4x64, .f32⟩
  | 12 => ⟨S1x1200000, .i32⟩
  | 13 => ⟨S1200000, .i32⟩
  | 14 => ⟨S1x1200000, .i32⟩
  | 15 => ⟨S1200000, .i32⟩
  | 16 => ⟨S_, .i32⟩
  | 17 => ⟨S1200000, .i32⟩
  | 18 => ⟨S1200000, .i32⟩
  | 19 => ⟨S1200000, .i32⟩
  | 20 => ⟨S_, .i32⟩
  | 21 => ⟨S1200000, .i32⟩
  | 22 => ⟨S1200000, .i1⟩
  | 23 => ⟨S_, .i32⟩
  | 24 => ⟨S1200000, .i32⟩
  | 25 => ⟨S1200000, .i32⟩
  | 26 => ⟨S1200000, .i32⟩
  | 27 => ⟨S1200000x1, .i32⟩
  | 28 => ⟨S1200000x64, .f32⟩
  | 29 => ⟨S_, .f32⟩
  | 30 => ⟨S400000x64, .f32⟩
  | 31 => ⟨S1200000x1, .i32⟩
  | 32 => ⟨S400000x64, .f32⟩
  | 33 => ⟨S4x100000x64, .f32⟩
  | 34 => ⟨S1x4x64x64, .f32⟩
  | 35 => ⟨S4x64x64, .f32⟩
  | 36 => ⟨S1x4x64, .f32⟩
  | 37 => ⟨S4x64, .f32⟩
  | 38 => ⟨S20x4x64, .f32⟩
  | 39 => ⟨S20x4x64, .f32⟩
  | 40 => ⟨S_, .f32⟩
  | 41 => ⟨S4x64, .f32⟩
  | 42 => ⟨S_, .f32⟩
  | 43 => ⟨S4x64, .f32⟩
  | 44 => ⟨S_, .f32⟩
  | 45 => ⟨S4x64, .f32⟩
  | 46 => ⟨S4x64, .f32⟩
  | 47 => ⟨S_, .f32⟩
  | 48 => ⟨S4x64, .f32⟩
  | 49 => ⟨S4x64, .f32⟩
  | 50 => ⟨S4x64, .f32⟩
  | 51 => ⟨S4x64, .f32⟩
  | 52 => ⟨S_, .f32⟩
  | 53 => ⟨S4x64, .f32⟩
  | 54 => ⟨S4x64, .f32⟩
  | 55 => ⟨S1x64x64, .f32⟩
  | 56 => ⟨S64x64, .f32⟩
  | 57 => ⟨S1x64, .f32⟩
  | 58 => ⟨S64, .f32⟩
  | 59 => ⟨S1x4x64x64, .f32⟩
  | 60 => ⟨S4x64x64, .f32⟩
  | 61 => ⟨S1x4x64, .f32⟩
  | 62 => ⟨S4x64, .f32⟩
  | 63 => ⟨S1x4x64, .f32⟩
  | 64 => ⟨S4x64, .f32⟩
  | 65 => ⟨S1x4x64, .f32⟩
  | 66 => ⟨S4x64, .f32⟩
  | 67 => ⟨S1x4x64x64, .f32⟩
  | 68 => ⟨S4x64x64, .f32⟩
  | 69 => ⟨S1x4x64, .f32⟩
  | 70 => ⟨S4x64, .f32⟩
  | 71 => ⟨S100000x64, .f32⟩
  | 72 => ⟨S_, .i32⟩
  | 73 => ⟨S1200000, .i32⟩
  | 74 => ⟨S1200000, .i1⟩
  | 75 => ⟨S_, .i32⟩
  | 76 => ⟨S1200000, .i32⟩
  | 77 => ⟨S1200000, .i32⟩
  | 78 => ⟨S1200000, .i32⟩
  | 79 => ⟨S1200000x1, .i32⟩
  | 80 => ⟨S1200000x64, .f32⟩
  | 81 => ⟨S_, .f32⟩
  | 82 => ⟨S400000x64, .f32⟩
  | 83 => ⟨S1200000x1, .i32⟩
  | 84 => ⟨S400000x64, .f32⟩
  | 85 => ⟨S4x100000x64, .f32⟩
  | 86 => ⟨S1x4x64x64, .f32⟩
  | 87 => ⟨S4x64x64, .f32⟩
  | 88 => ⟨S1x4x64, .f32⟩
  | 89 => ⟨S4x64, .f32⟩
  | 90 => ⟨S20x4x64, .f32⟩
  | 91 => ⟨S20x4x64, .f32⟩
  | 92 => ⟨S_, .f32⟩
  | 93 => ⟨S4x64, .f32⟩
  | 94 => ⟨S_, .f32⟩
  | 95 => ⟨S4x64, .f32⟩
  | 96 => ⟨S_, .f32⟩
  | 97 => ⟨S4x64, .f32⟩
  | 98 => ⟨S4x64, .f32⟩
  | 99 => ⟨S_, .f32⟩
  | 100 => ⟨S4x64, .f32⟩
  | 101 => ⟨S4x64, .f32⟩
  | 102 => ⟨S4x64, .f32⟩
  | 103 => ⟨S4x64, .f32⟩
  | 104 => ⟨S_, .f32⟩
  | 105 => ⟨S4x64, .f32⟩
  | 106 => ⟨S4x64, .f32⟩
  | 107 => ⟨S1x64x64, .f32⟩
  | 108 => ⟨S64x64, .f32⟩
  | 109 => ⟨S1x64, .f32⟩
  | 110 => ⟨S64, .f32⟩
  | 111 => ⟨S1x4x64x64, .f32⟩
  | 112 => ⟨S4x64x64, .f32⟩
  | 113 => ⟨S1x4x64, .f32⟩
  | 114 => ⟨S4x64, .f32⟩
  | 115 => ⟨S1x4x64, .f32⟩
  | 116 => ⟨S4x64, .f32⟩
  | 117 => ⟨S1x4x64, .f32⟩
  | 118 => ⟨S4x64, .f32⟩
  | 119 => ⟨S1x4x64x64, .f32⟩
  | 120 => ⟨S4x64x64, .f32⟩
  | 121 => ⟨S1x4x64, .f32⟩
  | 122 => ⟨S4x64, .f32⟩
  | 123 => ⟨S100000x64, .f32⟩
  | 124 => ⟨S_, .i32⟩
  | 125 => ⟨S1200000, .i32⟩
  | 126 => ⟨S1200000, .i1⟩
  | 127 => ⟨S_, .i32⟩
  | _ => ⟨S100000x64, .f32⟩

abbrev hbmTy0_1 (i : Nat) : BufTy := match i % 128 with
  | 0 => ⟨S1200000, .i32⟩
  | 1 => ⟨S1200000, .i32⟩
  | 2 => ⟨S1200000, .i32⟩
  | 3 => ⟨S1200000x1, .i32⟩
  | 4 => ⟨S1200000x64, .f32⟩
  | 5 => ⟨S_, .f32⟩
  | 6 => ⟨S400000x64, .f32⟩
  | 7 => ⟨S1200000x1, .i32⟩
  | 8 => ⟨S400000x64, .f32⟩
  | 9 => ⟨S4x100000x64, .f32⟩
  | 10 => ⟨S1x4x64x64, .f32⟩
  | 11 => ⟨S4x64x64, .f32⟩
  | 12 => ⟨S1x4x64, .f32⟩
  | 13 => ⟨S4x64, .f32⟩
  | 14 => ⟨S20x4x64, .f32⟩
  | 15 => ⟨S20x4x64, .f32⟩
  | 16 => ⟨S_, .f32⟩
  | 17 => ⟨S4x64, .f32⟩
  | 18 => ⟨S_, .f32⟩
  | 19 => ⟨S4x64, .f32⟩
  | 20 => ⟨S_, .f32⟩
  | 21 => ⟨S4x64, .f32⟩
  | 22 => ⟨S4x64, .f32⟩
  | 23 => ⟨S_, .f32⟩
  | 24 => ⟨S4x64, .f32⟩
  | 25 => ⟨S4x64, .f32⟩
  | 26 => ⟨S4x64, .f32⟩
  | 27 => ⟨S4x64, .f32⟩
  | 28 => ⟨S_, .f32⟩
  | 29 => ⟨S4x64, .f32⟩
  | 30 => ⟨S4x64, .f32⟩
  | 31 => ⟨S1x64x64, .f32⟩
  | 32 => ⟨S64x64, .f32⟩
  | 33 => ⟨S1x64, .f32⟩
  | 34 => ⟨S64, .f32⟩
  | 35 => ⟨S1x4x64x64, .f32⟩
  | 36 => ⟨S4x64x64, .f32⟩
  | 37 => ⟨S1x4x64, .f32⟩
  | 38 => ⟨S4x64, .f32⟩
  | 39 => ⟨S1x4x64, .f32⟩
  | 40 => ⟨S4x64, .f32⟩
  | 41 => ⟨S1x4x64, .f32⟩
  | 42 => ⟨S4x64, .f32⟩
  | 43 => ⟨S1x4x64x64, .f32⟩
  | 44 => ⟨S4x64x64, .f32⟩
  | 45 => ⟨S1x4x64, .f32⟩
  | 46 => ⟨S4x64, .f32⟩
  | 47 => ⟨S100000x64, .f32⟩
  | 48 => ⟨S100000x1, .i32⟩
  | 49 => ⟨S20x128x64, .f32⟩
  | 50 => ⟨S_, .f32⟩
  | 51 => ⟨S128x64, .f32⟩
  | 52 => ⟨S_, .f32⟩
  | 53 => ⟨S128, .f32⟩
  | 54 => ⟨S_, .i32⟩
  | 55 => ⟨S100000, .i32⟩
  | 56 => ⟨S100000, .i1⟩
  | 57 => ⟨S_, .i32⟩
  | 58 => ⟨S100000, .i32⟩
  | 59 => ⟨S100000, .i32⟩
  | 60 => ⟨S100000, .i32⟩
  | 61 => ⟨S100000x1, .i32⟩
  | 62 => ⟨S_, .f32⟩
  | 63 => ⟨S100000, .f32⟩
  | 64 => ⟨S128, .f32⟩
  | 65 => ⟨S_, .f32⟩
  | 66 => ⟨S128, .f32⟩
  | 67 => ⟨S128, .f32⟩
  | 68 => ⟨S128x1, .f32⟩
  | 69 => ⟨S128x64, .f32⟩
  | 70 => ⟨S128x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S4x5000x64, .f32⟩
  | .local _ .vmem, ⟨3, _⟩ => ⟨S4x5000x64, .f32⟩
  | .local _ .vmem, ⟨4, _⟩ => ⟨S4x64x64, .f32⟩
  | .local _ .vmem, ⟨5, _⟩ => ⟨S4x64, .f32⟩
  | .local _ .vmem, ⟨6, _⟩ => ⟨S1x4x64, .f32⟩
  | .local _ .vmem, ⟨7, _⟩ => ⟨S1x4x64, .f32⟩
  | .local _ .vmem, ⟨8, _⟩ => ⟨S1x4x64, .f32⟩
  | .local _ .vmem, ⟨9, _⟩ => ⟨S1x4x64, .f32⟩
  | .local _ .vmem, ⟨10, _⟩ => ⟨S5000x64, .f32⟩
  | .local _ .vmem, ⟨11, _⟩ => ⟨S5000x64, .f32⟩
  | .local _ .vmem, ⟨12, _⟩ => ⟨S4x5000x64, .f32⟩
  | .local _ .vmem, ⟨13, _⟩ => ⟨S4x5000x64, .f32⟩
  | .local _ .vmem, ⟨14, _⟩ => ⟨S64x64, .f32⟩
  | .local _ .vmem, ⟨15, _⟩ => ⟨S64, .f32⟩
  | .local _ .vmem, ⟨16, _⟩ => ⟨S4x64x64, .f32⟩
  | .local _ .vmem, ⟨17, _⟩ => ⟨S4x64, .f32⟩
  | .local _ .vmem, ⟨18, _⟩ => ⟨S4x64, .f32⟩
  | .local _ .vmem, ⟨19, _⟩ => ⟨S4x64, .f32⟩
  | .local _ .vmem, ⟨20, _⟩ => ⟨S4x64, .f32⟩
  | .local _ .vmem, ⟨21, _⟩ => ⟨S4x64, .f32⟩
  | .local _ .vmem, ⟨22, _⟩ => ⟨S4x64x64, .f32⟩
  | .local _ .vmem, ⟨23, _⟩ => ⟨S4x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S4x5000x64, .f32⟩
  | .local _ .vmem, ⟨29, _⟩ => ⟨S4x5000x64, .f32⟩
  | .local _ .vmem, ⟨30, _⟩ => ⟨S4x64x64, .f32⟩
  | .local _ .vmem, ⟨31, _⟩ => ⟨S4x64, .f32⟩
  | .local _ .vmem, ⟨32, _⟩ => ⟨S1x4x64, .f32⟩
  | .local _ .vmem, ⟨33, _⟩ => ⟨S1x4x64, .f32⟩
  | .local _ .vmem, ⟨34, _⟩ => ⟨S1x4x64, .f32⟩
  | .local _ .vmem, ⟨35, _⟩ => ⟨S1x4x64, .f32⟩
  | .local _ .vmem, ⟨36, _⟩ => ⟨S5000x64, .f32⟩
  | .local _ .vmem, ⟨37, _⟩ => ⟨S5000x64, .f32⟩
  | .local _ .vmem, ⟨38, _⟩ => ⟨S4x5000x64, .f32⟩
  | .local _ .vmem, ⟨39, _⟩ => ⟨S4x5000x64, .f32⟩
  | .local _ .vmem, ⟨40, _⟩ => ⟨S64x64, .f32⟩
  | .local _ .vmem, ⟨41, _⟩ => ⟨S64, .f32⟩
  | .local _ .vmem, ⟨42, _⟩ => ⟨S4x64x64, .f32⟩
  | .local _ .vmem, ⟨43, _⟩ => ⟨S4x64, .f32⟩
  | .local _ .vmem, ⟨44, _⟩ => ⟨S4x64, .f32⟩
  | .local _ .vmem, ⟨45, _⟩ => ⟨S4x64, .f32⟩
  | .local _ .vmem, ⟨46, _⟩ => ⟨S4x64, .f32⟩
  | .local _ .vmem, ⟨47, _⟩ => ⟨S4x64, .f32⟩
  | .local _ .vmem, ⟨48, _⟩ => ⟨S4x64x64, .f32⟩
  | .local _ .vmem, ⟨49, _⟩ => ⟨S4x64, .f32⟩
  | .local _ .vmem, ⟨50, _⟩ => ⟨S5000x64, .f32⟩
  | .local _ .vmem, ⟨51, _⟩ => ⟨S5000x64, .f32⟩
  | .local _ .vmem, ⟨52, _⟩ => ⟨S5000x64, .f32⟩
  | .local _ .vmem, ⟨53, _⟩ => ⟨S5000x64, .f32⟩
  | .local _ .vmem, ⟨54, _⟩ => ⟨S4x5000x64, .f32⟩
  | .local _ .vmem, ⟨55, _⟩ => ⟨S4x5000x64, .f32⟩
  | .local _ .vmem, ⟨56, _⟩ => ⟨S4x64x64, .f32⟩
  | .local _ .vmem, ⟨57, _⟩ => ⟨S4x64, .f32⟩
  | .local _ .vmem, ⟨58, _⟩ => ⟨S1x4x64, .f32⟩
  | .local _ .vmem, ⟨59, _⟩ => ⟨S1x4x64, .f32⟩
  | .local _ .vmem, ⟨60, _⟩ => ⟨S1x4x64, .f32⟩
  | .local _ .vmem, ⟨61, _⟩ => ⟨S1x4x64, .f32⟩
  | .local _ .vmem, ⟨62, _⟩ => ⟨S5000x64, .f32⟩
  | .local _ .vmem, ⟨63, _⟩ => ⟨S5000x64, .f32⟩
  | .local _ .vmem, ⟨64, _⟩ => ⟨S4x5000x64, .f32⟩
  | .local _ .vmem, ⟨65, _⟩ => ⟨S4x5000x64, .f32⟩
  | .local _ .vmem, ⟨66, _⟩ => ⟨S64x64, .f32⟩
  | .local _ .vmem, ⟨67, _⟩ => ⟨S64, .f32⟩
  | .local _ .vmem, ⟨68, _⟩ => ⟨S4x64x64, .f32⟩
  | .local _ .vmem, ⟨69, _⟩ => ⟨S4x64, .f32⟩
  | .local _ .vmem, ⟨70, _⟩ => ⟨S4x64, .f32⟩
  | .local _ .vmem, ⟨71, _⟩ => ⟨S4x64, .f32⟩
  | .local _ .vmem, ⟨72, _⟩ => ⟨S4x64, .f32⟩
  | .local _ .vmem, ⟨73, _⟩ => ⟨S4x64, .f32⟩
  | .local _ .vmem, ⟨74, _⟩ => ⟨S4x64x64, .f32⟩
  | .local _ .vmem, ⟨75, _⟩ => ⟨S4x64, .f32⟩
  | .local _ .vmem, ⟨76, _⟩ => ⟨S5000x64, .f32⟩
  | .local _ .vmem, ⟨77, _⟩ => ⟨S5000x64, .f32⟩
  | .local _ .vmem, ⟨78, _⟩ => ⟨S5000x64, .f32⟩
  | .local _ .vmem, ⟨79, _⟩ => ⟨S5000x64, .f32⟩
  | .local _ .vmem, ⟨80, _⟩ => ⟨S5000x1, .i32⟩
  | .local _ .vmem, ⟨81, _⟩ => ⟨S5000x1, .i32⟩
  | .local _ .vmem, ⟨82, _⟩ => ⟨S1x128x64, .f32⟩
  | .local _ .vmem, ⟨83, _⟩ => ⟨S1x128x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | _, _ => false

abbrev semScoped : Fin 0 → Bool
  | ⟨_, h⟩ => absurd h (Nat.not_lt_zero _)

abbrev dmaSemScoped : Fin 84 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | _ => false

abbrev sig : RefSig :=
  ofTc nBuf bufTy 0 84 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c_0 : Ref sig .tc := ⟨.hbm, 20, rfl⟩
abbrev main_v7 : Ref sig .tc := ⟨.hbm, 21, rfl⟩
abbrev main_v8 : Ref sig .tc := ⟨.hbm, 22, rfl⟩
abbrev main_c_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22_0 : Ref sig .tc := ⟨.hbm, 38, rfl⟩
abbrev main_v22_1 : Ref sig .tc := ⟨.hbm, 39, rfl⟩
abbrev main_cst_2 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_6 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_7 : Ref sig .tc := ⟨.hbm, 72, rfl⟩
abbrev main_v50 : Ref sig .tc := ⟨.hbm, 73, rfl⟩
abbrev main_v51 : Ref sig .tc := ⟨.hbm, 74, rfl⟩
abbrev main_c_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_9 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65_0 : Ref sig .tc := ⟨.hbm, 90, rfl⟩
abbrev main_v65_1 : Ref sig .tc := ⟨.hbm, 91, rfl⟩
abbrev main_cst_10 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_cst_12 : Ref sig .tc := ⟨.hbm, 96, rfl⟩
abbrev main_v68 : Ref sig .tc := ⟨.hbm, 97, rfl⟩
abbrev main_v69 : Ref sig .tc := ⟨.hbm, 98, rfl⟩
abbrev main_cst_13 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_14 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_c_15 : Ref sig .tc := ⟨.hbm, 124, rfl⟩
abbrev main_v93 : Ref sig .tc := ⟨.hbm, 125, rfl⟩
abbrev main_v94 : Ref sig .tc := ⟨.hbm, 126, rfl⟩
abbrev main_c_16 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_cst_17 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108_0 : Ref sig .tc := ⟨.hbm, 142, rfl⟩
abbrev main_v108_1 : Ref sig .tc := ⟨.hbm, 143, rfl⟩
abbrev main_cst_18 : Ref sig .tc := ⟨.hbm, 144, rfl⟩
abbrev main_v109 : Ref sig .tc := ⟨.hbm, 145, rfl⟩
abbrev main_cst_19 : Ref sig .tc := ⟨.hbm, 146, rfl⟩
abbrev main_v110 : Ref sig .tc := ⟨.hbm, 147, rfl⟩
abbrev main_cst_20 : Ref sig .tc := ⟨.hbm, 148, rfl⟩
abbrev main_v111 : Ref sig .tc := ⟨.hbm, 149, rfl⟩
abbrev main_v112 : Ref sig .tc := ⟨.hbm, 150, rfl⟩
abbrev main_cst_21 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_22 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_cst_23 : Ref sig .tc := ⟨.hbm, 178, rfl⟩
abbrev main_v138 : Ref sig .tc := ⟨.hbm, 179, rfl⟩
abbrev main_cst_24 : Ref sig .tc := ⟨.hbm, 180, rfl⟩
abbrev main_v139 : Ref sig .tc := ⟨.hbm, 181, rfl⟩
abbrev main_c_25 : Ref sig .tc := ⟨.hbm, 182, rfl⟩
abbrev main_v140 : Ref sig .tc := ⟨.hbm, 183, rfl⟩
abbrev main_v141 : Ref sig .tc := ⟨.hbm, 184, rfl⟩
abbrev main_c_26 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_cst_27 : Ref sig .tc := ⟨.hbm, 190, rfl⟩
abbrev main_v146 : Ref sig .tc := ⟨.hbm, 191, rfl⟩
abbrev main_v147 : Ref sig .tc := ⟨.hbm, 192, rfl⟩
abbrev main_cst_28 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_v151 : Ref sig .tc := ⟨.hbm, 197, rfl⟩
abbrev main_v152 : Ref sig .tc := ⟨.hbm, 198, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg7_0 : Ref sig .tc := ⟨.vmem, 19, rfl⟩
abbrev cc1_stg8_0 : Ref sig .tc := ⟨.vmem, 20, rfl⟩
abbrev cc1_stg9_0 : Ref sig .tc := ⟨.vmem, 21, rfl⟩
abbrev cc1_stg10_0 : Ref sig .tc := ⟨.vmem, 22, rfl⟩
abbrev cc1_stg11_0 : Ref sig .tc := ⟨.vmem, 23, rfl⟩
abbrev cc1_stg12_0 : Ref sig .tc := ⟨.vmem, 24, rfl⟩
abbrev cc1_stg12_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg4_1 : Ref sig .tc := ⟨.vmem, 33, rfl⟩
abbrev cc2_stg5_0 : Ref sig .tc := ⟨.vmem, 34, rfl⟩
abbrev cc2_stg5_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg6_0 : Ref sig .tc := ⟨.vmem, 44, rfl⟩
abbrev cc3_stg7_0 : Ref sig .tc := ⟨.vmem, 45, rfl⟩
abbrev cc3_stg8_0 : Ref sig .tc := ⟨.vmem, 46, rfl⟩
abbrev cc3_stg9_0 : Ref sig .tc := ⟨.vmem, 47, rfl⟩
abbrev cc3_stg10_0 : Ref sig .tc := ⟨.vmem, 48, rfl⟩
abbrev cc3_stg11_0 : Ref sig .tc := ⟨.vmem, 49, rfl⟩
abbrev cc3_stg12_0 : Ref sig .tc := ⟨.vmem, 50, rfl⟩
abbrev cc3_stg12_1 : Ref sig .tc := ⟨.vmem, 51, rfl⟩
abbrev cc4_stg0_0 : Ref sig .tc := ⟨.vmem, 52, rfl⟩
abbrev cc4_stg0_1 : Ref sig .tc := ⟨.vmem, 53, rfl⟩
abbrev cc4_stg1_0 : Ref sig .tc := ⟨.vmem, 54, rfl⟩
abbrev cc4_stg1_1 : Ref sig .tc := ⟨.vmem, 55, rfl⟩
abbrev cc4_stg2_0 : Ref sig .tc := ⟨.vmem, 56, rfl⟩
abbrev cc4_stg3_0 : Ref sig .tc := ⟨.vmem, 57, rfl⟩
abbrev cc4_stg4_0 : Ref sig .tc := ⟨.vmem, 58, rfl⟩
abbrev cc4_stg4_1 : Ref sig .tc := ⟨.vmem, 59, rfl⟩
abbrev cc4_stg5_0 : Ref sig .tc := ⟨.vmem, 60, rfl⟩
abbrev cc4_stg5_1 : Ref sig .tc := ⟨.vmem, 61, rfl⟩
abbrev cc5_stg0_0 : Ref sig .tc := ⟨.vmem, 62, rfl⟩
abbrev cc5_stg0_1 : Ref sig .tc := ⟨.vmem, 63, rfl⟩
abbrev cc5_stg1_0 : Ref sig .tc := ⟨.vmem, 64, rfl⟩
abbrev cc5_stg1_1 : Ref sig .tc := ⟨.vmem, 65, rfl⟩
abbrev cc5_stg2_0 : Ref sig .tc := ⟨.vmem, 66, rfl⟩
abbrev cc5_stg3_0 : Ref sig .tc := ⟨.vmem, 67, rfl⟩
abbrev cc5_stg4_0 : Ref sig .tc := ⟨.vmem, 68, rfl⟩
abbrev cc5_stg5_0 : Ref sig .tc := ⟨.vmem, 69, rfl⟩
abbrev cc5_stg6_0 : Ref sig .tc := ⟨.vmem, 70, rfl⟩
abbrev cc5_stg7_0 : Ref sig .tc := ⟨.vmem, 71, rfl⟩
abbrev cc5_stg8_0 : Ref sig .tc := ⟨.vmem, 72, rfl⟩
abbrev cc5_stg9_0 : Ref sig .tc := ⟨.vmem, 73, rfl⟩
abbrev cc5_stg10_0 : Ref sig .tc := ⟨.vmem, 74, rfl⟩
abbrev cc5_stg11_0 : Ref sig .tc := ⟨.vmem, 75, rfl⟩
abbrev cc5_stg12_0 : Ref sig .tc := ⟨.vmem, 76, rfl⟩
abbrev cc5_stg12_1 : Ref sig .tc := ⟨.vmem, 77, rfl⟩
abbrev cc6_stg0_0 : Ref sig .tc := ⟨.vmem, 78, rfl⟩
abbrev cc6_stg0_1 : Ref sig .tc := ⟨.vmem, 79, rfl⟩
abbrev cc6_stg1_0 : Ref sig .tc := ⟨.vmem, 80, rfl⟩
abbrev cc6_stg1_1 : Ref sig .tc := ⟨.vmem, 81, rfl⟩
abbrev cc6_stg2_0 : Ref sig .tc := ⟨.vmem, 82, rfl⟩
abbrev cc6_stg2_1 : Ref sig .tc := ⟨.vmem, 83, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem8_0 : DmaSem sig := 20
abbrev cc1_sem9_0 : DmaSem sig := 21
abbrev cc1_sem10_0 : DmaSem sig := 22
abbrev cc1_sem11_0 : DmaSem sig := 23
abbrev cc1_sem12_0 : DmaSem sig := 24
abbrev cc1_sem12_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem3_0 : DmaSem sig := 31
abbrev cc2_sem4_0 : DmaSem sig := 32
abbrev cc2_sem4_1 : DmaSem sig := 33
abbrev cc2_sem5_0 : DmaSem sig := 34
abbrev cc2_sem5_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem6_0 : DmaSem sig := 44
abbrev cc3_sem7_0 : DmaSem sig := 45
abbrev cc3_sem8_0 : DmaSem sig := 46
abbrev cc3_sem9_0 : DmaSem sig := 47
abbrev cc3_sem10_0 : DmaSem sig := 48
abbrev cc3_sem11_0 : DmaSem sig := 49
abbrev cc3_sem12_0 : DmaSem sig := 50
abbrev cc3_sem12_1 : DmaSem sig := 51
abbrev cc4_sem0_0 : DmaSem sig := 52
abbrev cc4_sem0_1 : DmaSem sig := 53
abbrev cc4_sem1_0 : DmaSem sig := 54
abbrev cc4_sem1_1 : DmaSem sig := 55
abbrev cc4_sem2_0 : DmaSem sig := 56
abbrev cc4_sem3_0 : DmaSem sig := 57
abbrev cc4_sem4_0 : DmaSem sig := 58
abbrev cc4_sem4_1 : DmaSem sig := 59
abbrev cc4_sem5_0 : DmaSem sig := 60
abbrev cc4_sem5_1 : DmaSem sig := 61
abbrev cc5_sem0_0 : DmaSem sig := 62
abbrev cc5_sem0_1 : DmaSem sig := 63
abbrev cc5_sem1_0 : DmaSem sig := 64
abbrev cc5_sem1_1 : DmaSem sig := 65
abbrev cc5_sem2_0 : DmaSem sig := 66
abbrev cc5_sem3_0 : DmaSem sig := 67
abbrev cc5_sem4_0 : DmaSem sig := 68
abbrev cc5_sem5_0 : DmaSem sig := 69
abbrev cc5_sem6_0 : DmaSem sig := 70
abbrev cc5_sem7_0 : DmaSem sig := 71
abbrev cc5_sem8_0 : DmaSem sig := 72
abbrev cc5_sem9_0 : DmaSem sig := 73
abbrev cc5_sem10_0 : DmaSem sig := 74
abbrev cc5_sem11_0 : DmaSem sig := 75
abbrev cc5_sem12_0 : DmaSem sig := 76
abbrev cc5_sem12_1 : DmaSem sig := 77
abbrev cc6_sem0_0 : DmaSem sig := 78
abbrev cc6_sem0_1 : DmaSem sig := 79
abbrev cc6_sem1_0 : DmaSem sig := 80
abbrev cc6_sem1_1 : DmaSem sig := 81
abbrev cc6_sem2_0 : DmaSem sig := 82
abbrev cc6_sem2_1 : DmaSem sig := 83

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x4x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S4x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S4x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S4x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S4x64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S4x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 2 → Memref sig .tc .vmem S5000x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4x5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S4x64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S4x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x4x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x4x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4x5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S4x64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S4x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S4x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S4x64 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S4x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S4x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S4x64x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S4x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 2 → Memref sig .tc .vmem S5000x64 .f32 := fun | 0 => Memref.whole cc3_stg12_0 | 1 => Memref.whole cc3_stg12_1 | ⟨_ + 2, h⟩ => absurd h (Nat.not_lt.2 (Nat.le_add_left _ _))
abbrev sem3_12 : Fin 2 → DmaSem sig := fun | 0 => cc3_sem12_0 | 1 => cc3_sem12_1 | ⟨_ + 2, h⟩ => absurd h (Nat.not_lt.2 (Nat.le_add_left _ _))
abbrev reads3_12 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc4_transform_2 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_5 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4x5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S4x64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S4x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S1x4x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S1x4x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_8 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_9 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_10 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_11 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_12 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S4x5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S4x64x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S4x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S4x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S4x64 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev stage5_8 : Fin 1 → Memref sig .tc .vmem S4x64 .f32 := fun | 0 => Memref.whole cc5_stg8_0 | ⟨_ + 1, h⟩ => absurd h (Nat.not_lt.2 (Nat.le_add_left _ _))
abbrev sem5_8 : Fin 1 → DmaSem sig := fun | 0 => cc5_sem8_0 | ⟨_ + 1, h⟩ => absurd h (Nat.not_lt.2 (Nat.le_add_left _ _))
abbrev reads5_8 : Fin grid5.rank → Bool := ![false]

abbrev stage5_9 : Fin 1 → Memref sig .tc .vmem S4x64 .f32 := fun | 0 => Memref.whole cc5_stg9_0 | ⟨_ + 1, h⟩ => absurd h (Nat.not_lt.2 (Nat.le_add_left _ _))
abbrev sem5_9 : Fin 1 → DmaSem sig := fun | 0 => cc5_sem9_0 | ⟨_ + 1, h⟩ => absurd h (Nat.not_lt.2 (Nat.le_add_left _ _))
abbrev reads5_9 : Fin grid5.rank → Bool := ![false]

abbrev stage5_10 : Fin 1 → Memref sig .tc .vmem S4x64x64 .f32 := fun | 0 => Memref.whole cc5_stg10_0 | ⟨_ + 1, h⟩ => absurd h (Nat.not_lt.2 (Nat.le_add_left _ _))
abbrev sem5_10 : Fin 1 → DmaSem sig := fun | 0 => cc5_sem10_0 | ⟨_ + 1, h⟩ => absurd h (Nat.not_lt.2 (Nat.le_add_left _ _))
abbrev reads5_10 : Fin grid5.rank → Bool := ![false]

abbrev stage5_11 : Fin 1 → Memref sig .tc .vmem S4x64 .f32 := fun | 0 => Memref.whole cc5_stg11_0 | ⟨_ + 1, h⟩ => absurd h (Nat.not_lt.2 (Nat.le_add_left _ _))
abbrev sem5_11 : Fin 1 → DmaSem sig := fun | 0 => cc5_sem11_0 | ⟨_ + 1, h⟩ => absurd h (Nat.not_lt.2 (Nat.le_add_left _ _))
abbrev reads5_11 : Fin grid5.rank → Bool := ![false]

abbrev stage5_12 : Fin 2 → Memref sig .tc .vmem S5000x64 .f32 := fun | 0 => Memref.whole cc5_stg12_0 | 1 => Memref.whole cc5_stg12_1 | ⟨_ + 2, h⟩ => absurd h (Nat.not_lt.2 (Nat.le_add_left _ _))
abbrev sem5_12 : Fin 2 → DmaSem sig := fun | 0 => cc5_sem12_0 | 1 => cc5_sem12_1 | ⟨_ + 2, h⟩ => absurd h (Nat.not_lt.2 (Nat.le_add_left _ _))
abbrev reads5_12 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S1x128x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S_S400000x64 : S_.BroadcastsInDim S400000x64 (![] : Fin 0 → Fin S400000x64.rank)
  shapeCasts_S400000x64_S4x100000x64 : S400000x64.ShapeCasts S4x100000x64
  slices_S3x4x64x64_S1x4x64x64_0_0_0_0 : S3x4x64x64.Slices ![0, 0, 0, 0] S1x4x64x64
  shapeCasts_S1x4x64x64_S4x64x64 : S1x4x64x64.ShapeCasts S4x64x64
  slices_S3x4x64_S1x4x64_0_0_0 : S3x4x64.Slices ![0, 0, 0] S1x4x64
  shapeCasts_S1x4x64_S4x64 : S1x4x64.ShapeCasts S4x64
  inb_S5000x64_S5000x64_0_0 : ∀ a, (![0, 0] : Fin 2 → Nat) a + S5000x64.size a ≤ S5000x64.size a
  h_S5000x64 : 0 < S5000x64.numel
  inb_S4x5000x64_S1x5000x64_0_0_0 : ∀ a, (![0, 0, 0] : Fin 3 → Nat) a + S1x5000x64.size a ≤ S4x5000x64.size a
  h_S1x5000x64 : 0 < S1x5000x64.numel
  shapeCasts_S1x5000x64_S5000x64 : S1x5000x64.ShapeCasts S5000x64
  bitsLt_bf16_f32 : FTy.bits .bf16 < FTy.bits .f32
  inb_S4x64x64_S1x64x64_0_0_0 : ∀ a, (![0, 0, 0] : Fin 3 → Nat) a + S1x64x64.size a ≤ S4x64x64.size a
  h_S1x64x64 : 0 < S1x64x64.numel
  shapeCasts_S1x64x64_S64x64 : S1x64x64.ShapeCasts S64x64
  inb_S4x64_S1x64_0_0 : ∀ a, (![0, 0] : Fin 2 → Nat) a + S1x64.size a ≤ S4x64.size a
  h_S1x64 : 0 < S1x64.numel
  shapeCasts_S1x64_S64 : S1x64.ShapeCasts S64
  shapeCasts_S64_S1x64 : S64.ShapeCasts S1x64
  broadcasts_S1x64_S5000x64 : S1x64.Broadcasts S5000x64
  reduces_S5000x64_S64 : S5000x64.Reduces [0] S64
  inb_S1x4x64_S1x1x64_0_0_0 : ∀ a, (![0, 0, 0] : Fin 3 → Nat) a + S1x1x64.size a ≤ S1x4x64.size a
  h_S1x1x64 : 0 < S1x1x64.numel
  shapeCasts_S1x1x64_S64 : S1x1x64.ShapeCasts S64
  shapeCasts_S64_S1x1x64 : S64.ShapeCasts S1x1x64
  inb_S4x5000x64_S1x5000x64_1_0_0 : ∀ a, (![1, 0, 0] : Fin 3 → Nat) a + S1x5000x64.size a ≤ S4x5000x64.size a
  inb_S4x64x64_S1x64x64_1_0_0 : ∀ a, (![1, 0, 0] : Fin 3 → Nat) a + S1x64x64.size a ≤ S4x64x64.size a
  inb_S4x64_S1x64_1_0 : ∀ a, (![1, 0] : Fin 2 → Nat) a + S1x64.size a ≤ S4x64.size a
  inb_S1x4x64_S1x1x64_0_1_0 : ∀ a, (![0, 1, 0] : Fin 3 → Nat) a + S1x1x64.size a ≤ S1x4x64.size a
  inb_S4x5000x64_S1x5000x64_2_0_0 : ∀ a, (![2, 0, 0] : Fin 3 → Nat) a + S1x5000x64.size a ≤ S4x5000x64.size a
  inb_S4x64x64_S1x64x64_2_0_0 : ∀ a, (![2, 0, 0] : Fin 3 → Nat) a + S1x64x64.size a ≤ S4x64x64.size a
  inb_S4x64_S1x64_2_0 : ∀ a, (![2, 0] : Fin 2 → Nat) a + S1x64.size a ≤ S4x64.size a
  inb_S1x4x64_S1x1x64_0_2_0 : ∀ a, (![0, 2, 0] : Fin 3 → Nat) a + S1x1x64.size a ≤ S1x4x64.size a
  inb_S4x5000x64_S1x5000x64_3_0_0 : ∀ a, (![3, 0, 0] : Fin 3 → Nat) a + S1x5000x64.size a ≤ S4x5000x64.size a
  inb_S4x64x64_S1x64x64_3_0_0 : ∀ a, (![3, 0, 0] : Fin 3 → Nat) a + S1x64x64.size a ≤ S4x64x64.size a
  inb_S4x64_S1x64_3_0 : ∀ a, (![3, 0] : Fin 2 → Nat) a + S1x64.size a ≤ S4x64.size a
  inb_S1x4x64_S1x1x64_0_3_0 : ∀ a, (![0, 3, 0] : Fin 3 → Nat) a + S1x1x64.size a ≤ S1x4x64.size a
  reducesTo_S20x4x64_S4x64_d0 : S20x4x64.ReducesTo [0] S4x64
  h_S_ : 0 < S_.numel
  bcast_S_S4x64 : S_.BroadcastsInDim S4x64 (![] : Fin 0 → Fin S4x64.rank)
  slices_S3x64x64_S1x64x64_0_0_0 : S3x64x64.Slices ![0, 0, 0] S1x64x64
  slices_S3x64_S1x64_0_0 : S3x64.Slices ![0, 0] S1x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S64 : S64.ShapeCasts S64
  slices_S3x4x64x64_S1x4x64x64_1_0_0_0 : S3x4x64x64.Slices ![1, 0, 0, 0] S1x4x64x64
  slices_S3x4x64_S1x4x64_1_0_0 : S3x4x64.Slices ![1, 0, 0] S1x4x64
  shapeCasts_S5000x64_S5000x64 : S5000x64.ShapeCasts S5000x64
  slices_S3x64x64_S1x64x64_1_0_0 : S3x64x64.Slices ![1, 0, 0] S1x64x64
  slices_S3x64_S1x64_1_0 : S3x64.Slices ![1, 0] S1x64
  slices_S3x4x64x64_S1x4x64x64_2_0_0_0 : S3x4x64x64.Slices ![2, 0, 0, 0] S1x4x64x64
  slices_S3x4x64_S1x4x64_2_0_0 : S3x4x64.Slices ![2, 0, 0] S1x4x64
  slices_S3x64x64_S1x64x64_2_0_0 : S3x64x64.Slices ![2, 0, 0] S1x64x64
  slices_S3x64_S1x64_2_0 : S3x64.Slices ![2, 0] S1x64
  shapeCasts_S100000_S100000x1 : S100000.ShapeCasts S100000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  iota_S5000x128_d1_w32 : S5000x128.Iotas .tc 32 [1]
  broadcasts_S5000x1_S5000x128 : S5000x1.Broadcasts S5000x128
  natLt_1_32 : 1 < 32
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  reducesTo_S20x128x64_S128x64_d0 : S20x128x64.ReducesTo [0] S128x64
  bcast_S_S128 : S_.BroadcastsInDim S128 (![] : Fin 0 → Fin S128.rank)
  bcast_S_S100000 : S_.BroadcastsInDim S100000 (![] : Fin 0 → Fin S100000.rank)
  bcast_S100000_S100000x1_0 : S100000.BroadcastsInDim S100000x1 (![0] : Fin 1 → Fin S100000x1.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  gather_S100000x64_S1200000x1_S1200000x64_1_0_n_n_0_1_164_wf : GatherDims.WF S100000x64 S1200000x1 S1200000x64 [1] [0] [] [0] [] 1 ![1, 64]
  scatter_S400000x64_S1200000x1_S1200000x64_1_0_0_1_wf : ScatterDims.WF S400000x64 S1200000x1 S1200000x64 [1] [0] [0] 1
  dot_S5000x64_S64x64_S5000x64_1_0_0_1_n_n_wf : DotDims.WF S5000x64 S64x64 S5000x64 [1] [0] [0] [1] [] []
  dot_S5000x128_S5000x64_S128x64_0_0_1_1_n_n_wf : DotDims.WF S5000x128 S5000x64 S128x64 [0] [0] [1] [1] [] []
  scatter_S128_S100000x1_S100000_n_0_0_1_wf : ScatterDims.WF S128 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x5000x64.size a ≤ S4x100000x64.size a
  hwx0_1 : ∀ i : grid0.Coords, EltTy.bits .f32 = 32 ∨ (Rect.block (s := S4x100000x64) S4x5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x64x64.size a ≤ S4x64x64.size a
  hwx0_2 : ∀ i : grid0.Coords, EltTy.bits .f32 = 32 ∨ (Rect.block (s := S4x64x64) S4x64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x4x64.size a ≤ S20x4x64.size a
  hwx0_4 : ∀ i : grid0.Coords, EltTy.bits .f32 = 32 ∨ (Rect.block (s := S20x4x64) S1x4x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x4x64.size a ≤ S20x4x64.size a
  hwx0_5 : ∀ i : grid0.Coords, EltTy.bits .f32 = 32 ∨ (Rect.block (s := S20x4x64) S1x4x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x5000x64.size a ≤ S4x100000x64.size a
  hwx1_1 : ∀ i : grid1.Coords, EltTy.bits .f32 = 32 ∨ (Rect.block (s := S4x100000x64) S4x5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4x64x64.size a ≤ S4x64x64.size a
  hwx1_4 : ∀ i : grid1.Coords, EltTy.bits .f32 = 32 ∨ (Rect.block (s := S4x64x64) S4x64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4x64.size a ≤ S4x64.size a
  hwx1_5 : ∀ i : grid1.Coords, EltTy.bits .f32 = 32 ∨ (Rect.block (s := S4x64) S4x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S4x64.size a ≤ S4x64.size a
  hwx1_6 : ∀ i : grid1.Coords, EltTy.bits .f32 = 32 ∨ (Rect.block (s := S4x64) S4x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S4x64.size a ≤ S4x64.size a
  hwx1_7 : ∀ i : grid1.Coords, EltTy.bits .f32 = 32 ∨ (Rect.block (s := S4x64) S4x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S4x64.size a ≤ S4x64.size a
  hwx1_8 : ∀ i : grid1.Coords, EltTy.bits .f32 = 32 ∨ (Rect.block (s := S4x64) S4x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S4x64.size a ≤ S4x64.size a
  hwx1_9 : ∀ i : grid1.Coords, EltTy.bits .f32 = 32 ∨ (Rect.block (s := S4x64) S4x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S4x64x64.size a ≤ S4x64x64.size a
  hwx1_10 : ∀ i : grid1.Coords, EltTy.bits .f32 = 32 ∨ (Rect.block (s := S4x64x64) S4x64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S4x64.size a ≤ S4x64.size a
  hwx1_11 : ∀ i : grid1.Coords, EltTy.bits .f32 = 32 ∨ (Rect.block (s := S4x64) S4x64.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x64.size a ≤ S100000x64.size a
  hwx1_12 : ∀ i : grid1.Coords, EltTy.bits .f32 = 32 ∨ (Rect.block (s := S100000x64) S5000x64.size (cc1_transform_12 i) (hinb1_12 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4x5000x64.size a ≤ S4x100000x64.size a
  hwx2_1 : ∀ i : grid2.Coords, EltTy.bits .f32 = 32 ∨ (Rect.block (s := S4x100000x64) S4x5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S4x64x64.size a ≤ S4x64x64.size a
  hwx2_2 : ∀ i : grid2.Coords, EltTy.bits .f32 = 32 ∨ (Rect.block (s := S4x64x64) S4x64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4x64.size a ≤ S4x64.size a
  hwx2_3 : ∀ i : grid2.Coords, EltTy.bits .f32 = 32 ∨ (Rect.block (s := S4x64) S4x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x4x64.size a ≤ S20x4x64.size a
  hwx2_4 : ∀ i : grid2.Coords, EltTy.bits .f32 = 32 ∨ (Rect.block (s := S20x4x64) S1x4x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x4x64.size a ≤ S20x4x64.size a
  hwx2_5 : ∀ i : grid2.Coords, EltTy.bits .f32 = 32 ∨ (Rect.block (s := S20x4x64) S1x4x64.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4x5000x64.size a ≤ S4x100000x64.size a
  hwx3_1 : ∀ i : grid3.Coords, EltTy.bits .f32 = 32 ∨ (Rect.block (s := S4x100000x64) S4x5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64.size a ≤ S64.size a
  hwx3_3 : ∀ i : grid3.Coords, EltTy.bits .f32 = 32 ∨ (Rect.block (s := S64) S64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S4x64x64.size a ≤ S4x64x64.size a
  hwx3_4 : ∀ i : grid3.Coords, EltTy.bits .f32 = 32 ∨ (Rect.block (s := S4x64x64) S4x64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S4x64.size a ≤ S4x64.size a
  hwx3_5 : ∀ i : grid3.Coords, EltTy.bits .f32 = 32 ∨ (Rect.block (s := S4x64) S4x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S4x64.size a ≤ S4x64.size a
  hwx3_6 : ∀ i : grid3.Coords, EltTy.bits .f32 = 32 ∨ (Rect.block (s := S4x64) S4x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S4x64.size a ≤ S4x64.size a
  hwx3_7 : ∀ i : grid3.Coords, EltTy.bits .f32 = 32 ∨ (Rect.block (s := S4x64) S4x64.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S4x64.size a ≤ S4x64.size a
  hwx3_8 : ∀ i : grid3.Coords, EltTy.bits .f32 = 32 ∨ (Rect.block (s := S4x64) S4x64.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S4x64.size a ≤ S4x64.size a
  hwx3_9 : ∀ i : grid3.Coords, EltTy.bits .f32 = 32 ∨ (Rect.block (s := S4x64) S4x64.size (cc3_transform_9 i) (hinb3_9 i)).WholeWords (EltTy.packing .f32)
  hstage3_10 : ∀ j, (stage3_10 j).IsWhole
  nbuf3_10 : grid3.bufCount reads3_10 true = 1
  hreads3_10 : ∀ i i' : grid3.Coords, (∀ a, reads3_10 a = true → i a = i' a) → cc3_transform_10 i = cc3_transform_10 i'
  hinb3_10 : ∀ (i : grid3.Coords) a, (cc3_transform_10 i a + 1) * S4x64x64.size a ≤ S4x64x64.size a
  hwx3_10 : ∀ i : grid3.Coords, EltTy.bits .f32 = 32 ∨ (Rect.block (s := S4x64x64) S4x64x64.size (cc3_transform_10 i) (hinb3_10 i)).WholeWords (EltTy.packing .f32)
  hstage3_11 : ∀ j, (stage3_11 j).IsWhole
  nbuf3_11 : grid3.bufCount reads3_11 true = 1
  hreads3_11 : ∀ i i' : grid3.Coords, (∀ a, reads3_11 a = true → i a = i' a) → cc3_transform_11 i = cc3_transform_11 i'
  hinb3_11 : ∀ (i : grid3.Coords) a, (cc3_transform_11 i a + 1) * S4x64.size a ≤ S4x64.size a
  hwx3_11 : ∀ i : grid3.Coords, EltTy.bits .f32 = 32 ∨ (Rect.block (s := S4x64) S4x64.size (cc3_transform_11 i) (hinb3_11 i)).WholeWords (EltTy.packing .f32)
  hstage3_12 : ∀ j, (stage3_12 j).IsWhole
  nbuf3_12 : grid3.bufCount reads3_12 false = 2
  hreads3_12 : ∀ i i' : grid3.Coords, (∀ a, reads3_12 a = true → i a = i' a) → cc3_transform_12 i = cc3_transform_12 i'
  hinb3_12 : ∀ (i : grid3.Coords) a, (cc3_transform_12 i a + 1) * S5000x64.size a ≤ S100000x64.size a
  hwx3_12 : ∀ i : grid3.Coords, EltTy.bits .f32 = 32 ∨ (Rect.block (s := S100000x64) S5000x64.size (cc3_transform_12 i) (hinb3_12 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4x5000x64.size a ≤ S4x100000x64.size a
  hwx4_1 : ∀ i : grid4.Coords, EltTy.bits .f32 = 32 ∨ (Rect.block (s := S4x100000x64) S4x5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S4x64x64.size a ≤ S4x64x64.size a
  hwx4_2 : ∀ i : grid4.Coords, EltTy.bits .f32 = 32 ∨ (Rect.block (s := S4x64x64) S4x64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4x64.size a ≤ S4x64.size a
  hwx4_3 : ∀ i : grid4.Coords, EltTy.bits .f32 = 32 ∨ (Rect.block (s := S4x64) S4x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S1x4x64.size a ≤ S20x4x64.size a
  hwx4_4 : ∀ i : grid4.Coords, EltTy.bits .f32 = 32 ∨ (Rect.block (s := S20x4x64) S1x4x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S1x4x64.size a ≤ S20x4x64.size a
  hwx4_5 : ∀ i : grid4.Coords, EltTy.bits .f32 = 32 ∨ (Rect.block (s := S20x4x64) S1x4x64.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S4x5000x64.size a ≤ S4x100000x64.size a
  hwx5_1 : ∀ i : grid5.Coords, EltTy.bits .f32 = 32 ∨ (Rect.block (s := S4x100000x64) S4x5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x64.size a ≤ S64x64.size a
  hwx5_2 : ∀ i : grid5.Coords, EltTy.bits .f32 = 32 ∨ (Rect.block (s := S64x64) S64x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64.size a ≤ S64.size a
  hwx5_3 : ∀ i : grid5.Coords, EltTy.bits .f32 = 32 ∨ (Rect.block (s := S64) S64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S4x64x64.size a ≤ S4x64x64.size a
  hwx5_4 : ∀ i : grid5.Coords, EltTy.bits .f32 = 32 ∨ (Rect.block (s := S4x64x64) S4x64x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S4x64.size a ≤ S4x64.size a
  hwx5_5 : ∀ i : grid5.Coords, EltTy.bits .f32 = 32 ∨ (Rect.block (s := S4x64) S4x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S4x64.size a ≤ S4x64.size a
  hwx5_6 : ∀ i : grid5.Coords, EltTy.bits .f32 = 32 ∨ (Rect.block (s := S4x64) S4x64.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S4x64.size a ≤ S4x64.size a
  hwx5_7 : ∀ i : grid5.Coords, EltTy.bits .f32 = 32 ∨ (Rect.block (s := S4x64) S4x64.size (cc5_transform_7 i) (hinb5_7 i)).WholeWords (EltTy.packing .f32)
  hstage5_8 : ∀ j, (stage5_8 j).IsWhole
  nbuf5_8 : grid5.bufCount reads5_8 true = 1
  hreads5_8 : ∀ i i' : grid5.Coords, (∀ a, reads5_8 a = true → i a = i' a) → cc5_transform_8 i = cc5_transform_8 i'
  hinb5_8 : ∀ (i : grid5.Coords) a, (cc5_transform_8 i a + 1) * S4x64.size a ≤ S4x64.size a
  hwx5_8 : ∀ i : grid5.Coords, EltTy.bits .f32 = 32 ∨ (Rect.block (s := S4x64) S4x64.size (cc5_transform_8 i) (hinb5_8 i)).WholeWords (EltTy.packing .f32)
  hstage5_9 : ∀ j, (stage5_9 j).IsWhole
  nbuf5_9 : grid5.bufCount reads5_9 true = 1
  hreads5_9 : ∀ i i' : grid5.Coords, (∀ a, reads5_9 a = true → i a = i' a) → cc5_transform_9 i = cc5_transform_9 i'
  hinb5_9 : ∀ (i : grid5.Coords) a, (cc5_transform_9 i a + 1) * S4x64.size a ≤ S4x64.size a
  hwx5_9 : ∀ i : grid5.Coords, EltTy.bits .f32 = 32 ∨ (Rect.block (s := S4x64) S4x64.size (cc5_transform_9 i) (hinb5_9 i)).WholeWords (EltTy.packing .f32)
  hstage5_10 : ∀ j, (stage5_10 j).IsWhole
  nbuf5_10 : grid5.bufCount reads5_10 true = 1
  hreads5_10 : ∀ i i' : grid5.Coords, (∀ a, reads5_10 a = true → i a = i' a) → cc5_transform_10 i = cc5_transform_10 i'
  hinb5_10 : ∀ (i : grid5.Coords) a, (cc5_transform_10 i a + 1) * S4x64x64.size a ≤ S4x64x64.size a
  hwx5_10 : ∀ i : grid5.Coords, EltTy.bits .f32 = 32 ∨ (Rect.block (s := S4x64x64) S4x64x64.size (cc5_transform_10 i) (hinb5_10 i)).WholeWords (EltTy.packing .f32)
  hstage5_11 : ∀ j, (stage5_11 j).IsWhole
  nbuf5_11 : grid5.bufCount reads5_11 true = 1
  hreads5_11 : ∀ i i' : grid5.Coords, (∀ a, reads5_11 a = true → i a = i' a) → cc5_transform_11 i = cc5_transform_11 i'
  hinb5_11 : ∀ (i : grid5.Coords) a, (cc5_transform_11 i a + 1) * S4x64.size a ≤ S4x64.size a
  hwx5_11 : ∀ i : grid5.Coords, EltTy.bits .f32 = 32 ∨ (Rect.block (s := S4x64) S4x64.size (cc5_transform_11 i) (hinb5_11 i)).WholeWords (EltTy.packing .f32)
  hstage5_12 : ∀ j, (stage5_12 j).IsWhole
  nbuf5_12 : grid5.bufCount reads5_12 false = 2
  hreads5_12 : ∀ i i' : grid5.Coords, (∀ a, reads5_12 a = true → i a = i' a) → cc5_transform_12 i = cc5_transform_12 i'
  hinb5_12 : ∀ (i : grid5.Coords) a, (cc5_transform_12 i a + 1) * S5000x64.size a ≤ S100000x64.size a
  hwx5_12 : ∀ i : grid5.Coords, EltTy.bits .f32 = 32 ∨ (Rect.block (s := S100000x64) S5000x64.size (cc5_transform_12 i) (hinb5_12 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x1.size a ≤ S100000x1.size a
  hwx6_1 : ∀ i : grid6.Coords, EltTy.bits .i32 = 32 ∨ (Rect.block (s := S100000x1) S5000x1.size (cc6_transform_1 i) (hinb6_1 i)).WholeWords (EltTy.packing .i32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1x128x64.size a ≤ S20x128x64.size a
  hwx6_2 : ∀ i : grid6.Coords, EltTy.bits .f32 = 32 ∨ (Rect.block (s := S20x128x64) S1x128x64.size (cc6_transform_2 i) (hinb6_2 i)).WholeWords (EltTy.packing .f32)

variable [Facts₀]

def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S400000x64_S1200000x1_S1200000x64_1_0_0_1 : ScatterDims S400000x64 S1200000x1 S1200000x64 where
  updateWindowDims := [1]
  insertedWindowDims := [0]
  scatterDimsToOperandDims := [0]
  indexVectorDim := 1
  wf := scatter_S400000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x128_S5000x64_S128x64_0_0_1_1_n_n : DotDims S5000x128 S5000x64 S128x64 where
  lhsContracting := [0]
  rhsContracting := [0]
  lhsNonContracting := [1]
  rhsNonContracting := [1]
  lhsBatch := []
  rhsBatch := []
  wf := dot_S5000x128_S5000x64_S128x64_0_0_1_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4x5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S4x64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v21) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22_0) S1x4x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v22_1) S1x4x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S4x5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S4x64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S4x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S4x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v32) S4x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v42) S4x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v44) S4x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v46) S4x64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v48) S4x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v49) S5000x64.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

abbrev win2_0 : Pipeline.Window sig grid2 :=
  Pipeline.Window.ofSpec (Memref.whole main_v49) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v60) S4x5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v62) S4x64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S4x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65_0) S1x4x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v65_1) S1x4x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S4x5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v77) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v79) S64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S4x64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v83) S4x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v69) S4x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v75) S4x64.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v85) S4x64.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v87) S4x64.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v89) S4x64x64.size cc3_transform_10 reads3_10 false true 1 stage3_10 sem3_10
    hrank3 hreads3_10 hinb3_10 nbuf3_10 (Memref.isWhole_whole _) hwx3_10 hstage3_10

abbrev win3_11 : Pipeline.Window sig grid3 :=
  Pipeline.Window.ofSpec (Memref.whole main_v91) S4x64.size cc3_transform_11 reads3_11 false true 1 stage3_11 sem3_11
    hrank3 hreads3_11 hinb3_11 nbuf3_11 (Memref.isWhole_whole _) hwx3_11 hstage3_11

abbrev win3_12 : Pipeline.Window sig grid3 :=
  Pipeline.Window.ofSpec (Memref.whole main_v92) S5000x64.size cc3_transform_12 reads3_12 true false 2 stage3_12 sem3_12
    hrank3 hreads3_12 hinb3_12 nbuf3_12 (Memref.isWhole_whole _) hwx3_12 hstage3_12

abbrev win3 : Fin 13 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | 11 => win3_11 | 12 => win3_12 | ⟨_ + 13, h⟩ => absurd h (Nat.not_lt.2 (Nat.le_add_left _ _))
abbrev spec3 : Fin 13 → Pipeline.WinSpec sig grid3.rank := fun w => (win3 w).toWinSpec

abbrev win4_0 : Pipeline.Window sig grid4 :=
  Pipeline.Window.ofSpec (Memref.whole main_v92) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v103) S4x5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v105) S4x64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v107) S4x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v108_0) S1x4x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v108_1) S1x4x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v92) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v103) S4x5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v120) S64x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v122) S64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v124) S4x64x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v126) S4x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v112) S4x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v118) S4x64.size cc5_transform_7 reads5_7 false true 1 stage5_7 sem5_7
    hrank5 hreads5_7 hinb5_7 nbuf5_7 (Memref.isWhole_whole _) hwx5_7 hstage5_7

abbrev win5_8 : Pipeline.Window sig grid5 :=
  Pipeline.Window.ofSpec (Memref.whole main_v128) S4x64.size cc5_transform_8 reads5_8 false true 1 stage5_8 sem5_8
    hrank5 hreads5_8 hinb5_8 nbuf5_8 (Memref.isWhole_whole _) hwx5_8 hstage5_8

abbrev win5_9 : Pipeline.Window sig grid5 :=
  Pipeline.Window.ofSpec (Memref.whole main_v130) S4x64.size cc5_transform_9 reads5_9 false true 1 stage5_9 sem5_9
    hrank5 hreads5_9 hinb5_9 nbuf5_9 (Memref.isWhole_whole _) hwx5_9 hstage5_9

abbrev win5_10 : Pipeline.Window sig grid5 :=
  Pipeline.Window.ofSpec (Memref.whole main_v132) S4x64x64.size cc5_transform_10 reads5_10 false true 1 stage5_10 sem5_10
    hrank5 hreads5_10 hinb5_10 nbuf5_10 (Memref.isWhole_whole _) hwx5_10 hstage5_10

abbrev win5_11 : Pipeline.Window sig grid5 :=
  Pipeline.Window.ofSpec (Memref.whole main_v134) S4x64.size cc5_transform_11 reads5_11 false true 1 stage5_11 sem5_11
    hrank5 hreads5_11 hinb5_11 nbuf5_11 (Memref.isWhole_whole _) hwx5_11 hstage5_11

abbrev win5_12 : Pipeline.Window sig grid5 :=
  Pipeline.Window.ofSpec (Memref.whole main_v135) S5000x64.size cc5_transform_12 reads5_12 true false 2 stage5_12 sem5_12
    hrank5 hreads5_12 hinb5_12 nbuf5_12 (Memref.isWhole_whole _) hwx5_12 hstage5_12

abbrev win5 : Fin 13 → Pipeline.Window sig grid5 := fun | 0 => win5_0 | 1 => win5_1 | 2 => win5_2 | 3 => win5_3 | 4 => win5_4 | 5 => win5_5 | 6 => win5_6 | 7 => win5_7 | 8 => win5_8 | 9 => win5_9 | 10 => win5_10 | 11 => win5_11 | 12 => win5_12 | ⟨_ + 13, h⟩ => absurd h (Nat.not_lt.2 (Nat.le_add_left _ _))
abbrev spec5 : Fin 13 → Pipeline.WinSpec sig grid5.rank := fun w => (win5 w).toWinSpec

abbrev win6_0 : Pipeline.Window sig grid6 :=
  Pipeline.Window.ofSpec (Memref.whole main_v135) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v136) S5000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v137) S1x128x64.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

class Facts : Prop extends Facts₀ where

variable [Facts]
-- ==== ReferenceIdeal.lean ====
abbrev S100000x64 : Shape := ⟨2, ![100000, 64]⟩
abbrev S2x1200000 : Shape := ⟨2, ![2, 1200000]⟩
abbrev S1200000 : Shape := ⟨1, ![1200000]⟩
abbrev S100000 : Shape := ⟨1, ![100000]⟩
abbrev S3x64x64 : Shape := ⟨3, ![3, 64, 64]⟩
abbrev S3x64 : Shape := ⟨2, ![3, 64]⟩
abbrev S3x4x64x64 : Shape := ⟨4, ![3, 4, 64, 64]⟩
abbrev S3x4x64 : Shape := ⟨3, ![3, 4, 64]⟩
abbrev S1x1200000 : Shape := ⟨2, ![1, 1200000]⟩
abbrev S1x64x64 : Shape := ⟨3, ![1, 64, 64]⟩
abbrev S64x64 : Shape := ⟨2, ![64, 64]⟩
abbrev S1x64 : Shape := ⟨2, ![1, 64]⟩
abbrev S64 : Shape := ⟨1, ![64]⟩
abbrev S_ : Shape := ⟨0, ![]⟩
abbrev S1200000x1 : Shape := ⟨2, ![1200000, 1]⟩
abbrev S1200000x64 : Shape := ⟨2, ![1200000, 64]⟩
abbrev S1x1x64x64 : Shape := ⟨4, ![1, 1, 64, 64]⟩
abbrev S1x1x64 : Shape := ⟨3, ![1, 1, 64]⟩
abbrev S128x64 : Shape := ⟨2, ![128, 64]⟩
abbrev S100000x1 : Shape := ⟨2, ![100000, 1]⟩
abbrev S128 : Shape := ⟨1, ![128]⟩
abbrev S128x1 : Shape := ⟨2, ![128, 1]⟩

abbrev nBuf : Space → Nat
  | .hbm => 869
  | .vmem => 0
  | .smem => 0
  | _ => 0

abbrev hbmTy0_0 (i : Nat) : BufTy := match i % 128 with
  | 0 => ⟨S100000x64, .f32⟩
  | 1 => ⟨S2x1200000, .i32⟩
  | 2 => ⟨S1200000, .i32⟩
  | 3 => ⟨S100000, .i32⟩
  | 4 => ⟨S3x64x64, .f32⟩
  | 5 => ⟨S3x64, .f32⟩
  | 6 => ⟨S3x4x64x64, .f32⟩
  | 7 => ⟨S3x4x64, .f32⟩
  | 8 => ⟨S3x4x64, .f32⟩
  | 9 => ⟨S3x4x64, .f32⟩
  | 10 => ⟨S3x4x64x64, .f32⟩
  | 11 => ⟨S3x4x64, .f32⟩
  | 12 => ⟨S1x1200000, .i32⟩
  | 13 => ⟨S1200000, .i32⟩
  | 14 => ⟨S1x1200000, .i32⟩
  | 15 => ⟨S1200000, .i32⟩
  | 16 => ⟨S1x64x64, .f32⟩
  | 17 => ⟨S64x64, .f32⟩
  | 18 => ⟨S100000x64, .f32⟩
  | 19 => ⟨S1x64, .f32⟩
  | 20 => ⟨S64, .f32⟩
  | 21 => ⟨S1x64, .f32⟩
  | 22 => ⟨S100000x64, .f32⟩
  | 23 => ⟨S100000x64, .f32⟩
  | 24 => ⟨S_, .i32⟩
  | 25 => ⟨S1200000, .i32⟩
  | 26 => ⟨S1200000, .i1⟩
  | 27 => ⟨S_, .i32⟩
  | 28 => ⟨S1200000, .i32⟩
  | 29 => ⟨S1200000, .i32⟩
  | 30 => ⟨S1200000, .i32⟩
  | 31 => ⟨S1200000x1, .i32⟩
  | 32 => ⟨S1200000x64, .f32⟩
  | 33 => ⟨S_, .i32⟩
  | 34 => ⟨S1200000, .i32⟩
  | 35 => ⟨S1200000, .i1⟩
  | 36 => ⟨S1200000, .f32⟩
  | 37 => ⟨S1200000x1, .f32⟩
  | 38 => ⟨S1200000x64, .f32⟩
  | 39 => ⟨S1200000x64, .f32⟩
  | 40 => ⟨S_, .f32⟩
  | 41 => ⟨S100000x64, .f32⟩
  | 42 => ⟨S1200000x1, .i32⟩
  | 43 => ⟨S100000x64, .f32⟩
  | 44 => ⟨S100000x64, .f32⟩
  | 45 => ⟨S1x1x64x64, .f32⟩
  | 46 => ⟨S64x64, .f32⟩
  | 47 => ⟨S100000x64, .f32⟩
  | 48 => ⟨S1x1x64, .f32⟩
  | 49 => ⟨S64, .f32⟩
  | 50 => ⟨S1x64, .f32⟩
  | 51 => ⟨S100000x64, .f32⟩
  | 52 => ⟨S100000x64, .f32⟩
  | 53 => ⟨S1x1x64, .f32⟩
  | 54 => ⟨S64, .f32⟩
  | 55 => ⟨S1x1x64, .f32⟩
  | 56 => ⟨S64, .f32⟩
  | 57 => ⟨S_, .f32⟩
  | 58 => ⟨S64, .f32⟩
  | 59 => ⟨S1x64, .f32⟩
  | 60 => ⟨S_, .f32⟩
  | 61 => ⟨S1x64, .f32⟩
  | 62 => ⟨S1x64, .f32⟩
  | 63 => ⟨S100000x64, .f32⟩
  | 64 => ⟨S100000x64, .f32⟩
  | 65 => ⟨S100000x64, .f32⟩
  | 66 => ⟨S_, .f32⟩
  | 67 => ⟨S64, .f32⟩
  | 68 => ⟨S1x64, .f32⟩
  | 69 => ⟨S_, .f32⟩
  | 70 => ⟨S1x64, .f32⟩
  | 71 => ⟨S1x64, .f32⟩
  | 72 => ⟨S100000x64, .f32⟩
  | 73 => ⟨S100000x64, .f32⟩
  | 74 => ⟨S_, .f32⟩
  | 75 => ⟨S1x64, .f32⟩
  | 76 => ⟨S1x64, .f32⟩
  | 77 => ⟨S1x64, .f32⟩
  | 78 => ⟨S100000x64, .f32⟩
  | 79 => ⟨S100000x64, .f32⟩
  | 80 => ⟨S1x64, .f32⟩
  | 81 => ⟨S100000x64, .f32⟩
  | 82 => ⟨S100000x64, .f32⟩
  | 83 => ⟨S1x64, .f32⟩
  | 84 => ⟨S100000x64, .f32⟩
  | 85 => ⟨S100000x64, .f32⟩
  | 86 => ⟨S_, .f32⟩
  | 87 => ⟨S100000x64, .f32⟩
  | 88 => ⟨S100000x64, .f32⟩
  | 89 => ⟨S1x1x64x64, .f32⟩
  | 90 => ⟨S64x64, .f32⟩
  | 91 => ⟨S100000x64, .f32⟩
  | 92 => ⟨S100000x64, .f32⟩
  | 93 => ⟨S1x1x64, .f32⟩
  | 94 => ⟨S64, .f32⟩
  | 95 => ⟨S1x64, .f32⟩
  | 96 => ⟨S100000x64, .f32⟩
  | 97 => ⟨S100000x64, .f32⟩
  | 98 => ⟨S_, .i32⟩
  | 99 => ⟨S1200000, .i32⟩
  | 100 => ⟨S1200000, .i1⟩
  | 101 => ⟨S1200000, .f32⟩
  | 102 => ⟨S1200000x1, .f32⟩
  | 103 => ⟨S1200000x64, .f32⟩
  | 104 => ⟨S1200000x64, .f32⟩
  | 105 => ⟨S_, .f32⟩
  | 106 => ⟨S100000x64, .f32⟩
  | 107 => ⟨S1200000x1, .i32⟩
  | 108 => ⟨S100000x64, .f32⟩
  | 109 => ⟨S100000x64, .f32⟩
  | 110 => ⟨S1x1x64x64, .f32⟩
  | 111 => ⟨S64x64, .f32⟩
  | 112 => ⟨S100000x64, .f32⟩
  | 113 => ⟨S1x1x64, .f32⟩
  | 114 => ⟨S64, .f32⟩
  | 115 => ⟨S1x64, .f32⟩
  | 116 => ⟨S100000x64, .f32⟩
  | 117 => ⟨S100000x64, .f32⟩
  | 118 => ⟨S1x1x64, .f32⟩
  | 119 => ⟨S64, .f32⟩
  | 120 => ⟨S1x1x64, .f32⟩
  | 121 => ⟨S64, .f32⟩
  | 122 => ⟨S_, .f32⟩
  | 123 => ⟨S64, .f32⟩
  | 124 => ⟨S1x64, .f32⟩
  | 125 => ⟨S_, .f32⟩
  | 126 => ⟨S1x64, .f32⟩
  | 127 => ⟨S1x64, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S64, .f32⟩
  | 5 => ⟨S1x64, .f32⟩
  | 6 => ⟨S_, .f32⟩
  | 7 => ⟨S1x64, .f32⟩
  | 8 => ⟨S1x64, .f32⟩
  | 9 => ⟨S100000x64, .f32⟩
  | 10 => ⟨S100000x64, .f32⟩
  | 11 => ⟨S_, .f32⟩
  | 12 => ⟨S1x64, .f32⟩
  | 13 => ⟨S1x64, .f32⟩
  | 14 => ⟨S1x64, .f32⟩
  | 15 => ⟨S100000x64, .f32⟩
  | 16 => ⟨S100000x64, .f32⟩
  | 17 => ⟨S1x64, .f32⟩
  | 18 => ⟨S100000x64, .f32⟩
  | 19 => ⟨S100000x64, .f32⟩
  | 20 => ⟨S1x64, .f32⟩
  | 21 => ⟨S100000x64, .f32⟩
  | 22 => ⟨S100000x64, .f32⟩
  | 23 => ⟨S_, .f32⟩
  | 24 => ⟨S100000x64, .f32⟩
  | 25 => ⟨S100000x64, .f32⟩
  | 26 => ⟨S1x1x64x64, .f32⟩
  | 27 => ⟨S64x64, .f32⟩
  | 28 => ⟨S100000x64, .f32⟩
  | 29 => ⟨S100000x64, .f32⟩
  | 30 => ⟨S1x1x64, .f32⟩
  | 31 => ⟨S64, .f32⟩
  | 32 => ⟨S1x64, .f32⟩
  | 33 => ⟨S100000x64, .f32⟩
  | 34 => ⟨S100000x64, .f32⟩
  | 35 => ⟨S_, .i32⟩
  | 36 => ⟨S1200000, .i32⟩
  | 37 => ⟨S1200000, .i1⟩
  | 38 => ⟨S1200000, .f32⟩
  | 39 => ⟨S1200000x1, .f32⟩
  | 40 => ⟨S1200000x64, .f32⟩
  | 41 => ⟨S1200000x64, .f32⟩
  | 42 => ⟨S_, .f32⟩
  | 43 => ⟨S100000x64, .f32⟩
  | 44 => ⟨S1200000x1, .i32⟩
  | 45 => ⟨S100000x64, .f32⟩
  | 46 => ⟨S100000x64, .f32⟩
  | 47 => ⟨S1x1x64x64, .f32⟩
  | 48 => ⟨S64x64, .f32⟩
  | 49 => ⟨S100000x64, .f32⟩
  | 50 => ⟨S1x1x64, .f32⟩
  | 51 => ⟨S64, .f32⟩
  | 52 => ⟨S1x64, .f32⟩
  | 53 => ⟨S100000x64, .f32⟩
  | 54 => ⟨S100000x64, .f32⟩
  | 55 => ⟨S1x1x64, .f32⟩
  | 56 => ⟨S64, .f32⟩
  | 57 => ⟨S1x1x64, .f32⟩
  | 58 => ⟨S64, .f32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S100000x64, .f32⟩
  | 66 => ⟨S100000x64, .f32⟩
  | 67 => ⟨S100000x64, .f32⟩
  | 68 => ⟨S_, .f32⟩
  | 69 => ⟨S64, .f32⟩
  | 70 => ⟨S1x64, .f32⟩
  | 71 => ⟨S_, .f32⟩
  | 72 => ⟨S1x64, .f32⟩
  | 73 => ⟨S1x64, .f32⟩
  | 74 => ⟨S100000x64, .f32⟩
  | 75 => ⟨S100000x64, .f32⟩
  | 76 => ⟨S_, .f32⟩
  | 77 => ⟨S1x64, .f32⟩
  | 78 => ⟨S1x64, .f32⟩
  | 79 => ⟨S1x64, .f32⟩
  | 80 => ⟨S100000x64, .f32⟩
  | 81 => ⟨S100000x64, .f32⟩
  | 82 => ⟨S1x64, .f32⟩
  | 83 => ⟨S100000x64, .f32⟩
  | 84 => ⟨S100000x64, .f32⟩
  | 85 => ⟨S1x64, .f32⟩
  | 86 => ⟨S100000x64, .f32⟩
  | 87 => ⟨S100000x64, .f32⟩
  | 88 => ⟨S_, .f32⟩
  | 89 => ⟨S100000x64, .f32⟩
  | 90 => ⟨S100000x64, .f32⟩
  | 91 => ⟨S1x1x64x64, .f32⟩
  | 92 => ⟨S64x64, .f32⟩
  | 93 => ⟨S100000x64, .f32⟩
  | 94 => ⟨S100000x64, .f32⟩
  | 95 => ⟨S1x1x64, .f32⟩
  | 96 => ⟨S64, .f32⟩
  | 97 => ⟨S1x64, .f32⟩
  | 98 => ⟨S100000x64, .f32⟩
  | 99 => ⟨S100000x64, .f32⟩
  | 100 => ⟨S_, .i32⟩
  | 101 => ⟨S1200000, .i32⟩
  | 102 => ⟨S1200000, .i1⟩
  | 103 => ⟨S1200000, .f32⟩
  | 104 => ⟨S1200000x1, .f32⟩
  | 105 => ⟨S1200000x64, .f32⟩
  | 106 => ⟨S1200000x64, .f32⟩
  | 107 => ⟨S_, .f32⟩
  | 108 => ⟨S100000x64, .f32⟩
  | 109 => ⟨S1200000x1, .i32⟩
  | 110 => ⟨S100000x64, .f32⟩
  | 111 => ⟨S100000x64, .f32⟩
  | 112 => ⟨S1x1x64x64, .f32⟩
  | 113 => ⟨S64x64, .f32⟩
  | 114 => ⟨S100000x64, .f32⟩
  | 115 => ⟨S1x1x64, .f32⟩
  | 116 => ⟨S64, .f32⟩
  | 117 => ⟨S1x64, .f32⟩
  | 118 => ⟨S100000x64, .f32⟩
  | 119 => ⟨S100000x64, .f32⟩
  | 120 => ⟨S1x1x64, .f32⟩
  | 121 => ⟨S64, .f32⟩
  | 122 => ⟨S1x1x64, .f32⟩
  | 123 => ⟨S64, .f32⟩
  | 124 => ⟨S_, .f32⟩
  | 125 => ⟨S64, .f32⟩
  | 126 => ⟨S1x64, .f32⟩
  | 127 => ⟨S_, .f32⟩
  | _ => ⟨S100000x64, .f32⟩

abbrev hbmTy0_2 (i : Nat) : BufTy := match i % 128 with
  | 0 => ⟨S1x64, .f32⟩
  | 1 => ⟨S1x64, .f32⟩
  | 2 => ⟨S100000x64, .f32⟩
  | 3 => ⟨S100000x64, .f32⟩
  | 4 => ⟨S100000x64, .f32⟩
  | 5 => ⟨S_, .f32⟩
  | 6 => ⟨S64, .f32⟩
  | 7 => ⟨S1x64, .f32⟩
  | 8 => ⟨S_, .f32⟩
  | 9 => ⟨S1x64, .f32⟩
  | 10 => ⟨S1x64, .f32⟩
  | 11 => ⟨S100000x64, .f32⟩
  | 12 => ⟨S100000x64, .f32⟩
  | 13 => ⟨S_, .f32⟩
  | 14 => ⟨S1x64, .f32⟩
  | 15 => ⟨S1x64, .f32⟩
  | 16 => ⟨S1x64, .f32⟩
  | 17 => ⟨S100000x64, .f32⟩
  | 18 => ⟨S100000x64, .f32⟩
  | 19 => ⟨S1x64, .f32⟩
  | 20 => ⟨S100000x64, .f32⟩
  | 21 => ⟨S100000x64, .f32⟩
  | 22 => ⟨S1x64, .f32⟩
  | 23 => ⟨S100000x64, .f32⟩
  | 24 => ⟨S100000x64, .f32⟩
  | 25 => ⟨S_, .f32⟩
  | 26 => ⟨S100000x64, .f32⟩
  | 27 => ⟨S100000x64, .f32⟩
  | 28 => ⟨S1x1x64x64, .f32⟩
  | 29 => ⟨S64x64, .f32⟩
  | 30 => ⟨S100000x64, .f32⟩
  | 31 => ⟨S100000x64, .f32⟩
  | 32 => ⟨S1x1x64, .f32⟩
  | 33 => ⟨S64, .f32⟩
  | 34 => ⟨S1x64, .f32⟩
  | 35 => ⟨S100000x64, .f32⟩
  | 36 => ⟨S100000x64, .f32⟩
  | 37 => ⟨S_, .f32⟩
  | 38 => ⟨S100000x64, .f32⟩
  | 39 => ⟨S100000x64, .f32⟩
  | 40 => ⟨S1x64x64, .f32⟩
  | 41 => ⟨S64x64, .f32⟩
  | 42 => ⟨S100000x64, .f32⟩
  | 43 => ⟨S1x64, .f32⟩
  | 44 => ⟨S64, .f32⟩
  | 45 => ⟨S1x64, .f32⟩
  | 46 => ⟨S100000x64, .f32⟩
  | 47 => ⟨S100000x64, .f32⟩
  | 48 => ⟨S_, .i32⟩
  | 49 => ⟨S1200000, .i32⟩
  | 50 => ⟨S1200000, .i1⟩
  | 51 => ⟨S_, .i32⟩
  | 52 => ⟨S1200000, .i32⟩
  | 53 => ⟨S1200000, .i32⟩
  | 54 => ⟨S1200000, .i32⟩
  | 55 => ⟨S1200000x1, .i32⟩
  | 56 => ⟨S1200000x64, .f32⟩
  | 57 => ⟨S_, .i32⟩
  | 58 => ⟨S1200000, .i32⟩
  | 59 => ⟨S1200000, .i1⟩
  | 60 => ⟨S1200000, .f32⟩
  | 61 => ⟨S1200000x1, .f32⟩
  | 62 => ⟨S1200000x64, .f32⟩
  | 63 => ⟨S1200000x64, .f32⟩
  | 64 => ⟨S_, .f32⟩
  | 65 => ⟨S100000x64, .f32⟩
  | 66 => ⟨S1200000x1, .i32⟩
  | 67 => ⟨S100000x64, .f32⟩
  | 68 => ⟨S100000x64, .f32⟩
  | 69 => ⟨S1x1x64x64, .f32⟩
  | 70 => ⟨S64x64, .f32⟩
  | 71 => ⟨S100000x64, .f32⟩
  | 72 => ⟨S1x1x64, .f32⟩
  | 73 => ⟨S64, .f32⟩
  | 74 => ⟨S1x64, .f32⟩
  | 75 => ⟨S100000x64, .f32⟩
  | 76 => ⟨S100000x64, .f32⟩
  | 77 => ⟨S1x1x64, .f32⟩
  | 78 => ⟨S64, .f32⟩
  | 79 => ⟨S1x1x64, .f32⟩
  | 80 => ⟨S64, .f32⟩
  | 81 => ⟨S_, .f32⟩
  | 82 => ⟨S64, .f32⟩
  | 83 => ⟨S1x64, .f32⟩
  | 84 => ⟨S_, .f32⟩
  | 85 => ⟨S1x64, .f32⟩
  | 86 => ⟨S1x64, .f32⟩
  | 87 => ⟨S100000x64, .f32⟩
  | 88 => ⟨S100000x64, .f32⟩
  | 89 => ⟨S100000x64, .f32⟩
  | 90 => ⟨S_, .f32⟩
  | 91 => ⟨S64, .f32⟩
  | 92 => ⟨S1x64, .f32⟩
  | 93 => ⟨S_, .f32⟩
  | 94 => ⟨S1x64, .f32⟩
  | 95 => ⟨S1x64, .f32⟩
  | 96 => ⟨S100000x64, .f32⟩
  | 97 => ⟨S100000x64, .f32⟩
  | 98 => ⟨S_, .f32⟩
  | 99 => ⟨S1x64, .f32⟩
  | 100 => ⟨S1x64, .f32⟩
  | 101 => ⟨S1x64, .f32⟩
  | 102 => ⟨S100000x64, .f32⟩
  | 103 => ⟨S100000x64, .f32⟩
  | 104 => ⟨S1x64, .f32⟩
  | 105 => ⟨S100000x64, .f32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S1x1x64x64, .f32⟩
  | 114 => ⟨S64x64, .f32⟩
  | 115 => ⟨S100000x64, .f32⟩
  | 116 => ⟨S100000x64, .f32⟩
  | 117 => ⟨S1x1x64, .f32⟩
  | 118 => ⟨S64, .f32⟩
  | 119 => ⟨S1x64, .f32⟩
  | 120 => ⟨S100000x64, .f32⟩
  | 121 => ⟨S100000x64, .f32⟩
  | 122 => ⟨S_, .i32⟩
  | 123 => ⟨S1200000, .i32⟩
  | 124 => ⟨S1200000, .i1⟩
  | 125 => ⟨S1200000, .f32⟩
  | 126 => ⟨S1200000x1, .f32⟩
  | 127 => ⟨S1200000x64, .f32⟩
  | _ => ⟨S100000x64, .f32⟩

abbrev hbmTy0_3 (i : Nat) : BufTy := match i % 128 with
  | 0 => ⟨S1200000x64, .f32⟩
  | 1 => ⟨S_, .f32⟩
  | 2 => ⟨S100000x64, .f32⟩
  | 3 => ⟨S1200000x1, .i32⟩
  | 4 => ⟨S100000x64, .f32⟩
  | 5 => ⟨S100000x64, .f32⟩
  | 6 => ⟨S1x1x64x64, .f32⟩
  | 7 => ⟨S64x64, .f32⟩
  | 8 => ⟨S100000x64, .f32⟩
  | 9 => ⟨S1x1x64, .f32⟩
  | 10 => ⟨S64, .f32⟩
  | 11 => ⟨S1x64, .f32⟩
  | 12 => ⟨S100000x64, .f32⟩
  | 13 => ⟨S100000x64, .f32⟩
  | 14 => ⟨S1x1x64, .f32⟩
  | 15 => ⟨S64, .f32⟩
  | 16 => ⟨S1x1x64, .f32⟩
  | 17 => ⟨S64, .f32⟩
  | 18 => ⟨S_, .f32⟩
  | 19 => ⟨S64, .f32⟩
  | 20 => ⟨S1x64, .f32⟩
  | 21 => ⟨S_, .f32⟩
  | 22 => ⟨S1x64, .f32⟩
  | 23 => ⟨S1x64, .f32⟩
  | 24 => ⟨S100000x64, .f32⟩
  | 25 => ⟨S100000x64, .f32⟩
  | 26 => ⟨S100000x64, .f32⟩
  | 27 => ⟨S_, .f32⟩
  | 28 => ⟨S64, .f32⟩
  | 29 => ⟨S1x64, .f32⟩
  | 30 => ⟨S_, .f32⟩
  | 31 => ⟨S1x64, .f32⟩
  | 32 => ⟨S1x64, .f32⟩
  | 33 => ⟨S100000x64, .f32⟩
  | 34 => ⟨S100000x64, .f32⟩
  | 35 => ⟨S_, .f32⟩
  | 36 => ⟨S1x64, .f32⟩
  | 37 => ⟨S1x64, .f32⟩
  | 38 => ⟨S1x64, .f32⟩
  | 39 => ⟨S100000x64, .f32⟩
  | 40 => ⟨S100000x64, .f32⟩
  | 41 => ⟨S1x64, .f32⟩
  | 42 => ⟨S100000x64, .f32⟩
  | 43 => ⟨S100000x64, .f32⟩
  | 44 => ⟨S1x64, .f32⟩
  | 45 => ⟨S100000x64, .f32⟩
  | 46 => ⟨S100000x64, .f32⟩
  | 47 => ⟨S_, .f32⟩
  | 48 => ⟨S100000x64, .f32⟩
  | 49 => ⟨S100000x64, .f32⟩
  | 50 => ⟨S1x1x64x64, .f32⟩
  | 51 => ⟨S64x64, .f32⟩
  | 52 => ⟨S100000x64, .f32⟩
  | 53 => ⟨S100000x64, .f32⟩
  | 54 => ⟨S1x1x64, .f32⟩
  | 55 => ⟨S64, .f32⟩
  | 56 => ⟨S1x64, .f32⟩
  | 57 => ⟨S100000x64, .f32⟩
  | 58 => ⟨S100000x64, .f32⟩
  | 59 => ⟨S_, .i32⟩
  | 60 => ⟨S1200000, .i32⟩
  | 61 => ⟨S1200000, .i1⟩
  | 62 => ⟨S1200000, .f32⟩
  | 63 => ⟨S1200000x1, .f32⟩
  | 64 => ⟨S1200000x64, .f32⟩
  | 65 => ⟨S1200000x64, .f32⟩
  | 66 => ⟨S_, .f32⟩
  | 67 => ⟨S100000x64, .f32⟩
  | 68 => ⟨S1200000x1, .i32⟩
  | 69 => ⟨S100000x64, .f32⟩
  | 70 => ⟨S100000x64, .f32⟩
  | 71 => ⟨S1x1x64x64, .f32⟩
  | 72 => ⟨S64x64, .f32⟩
  | 73 => ⟨S100000x64, .f32⟩
  | 74 => ⟨S1x1x64, .f32⟩
  | 75 => ⟨S64, .f32⟩
  | 76 => ⟨S1x64, .f32⟩
  | 77 => ⟨S100000x64, .f32⟩
  | 78 => ⟨S100000x64, .f32⟩
  | 79 => ⟨S1x1x64, .f32⟩
  | 80 => ⟨S64, .f32⟩
  | 81 => ⟨S1x1x64, .f32⟩
  | 82 => ⟨S64, .f32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S100000x64, .f32⟩
  | 90 => ⟨S100000x64, .f32⟩
  | 91 => ⟨S100000x64, .f32⟩
  | 92 => ⟨S_, .f32⟩
  | 93 => ⟨S64, .f32⟩
  | 94 => ⟨S1x64, .f32⟩
  | 95 => ⟨S_, .f32⟩
  | 96 => ⟨S1x64, .f32⟩
  | 97 => ⟨S1x64, .f32⟩
  | 98 => ⟨S100000x64, .f32⟩
  | 99 => ⟨S100000x64, .f32⟩
  | 100 => ⟨S_, .f32⟩
  | 101 => ⟨S1x64, .f32⟩
  | 102 => ⟨S1x64, .f32⟩
  | 103 => ⟨S1x64, .f32⟩
  | 104 => ⟨S100000x64, .f32⟩
  | 105 => ⟨S100000x64, .f32⟩
  | 106 => ⟨S1x64, .f32⟩
  | 107 => ⟨S100000x64, .f32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S1x1x64x64, .f32⟩
  | 116 => ⟨S64x64, .f32⟩
  | 117 => ⟨S100000x64, .f32⟩
  | 118 => ⟨S100000x64, .f32⟩
  | 119 => ⟨S1x1x64, .f32⟩
  | 120 => ⟨S64, .f32⟩
  | 121 => ⟨S1x64, .f32⟩
  | 122 => ⟨S100000x64, .f32⟩
  | 123 => ⟨S100000x64, .f32⟩
  | 124 => ⟨S_, .i32⟩
  | 125 => ⟨S1200000, .i32⟩
  | 126 => ⟨S1200000, .i1⟩
  | 127 => ⟨S1200000, .f32⟩
  | _ => ⟨S100000x64, .f32⟩

abbrev hbmTy0_4 (i : Nat) : BufTy := match i % 128 with
  | 0 => ⟨S1200000x1, .f32⟩
  | 1 => ⟨S1200000x64, .f32⟩
  | 2 => ⟨S1200000x64, .f32⟩
  | 3 => ⟨S_, .f32⟩
  | 4 => ⟨S100000x64, .f32⟩
  | 5 => ⟨S1200000x1, .i32⟩
  | 6 => ⟨S100000x64, .f32⟩
  | 7 => ⟨S100000x64, .f32⟩
  | 8 => ⟨S1x1x64x64, .f32⟩
  | 9 => ⟨S64x64, .f32⟩
  | 10 => ⟨S100000x64, .f32⟩
  | 11 => ⟨S1x1x64, .f32⟩
  | 12 => ⟨S64, .f32⟩
  | 13 => ⟨S1x64, .f32⟩
  | 14 => ⟨S100000x64, .f32⟩
  | 15 => ⟨S100000x64, .f32⟩
  | 16 => ⟨S1x1x64, .f32⟩
  | 17 => ⟨S64, .f32⟩
  | 18 => ⟨S1x1x64, .f32⟩
  | 19 => ⟨S64, .f32⟩
  | 20 => ⟨S_, .f32⟩
  | 21 => ⟨S64, .f32⟩
  | 22 => ⟨S1x64, .f32⟩
  | 23 => ⟨S_, .f32⟩
  | 24 => ⟨S1x64, .f32⟩
  | 25 => ⟨S1x64, .f32⟩
  | 26 => ⟨S100000x64, .f32⟩
  | 27 => ⟨S100000x64, .f32⟩
  | 28 => ⟨S100000x64, .f32⟩
  | 29 => ⟨S_, .f32⟩
  | 30 => ⟨S64, .f32⟩
  | 31 => ⟨S1x64, .f32⟩
  | 32 => ⟨S_, .f32⟩
  | 33 => ⟨S1x64, .f32⟩
  | 34 => ⟨S1x64, .f32⟩
  | 35 => ⟨S100000x64, .f32⟩
  | 36 => ⟨S100000x64, .f32⟩
  | 37 => ⟨S_, .f32⟩
  | 38 => ⟨S1x64, .f32⟩
  | 39 => ⟨S1x64, .f32⟩
  | 40 => ⟨S1x64, .f32⟩
  | 41 => ⟨S100000x64, .f32⟩
  | 42 => ⟨S100000x64, .f32⟩
  | 43 => ⟨S1x64, .f32⟩
  | 44 => ⟨S100000x64, .f32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S1x1x64x64, .f32⟩
  | 53 => ⟨S64x64, .f32⟩
  | 54 => ⟨S100000x64, .f32⟩
  | 55 => ⟨S100000x64, .f32⟩
  | 56 => ⟨S1x1x64, .f32⟩
  | 57 => ⟨S64, .f32⟩
  | 58 => ⟨S1x64, .f32⟩
  | 59 => ⟨S100000x64, .f32⟩
  | 60 => ⟨S100000x64, .f32⟩
  | 61 => ⟨S_, .f32⟩
  | 62 => ⟨S100000x64, .f32⟩
  | 63 => ⟨S100000x64, .f32⟩
  | 64 => ⟨S1x64x64, .f32⟩
  | 65 => ⟨S64x64, .f32⟩
  | 66 => ⟨S100000x64, .f32⟩
  | 67 => ⟨S1x64, .f32⟩
  | 68 => ⟨S64, .f32⟩
  | 69 => ⟨S1x64, .f32⟩
  | 70 => ⟨S100000x64, .f32⟩
  | 71 => ⟨S100000x64, .f32⟩
  | 72 => ⟨S_, .i32⟩
  | 73 => ⟨S1200000, .i32⟩
  | 74 => ⟨S1200000, .i1⟩
  | 75 => ⟨S_, .i32⟩
  | 76 => ⟨S1200000, .i32⟩
  | 77 => ⟨S1200000, .i32⟩
  | 78 => ⟨S1200000, .i32⟩
  | 79 => ⟨S1200000x1, .i32⟩
  | 80 => ⟨S1200000x64, .f32⟩
  | 81 => ⟨S_, .i32⟩
  | 82 => ⟨S1200000, .i32⟩
  | 83 => ⟨S1200000, .i1⟩
  | 84 => ⟨S1200000, .f32⟩
  | 85 => ⟨S1200000x1, .f32⟩
  | 86 => ⟨S1200000x64, .f32⟩
  | 87 => ⟨S1200000x64, .f32⟩
  | 88 => ⟨S_, .f32⟩
  | 89 => ⟨S100000x64, .f32⟩
  | 90 => ⟨S1200000x1, .i32⟩
  | 91 => ⟨S100000x64, .f32⟩
  | 92 => ⟨S100000x64, .f32⟩
  | 93 => ⟨S1x1x64x64, .f32⟩
  | 94 => ⟨S64x64, .f32⟩
  | 95 => ⟨S100000x64, .f32⟩
  | 96 => ⟨S1x1x64, .f32⟩
  | 97 => ⟨S64, .f32⟩
  | 98 => ⟨S1x64, .f32⟩
  | 99 => ⟨S100000x64, .f32⟩
  | 100 => ⟨S100000x64, .f32⟩
  | 101 => ⟨S1x1x64, .f32⟩
  | 102 => ⟨S64, .f32⟩
  | 103 => ⟨S1x1x64, .f32⟩
  | 104 => ⟨S64, .f32⟩
  | 105 => ⟨S_, .f32⟩
  | 106 => ⟨S64, .f32⟩
  | 107 => ⟨S1x64, .f32⟩
  | 108 => ⟨S_, .f32⟩
  | 109 => ⟨S1x64, .f32⟩
  | 110 => ⟨S1x64, .f32⟩
  | 111 => ⟨S100000x64, .f32⟩
  | 112 => ⟨S100000x64, .f32⟩
  | 113 => ⟨S100000x64, .f32⟩
  | 114 => ⟨S_, .f32⟩
  | 115 => ⟨S64, .f32⟩
  | 116 => ⟨S1x64, .f32⟩
  | 117 => ⟨S_, .f32⟩
  | 118 => ⟨S1x64, .f32⟩
  | 119 => ⟨S1x64, .f32⟩
  | 120 => ⟨S100000x64, .f32⟩
  | 121 => ⟨S100000x64, .f32⟩
  | 122 => ⟨S_, .f32⟩
  | 123 => ⟨S1x64, .f32⟩
  | 124 => ⟨S1x64, .f32⟩
  | 125 => ⟨S1x64, .f32⟩
  | 126 => ⟨S100000x64, .f32⟩
  | 127 => ⟨S100000x64, .f32⟩
  | _ => ⟨S100000x64, .f32⟩

abbrev hbmTy0_5 (i : Nat) : BufTy := match i % 128 with
  | 0 => ⟨S1x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S_, .f32⟩
  | 7 => ⟨S100000x64, .f32⟩
  | 8 => ⟨S100000x64, .f32⟩
  | 9 => ⟨S1x1x64x64, .f32⟩
  | 10 => ⟨S64x64, .f32⟩
  | 11 => ⟨S100000x64, .f32⟩
  | 12 => ⟨S100000x64, .f32⟩
  | 13 => ⟨S1x1x64, .f32⟩
  | 14 => ⟨S64, .f32⟩
  | 15 => ⟨S1x64, .f32⟩
  | 16 => ⟨S100000x64, .f32⟩
  | 17 => ⟨S100000x64, .f32⟩
  | 18 => ⟨S_, .i32⟩
  | 19 => ⟨S1200000, .i32⟩
  | 20 => ⟨S1200000, .i1⟩
  | 21 => ⟨S1200000, .f32⟩
  | 22 => ⟨S1200000x1, .f32⟩
  | 23 => ⟨S1200000x64, .f32⟩
  | 24 => ⟨S1200000x64, .f32⟩
  | 25 => ⟨S_, .f32⟩
  | 26 => ⟨S100000x64, .f32⟩
  | 27 => ⟨S1200000x1, .i32⟩
  | 28 => ⟨S100000x64, .f32⟩
  | 29 => ⟨S100000x64, .f32⟩
  | 30 => ⟨S1x1x64x64, .f32⟩
  | 31 => ⟨S64x64, .f32⟩
  | 32 => ⟨S100000x64, .f32⟩
  | 33 => ⟨S1x1x64, .f32⟩
  | 34 => ⟨S64, .f32⟩
  | 35 => ⟨S1x64, .f32⟩
  | 36 => ⟨S100000x64, .f32⟩
  | 37 => ⟨S100000x64, .f32⟩
  | 38 => ⟨S1x1x64, .f32⟩
  | 39 => ⟨S64, .f32⟩
  | 40 => ⟨S1x1x64, .f32⟩
  | 41 => ⟨S64, .f32⟩
  | 42 => ⟨S_, .f32⟩
  | 43 => ⟨S64, .f32⟩
  | 44 => ⟨S1x64, .f32⟩
  | 45 => ⟨S_, .f32⟩
  | 46 => ⟨S1x64, .f32⟩
  | 47 => ⟨S1x64, .f32⟩
  | 48 => ⟨S100000x64, .f32⟩
  | 49 => ⟨S100000x64, .f32⟩
  | 50 => ⟨S100000x64, .f32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S100000x64, .f32⟩
  | 58 => ⟨S100000x64, .f32⟩
  | 59 => ⟨S_, .f32⟩
  | 60 => ⟨S1x64, .f32⟩
  | 61 => ⟨S1x64, .f32⟩
  | 62 => ⟨S1x64, .f32⟩
  | 63 => ⟨S100000x64, .f32⟩
  | 64 => ⟨S100000x64, .f32⟩
  | 65 => ⟨S1x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S1x1x64x64, .f32⟩
  | 75 => ⟨S64x64, .f32⟩
  | 76 => ⟨S100000x64, .f32⟩
  | 77 => ⟨S100000x64, .f32⟩
  | 78 => ⟨S1x1x64, .f32⟩
  | 79 => ⟨S64, .f32⟩
  | 80 => ⟨S1x64, .f32⟩
  | 81 => ⟨S100000x64, .f32⟩
  | 82 => ⟨S100000x64, .f32⟩
  | 83 => ⟨S_, .i32⟩
  | 84 => ⟨S1200000, .i32⟩
  | 85 => ⟨S1200000, .i1⟩
  | 86 => ⟨S1200000, .f32⟩
  | 87 => ⟨S1200000x1, .f32⟩
  | 88 => ⟨S1200000x64, .f32⟩
  | 89 => ⟨S1200000x64, .f32⟩
  | 90 => ⟨S_, .f32⟩
  | 91 => ⟨S100000x64, .f32⟩
  | 92 => ⟨S1200000x1, .i32⟩
  | 93 => ⟨S100000x64, .f32⟩
  | 94 => ⟨S100000x64, .f32⟩
  | 95 => ⟨S1x1x64x64, .f32⟩
  | 96 => ⟨S64x64, .f32⟩
  | 97 => ⟨S100000x64, .f32⟩
  | 98 => ⟨S1x1x64, .f32⟩
  | 99 => ⟨S64, .f32⟩
  | 100 => ⟨S1x64, .f32⟩
  | 101 => ⟨S100000x64, .f32⟩
  | 102 => ⟨S100000x64, .f32⟩
  | 103 => ⟨S1x1x64, .f32⟩
  | 104 => ⟨S64, .f32⟩
  | 105 => ⟨S1x1x64, .f32⟩
  | 106 => ⟨S64, .f32⟩
  | 107 => ⟨S_, .f32⟩
  | 108 => ⟨S64, .f32⟩
  | 109 => ⟨S1x64, .f32⟩
  | 110 => ⟨S_, .f32⟩
  | 111 => ⟨S1x64, .f32⟩
  | 112 => ⟨S1x64, .f32⟩
  | 113 => ⟨S100000x64, .f32⟩
  | 114 => ⟨S100000x64, .f32⟩
  | 115 => ⟨S100000x64, .f32⟩
  | 116 => ⟨S_, .f32⟩
  | 117 => ⟨S64, .f32⟩
  | 118 => ⟨S1x64, .f32⟩
  | 119 => ⟨S_, .f32⟩
  | 120 => ⟨S1x64, .f32⟩
  | 121 => ⟨S1x64, .f32⟩
  | 122 => ⟨S100000x64, .f32⟩
  | 123 => ⟨S100000x64, .f32⟩
  | 124 => ⟨S_, .f32⟩
  | 125 => ⟨S1x64, .f32⟩
  | 126 => ⟨S1x64, .f32⟩
  | 127 => ⟨S1x64, .f32⟩
  | _ => ⟨S100000x64, .f32⟩

abbrev hbmTy0_6 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S1x64, .f32⟩
  | 6 => ⟨S100000x64, .f32⟩
  | 7 => ⟨S100000x64, .f32⟩
  | 8 => ⟨S_, .f32⟩
  | 9 => ⟨S100000x64, .f32⟩
  | 10 => ⟨S100000x64, .f32⟩
  | 11 => ⟨S1x1x64x64, .f32⟩
  | 12 => ⟨S64x64, .f32⟩
  | 13 => ⟨S100000x64, .f32⟩
  | 14 => ⟨S100000x64, .f32⟩
  | 15 => ⟨S1x1x64, .f32⟩
  | 16 => ⟨S64, .f32⟩
  | 17 => ⟨S1x64, .f32⟩
  | 18 => ⟨S100000x64, .f32⟩
  | 19 => ⟨S100000x64, .f32⟩
  | 20 => ⟨S_, .i32⟩
  | 21 => ⟨S1200000, .i32⟩
  | 22 => ⟨S1200000, .i1⟩
  | 23 => ⟨S1200000, .f32⟩
  | 24 => ⟨S1200000x1, .f32⟩
  | 25 => ⟨S1200000x64, .f32⟩
  | 26 => ⟨S1200000x64, .f32⟩
  | 27 => ⟨S_, .f32⟩
  | 28 => ⟨S100000x64, .f32⟩
  | 29 => ⟨S1200000x1, .i32⟩
  | 30 => ⟨S100000x64, .f32⟩
  | 31 => ⟨S100000x64, .f32⟩
  | 32 => ⟨S1x1x64x64, .f32⟩
  | 33 => ⟨S64x64, .f32⟩
  | 34 => ⟨S100000x64, .f32⟩
  | 35 => ⟨S1x1x64, .f32⟩
  | 36 => ⟨S64, .f32⟩
  | 37 => ⟨S1x64, .f32⟩
  | 38 => ⟨S100000x64, .f32⟩
  | 39 => ⟨S100000x64, .f32⟩
  | 40 => ⟨S1x1x64, .f32⟩
  | 41 => ⟨S64, .f32⟩
  | 42 => ⟨S1x1x64, .f32⟩
  | 43 => ⟨S64, .f32⟩
  | 44 => ⟨S_, .f32⟩
  | 45 => ⟨S64, .f32⟩
  | 46 => ⟨S1x64, .f32⟩
  | 47 => ⟨S_, .f32⟩
  | 48 => ⟨S1x64, .f32⟩
  | 49 => ⟨S1x64, .f32⟩
  | 50 => ⟨S100000x64, .f32⟩
  | 51 => ⟨S100000x64, .f32⟩
  | 52 => ⟨S100000x64, .f32⟩
  | 53 => ⟨S_, .f32⟩
  | 54 => ⟨S64, .f32⟩
  | 55 => ⟨S1x64, .f32⟩
  | 56 => ⟨S_, .f32⟩
  | 57 => ⟨S1x64, .f32⟩
  | 58 => ⟨S1x64, .f32⟩
  | 59 => ⟨S100000x64, .f32⟩
  | 60 => ⟨S100000x64, .f32⟩
  | 61 => ⟨S_, .f32⟩
  | 62 => ⟨S1x64, .f32⟩
  | 63 => ⟨S1x64, .f32⟩
  | 64 => ⟨S1x64, .f32⟩
  | 65 => ⟨S100000x64, .f32⟩
  | 66 => ⟨S100000x64, .f32⟩
  | 67 => ⟨S1x64, .f32⟩
  | 68 => ⟨S100000x64, .f32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S100000x64, .f32⟩
  | 75 => ⟨S100000x64, .f32⟩
  | 76 => ⟨S1x1x64x64, .f32⟩
  | 77 => ⟨S64x64, .f32⟩
  | 78 => ⟨S100000x64, .f32⟩
  | 79 => ⟨S100000x64, .f32⟩
  | 80 => ⟨S1x1x64, .f32⟩
  | 81 => ⟨S64, .f32⟩
  | 82 => ⟨S1x64, .f32⟩
  | 83 => ⟨S100000x64, .f32⟩
  | 84 => ⟨S100000x64, .f32⟩
  | 85 => ⟨S_, .f32⟩
  | 86 => ⟨S128x64, .f32⟩
  | 87 => ⟨S100000x1, .i32⟩
  | 88 => ⟨S128x64, .f32⟩
  | 89 => ⟨S_, .f32⟩
  | 90 => ⟨S100000, .f32⟩
  | 91 => ⟨S_, .f32⟩
  | 92 => ⟨S128, .f32⟩
  | 93 => ⟨S100000x1, .i32⟩
  | 94 => ⟨S128, .f32⟩
  | 95 => ⟨S_, .f32⟩
  | 96 => ⟨S128, .f32⟩
  | 97 => ⟨S128, .f32⟩
  | 98 => ⟨S128x1, .f32⟩
  | 99 => ⟨S128x64, .f32⟩
  | 100 => ⟨S128x64, .f32⟩
  | _ => ⟨S100000x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call0_cst : Ref sig .tc := ⟨.hbm, 86, rfl⟩
abbrev main_call0_v0 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_c_7 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_cst_8 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_cst_9 : Ref sig .tc := ⟨.hbm, 122, rfl⟩
abbrev main_v97 : Ref sig .tc := ⟨.hbm, 123, rfl⟩
abbrev main_v98 : Ref sig .tc := ⟨.hbm, 124, rfl⟩
abbrev main_cst_10 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_11 : Ref sig .tc := ⟨.hbm, 131, rfl⟩
abbrev main_v104 : Ref sig .tc := ⟨.hbm, 132, rfl⟩
abbrev main_v105 : Ref sig .tc := ⟨.hbm, 133, rfl⟩
abbrev main_cst_12 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_13 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_call1_cst : Ref sig .tc := ⟨.hbm, 151, rfl⟩
abbrev main_call1_v0 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_v130 : Ref sig .tc := ⟨.hbm, 162, rfl⟩
abbrev main_c_14 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_15 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_cst_16 : Ref sig .tc := ⟨.hbm, 187, rfl⟩
abbrev main_v153 : Ref sig .tc := ⟨.hbm, 188, rfl⟩
abbrev main_v154 : Ref sig .tc := ⟨.hbm, 189, rfl⟩
abbrev main_cst_17 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_cst_18 : Ref sig .tc := ⟨.hbm, 196, rfl⟩
abbrev main_v160 : Ref sig .tc := ⟨.hbm, 197, rfl⟩
abbrev main_v161 : Ref sig .tc := ⟨.hbm, 198, rfl⟩
abbrev main_cst_19 : Ref sig .tc := ⟨.hbm, 199, rfl⟩
abbrev main_v162 : Ref sig .tc := ⟨.hbm, 200, rfl⟩
abbrev main_v163 : Ref sig .tc := ⟨.hbm, 201, rfl⟩
abbrev main_v164 : Ref sig .tc := ⟨.hbm, 202, rfl⟩
abbrev main_v165 : Ref sig .tc := ⟨.hbm, 203, rfl⟩
abbrev main_cst_20 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_v174 : Ref sig .tc := ⟨.hbm, 213, rfl⟩
abbrev main_v175 : Ref sig .tc := ⟨.hbm, 214, rfl⟩
abbrev main_v176 : Ref sig .tc := ⟨.hbm, 215, rfl⟩
abbrev main_call2_cst : Ref sig .tc := ⟨.hbm, 216, rfl⟩
abbrev main_call2_v0 : Ref sig .tc := ⟨.hbm, 217, rfl⟩
abbrev main_v177 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_c_21 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_cst_22 : Ref sig .tc := ⟨.hbm, 235, rfl⟩
abbrev main_v193 : Ref sig .tc := ⟨.hbm, 236, rfl⟩
abbrev main_v194 : Ref sig .tc := ⟨.hbm, 237, rfl⟩
abbrev main_v195 : Ref sig .tc := ⟨.hbm, 238, rfl⟩
abbrev main_v196 : Ref sig .tc := ⟨.hbm, 239, rfl⟩
abbrev main_v197 : Ref sig .tc := ⟨.hbm, 240, rfl⟩
abbrev main_v198 : Ref sig .tc := ⟨.hbm, 241, rfl⟩
abbrev main_v199 : Ref sig .tc := ⟨.hbm, 242, rfl⟩
abbrev main_v200 : Ref sig .tc := ⟨.hbm, 243, rfl⟩
abbrev main_v201 : Ref sig .tc := ⟨.hbm, 244, rfl⟩
abbrev main_v202 : Ref sig .tc := ⟨.hbm, 245, rfl⟩
abbrev main_v203 : Ref sig .tc := ⟨.hbm, 246, rfl⟩
abbrev main_v204 : Ref sig .tc := ⟨.hbm, 247, rfl⟩
abbrev main_v205 : Ref sig .tc := ⟨.hbm, 248, rfl⟩
abbrev main_v206 : Ref sig .tc := ⟨.hbm, 249, rfl⟩
abbrev main_v207 : Ref sig .tc := ⟨.hbm, 250, rfl⟩
abbrev main_v208 : Ref sig .tc := ⟨.hbm, 251, rfl⟩
abbrev main_cst_23 : Ref sig .tc := ⟨.hbm, 252, rfl⟩
abbrev main_v209 : Ref sig .tc := ⟨.hbm, 253, rfl⟩
abbrev main_v210 : Ref sig .tc := ⟨.hbm, 254, rfl⟩
abbrev main_cst_24 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_cst_25 : Ref sig .tc := ⟨.hbm, 261, rfl⟩
abbrev main_v216 : Ref sig .tc := ⟨.hbm, 262, rfl⟩
abbrev main_v217 : Ref sig .tc := ⟨.hbm, 263, rfl⟩
abbrev main_cst_26 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_cst_27 : Ref sig .tc := ⟨.hbm, 269, rfl⟩
abbrev main_v222 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_v226 : Ref sig .tc := ⟨.hbm, 274, rfl⟩
abbrev main_v227 : Ref sig .tc := ⟨.hbm, 275, rfl⟩
abbrev main_v228 : Ref sig .tc := ⟨.hbm, 276, rfl⟩
abbrev main_v229 : Ref sig .tc := ⟨.hbm, 277, rfl⟩
abbrev main_v230 : Ref sig .tc := ⟨.hbm, 278, rfl⟩
abbrev main_v231 : Ref sig .tc := ⟨.hbm, 279, rfl⟩
abbrev main_v232 : Ref sig .tc := ⟨.hbm, 280, rfl⟩
abbrev main_call3_cst : Ref sig .tc := ⟨.hbm, 281, rfl⟩
abbrev main_call3_v0 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_v240 : Ref sig .tc := ⟨.hbm, 290, rfl⟩
abbrev main_v241 : Ref sig .tc := ⟨.hbm, 291, rfl⟩
abbrev main_v242 : Ref sig .tc := ⟨.hbm, 292, rfl⟩
abbrev main_call4_cst : Ref sig .tc := ⟨.hbm, 293, rfl⟩
abbrev main_call4_v0 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_v246 : Ref sig .tc := ⟨.hbm, 298, rfl⟩
abbrev main_v247 : Ref sig .tc := ⟨.hbm, 299, rfl⟩
abbrev main_v248 : Ref sig .tc := ⟨.hbm, 300, rfl⟩
abbrev main_v249 : Ref sig .tc := ⟨.hbm, 301, rfl⟩
abbrev main_v250 : Ref sig .tc := ⟨.hbm, 302, rfl⟩
abbrev main_v251 : Ref sig .tc := ⟨.hbm, 303, rfl⟩
abbrev main_c_28 : Ref sig .tc := ⟨.hbm, 304, rfl⟩
abbrev main_v252 : Ref sig .tc := ⟨.hbm, 305, rfl⟩
abbrev main_v253 : Ref sig .tc := ⟨.hbm, 306, rfl⟩
abbrev main_c_29 : Ref sig .tc := ⟨.hbm, 307, rfl⟩
abbrev main_v254 : Ref sig .tc := ⟨.hbm, 308, rfl⟩
abbrev main_v255 : Ref sig .tc := ⟨.hbm, 309, rfl⟩
abbrev main_v256 : Ref sig .tc := ⟨.hbm, 310, rfl⟩
abbrev main_v257 : Ref sig .tc := ⟨.hbm, 311, rfl⟩
abbrev main_v258 : Ref sig .tc := ⟨.hbm, 312, rfl⟩
abbrev main_c_30 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_cst_31 : Ref sig .tc := ⟨.hbm, 320, rfl⟩
abbrev main_v265 : Ref sig .tc := ⟨.hbm, 321, rfl⟩
abbrev main_v266 : Ref sig .tc := ⟨.hbm, 322, rfl⟩
abbrev main_v267 : Ref sig .tc := ⟨.hbm, 323, rfl⟩
abbrev main_v268 : Ref sig .tc := ⟨.hbm, 324, rfl⟩
abbrev main_v269 : Ref sig .tc := ⟨.hbm, 325, rfl⟩
abbrev main_v270 : Ref sig .tc := ⟨.hbm, 326, rfl⟩
abbrev main_v271 : Ref sig .tc := ⟨.hbm, 327, rfl⟩
abbrev main_v272 : Ref sig .tc := ⟨.hbm, 328, rfl⟩
abbrev main_v273 : Ref sig .tc := ⟨.hbm, 329, rfl⟩
abbrev main_v274 : Ref sig .tc := ⟨.hbm, 330, rfl⟩
abbrev main_v275 : Ref sig .tc := ⟨.hbm, 331, rfl⟩
abbrev main_v276 : Ref sig .tc := ⟨.hbm, 332, rfl⟩
abbrev main_v277 : Ref sig .tc := ⟨.hbm, 333, rfl⟩
abbrev main_v278 : Ref sig .tc := ⟨.hbm, 334, rfl⟩
abbrev main_v279 : Ref sig .tc := ⟨.hbm, 335, rfl⟩
abbrev main_v280 : Ref sig .tc := ⟨.hbm, 336, rfl⟩
abbrev main_cst_32 : Ref sig .tc := ⟨.hbm, 337, rfl⟩
abbrev main_v281 : Ref sig .tc := ⟨.hbm, 338, rfl⟩
abbrev main_v282 : Ref sig .tc := ⟨.hbm, 339, rfl⟩
abbrev main_cst_33 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_cst_34 : Ref sig .tc := ⟨.hbm, 346, rfl⟩
abbrev main_v288 : Ref sig .tc := ⟨.hbm, 347, rfl⟩
abbrev main_v289 : Ref sig .tc := ⟨.hbm, 348, rfl⟩
abbrev main_cst_35 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_cst_36 : Ref sig .tc := ⟨.hbm, 354, rfl⟩
abbrev main_v294 : Ref sig .tc := ⟨.hbm, 355, rfl⟩
abbrev main_v295 : Ref sig .tc := ⟨.hbm, 356, rfl⟩
abbrev main_v296 : Ref sig .tc := ⟨.hbm, 357, rfl⟩
abbrev main_v297 : Ref sig .tc := ⟨.hbm, 358, rfl⟩
abbrev main_v298 : Ref sig .tc := ⟨.hbm, 359, rfl⟩
abbrev main_v299 : Ref sig .tc := ⟨.hbm, 360, rfl⟩
abbrev main_v300 : Ref sig .tc := ⟨.hbm, 361, rfl⟩
abbrev main_v301 : Ref sig .tc := ⟨.hbm, 362, rfl⟩
abbrev main_v302 : Ref sig .tc := ⟨.hbm, 363, rfl⟩
abbrev main_v303 : Ref sig .tc := ⟨.hbm, 364, rfl⟩
abbrev main_v304 : Ref sig .tc := ⟨.hbm, 365, rfl⟩
abbrev main_call5_cst : Ref sig .tc := ⟨.hbm, 366, rfl⟩
abbrev main_call5_v0 : Ref sig .tc := ⟨.hbm, 367, rfl⟩
abbrev main_v305 : Ref sig .tc := ⟨.hbm, 368, rfl⟩
abbrev main_v306 : Ref sig .tc := ⟨.hbm, 369, rfl⟩
abbrev main_v307 : Ref sig .tc := ⟨.hbm, 370, rfl⟩
abbrev main_v308 : Ref sig .tc := ⟨.hbm, 371, rfl⟩
abbrev main_v309 : Ref sig .tc := ⟨.hbm, 372, rfl⟩
abbrev main_v310 : Ref sig .tc := ⟨.hbm, 373, rfl⟩
abbrev main_v311 : Ref sig .tc := ⟨.hbm, 374, rfl⟩
abbrev main_v312 : Ref sig .tc := ⟨.hbm, 375, rfl⟩
abbrev main_v313 : Ref sig .tc := ⟨.hbm, 376, rfl⟩
abbrev main_v314 : Ref sig .tc := ⟨.hbm, 377, rfl⟩
abbrev main_c_37 : Ref sig .tc := ⟨.hbm, 378, rfl⟩
abbrev main_v315 : Ref sig .tc := ⟨.hbm, 379, rfl⟩
abbrev main_v316 : Ref sig .tc := ⟨.hbm, 380, rfl⟩
abbrev main_v317 : Ref sig .tc := ⟨.hbm, 381, rfl⟩
abbrev main_v318 : Ref sig .tc := ⟨.hbm, 382, rfl⟩
abbrev main_v319 : Ref sig .tc := ⟨.hbm, 383, rfl⟩
abbrev main_v320 : Ref sig .tc := ⟨.hbm, 384, rfl⟩
abbrev main_cst_38 : Ref sig .tc := ⟨.hbm, 385, rfl⟩
abbrev main_v321 : Ref sig .tc := ⟨.hbm, 386, rfl⟩
abbrev main_v322 : Ref sig .tc := ⟨.hbm, 387, rfl⟩
abbrev main_v323 : Ref sig .tc := ⟨.hbm, 388, rfl⟩
abbrev main_v324 : Ref sig .tc := ⟨.hbm, 389, rfl⟩
abbrev main_v325 : Ref sig .tc := ⟨.hbm, 390, rfl⟩
abbrev main_v326 : Ref sig .tc := ⟨.hbm, 391, rfl⟩
abbrev main_v327 : Ref sig .tc := ⟨.hbm, 392, rfl⟩
abbrev main_v328 : Ref sig .tc := ⟨.hbm, 393, rfl⟩
abbrev main_v329 : Ref sig .tc := ⟨.hbm, 394, rfl⟩
abbrev main_v330 : Ref sig .tc := ⟨.hbm, 395, rfl⟩
abbrev main_v331 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_cst_39 : Ref sig .tc := ⟨.hbm, 402, rfl⟩
abbrev main_v337 : Ref sig .tc := ⟨.hbm, 403, rfl⟩
abbrev main_v338 : Ref sig .tc := ⟨.hbm, 404, rfl⟩
abbrev main_cst_40 : Ref sig .tc := ⟨.hbm, 405, rfl⟩
abbrev main_v339 : Ref sig .tc := ⟨.hbm, 406, rfl⟩
abbrev main_v340 : Ref sig .tc := ⟨.hbm, 407, rfl⟩
abbrev main_v341 : Ref sig .tc := ⟨.hbm, 408, rfl⟩
abbrev main_v342 : Ref sig .tc := ⟨.hbm, 409, rfl⟩
abbrev main_v343 : Ref sig .tc := ⟨.hbm, 410, rfl⟩
abbrev main_cst_41 : Ref sig .tc := ⟨.hbm, 411, rfl⟩
abbrev main_v344 : Ref sig .tc := ⟨.hbm, 412, rfl⟩
abbrev main_v345 : Ref sig .tc := ⟨.hbm, 413, rfl⟩
abbrev main_cst_42 : Ref sig .tc := ⟨.hbm, 414, rfl⟩
abbrev main_v346 : Ref sig .tc := ⟨.hbm, 415, rfl⟩
abbrev main_v347 : Ref sig .tc := ⟨.hbm, 416, rfl⟩
abbrev main_v348 : Ref sig .tc := ⟨.hbm, 417, rfl⟩
abbrev main_v349 : Ref sig .tc := ⟨.hbm, 418, rfl⟩
abbrev main_cst_43 : Ref sig .tc := ⟨.hbm, 419, rfl⟩
abbrev main_v350 : Ref sig .tc := ⟨.hbm, 420, rfl⟩
abbrev main_v351 : Ref sig .tc := ⟨.hbm, 421, rfl⟩
abbrev main_v352 : Ref sig .tc := ⟨.hbm, 422, rfl⟩
abbrev main_v353 : Ref sig .tc := ⟨.hbm, 423, rfl⟩
abbrev main_v354 : Ref sig .tc := ⟨.hbm, 424, rfl⟩
abbrev main_v355 : Ref sig .tc := ⟨.hbm, 425, rfl⟩
abbrev main_v356 : Ref sig .tc := ⟨.hbm, 426, rfl⟩
abbrev main_v357 : Ref sig .tc := ⟨.hbm, 427, rfl⟩
abbrev main_v358 : Ref sig .tc := ⟨.hbm, 428, rfl⟩
abbrev main_v359 : Ref sig .tc := ⟨.hbm, 429, rfl⟩
abbrev main_v360 : Ref sig .tc := ⟨.hbm, 430, rfl⟩
abbrev main_call6_cst : Ref sig .tc := ⟨.hbm, 431, rfl⟩
abbrev main_call6_v0 : Ref sig .tc := ⟨.hbm, 432, rfl⟩
abbrev main_v361 : Ref sig .tc := ⟨.hbm, 433, rfl⟩
abbrev main_v362 : Ref sig .tc := ⟨.hbm, 434, rfl⟩
abbrev main_v363 : Ref sig .tc := ⟨.hbm, 435, rfl⟩
abbrev main_v364 : Ref sig .tc := ⟨.hbm, 436, rfl⟩
abbrev main_v365 : Ref sig .tc := ⟨.hbm, 437, rfl⟩
abbrev main_v366 : Ref sig .tc := ⟨.hbm, 438, rfl⟩
abbrev main_v367 : Ref sig .tc := ⟨.hbm, 439, rfl⟩
abbrev main_v368 : Ref sig .tc := ⟨.hbm, 440, rfl⟩
abbrev main_v369 : Ref sig .tc := ⟨.hbm, 441, rfl⟩
abbrev main_v370 : Ref sig .tc := ⟨.hbm, 442, rfl⟩
abbrev main_c_44 : Ref sig .tc := ⟨.hbm, 443, rfl⟩
abbrev main_v371 : Ref sig .tc := ⟨.hbm, 444, rfl⟩
abbrev main_v372 : Ref sig .tc := ⟨.hbm, 445, rfl⟩
abbrev main_v373 : Ref sig .tc := ⟨.hbm, 446, rfl⟩
abbrev main_v374 : Ref sig .tc := ⟨.hbm, 447, rfl⟩
abbrev main_v375 : Ref sig .tc := ⟨.hbm, 448, rfl⟩
abbrev main_v376 : Ref sig .tc := ⟨.hbm, 449, rfl⟩
abbrev main_cst_45 : Ref sig .tc := ⟨.hbm, 450, rfl⟩
abbrev main_v377 : Ref sig .tc := ⟨.hbm, 451, rfl⟩
abbrev main_v378 : Ref sig .tc := ⟨.hbm, 452, rfl⟩
abbrev main_v379 : Ref sig .tc := ⟨.hbm, 453, rfl⟩
abbrev main_v380 : Ref sig .tc := ⟨.hbm, 454, rfl⟩
abbrev main_v381 : Ref sig .tc := ⟨.hbm, 455, rfl⟩
abbrev main_v382 : Ref sig .tc := ⟨.hbm, 456, rfl⟩
abbrev main_v383 : Ref sig .tc := ⟨.hbm, 457, rfl⟩
abbrev main_v384 : Ref sig .tc := ⟨.hbm, 458, rfl⟩
abbrev main_v385 : Ref sig .tc := ⟨.hbm, 459, rfl⟩
abbrev main_v386 : Ref sig .tc := ⟨.hbm, 460, rfl⟩
abbrev main_v387 : Ref sig .tc := ⟨.hbm, 461, rfl⟩
abbrev main_v388 : Ref sig .tc := ⟨.hbm, 462, rfl⟩
abbrev main_v389 : Ref sig .tc := ⟨.hbm, 463, rfl⟩
abbrev main_v390 : Ref sig .tc := ⟨.hbm, 464, rfl⟩
abbrev main_v391 : Ref sig .tc := ⟨.hbm, 465, rfl⟩
abbrev main_v392 : Ref sig .tc := ⟨.hbm, 466, rfl⟩
abbrev main_cst_46 : Ref sig .tc := ⟨.hbm, 467, rfl⟩
abbrev main_v393 : Ref sig .tc := ⟨.hbm, 468, rfl⟩
abbrev main_v394 : Ref sig .tc := ⟨.hbm, 469, rfl⟩
abbrev main_cst_47 : Ref sig .tc := ⟨.hbm, 470, rfl⟩
abbrev main_v395 : Ref sig .tc := ⟨.hbm, 471, rfl⟩
abbrev main_v396 : Ref sig .tc := ⟨.hbm, 472, rfl⟩
abbrev main_v397 : Ref sig .tc := ⟨.hbm, 473, rfl⟩
abbrev main_v398 : Ref sig .tc := ⟨.hbm, 474, rfl⟩
abbrev main_v399 : Ref sig .tc := ⟨.hbm, 475, rfl⟩
abbrev main_cst_48 : Ref sig .tc := ⟨.hbm, 476, rfl⟩
abbrev main_v400 : Ref sig .tc := ⟨.hbm, 477, rfl⟩
abbrev main_v401 : Ref sig .tc := ⟨.hbm, 478, rfl⟩
abbrev main_cst_49 : Ref sig .tc := ⟨.hbm, 479, rfl⟩
abbrev main_v402 : Ref sig .tc := ⟨.hbm, 480, rfl⟩
abbrev main_v403 : Ref sig .tc := ⟨.hbm, 481, rfl⟩
abbrev main_v404 : Ref sig .tc := ⟨.hbm, 482, rfl⟩
abbrev main_v405 : Ref sig .tc := ⟨.hbm, 483, rfl⟩
abbrev main_cst_50 : Ref sig .tc := ⟨.hbm, 484, rfl⟩
abbrev main_v406 : Ref sig .tc := ⟨.hbm, 485, rfl⟩
abbrev main_v407 : Ref sig .tc := ⟨.hbm, 486, rfl⟩
abbrev main_v408 : Ref sig .tc := ⟨.hbm, 487, rfl⟩
abbrev main_v409 : Ref sig .tc := ⟨.hbm, 488, rfl⟩
abbrev main_v410 : Ref sig .tc := ⟨.hbm, 489, rfl⟩
abbrev main_v411 : Ref sig .tc := ⟨.hbm, 490, rfl⟩
abbrev main_v412 : Ref sig .tc := ⟨.hbm, 491, rfl⟩
abbrev main_v413 : Ref sig .tc := ⟨.hbm, 492, rfl⟩
abbrev main_v414 : Ref sig .tc := ⟨.hbm, 493, rfl⟩
abbrev main_v415 : Ref sig .tc := ⟨.hbm, 494, rfl⟩
abbrev main_v416 : Ref sig .tc := ⟨.hbm, 495, rfl⟩
abbrev main_call7_cst : Ref sig .tc := ⟨.hbm, 496, rfl⟩
abbrev main_call7_v0 : Ref sig .tc := ⟨.hbm, 497, rfl⟩
abbrev main_v417 : Ref sig .tc := ⟨.hbm, 498, rfl⟩
abbrev main_v418 : Ref sig .tc := ⟨.hbm, 499, rfl⟩
abbrev main_v419 : Ref sig .tc := ⟨.hbm, 500, rfl⟩
abbrev main_v420 : Ref sig .tc := ⟨.hbm, 501, rfl⟩
abbrev main_v421 : Ref sig .tc := ⟨.hbm, 502, rfl⟩
abbrev main_v422 : Ref sig .tc := ⟨.hbm, 503, rfl⟩
abbrev main_v423 : Ref sig .tc := ⟨.hbm, 504, rfl⟩
abbrev main_v424 : Ref sig .tc := ⟨.hbm, 505, rfl⟩
abbrev main_v425 : Ref sig .tc := ⟨.hbm, 506, rfl⟩
abbrev main_v426 : Ref sig .tc := ⟨.hbm, 507, rfl⟩
abbrev main_c_51 : Ref sig .tc := ⟨.hbm, 508, rfl⟩
abbrev main_v427 : Ref sig .tc := ⟨.hbm, 509, rfl⟩
abbrev main_v428 : Ref sig .tc := ⟨.hbm, 510, rfl⟩
abbrev main_v429 : Ref sig .tc := ⟨.hbm, 511, rfl⟩
abbrev main_v430 : Ref sig .tc := ⟨.hbm, 512, rfl⟩
abbrev main_v431 : Ref sig .tc := ⟨.hbm, 513, rfl⟩
abbrev main_v432 : Ref sig .tc := ⟨.hbm, 514, rfl⟩
abbrev main_cst_52 : Ref sig .tc := ⟨.hbm, 515, rfl⟩
abbrev main_v433 : Ref sig .tc := ⟨.hbm, 516, rfl⟩
abbrev main_v434 : Ref sig .tc := ⟨.hbm, 517, rfl⟩
abbrev main_v435 : Ref sig .tc := ⟨.hbm, 518, rfl⟩
abbrev main_v436 : Ref sig .tc := ⟨.hbm, 519, rfl⟩
abbrev main_v437 : Ref sig .tc := ⟨.hbm, 520, rfl⟩
abbrev main_v438 : Ref sig .tc := ⟨.hbm, 521, rfl⟩
abbrev main_v439 : Ref sig .tc := ⟨.hbm, 522, rfl⟩
abbrev main_v440 : Ref sig .tc := ⟨.hbm, 523, rfl⟩
abbrev main_v441 : Ref sig .tc := ⟨.hbm, 524, rfl⟩
abbrev main_v442 : Ref sig .tc := ⟨.hbm, 525, rfl⟩
abbrev main_v443 : Ref sig .tc := ⟨.hbm, 526, rfl⟩
abbrev main_v444 : Ref sig .tc := ⟨.hbm, 527, rfl⟩
abbrev main_v445 : Ref sig .tc := ⟨.hbm, 528, rfl⟩
abbrev main_v446 : Ref sig .tc := ⟨.hbm, 529, rfl⟩
abbrev main_v447 : Ref sig .tc := ⟨.hbm, 530, rfl⟩
abbrev main_v448 : Ref sig .tc := ⟨.hbm, 531, rfl⟩
abbrev main_cst_53 : Ref sig .tc := ⟨.hbm, 532, rfl⟩
abbrev main_v449 : Ref sig .tc := ⟨.hbm, 533, rfl⟩
abbrev main_v450 : Ref sig .tc := ⟨.hbm, 534, rfl⟩
abbrev main_cst_54 : Ref sig .tc := ⟨.hbm, 535, rfl⟩
abbrev main_v451 : Ref sig .tc := ⟨.hbm, 536, rfl⟩
abbrev main_v452 : Ref sig .tc := ⟨.hbm, 537, rfl⟩
abbrev main_v453 : Ref sig .tc := ⟨.hbm, 538, rfl⟩
abbrev main_v454 : Ref sig .tc := ⟨.hbm, 539, rfl⟩
abbrev main_v455 : Ref sig .tc := ⟨.hbm, 540, rfl⟩
abbrev main_cst_55 : Ref sig .tc := ⟨.hbm, 541, rfl⟩
abbrev main_v456 : Ref sig .tc := ⟨.hbm, 542, rfl⟩
abbrev main_v457 : Ref sig .tc := ⟨.hbm, 543, rfl⟩
abbrev main_cst_56 : Ref sig .tc := ⟨.hbm, 544, rfl⟩
abbrev main_v458 : Ref sig .tc := ⟨.hbm, 545, rfl⟩
abbrev main_v459 : Ref sig .tc := ⟨.hbm, 546, rfl⟩
abbrev main_v460 : Ref sig .tc := ⟨.hbm, 547, rfl⟩
abbrev main_v461 : Ref sig .tc := ⟨.hbm, 548, rfl⟩
abbrev main_cst_57 : Ref sig .tc := ⟨.hbm, 549, rfl⟩
abbrev main_v462 : Ref sig .tc := ⟨.hbm, 550, rfl⟩
abbrev main_v463 : Ref sig .tc := ⟨.hbm, 551, rfl⟩
abbrev main_v464 : Ref sig .tc := ⟨.hbm, 552, rfl⟩
abbrev main_v465 : Ref sig .tc := ⟨.hbm, 553, rfl⟩
abbrev main_v466 : Ref sig .tc := ⟨.hbm, 554, rfl⟩
abbrev main_v467 : Ref sig .tc := ⟨.hbm, 555, rfl⟩
abbrev main_v468 : Ref sig .tc := ⟨.hbm, 556, rfl⟩
abbrev main_v469 : Ref sig .tc := ⟨.hbm, 557, rfl⟩
abbrev main_v470 : Ref sig .tc := ⟨.hbm, 558, rfl⟩
abbrev main_v471 : Ref sig .tc := ⟨.hbm, 559, rfl⟩
abbrev main_v472 : Ref sig .tc := ⟨.hbm, 560, rfl⟩
abbrev main_call8_cst : Ref sig .tc := ⟨.hbm, 561, rfl⟩
abbrev main_call8_v0 : Ref sig .tc := ⟨.hbm, 562, rfl⟩
abbrev main_v473 : Ref sig .tc := ⟨.hbm, 563, rfl⟩
abbrev main_v474 : Ref sig .tc := ⟨.hbm, 564, rfl⟩
abbrev main_v475 : Ref sig .tc := ⟨.hbm, 565, rfl⟩
abbrev main_v476 : Ref sig .tc := ⟨.hbm, 566, rfl⟩
abbrev main_v477 : Ref sig .tc := ⟨.hbm, 567, rfl⟩
abbrev main_v478 : Ref sig .tc := ⟨.hbm, 568, rfl⟩
abbrev main_v479 : Ref sig .tc := ⟨.hbm, 569, rfl⟩
abbrev main_v480 : Ref sig .tc := ⟨.hbm, 570, rfl⟩
abbrev main_v481 : Ref sig .tc := ⟨.hbm, 571, rfl⟩
abbrev main_v482 : Ref sig .tc := ⟨.hbm, 572, rfl⟩
abbrev main_call9_cst : Ref sig .tc := ⟨.hbm, 573, rfl⟩
abbrev main_call9_v0 : Ref sig .tc := ⟨.hbm, 574, rfl⟩
abbrev main_v483 : Ref sig .tc := ⟨.hbm, 575, rfl⟩
abbrev main_v484 : Ref sig .tc := ⟨.hbm, 576, rfl⟩
abbrev main_v485 : Ref sig .tc := ⟨.hbm, 577, rfl⟩
abbrev main_v486 : Ref sig .tc := ⟨.hbm, 578, rfl⟩
abbrev main_v487 : Ref sig .tc := ⟨.hbm, 579, rfl⟩
abbrev main_v488 : Ref sig .tc := ⟨.hbm, 580, rfl⟩
abbrev main_v489 : Ref sig .tc := ⟨.hbm, 581, rfl⟩
abbrev main_v490 : Ref sig .tc := ⟨.hbm, 582, rfl⟩
abbrev main_v491 : Ref sig .tc := ⟨.hbm, 583, rfl⟩
abbrev main_c_58 : Ref sig .tc := ⟨.hbm, 584, rfl⟩
abbrev main_v492 : Ref sig .tc := ⟨.hbm, 585, rfl⟩
abbrev main_v493 : Ref sig .tc := ⟨.hbm, 586, rfl⟩
abbrev main_c_59 : Ref sig .tc := ⟨.hbm, 587, rfl⟩
abbrev main_v494 : Ref sig .tc := ⟨.hbm, 588, rfl⟩
abbrev main_v495 : Ref sig .tc := ⟨.hbm, 589, rfl⟩
abbrev main_v496 : Ref sig .tc := ⟨.hbm, 590, rfl⟩
abbrev main_v497 : Ref sig .tc := ⟨.hbm, 591, rfl⟩
abbrev main_v498 : Ref sig .tc := ⟨.hbm, 592, rfl⟩
abbrev main_c_60 : Ref sig .tc := ⟨.hbm, 593, rfl⟩
abbrev main_v499 : Ref sig .tc := ⟨.hbm, 594, rfl⟩
abbrev main_v500 : Ref sig .tc := ⟨.hbm, 595, rfl⟩
abbrev main_v501 : Ref sig .tc := ⟨.hbm, 596, rfl⟩
abbrev main_v502 : Ref sig .tc := ⟨.hbm, 597, rfl⟩
abbrev main_v503 : Ref sig .tc := ⟨.hbm, 598, rfl⟩
abbrev main_v504 : Ref sig .tc := ⟨.hbm, 599, rfl⟩
abbrev main_cst_61 : Ref sig .tc := ⟨.hbm, 600, rfl⟩
abbrev main_v505 : Ref sig .tc := ⟨.hbm, 601, rfl⟩
abbrev main_v506 : Ref sig .tc := ⟨.hbm, 602, rfl⟩
abbrev main_v507 : Ref sig .tc := ⟨.hbm, 603, rfl⟩
abbrev main_v508 : Ref sig .tc := ⟨.hbm, 604, rfl⟩
abbrev main_v509 : Ref sig .tc := ⟨.hbm, 605, rfl⟩
abbrev main_v510 : Ref sig .tc := ⟨.hbm, 606, rfl⟩
abbrev main_v511 : Ref sig .tc := ⟨.hbm, 607, rfl⟩
abbrev main_v512 : Ref sig .tc := ⟨.hbm, 608, rfl⟩
abbrev main_v513 : Ref sig .tc := ⟨.hbm, 609, rfl⟩
abbrev main_v514 : Ref sig .tc := ⟨.hbm, 610, rfl⟩
abbrev main_v515 : Ref sig .tc := ⟨.hbm, 611, rfl⟩
abbrev main_v516 : Ref sig .tc := ⟨.hbm, 612, rfl⟩
abbrev main_v517 : Ref sig .tc := ⟨.hbm, 613, rfl⟩
abbrev main_v518 : Ref sig .tc := ⟨.hbm, 614, rfl⟩
abbrev main_v519 : Ref sig .tc := ⟨.hbm, 615, rfl⟩
abbrev main_v520 : Ref sig .tc := ⟨.hbm, 616, rfl⟩
abbrev main_cst_62 : Ref sig .tc := ⟨.hbm, 617, rfl⟩
abbrev main_v521 : Ref sig .tc := ⟨.hbm, 618, rfl⟩
abbrev main_v522 : Ref sig .tc := ⟨.hbm, 619, rfl⟩
abbrev main_cst_63 : Ref sig .tc := ⟨.hbm, 620, rfl⟩
abbrev main_v523 : Ref sig .tc := ⟨.hbm, 621, rfl⟩
abbrev main_v524 : Ref sig .tc := ⟨.hbm, 622, rfl⟩
abbrev main_v525 : Ref sig .tc := ⟨.hbm, 623, rfl⟩
abbrev main_v526 : Ref sig .tc := ⟨.hbm, 624, rfl⟩
abbrev main_v527 : Ref sig .tc := ⟨.hbm, 625, rfl⟩
abbrev main_cst_64 : Ref sig .tc := ⟨.hbm, 626, rfl⟩
abbrev main_v528 : Ref sig .tc := ⟨.hbm, 627, rfl⟩
abbrev main_v529 : Ref sig .tc := ⟨.hbm, 628, rfl⟩
abbrev main_cst_65 : Ref sig .tc := ⟨.hbm, 629, rfl⟩
abbrev main_v530 : Ref sig .tc := ⟨.hbm, 630, rfl⟩
abbrev main_v531 : Ref sig .tc := ⟨.hbm, 631, rfl⟩
abbrev main_v532 : Ref sig .tc := ⟨.hbm, 632, rfl⟩
abbrev main_v533 : Ref sig .tc := ⟨.hbm, 633, rfl⟩
abbrev main_cst_66 : Ref sig .tc := ⟨.hbm, 634, rfl⟩
abbrev main_v534 : Ref sig .tc := ⟨.hbm, 635, rfl⟩
abbrev main_v535 : Ref sig .tc := ⟨.hbm, 636, rfl⟩
abbrev main_v536 : Ref sig .tc := ⟨.hbm, 637, rfl⟩
abbrev main_v537 : Ref sig .tc := ⟨.hbm, 638, rfl⟩
abbrev main_v538 : Ref sig .tc := ⟨.hbm, 639, rfl⟩
abbrev main_v539 : Ref sig .tc := ⟨.hbm, 640, rfl⟩
abbrev main_v540 : Ref sig .tc := ⟨.hbm, 641, rfl⟩
abbrev main_v541 : Ref sig .tc := ⟨.hbm, 642, rfl⟩
abbrev main_v542 : Ref sig .tc := ⟨.hbm, 643, rfl⟩
abbrev main_v543 : Ref sig .tc := ⟨.hbm, 644, rfl⟩
abbrev main_v544 : Ref sig .tc := ⟨.hbm, 645, rfl⟩
abbrev main_call10_cst : Ref sig .tc := ⟨.hbm, 646, rfl⟩
abbrev main_call10_v0 : Ref sig .tc := ⟨.hbm, 647, rfl⟩
abbrev main_v545 : Ref sig .tc := ⟨.hbm, 648, rfl⟩
abbrev main_v546 : Ref sig .tc := ⟨.hbm, 649, rfl⟩
abbrev main_v547 : Ref sig .tc := ⟨.hbm, 650, rfl⟩
abbrev main_v548 : Ref sig .tc := ⟨.hbm, 651, rfl⟩
abbrev main_v549 : Ref sig .tc := ⟨.hbm, 652, rfl⟩
abbrev main_v550 : Ref sig .tc := ⟨.hbm, 653, rfl⟩
abbrev main_v551 : Ref sig .tc := ⟨.hbm, 654, rfl⟩
abbrev main_v552 : Ref sig .tc := ⟨.hbm, 655, rfl⟩
abbrev main_v553 : Ref sig .tc := ⟨.hbm, 656, rfl⟩
abbrev main_v554 : Ref sig .tc := ⟨.hbm, 657, rfl⟩
abbrev main_c_67 : Ref sig .tc := ⟨.hbm, 658, rfl⟩
abbrev main_v555 : Ref sig .tc := ⟨.hbm, 659, rfl⟩
abbrev main_v556 : Ref sig .tc := ⟨.hbm, 660, rfl⟩
abbrev main_v557 : Ref sig .tc := ⟨.hbm, 661, rfl⟩
abbrev main_v558 : Ref sig .tc := ⟨.hbm, 662, rfl⟩
abbrev main_v559 : Ref sig .tc := ⟨.hbm, 663, rfl⟩
abbrev main_v560 : Ref sig .tc := ⟨.hbm, 664, rfl⟩
abbrev main_cst_68 : Ref sig .tc := ⟨.hbm, 665, rfl⟩
abbrev main_v561 : Ref sig .tc := ⟨.hbm, 666, rfl⟩
abbrev main_v562 : Ref sig .tc := ⟨.hbm, 667, rfl⟩
abbrev main_v563 : Ref sig .tc := ⟨.hbm, 668, rfl⟩
abbrev main_v564 : Ref sig .tc := ⟨.hbm, 669, rfl⟩
abbrev main_v565 : Ref sig .tc := ⟨.hbm, 670, rfl⟩
abbrev main_v566 : Ref sig .tc := ⟨.hbm, 671, rfl⟩
abbrev main_v567 : Ref sig .tc := ⟨.hbm, 672, rfl⟩
abbrev main_v568 : Ref sig .tc := ⟨.hbm, 673, rfl⟩
abbrev main_v569 : Ref sig .tc := ⟨.hbm, 674, rfl⟩
abbrev main_v570 : Ref sig .tc := ⟨.hbm, 675, rfl⟩
abbrev main_v571 : Ref sig .tc := ⟨.hbm, 676, rfl⟩
abbrev main_v572 : Ref sig .tc := ⟨.hbm, 677, rfl⟩
abbrev main_v573 : Ref sig .tc := ⟨.hbm, 678, rfl⟩
abbrev main_v574 : Ref sig .tc := ⟨.hbm, 679, rfl⟩
abbrev main_v575 : Ref sig .tc := ⟨.hbm, 680, rfl⟩
abbrev main_v576 : Ref sig .tc := ⟨.hbm, 681, rfl⟩
abbrev main_cst_69 : Ref sig .tc := ⟨.hbm, 682, rfl⟩
abbrev main_v577 : Ref sig .tc := ⟨.hbm, 683, rfl⟩
abbrev main_v578 : Ref sig .tc := ⟨.hbm, 684, rfl⟩
abbrev main_cst_70 : Ref sig .tc := ⟨.hbm, 685, rfl⟩
abbrev main_v579 : Ref sig .tc := ⟨.hbm, 686, rfl⟩
abbrev main_v580 : Ref sig .tc := ⟨.hbm, 687, rfl⟩
abbrev main_v581 : Ref sig .tc := ⟨.hbm, 688, rfl⟩
abbrev main_v582 : Ref sig .tc := ⟨.hbm, 689, rfl⟩
abbrev main_v583 : Ref sig .tc := ⟨.hbm, 690, rfl⟩
abbrev main_cst_71 : Ref sig .tc := ⟨.hbm, 691, rfl⟩
abbrev main_v584 : Ref sig .tc := ⟨.hbm, 692, rfl⟩
abbrev main_v585 : Ref sig .tc := ⟨.hbm, 693, rfl⟩
abbrev main_cst_72 : Ref sig .tc := ⟨.hbm, 694, rfl⟩
abbrev main_v586 : Ref sig .tc := ⟨.hbm, 695, rfl⟩
abbrev main_v587 : Ref sig .tc := ⟨.hbm, 696, rfl⟩
abbrev main_v588 : Ref sig .tc := ⟨.hbm, 697, rfl⟩
abbrev main_v589 : Ref sig .tc := ⟨.hbm, 698, rfl⟩
abbrev main_cst_73 : Ref sig .tc := ⟨.hbm, 699, rfl⟩
abbrev main_v590 : Ref sig .tc := ⟨.hbm, 700, rfl⟩
abbrev main_v591 : Ref sig .tc := ⟨.hbm, 701, rfl⟩
abbrev main_v592 : Ref sig .tc := ⟨.hbm, 702, rfl⟩
abbrev main_v593 : Ref sig .tc := ⟨.hbm, 703, rfl⟩
abbrev main_v594 : Ref sig .tc := ⟨.hbm, 704, rfl⟩
abbrev main_v595 : Ref sig .tc := ⟨.hbm, 705, rfl⟩
abbrev main_v596 : Ref sig .tc := ⟨.hbm, 706, rfl⟩
abbrev main_v597 : Ref sig .tc := ⟨.hbm, 707, rfl⟩
abbrev main_v598 : Ref sig .tc := ⟨.hbm, 708, rfl⟩
abbrev main_v599 : Ref sig .tc := ⟨.hbm, 709, rfl⟩
abbrev main_v600 : Ref sig .tc := ⟨.hbm, 710, rfl⟩
abbrev main_call11_cst : Ref sig .tc := ⟨.hbm, 711, rfl⟩
abbrev main_call11_v0 : Ref sig .tc := ⟨.hbm, 712, rfl⟩
abbrev main_v601 : Ref sig .tc := ⟨.hbm, 713, rfl⟩
abbrev main_v602 : Ref sig .tc := ⟨.hbm, 714, rfl⟩
abbrev main_v603 : Ref sig .tc := ⟨.hbm, 715, rfl⟩
abbrev main_v604 : Ref sig .tc := ⟨.hbm, 716, rfl⟩
abbrev main_v605 : Ref sig .tc := ⟨.hbm, 717, rfl⟩
abbrev main_v606 : Ref sig .tc := ⟨.hbm, 718, rfl⟩
abbrev main_v607 : Ref sig .tc := ⟨.hbm, 719, rfl⟩
abbrev main_v608 : Ref sig .tc := ⟨.hbm, 720, rfl⟩
abbrev main_v609 : Ref sig .tc := ⟨.hbm, 721, rfl⟩
abbrev main_v610 : Ref sig .tc := ⟨.hbm, 722, rfl⟩
abbrev main_c_74 : Ref sig .tc := ⟨.hbm, 723, rfl⟩
abbrev main_v611 : Ref sig .tc := ⟨.hbm, 724, rfl⟩
abbrev main_v612 : Ref sig .tc := ⟨.hbm, 725, rfl⟩
abbrev main_v613 : Ref sig .tc := ⟨.hbm, 726, rfl⟩
abbrev main_v614 : Ref sig .tc := ⟨.hbm, 727, rfl⟩
abbrev main_v615 : Ref sig .tc := ⟨.hbm, 728, rfl⟩
abbrev main_v616 : Ref sig .tc := ⟨.hbm, 729, rfl⟩
abbrev main_cst_75 : Ref sig .tc := ⟨.hbm, 730, rfl⟩
abbrev main_v617 : Ref sig .tc := ⟨.hbm, 731, rfl⟩
abbrev main_v618 : Ref sig .tc := ⟨.hbm, 732, rfl⟩
abbrev main_v619 : Ref sig .tc := ⟨.hbm, 733, rfl⟩
abbrev main_v620 : Ref sig .tc := ⟨.hbm, 734, rfl⟩
abbrev main_v621 : Ref sig .tc := ⟨.hbm, 735, rfl⟩
abbrev main_v622 : Ref sig .tc := ⟨.hbm, 736, rfl⟩
abbrev main_v623 : Ref sig .tc := ⟨.hbm, 737, rfl⟩
abbrev main_v624 : Ref sig .tc := ⟨.hbm, 738, rfl⟩
abbrev main_v625 : Ref sig .tc := ⟨.hbm, 739, rfl⟩
abbrev main_v626 : Ref sig .tc := ⟨.hbm, 740, rfl⟩
abbrev main_v627 : Ref sig .tc := ⟨.hbm, 741, rfl⟩
abbrev main_v628 : Ref sig .tc := ⟨.hbm, 742, rfl⟩
abbrev main_v629 : Ref sig .tc := ⟨.hbm, 743, rfl⟩
abbrev main_v630 : Ref sig .tc := ⟨.hbm, 744, rfl⟩
abbrev main_v631 : Ref sig .tc := ⟨.hbm, 745, rfl⟩
abbrev main_v632 : Ref sig .tc := ⟨.hbm, 746, rfl⟩
abbrev main_cst_76 : Ref sig .tc := ⟨.hbm, 747, rfl⟩
abbrev main_v633 : Ref sig .tc := ⟨.hbm, 748, rfl⟩
abbrev main_v634 : Ref sig .tc := ⟨.hbm, 749, rfl⟩
abbrev main_cst_77 : Ref sig .tc := ⟨.hbm, 750, rfl⟩
abbrev main_v635 : Ref sig .tc := ⟨.hbm, 751, rfl⟩
abbrev main_v636 : Ref sig .tc := ⟨.hbm, 752, rfl⟩
abbrev main_v637 : Ref sig .tc := ⟨.hbm, 753, rfl⟩
abbrev main_v638 : Ref sig .tc := ⟨.hbm, 754, rfl⟩
abbrev main_v639 : Ref sig .tc := ⟨.hbm, 755, rfl⟩
abbrev main_cst_78 : Ref sig .tc := ⟨.hbm, 756, rfl⟩
abbrev main_v640 : Ref sig .tc := ⟨.hbm, 757, rfl⟩
abbrev main_v641 : Ref sig .tc := ⟨.hbm, 758, rfl⟩
abbrev main_cst_79 : Ref sig .tc := ⟨.hbm, 759, rfl⟩
abbrev main_v642 : Ref sig .tc := ⟨.hbm, 760, rfl⟩
abbrev main_v643 : Ref sig .tc := ⟨.hbm, 761, rfl⟩
abbrev main_v644 : Ref sig .tc := ⟨.hbm, 762, rfl⟩
abbrev main_v645 : Ref sig .tc := ⟨.hbm, 763, rfl⟩
abbrev main_cst_80 : Ref sig .tc := ⟨.hbm, 764, rfl⟩
abbrev main_v646 : Ref sig .tc := ⟨.hbm, 765, rfl⟩
abbrev main_v647 : Ref sig .tc := ⟨.hbm, 766, rfl⟩
abbrev main_v648 : Ref sig .tc := ⟨.hbm, 767, rfl⟩
abbrev main_v649 : Ref sig .tc := ⟨.hbm, 768, rfl⟩
abbrev main_v650 : Ref sig .tc := ⟨.hbm, 769, rfl⟩
abbrev main_v651 : Ref sig .tc := ⟨.hbm, 770, rfl⟩
abbrev main_v652 : Ref sig .tc := ⟨.hbm, 771, rfl⟩
abbrev main_v653 : Ref sig .tc := ⟨.hbm, 772, rfl⟩
abbrev main_v654 : Ref sig .tc := ⟨.hbm, 773, rfl⟩
abbrev main_v655 : Ref sig .tc := ⟨.hbm, 774, rfl⟩
abbrev main_v656 : Ref sig .tc := ⟨.hbm, 775, rfl⟩
abbrev main_call12_cst : Ref sig .tc := ⟨.hbm, 776, rfl⟩
abbrev main_call12_v0 : Ref sig .tc := ⟨.hbm, 777, rfl⟩
abbrev main_v657 : Ref sig .tc := ⟨.hbm, 778, rfl⟩
abbrev main_v658 : Ref sig .tc := ⟨.hbm, 779, rfl⟩
abbrev main_v659 : Ref sig .tc := ⟨.hbm, 780, rfl⟩
abbrev main_v660 : Ref sig .tc := ⟨.hbm, 781, rfl⟩
abbrev main_v661 : Ref sig .tc := ⟨.hbm, 782, rfl⟩
abbrev main_v662 : Ref sig .tc := ⟨.hbm, 783, rfl⟩
abbrev main_v663 : Ref sig .tc := ⟨.hbm, 784, rfl⟩
abbrev main_v664 : Ref sig .tc := ⟨.hbm, 785, rfl⟩
abbrev main_v665 : Ref sig .tc := ⟨.hbm, 786, rfl⟩
abbrev main_v666 : Ref sig .tc := ⟨.hbm, 787, rfl⟩
abbrev main_c_81 : Ref sig .tc := ⟨.hbm, 788, rfl⟩
abbrev main_v667 : Ref sig .tc := ⟨.hbm, 789, rfl⟩
abbrev main_v668 : Ref sig .tc := ⟨.hbm, 790, rfl⟩
abbrev main_v669 : Ref sig .tc := ⟨.hbm, 791, rfl⟩
abbrev main_v670 : Ref sig .tc := ⟨.hbm, 792, rfl⟩
abbrev main_v671 : Ref sig .tc := ⟨.hbm, 793, rfl⟩
abbrev main_v672 : Ref sig .tc := ⟨.hbm, 794, rfl⟩
abbrev main_cst_82 : Ref sig .tc := ⟨.hbm, 795, rfl⟩
abbrev main_v673 : Ref sig .tc := ⟨.hbm, 796, rfl⟩
abbrev main_v674 : Ref sig .tc := ⟨.hbm, 797, rfl⟩
abbrev main_v675 : Ref sig .tc := ⟨.hbm, 798, rfl⟩
abbrev main_v676 : Ref sig .tc := ⟨.hbm, 799, rfl⟩
abbrev main_v677 : Ref sig .tc := ⟨.hbm, 800, rfl⟩
abbrev main_v678 : Ref sig .tc := ⟨.hbm, 801, rfl⟩
abbrev main_v679 : Ref sig .tc := ⟨.hbm, 802, rfl⟩
abbrev main_v680 : Ref sig .tc := ⟨.hbm, 803, rfl⟩
abbrev main_v681 : Ref sig .tc := ⟨.hbm, 804, rfl⟩
abbrev main_v682 : Ref sig .tc := ⟨.hbm, 805, rfl⟩
abbrev main_v683 : Ref sig .tc := ⟨.hbm, 806, rfl⟩
abbrev main_v684 : Ref sig .tc := ⟨.hbm, 807, rfl⟩
abbrev main_v685 : Ref sig .tc := ⟨.hbm, 808, rfl⟩
abbrev main_v686 : Ref sig .tc := ⟨.hbm, 809, rfl⟩
abbrev main_v687 : Ref sig .tc := ⟨.hbm, 810, rfl⟩
abbrev main_v688 : Ref sig .tc := ⟨.hbm, 811, rfl⟩
abbrev main_cst_83 : Ref sig .tc := ⟨.hbm, 812, rfl⟩
abbrev main_v689 : Ref sig .tc := ⟨.hbm, 813, rfl⟩
abbrev main_v690 : Ref sig .tc := ⟨.hbm, 814, rfl⟩
abbrev main_cst_84 : Ref sig .tc := ⟨.hbm, 815, rfl⟩
abbrev main_v691 : Ref sig .tc := ⟨.hbm, 816, rfl⟩
abbrev main_v692 : Ref sig .tc := ⟨.hbm, 817, rfl⟩
abbrev main_v693 : Ref sig .tc := ⟨.hbm, 818, rfl⟩
abbrev main_v694 : Ref sig .tc := ⟨.hbm, 819, rfl⟩
abbrev main_v695 : Ref sig .tc := ⟨.hbm, 820, rfl⟩
abbrev main_cst_85 : Ref sig .tc := ⟨.hbm, 821, rfl⟩
abbrev main_v696 : Ref sig .tc := ⟨.hbm, 822, rfl⟩
abbrev main_v697 : Ref sig .tc := ⟨.hbm, 823, rfl⟩
abbrev main_cst_86 : Ref sig .tc := ⟨.hbm, 824, rfl⟩
abbrev main_v698 : Ref sig .tc := ⟨.hbm, 825, rfl⟩
abbrev main_v699 : Ref sig .tc := ⟨.hbm, 826, rfl⟩
abbrev main_v700 : Ref sig .tc := ⟨.hbm, 827, rfl⟩
abbrev main_v701 : Ref sig .tc := ⟨.hbm, 828, rfl⟩
abbrev main_cst_87 : Ref sig .tc := ⟨.hbm, 829, rfl⟩
abbrev main_v702 : Ref sig .tc := ⟨.hbm, 830, rfl⟩
abbrev main_v703 : Ref sig .tc := ⟨.hbm, 831, rfl⟩
abbrev main_v704 : Ref sig .tc := ⟨.hbm, 832, rfl⟩
abbrev main_v705 : Ref sig .tc := ⟨.hbm, 833, rfl⟩
abbrev main_v706 : Ref sig .tc := ⟨.hbm, 834, rfl⟩
abbrev main_v707 : Ref sig .tc := ⟨.hbm, 835, rfl⟩
abbrev main_v708 : Ref sig .tc := ⟨.hbm, 836, rfl⟩
abbrev main_v709 : Ref sig .tc := ⟨.hbm, 837, rfl⟩
abbrev main_v710 : Ref sig .tc := ⟨.hbm, 838, rfl⟩
abbrev main_v711 : Ref sig .tc := ⟨.hbm, 839, rfl⟩
abbrev main_v712 : Ref sig .tc := ⟨.hbm, 840, rfl⟩
abbrev main_call13_cst : Ref sig .tc := ⟨.hbm, 841, rfl⟩
abbrev main_call13_v0 : Ref sig .tc := ⟨.hbm, 842, rfl⟩
abbrev main_v713 : Ref sig .tc := ⟨.hbm, 843, rfl⟩
abbrev main_v714 : Ref sig .tc := ⟨.hbm, 844, rfl⟩
abbrev main_v715 : Ref sig .tc := ⟨.hbm, 845, rfl⟩
abbrev main_v716 : Ref sig .tc := ⟨.hbm, 846, rfl⟩
abbrev main_v717 : Ref sig .tc := ⟨.hbm, 847, rfl⟩
abbrev main_v718 : Ref sig .tc := ⟨.hbm, 848, rfl⟩
abbrev main_v719 : Ref sig .tc := ⟨.hbm, 849, rfl⟩
abbrev main_v720 : Ref sig .tc := ⟨.hbm, 850, rfl⟩
abbrev main_v721 : Ref sig .tc := ⟨.hbm, 851, rfl⟩
abbrev main_v722 : Ref sig .tc := ⟨.hbm, 852, rfl⟩
abbrev main_cst_88 : Ref sig .tc := ⟨.hbm, 853, rfl⟩
abbrev main_v723 : Ref sig .tc := ⟨.hbm, 854, rfl⟩
abbrev main_v724 : Ref sig .tc := ⟨.hbm, 855, rfl⟩
abbrev main_v725 : Ref sig .tc := ⟨.hbm, 856, rfl⟩
abbrev main_cst_89 : Ref sig .tc := ⟨.hbm, 857, rfl⟩
abbrev main_v726 : Ref sig .tc := ⟨.hbm, 858, rfl⟩
abbrev main_cst_90 : Ref sig .tc := ⟨.hbm, 859, rfl⟩
abbrev main_v727 : Ref sig .tc := ⟨.hbm, 860, rfl⟩
abbrev main_v728 : Ref sig .tc := ⟨.hbm, 861, rfl⟩
abbrev main_v729 : Ref sig .tc := ⟨.hbm, 862, rfl⟩
abbrev main_cst_91 : Ref sig .tc := ⟨.hbm, 863, rfl⟩
abbrev main_v730 : Ref sig .tc := ⟨.hbm, 864, rfl⟩
abbrev main_v731 : Ref sig .tc := ⟨.hbm, 865, rfl⟩
abbrev main_v732 : Ref sig .tc := ⟨.hbm, 866, rfl⟩
abbrev main_v733 : Ref sig .tc := ⟨.hbm, 867, rfl⟩
abbrev main_v734 : Ref sig .tc := ⟨.hbm, 868, rfl⟩

abbrev nD : Nat := 1
abbrev τ : Topo := Topo.v7x

variable {F : FTy → Type} [FloatOps F]

class Facts₀ : Prop where
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1200000 : S_.BroadcastsInDim S1200000 (![] : Fin 0 → Fin S1200000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S3x4x64x64_S1x1x64x64_0_0_0_0 : S3x4x64x64.Slices ![0, 0, 0, 0] S1x1x64x64
  shapeCasts_S1x1x64x64_S64x64 : S1x1x64x64.ShapeCasts S64x64
  slices_S3x4x64_S1x1x64_0_0_0 : S3x4x64.Slices ![0, 0, 0] S1x1x64
  shapeCasts_S1x1x64_S64 : S1x1x64.ShapeCasts S64
  reducesTo_S100000x64_S64_d0 : S100000x64.ReducesTo [0] S64
  h_S_ : 0 < S_.numel
  bcast_S_S1x64 : S_.BroadcastsInDim S1x64 (![] : Fin 0 → Fin S1x64.rank)
  slices_S3x4x64x64_S1x1x64x64_0_1_0_0 : S3x4x64x64.Slices ![0, 1, 0, 0] S1x1x64x64
  slices_S3x4x64_S1x1x64_0_1_0 : S3x4x64.Slices ![0, 1, 0] S1x1x64
  slices_S3x4x64x64_S1x1x64x64_0_2_0_0 : S3x4x64x64.Slices ![0, 2, 0, 0] S1x1x64x64
  slices_S3x4x64_S1x1x64_0_2_0 : S3x4x64.Slices ![0, 2, 0] S1x1x64
  slices_S3x4x64x64_S1x1x64x64_0_3_0_0 : S3x4x64x64.Slices ![0, 3, 0, 0] S1x1x64x64
  slices_S3x4x64_S1x1x64_0_3_0 : S3x4x64.Slices ![0, 3, 0] S1x1x64
  slices_S3x64x64_S1x64x64_1_0_0 : S3x64x64.Slices ![1, 0, 0] S1x64x64
  slices_S3x64_S1x64_1_0 : S3x64.Slices ![1, 0] S1x64
  slices_S3x4x64x64_S1x1x64x64_1_0_0_0 : S3x4x64x64.Slices ![1, 0, 0, 0] S1x1x64x64
  slices_S3x4x64_S1x1x64_1_0_0 : S3x4x64.Slices ![1, 0, 0] S1x1x64
  slices_S3x4x64x64_S1x1x64x64_1_1_0_0 : S3x4x64x64.Slices ![1, 1, 0, 0] S1x1x64x64
  slices_S3x4x64_S1x1x64_1_1_0 : S3x4x64.Slices ![1, 1, 0] S1x1x64
  slices_S3x4x64x64_S1x1x64x64_1_2_0_0 : S3x4x64x64.Slices ![1, 2, 0, 0] S1x1x64x64
  slices_S3x4x64_S1x1x64_1_2_0 : S3x4x64.Slices ![1, 2, 0] S1x1x64
  slices_S3x4x64x64_S1x1x64x64_1_3_0_0 : S3x4x64x64.Slices ![1, 3, 0, 0] S1x1x64x64
  slices_S3x4x64_S1x1x64_1_3_0 : S3x4x64.Slices ![1, 3, 0] S1x1x64
  slices_S3x64x64_S1x64x64_2_0_0 : S3x64x64.Slices ![2, 0, 0] S1x64x64
  slices_S3x64_S1x64_2_0 : S3x64.Slices ![2, 0] S1x64
  slices_S3x4x64x64_S1x1x64x64_2_0_0_0 : S3x4x64x64.Slices ![2, 0, 0, 0] S1x1x64x64
  slices_S3x4x64_S1x1x64_2_0_0 : S3x4x64.Slices ![2, 0, 0] S1x1x64
  slices_S3x4x64x64_S1x1x64x64_2_1_0_0 : S3x4x64x64.Slices ![2, 1, 0, 0] S1x1x64x64
  slices_S3x4x64_S1x1x64_2_1_0 : S3x4x64.Slices ![2, 1, 0] S1x1x64
  slices_S3x4x64x64_S1x1x64x64_2_2_0_0 : S3x4x64x64.Slices ![2, 2, 0, 0] S1x1x64x64
  slices_S3x4x64_S1x1x64_2_2_0 : S3x4x64.Slices ![2, 2, 0] S1x1x64
  slices_S3x4x64x64_S1x1x64x64_2_3_0_0 : S3x4x64x64.Slices ![2, 3, 0, 0] S1x1x64x64
  slices_S3x4x64_S1x1x64_2_3_0 : S3x4x64.Slices ![2, 3, 0] S1x1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  scatter_S128x64_S100000x1_S100000x64_1_0_0_1_wf : ScatterDims.WF S128x64 S100000x1 S100000x64 [1] [0] [0] 1
  scatter_S128_S100000x1_S100000_n_0_0_1_wf : ScatterDims.WF S128 S100000x1 S100000 [] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf

class Facts : Prop extends Facts₀ where

variable [Facts]
-- ==== Proof.PreDecode.lean ====
import proofs.«416992_j9088150798514_2_alg».proof.Pre_finite_inputs
import proofs.«416992_j9088150798514_2_alg».proof.Proof.Gen.Pre_finite_inputs
import Idealize.ShloMosaic.Lib.ReduceAll
import Idealize.ShloMosaic.Lib.StableHlo.Predicate
import Idealize.ShloMosaic.Lib.ValueIdx
import Idealize.ShloMosaic.Lib.ValueLayout

noncomputable section

namespace Gnn.PreDecode

open Idealize.ShloMosaic Idealize.ShloMosaic.ValueIdx
open Cert.Pre_finite_inputs

instance subsingleton_S_ : Subsingleton S_.Idx := ⟨fun a b => funext fun d => d.elim0⟩

theorem top_bits : Ideal.ofBits .f32 0x7F800000#32 = (⊤ : EReal) := by
  simp [Ideal.ofBits, Ideal.ieee]

theorem real_of_abs_lt (x : EReal)
    (h : Ideal.cmp .olt (max x (-x)) (Ideal.ofBits .f32 0x7F800000#32) = 1#1) : ∃ r : ℝ, x = ((r : ℝ) : EReal) := by
  rw [top_bits] at h
  simp only [Ideal.cmp, StableHlo.Predicate.ofBool_eq_one_iff, decide_eq_true_eq] at h
  induction x using EReal.rec with
  | bot => simp at h
  | top => simp at h
  | coe r => exact ⟨r, rfl⟩

theorem floats_real {s : Shape} {axes : List (Fin s.rank)} (a : FVec Ideal s .f32)
    (hb : S_.BroadcastsInDim s (![] : Fin 0 → Fin s.rank)) (hr : s.ReducesTo axes S_) (hu : 0 < S_.numel) (init : IVec S_ 1)
    (e : Host.reduce IntOp.andi
      (cmpf .olt (Host.absf a) (broadcastInDim s ![] hb (constant (F := Ideal) S_ .f32 0x7F800000#32))) init hr hu ix0 = 1#1)
    (i : s.Idx) : ∃ r : ℝ, a i = ((r : ℝ) : EReal) :=
  real_of_abs_lt (a i) (Host.reduce_andi_all _ init hr hu ix0 e i)

theorem ints_sge {s : Shape} {axes : List (Fin s.rank)} (x : IVec s 32) (c : BitVec 32)
    (hb : S_.BroadcastsInDim s (![] : Fin 0 → Fin s.rank)) (hr : s.ReducesTo axes S_) (hu : 0 < S_.numel) (init : IVec S_ 1)
    (e : Host.reduce IntOp.andi (cmpi .sge x (broadcastInDim s ![] hb (constantI S_ 32 c))) init hr hu ix0 = 1#1)
    (i : s.Idx) : c.toInt ≤ (x i).toInt := by
  have h : IntOp.cmpi .sge (x i) c = 1#1 := Host.reduce_andi_all _ init hr hu ix0 e i
  unfold IntOp.cmpi at h
  rw [StableHlo.Predicate.ofBool_eq_one_iff] at h
  simpa only [BitVec.sle, decide_eq_true_eq] using h

theorem ints_slt {s : Shape} {axes : List (Fin s.rank)} (x : IVec s 32) (c : BitVec 32)
    (hb : S_.BroadcastsInDim s (![] : Fin 0 → Fin s.rank)) (hr : s.ReducesTo axes S_) (hu : 0 < S_.numel) (init : IVec S_ 1)
    (e : Host.reduce IntOp.andi (cmpi .slt x (broadcastInDim s ![] hb (constantI S_ 32 c))) init hr hu ix0 = 1#1)
    (i : s.Idx) : (x i).toInt < c.toInt := by
  have h : IntOp.cmpi .slt (x i) c = 1#1 := Host.reduce_andi_all _ init hr hu ix0 e i
  unfold IntOp.cmpi at h
  rw [StableHlo.Predicate.ofBool_eq_one_iff] at h
  simpa only [BitVec.slt, decide_eq_true_eq] using h

theorem andi_apply_eq_one {s : Shape} (x y : IVec s 1) (i : s.Idx) : andi x y i = 1#1 ↔ x i = 1#1 ∧ y i = 1#1 :=
  IntOp.andi_eq_one

theorem row1_apply [Facts] (a1 : IVec S2x1200000 32) (e : Fin 1200000) :
    shapeCast S1200000 (extractStridedSlice S1x1200000 ![1, 0] a1 Facts.slices_S2x1200000_S1x1200000_1_0)
      Facts.shapeCasts_S1x1200000_S1200000 (ix1 e) = a1 (ix2 1 e) :=
  (shapeCast_1a_a_apply _ _ e).trans (slice2_axis0_apply 1 a1 _ (0 : Fin 1) e (1 : Fin 2) rfl)

theorem toInt_0 : (0#32 : BitVec 32).toInt = 0 := by decide
theorem toInt_4 : (4#32 : BitVec 32).toInt = 4 := by decide
theorem toInt_128 : (128#32 : BitVec 32).toInt = 128 := by decide
theorem toInt_100000 : (100000#32 : BitVec 32).toInt = 100000 := by decide

end Gnn.PreDecode

open Idealize.ShloMosaic Idealize.ShloMosaic.ValueIdx Cert.Pre_finite_inputs Gnn.PreDecode in

theorem Gnn.PreDecode.decode [Cert.Pre_finite_inputs.Facts]
    (a0 : FVec Ideal S100000x64 .f32) (a1 : IVec S2x1200000 32) (a2 : IVec S1200000 32) (a3 : IVec S100000 32)
    (a4 : FVec Ideal S3x64x64 .f32) (a5 : FVec Ideal S3x64 .f32) (a6 : FVec Ideal S3x4x64x64 .f32) (a7 : FVec Ideal S3x4x64 .f32)
    (a8 : FVec Ideal S3x4x64 .f32) (a9 : FVec Ideal S3x4x64 .f32) (a10 : FVec Ideal S3x4x64x64 .f32) (a11 : FVec Ideal S3x4x64 .f32)
    (h : Cert.Pre_finite_inputs.fn (F := Ideal) a0 a1 a2 a3 a4 a5 a6 a7 a8 a9 a10 a11 = (fun _ => 1#1)) :
    (∃ r : Fin 100000 → Fin 64 → ℝ, ∀ n k, a0 (ix2 n k) = ((r n k : ℝ) : EReal))
    ∧ (∃ r : Fin 3 → Fin 64 → Fin 64 → ℝ, ∀ l k d, a4 (ix3 l k d) = ((r l k d : ℝ) : EReal))
    ∧ (∃ r : Fin 3 → Fin 64 → ℝ, ∀ l d, a5 (ix2 l d) = ((r l d : ℝ) : EReal))
    ∧ (∃ r : Fin 3 → Fin 4 → Fin 64 → Fin 64 → ℝ, ∀ l q k d, a6 (ix4 l q k d) = ((r l q k d : ℝ) : EReal))
    ∧ (∃ r : Fin 3 → Fin 4 → Fin 64 → ℝ, ∀ l q d, a7 (ix3 l q d) = ((r l q d : ℝ) : EReal))
    ∧ (∃ r : Fin 3 → Fin 4 → Fin 64 → ℝ, ∀ l q d, a8 (ix3 l q d) = ((r l q d : ℝ) : EReal))
    ∧ (∃ r : Fin 3 → Fin 4 → Fin 64 → ℝ, ∀ l q d, a9 (ix3 l q d) = ((r l q d : ℝ) : EReal))
    ∧ (∃ r : Fin 3 → Fin 4 → Fin 64 → Fin 64 → ℝ, ∀ l q k d, a10 (ix4 l q k d) = ((r l q k d : ℝ) : EReal))
    ∧ (∃ r : Fin 3 → Fin 4 → Fin 64 → ℝ, ∀ l q d, a11 (ix3 l q d) = ((r l q d : ℝ) : EReal))
    ∧ (∀ e : Fin 1200000, 0 ≤ (a1 (ix2 1 e)).toInt ∧ (a1 (ix2 1 e)).toInt < 100000)
    ∧ (∀ e : Fin 1200000, 0 ≤ (a2 (ix1 e)).toInt ∧ (a2 (ix1 e)).toInt < 4)
    ∧ (∀ n : Fin 100000, 0 ≤ (a3 (ix1 n)).toInt ∧ (a3 (ix1 n)).toInt < 128) := by
  have e := congrFun h ix0
  unfold Cert.Pre_finite_inputs.fn at e
  dsimp only at e
  unfold Cert.Pre_finite_inputs.fn_part1 at e
  dsimp only at e
  unfold Cert.Pre_finite_inputs.fn_part2 at e
  dsimp only at e
  unfold Cert.Pre_finite_inputs.fn_part3 at e
  dsimp only at e
  unfold Cert.Pre_finite_inputs.fn_part4 at e
  dsimp only at e
  simp only [andi_apply_eq_one] at e
  obtain ⟨⟨⟨⟨⟨⟨⟨⟨⟨⟨⟨⟨⟨⟨c0, c4⟩, c5⟩, c6⟩, c7⟩, c8⟩, c9⟩, c10⟩, c11⟩, c1lo⟩, c1hi⟩, c2lo⟩, c2hi⟩, c3lo⟩, c3hi⟩ := e
  have r0 := fun n k => floats_real a0 _ _ _ _ c0 (ix2 n k)
  have r4 := fun l k d => floats_real a4 _ _ _ _ c4 (ix3 l k d)
  have r5 := fun l d => floats_real a5 _ _ _ _ c5 (ix2 l d)
  have r6 := fun l q k d => floats_real a6 _ _ _ _ c6 (ix4 l q k d)
  have r7 := fun l q d => floats_real a7 _ _ _ _ c7 (ix3 l q d)
  have r8 := fun l q d => floats_real a8 _ _ _ _ c8 (ix3 l q d)
  have r9 := fun l q d => floats_real a9 _ _ _ _ c9 (ix3 l q d)
  have r10 := fun l q k d => floats_real a10 _ _ _ _ c10 (ix4 l q k d)
  have r11 := fun l q d => floats_real a11 _ _ _ _ c11 (ix3 l q d)
  refine ⟨⟨fun n k => (r0 n k).choose, fun n k => (r0 n k).choose_spec⟩,
    ⟨fun l k d => (r4 l k d).choose, fun l k d => (r4 l k d).choose_spec⟩,
    ⟨fun l d => (r5 l d).choose, fun l d => (r5 l d).choose_spec⟩,
    ⟨fun l q k d => (r6 l q k d).choose, fun l q k d => (r6 l q k d).choose_spec⟩,
    ⟨fun l q d => (r7 l q d).choose, fun l q d => (r7 l q d).choose_spec⟩,
    ⟨fun l q d => (r8 l q d).choose, fun l q d => (r8 l q d).choose_spec⟩,
    ⟨fun l q d => (r9 l q d).choose, fun l q d => (r9 l q d).choose_spec⟩,
    ⟨fun l q k d => (r10 l q k d).choose, fun l q k d => (r10 l q k d).choose_spec⟩,
    ⟨fun l q d => (r11 l q d).choose, fun l q d => (r11 l q d).choose_spec⟩,
    fun e => ?_, fun e => ?_, fun n => ?_⟩
  · have lo := ints_sge _ _ _ _ _ _ c1lo (ix1 e)
    have hi := ints_slt _ _ _ _ _ _ c1hi (ix1 e)
    rw [row1_apply a1 e] at lo hi
    rw [toInt_0] at lo
    rw [toInt_100000] at hi
    exact ⟨lo, hi⟩
  · have lo := ints_sge a2 _ _ _ _ _ c2lo (ix1 e)
    have hi := ints_slt a2 _ _ _ _ _ c2hi (ix1 e)
    rw [toInt_0] at lo
    rw [toInt_4] at hi
    exact ⟨lo, hi⟩
  · have lo := ints_sge a3 _ _ _ _ _ c3lo (ix1 n)
    have hi := ints_slt a3 _ _ _ _ _ c3hi (ix1 n)
    rw [toInt_0] at lo
    rw [toInt_128] at hi
    exact ⟨lo, hi⟩

end
-- ==== Proof.KTerms.lean ====
import proofs.«416992_j9088150798514_2_alg».proof.Proof.Gen.KernelIdeal
import Idealize.ShloMosaic.Lib.StableHlo.Run
import Idealize.ShloMosaic.PureOps.Ideal

noncomputable section

namespace Cert.KernelIdeal.KTerm

open Cert.KernelIdeal Cert.KernelIdeal.Gen Idealize.ShloMosaic Idealize.ShloMosaic.TcCoe Idealize.SL.Sem Idealize.ShloMosaic.StableHlo

variable {F : FTy → Type} [FloatOps F]

def srcIdx (ei : IVec S2x1200000 32) : IVec S1200000x1 32 :=
  let v1 : IVec S1200000 32 := shapeCast _ (extractStridedSlice S1x1200000 ![0, 0] ei slices_S2x1200000_S1x1200000_0_0) shapeCasts_S1x1200000_S1200000
  broadcastInDim S1200000x1 ![0] bcast_S1200000_S1200000x1_0
    (select (cmpi .slt v1 (broadcastInDim S1200000 ![] bcast_S_S1200000 (constantI S_ 32 0#32)))
      (addi v1 (broadcastInDim S1200000 ![] bcast_S_S1200000 (constantI S_ 32 100000#32))) v1)

def segIdx (ei : IVec S2x1200000 32) (et : IVec S1200000 32) : IVec S1200000x1 32 :=
  broadcastInDim S1200000x1 ![0] bcast_S1200000_S1200000x1_0
    (addi (muli et (broadcastInDim S1200000 ![] bcast_S_S1200000 (constantI S_ 32 100000#32)))
      (shapeCast _ (extractStridedSlice S1x1200000 ![1, 0] ei slices_S2x1200000_S1x1200000_1_0) shapeCasts_S1x1200000_S1200000))

def aggTerm (x : FVec F S100000x64 .f32) (ei : IVec S2x1200000 32) (et : IVec S1200000 32) : FVec F S4x100000x64 .f32 :=
  shapeCast _ (Host.scatterAdd scatter_S400000x64_S1200000x1_S1200000x64_1_0_0_1
    (broadcastInDim S400000x64 ![] bcast_S_S400000x64 (constant S_ .f32 0x00000000#32)) (segIdx ei et)
    (Host.gather gather_S100000x64_S1200000x1_S1200000x64_1_0_n_n_0_1_164 x (srcIdx ei))) shapeCasts_S400000x64_S4x100000x64

def tileSum (t : FVec F S20x4x64 .f32) : FVec F S4x64 .f32 :=
  Host.reduceAdd t (constant S_ .f32 0x00000000#32) reducesTo_S20x4x64_S4x64_d0 h_S_

def meanTerm (s : FVec F S20x4x64 .f32) : FVec F S4x64 .f32 :=
  Host.divf (tileSum s) (broadcastInDim S4x64 ![] bcast_S_S4x64 (constant S_ .f32 0x47C35000#32))

def varTerm (s q : FVec F S20x4x64 .f32) : FVec F S4x64 .f32 :=
  maximumf (subf (meanTerm q) (mulf (meanTerm s) (meanTerm s))) (broadcastInDim S4x64 ![] bcast_S_S4x64 (constant S_ .f32 0x00000000#32))

def batchCol (gr : IVec S100000 32) : IVec S100000x1 32 := shapeCast _ gr shapeCasts_S100000_S100000x1

def poolTail (tiles : FVec F S20x128x64 .f32) (gr : IVec S100000 32) : FVec F S128x64 .f32 :=
  Host.divf (Host.reduceAdd tiles (constant S_ .f32 0x00000000#32) reducesTo_S20x128x64_S128x64_d0 h_S_)
    (broadcastInDim S128x64 ![0, 1] bcast_S128x1_S128x64_0_1 (broadcastInDim S128x1 ![0] bcast_S128_S128x1_0
      (maximumf (Host.scatterAdd scatter_S128_S100000x1_S100000_n_0_0_1 (broadcastInDim S128 ![] bcast_S_S128 (constant S_ .f32 0x00000000#32))
          (broadcastInDim S100000x1 ![0] bcast_S100000_S100000x1_0
            (select (cmpi .slt gr (broadcastInDim S100000 ![] bcast_S_S100000 (constantI S_ 32 0#32)))
              (addi gr (broadcastInDim S100000 ![] bcast_S_S100000 (constantI S_ 32 128#32))) gr))
          (broadcastInDim S100000 ![] bcast_S_S100000 (constant S_ .f32 0x3F800000#32)))
        (broadcastInDim S128 ![] bcast_S_S128 (constant S_ .f32 0x3F800000#32)))))

def wsl0 (w : FVec F S3x64x64 .f32) : FVec F S64x64 .f32 := shapeCast _ (extractStridedSlice S1x64x64 ![0, 0, 0] w slices_S3x64x64_S1x64x64_0_0_0) shapeCasts_S1x64x64_S64x64
def bsl0 (w : FVec F S3x64 .f32) : FVec F S64 .f32 := shapeCast _ (extractStridedSlice S1x64 ![0, 0] w slices_S3x64_S1x64_0_0) shapeCasts_S1x64_S64
def mat0 (w : FVec F S3x4x64x64 .f32) : FVec F S4x64x64 .f32 := shapeCast _ (extractStridedSlice S1x4x64x64 ![0, 0, 0, 0] w slices_S3x4x64x64_S1x4x64x64_0_0_0_0) shapeCasts_S1x4x64x64_S4x64x64
def vec0 (w : FVec F S3x4x64 .f32) : FVec F S4x64 .f32 := shapeCast _ (extractStridedSlice S1x4x64 ![0, 0, 0] w slices_S3x4x64_S1x4x64_0_0_0) shapeCasts_S1x4x64_S4x64
def wsl1 (w : FVec F S3x64x64 .f32) : FVec F S64x64 .f32 := shapeCast _ (extractStridedSlice S1x64x64 ![1, 0, 0] w slices_S3x64x64_S1x64x64_1_0_0) shapeCasts_S1x64x64_S64x64
def bsl1 (w : FVec F S3x64 .f32) : FVec F S64 .f32 := shapeCast _ (extractStridedSlice S1x64 ![1, 0] w slices_S3x64_S1x64_1_0) shapeCasts_S1x64_S64
def mat1 (w : FVec F S3x4x64x64 .f32) : FVec F S4x64x64 .f32 := shapeCast _ (extractStridedSlice S1x4x64x64 ![1, 0, 0, 0] w slices_S3x4x64x64_S1x4x64x64_1_0_0_0) shapeCasts_S1x4x64x64_S4x64x64
def vec1 (w : FVec F S3x4x64 .f32) : FVec F S4x64 .f32 := shapeCast _ (extractStridedSlice S1x4x64 ![1, 0, 0] w slices_S3x4x64_S1x4x64_1_0_0) shapeCasts_S1x4x64_S4x64
def wsl2 (w : FVec F S3x64x64 .f32) : FVec F S64x64 .f32 := shapeCast _ (extractStridedSlice S1x64x64 ![2, 0, 0] w slices_S3x64x64_S1x64x64_2_0_0) shapeCasts_S1x64x64_S64x64
def bsl2 (w : FVec F S3x64 .f32) : FVec F S64 .f32 := shapeCast _ (extractStridedSlice S1x64 ![2, 0] w slices_S3x64_S1x64_2_0) shapeCasts_S1x64_S64
def mat2 (w : FVec F S3x4x64x64 .f32) : FVec F S4x64x64 .f32 := shapeCast _ (extractStridedSlice S1x4x64x64 ![2, 0, 0, 0] w slices_S3x4x64x64_S1x4x64x64_2_0_0_0) shapeCasts_S1x4x64x64_S4x64x64
def vec2 (w : FVec F S3x4x64 .f32) : FVec F S4x64 .f32 := shapeCast _ (extractStridedSlice S1x4x64 ![2, 0, 0] w slices_S3x4x64_S1x4x64_2_0_0) shapeCasts_S1x4x64_S4x64

end Cert.KernelIdeal.KTerm

namespace Cert.KernelIdeal.GnnK
open Cert.KernelIdeal Idealize.ShloMosaic Idealize.ShloMosaic.TcCoe

abbrev EntryV := (c : Dev nD) → (b : Ref sig .tc) → Buf (Elt Ideal) ((c : Thread nD τ).loc b)
end Cert.KernelIdeal.GnnK

end
-- ==== Proof.Spec.lean ====
import Mathlib.Data.EReal.Inv
import Mathlib.Analysis.SpecialFunctions.Pow.Real
import Mathlib.Algebra.BigOperators.Group.Finset.Basic

noncomputable section

namespace Gnn

open Finset

structure LayerP where
  wsl : Fin 64 → Fin 64 → ℝ
  bsl : Fin 64 → ℝ
  w1 : Fin 4 → Fin 64 → Fin 64 → ℝ
  b1 : Fin 4 → Fin 64 → ℝ
  ga : Fin 4 → Fin 64 → ℝ
  be : Fin 4 → Fin 64 → ℝ
  w2 : Fin 4 → Fin 64 → Fin 64 → ℝ
  b2 : Fin 4 → Fin 64 → ℝ

structure Words where
  e0 : Fin 1200000 → BitVec 32
  e1 : Fin 1200000 → BitVec 32
  ty : Fin 1200000 → BitVec 32
  gr : Fin 100000 → BitVec 32

def src (G : Words) (e : Fin 1200000) : Fin 100000 :=
  ⟨min ((if (G.e0 e).toInt < 0 then G.e0 e + 100000#32 else G.e0 e).toInt.toNat) 99999, by omega⟩

def inn (G : Words) (r : Fin 4) (n : Fin 100000) : Finset (Fin 1200000) :=
  univ.filter fun e => (G.e1 e).toInt = (n.val : ℤ) ∧ (G.ty e).toInt = (r.val : ℤ)

def members (G : Words) (g : Fin 128) : Finset (Fin 100000) :=
  univ.filter fun n => (G.gr n).toInt = (g.val : ℤ)

abbrev Feat := Fin 100000 → Fin 64 → ℝ

def tileRow (i : Fin 20) (p : Fin 5000) : Fin 100000 := ⟨5000 * i.val + p.val, by omega⟩

def agg (G : Words) (x : Feat) (r : Fin 4) (n : Fin 100000) (k : Fin 64) : ℝ :=
  ∑ e ∈ inn G r n, x (src G e) k

def preOf (w1 : Fin 4 → Fin 64 → Fin 64 → ℝ) (b1 : Fin 4 → Fin 64 → ℝ) (x : Feat) (a : Fin 4 → Feat)
    (r : Fin 4) (n : Fin 100000) (d : Fin 64) : ℝ :=
  (∑ k, (x n k + a r n k) * w1 r k d) + b1 r d

def pre (G : Words) (P : LayerP) (x : Feat) (r : Fin 4) (n : Fin 100000) (d : Fin 64) : ℝ :=
  preOf P.w1 P.b1 x (agg G x) r n d

def mean (G : Words) (P : LayerP) (x : Feat) (r : Fin 4) (d : Fin 64) : ℝ :=
  (∑ n, pre G P x r n d) / 100000

def var (G : Words) (P : LayerP) (x : Feat) (r : Fin 4) (d : Fin 64) : ℝ :=
  (∑ n, (pre G P x r n d - mean G P x r d) * (pre G P x r n d - mean G P x r d)) / 100000

def varK (G : Words) (P : LayerP) (x : Feat) (r : Fin 4) (d : Fin 64) : ℝ :=
  max ((∑ n, pre G P x r n d * pre G P x r n d) / 100000 - mean G P x r d * mean G P x r d) 0

def actOf (eps : ℝ) (P : LayerP) (z : Fin 4 → Feat) (mu va : Fin 4 → Fin 64 → ℝ) (r : Fin 4) (n : Fin 100000) (d : Fin 64) : ℝ :=
  max ((z r n d - mu r d) * (Real.sqrt (va r d + eps))⁻¹ * P.ga r d + P.be r d) 0

def self (P : LayerP) (x : Feat) (n : Fin 100000) (d : Fin 64) : ℝ := (∑ k, x n k * P.wsl k d) + P.bsl d

def stepOf (P : LayerP) (ac : Fin 4 → Feat) (r : Fin 4) (a : Feat) : Feat :=
  fun n d => (a n d + ∑ k, ac r n k * P.w2 r k d) + P.b2 r d

def coreOf (eps : ℝ) (P : LayerP) (x : Feat) (a : Fin 4 → Feat) (mu va : Fin 4 → Fin 64 → ℝ) : Feat :=
  stepOf P (actOf eps P (preOf P.w1 P.b1 x a) mu va) 3 (stepOf P (actOf eps P (preOf P.w1 P.b1 x a) mu va) 2
    (stepOf P (actOf eps P (preOf P.w1 P.b1 x a) mu va) 1 (stepOf P (actOf eps P (preOf P.w1 P.b1 x a) mu va) 0 (self P x))))

def core (eps : ℝ) (G : Words) (P : LayerP) (x : Feat) : Feat :=
  coreOf eps P x (agg G x) (mean G P x) (var G P x)

def layer (relu : Bool) (eps : ℝ) (G : Words) (P : LayerP) (x : Feat) : Feat :=
  fun n d => if relu then max (core eps G P x n d) 0 else core eps G P x n d

def pool (G : Words) (x : Feat) (g : Fin 128) (d : Fin 64) : ℝ :=
  (∑ n ∈ members G g, x n d) / max ((members G g).card : ℝ) 1

def result (eps : ℝ) (G : Words) (P0 P1 P2 : LayerP) (x : Feat) : Fin 128 → Fin 64 → ℝ :=
  pool G (layer false eps G P2 (layer true eps G P1 (layer true eps G P0 x)))

def layerP (wsl : Fin 3 → Fin 64 → Fin 64 → ℝ) (bsl : Fin 3 → Fin 64 → ℝ) (w1 : Fin 3 → Fin 4 → Fin 64 → Fin 64 → ℝ)
    (b1 ga be : Fin 3 → Fin 4 → Fin 64 → ℝ) (w2 : Fin 3 → Fin 4 → Fin 64 → Fin 64 → ℝ) (b2 : Fin 3 → Fin 4 → Fin 64 → ℝ)
    (l : Fin 3) : LayerP where
  wsl := wsl l
  bsl := bsl l
  w1 := w1 l
  b1 := b1 l
  ga := ga l
  be := be l
  w2 := w2 l
  b2 := b2 l

theorem mean_sq_dev {ι : Type*} [Fintype ι] (f : ι → ℝ) (N : ℝ) (hN : N ≠ 0)
    (hcard : (Fintype.card ι : ℝ) = N) :
    (∑ i, (f i - (∑ j, f j) / N) * (f i - (∑ j, f j) / N)) / N
      = (∑ i, f i * f i) / N - (∑ j, f j) / N * ((∑ j, f j) / N) := by
  generalize hS : (∑ j, f j) = S
  have h1 : ∑ i, (f i - S / N) * (f i - S / N)
      = ∑ i, f i * f i - 2 * (S / N) * S + N * (S / N * (S / N)) := by
    have h2 : ∀ i, (f i - S / N) * (f i - S / N) = f i * f i - 2 * (S / N) * f i + S / N * (S / N) := by
      intro i; ring
    simp only [h2]
    rw [Finset.sum_add_distrib, Finset.sum_sub_distrib, ← Finset.mul_sum, Finset.sum_const, Finset.card_univ,
      nsmul_eq_mul, hcard, hS]
  rw [h1]
  field_simp
  ring

theorem mean_sq_nonneg {ι : Type*} [Fintype ι] (g : ι → ℝ) (N : ℝ) (hN : 0 ≤ N) :
    0 ≤ (∑ i, g i * g i) / N :=
  div_nonneg (Finset.sum_nonneg fun i _ => mul_self_nonneg (g i)) hN

theorem varK_eq_var_aux (f : Fin 100000 → ℝ) :
    max ((∑ n, f n * f n) / 100000 - (∑ n, f n) / 100000 * ((∑ n, f n) / 100000)) 0
      = (∑ n, (f n - (∑ n, f n) / 100000) * (f n - (∑ n, f n) / 100000)) / 100000 := by
  have hc : (Fintype.card (Fin 100000) : ℝ) = 100000 := by simp
  have h := mean_sq_dev f 100000 (by norm_num) hc
  rw [← h]
  exact max_eq_left (mean_sq_nonneg (fun n => f n - (∑ n, f n) / 100000) 100000 (by norm_num))

theorem varK_eq_var (G : Words) (P : LayerP) (x : Feat) (r : Fin 4) (d : Fin 64) : varK G P x r d = var G P x r d := by
  unfold varK var mean
  exact varK_eq_var_aux (fun n => pre G P x r n d)

theorem var_nonneg (G : Words) (P : LayerP) (x : Feat) (r : Fin 4) (d : Fin 64) : 0 ≤ var G P x r d := by
  unfold var
  exact mean_sq_nonneg (fun n => pre G P x r n d - mean G P x r d) 100000 (by norm_num)

end Gnn

end
-- ==== Proof.LibCoe.lean ====
import Idealize.ShloMosaic.PureOps.Ideal
import Idealize.ShloMosaic.PureOps.Ideal.Laws
import Idealize.ShloMosaic.Lib.ValueIdx

noncomputable section

namespace Gnn

def epsR : ℝ := 10995116 / 2 ^ 40

theorem epsR_pos : 0 < epsR := by
  unfold epsR
  positivity

namespace Coe

open Idealize.ShloMosaic

theorem coe_sum {ι : Type*} (s : Finset ι) (f : ι → ℝ) :
    ∑ i ∈ s, ((f i : ℝ) : EReal) = ((∑ i ∈ s, f i : ℝ) : EReal) := by
  classical
  refine Finset.induction_on s ?_ ?_
  · rw [Finset.sum_empty, Finset.sum_empty, EReal.coe_zero]
  · intro a t ha ih
    rw [Finset.sum_insert ha, Finset.sum_insert ha, ih, EReal.coe_add]

theorem coe_sum_univ {ι : Type*} [Fintype ι] (f : ι → ℝ) :
    ∑ i, ((f i : ℝ) : EReal) = ((∑ i, f i : ℝ) : EReal) :=
  coe_sum Finset.univ f

theorem sum_eq_coe {ι : Type*} (s : Finset ι) (F : ι → EReal) (f : ι → ℝ) (h : ∀ i ∈ s, F i = ((f i : ℝ) : EReal)) :
    ∑ i ∈ s, F i = ((∑ i ∈ s, f i : ℝ) : EReal) := by
  rw [Finset.sum_congr rfl h, coe_sum]

theorem add_coe (a b : ℝ) : (a : EReal) + (b : EReal) = ((a + b : ℝ) : EReal) := (EReal.coe_add a b).symm

theorem sub_coe (a b : ℝ) : (a : EReal) - (b : EReal) = ((a - b : ℝ) : EReal) := (EReal.coe_sub a b).symm

theorem mul_coe (a b : ℝ) : (a : EReal) * (b : EReal) = ((a * b : ℝ) : EReal) := (EReal.coe_mul a b).symm

theorem div_coe' (a c : ℝ) (hc : c ≠ 0) : Ideal.div (a : EReal) (c : EReal) = ((a / c : ℝ) : EReal) := by
  rw [Ideal.div_coe hc, ← EReal.coe_mul, mul_one_div]

theorem rsqrt_coe (r : ℝ) (hr : 0 < r) : Ideal.rsqrt (r : EReal) = (((Real.sqrt r)⁻¹ : ℝ) : EReal) := by
  rw [Ideal.rsqrt_coe, if_neg (not_lt.mpr hr.le), if_neg hr.ne']

theorem max_coe (a b : ℝ) : max (a : EReal) (b : EReal) = ((max a b : ℝ) : EReal) :=
  (EReal.coe_strictMono.monotone.map_max).symm

theorem mul_coe_one (x : EReal) : x * ((1 : ℝ) : EReal) = x := by rw [EReal.coe_one, mul_one]

theorem mul_coe_zero (x : EReal) : x * ((0 : ℝ) : EReal) = 0 := by rw [EReal.coe_zero, mul_zero]

theorem coe_one_mul (x : EReal) : ((1 : ℝ) : EReal) * x = x := by rw [EReal.coe_one, one_mul]

theorem coe_zero_mul (x : EReal) : ((0 : ℝ) : EReal) * x = 0 := by rw [EReal.coe_zero, zero_mul]

theorem ofBits_zero : Ideal.ofBits .f32 0x00000000#32 = 0 := Ideal.ofBits_zero_f32

theorem ofBits_zero_coe : Ideal.ofBits .f32 0x00000000#32 = ((0 : ℝ) : EReal) := by
  rw [Ideal.ofBits_zero_f32, EReal.coe_zero]

theorem ofBits_one : Ideal.ofBits .f32 0x3F800000#32 = ((1 : ℝ) : EReal) := by
  simp [Ideal.ofBits, Ideal.ieee, -EReal.coe_mul]; norm_num

theorem ofBits_100000 : Ideal.ofBits .f32 0x47C35000#32 = ((100000 : ℝ) : EReal) := by
  simp [Ideal.ofBits, Ideal.ieee, -EReal.coe_mul]; norm_num

theorem ofBits_eps : Ideal.ofBits .f32 0x3727C5AC#32 = ((Gnn.epsR : ℝ) : EReal) := by
  simp [Ideal.ofBits, Ideal.ieee, -EReal.coe_mul, Gnn.epsR]; norm_num

theorem epsR_pos : 0 < Gnn.epsR := Gnn.epsR_pos

theorem uitofp_eq {w : Nat} (b : BitVec w) : FloatOps.uitofp (F := Ideal) .f32 b = ((b.toNat : ℝ) : EReal) := rfl

theorem uitofp_bit (b : BitVec 1) :
    FloatOps.uitofp (F := Ideal) .f32 b = if b = 1#1 then ((1 : ℝ) : EReal) else ((0 : ℝ) : EReal) := by
  rw [uitofp_eq]
  rcases (by decide : ∀ c : BitVec 1, c = 0#1 ∨ c = 1#1) b with h | h <;> subst h <;> simp

end Coe

end Gnn

end
-- ==== Proof.LibScatter.lean ====
import Idealize.ShloMosaic.PureOps.Ideal
import Idealize.ShloMosaic.PureOps.Ideal.Laws
import Idealize.ShloMosaic.Lib.ValueIdx

noncomputable section

namespace Gnn.Scatter

open Idealize.ShloMosaic Idealize.ShloMosaic.ValueIdx Finset

abbrev rowGather (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

abbrev rowScatter (M E C : Nat) (wf : ScatterDims.WF ⟨2, ![M, C]⟩ ⟨2, ![E, 1]⟩ ⟨2, ![E, C]⟩ [1] [0] [0] 1) :
    ScatterDims ⟨2, ![M, C]⟩ ⟨2, ![E, 1]⟩ ⟨2, ![E, C]⟩ where
  updateWindowDims := [1]
  insertedWindowDims := [0]
  scatterDimsToOperandDims := [0]
  indexVectorDim := 1
  wf := wf

abbrev vecScatter (M E : Nat) (wf : ScatterDims.WF ⟨1, ![M]⟩ ⟨2, ![E, 1]⟩ ⟨1, ![E]⟩ [] [0] [0] 1) :
    ScatterDims ⟨1, ![M]⟩ ⟨2, ![E, 1]⟩ ⟨1, ![E]⟩ where
  updateWindowDims := []
  insertedWindowDims := [0]
  scatterDimsToOperandDims := [0]
  indexVectorDim := 1
  wf := wf

theorem gather_row_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGather N E C wf) x idx (ix2 e k)
      = x (ix2 ⟨min (idx (ix2 e ⟨0, Nat.one_pos⟩)).toInt.toNat (N - 1), by omega⟩ k) := by
  unfold Host.gather
  congr 1
  funext a
  refine Fin.ext ?_
  show (rowGather N E C wf).start (ix2 e k) idx a + (rowGather N E C wf).batchCoord (ix2 e k) a
      + (rowGather N E C wf).offCoord (ix2 e k) a = _
  rw [GatherDims.batchCoord_eq_zero _ _ _ List.not_mem_nil, Nat.add_zero]
  match a with
  | ⟨0, h0⟩ =>
    rw [GatherDims.offCoord_eq_zero _ _ _
      (fun h => ((GatherDims.mem_sKept _ _).mp h).1 (List.mem_singleton.mpr rfl)), Nat.add_zero]
    unfold GatherDims.start
    rw [dif_pos (show (⟨0, h0⟩ : Fin 2) ∈ (rowGather N E C wf).startIndexMap from List.mem_singleton.mpr rfl)]
    have hsi : (rowGather N E C wf).siIdx (ix2 e k) ⟨List.idxOf (⟨0, h0⟩ : Fin 2) (rowGather N E C wf).startIndexMap,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
    rfl
  | ⟨1, h1⟩ =>
    have hn : (⟨1, h1⟩ : Fin 2) ∉ (rowGather N E C wf).startIndexMap := fun h =>
      absurd (congrArg Fin.val (List.mem_singleton.mp h)) Nat.one_ne_zero
    have hk : (⟨1, h1⟩ : Fin 2) ∈ (rowGather N E C wf).sKept :=
      (GatherDims.mem_sKept _ _).mpr ⟨fun h => absurd (congrArg Fin.val (List.mem_singleton.mp h)) Nat.one_ne_zero,
        List.not_mem_nil⟩
    unfold GatherDims.start GatherDims.offCoord
    rw [dif_neg hn, dif_pos hk, Nat.zero_add]
    rfl

section Row
variable {M E C w : Nat} (wf : ScatterDims.WF ⟨2, ![M, C]⟩ ⟨2, ![E, 1]⟩ ⟨2, ![E, C]⟩ [1] [0] [0] 1)
  (idx : IVec ⟨2, ![E, 1]⟩ w) (e : Fin E) (k' : Fin C)

private theorem row_land0 (h0 : 0 < 2) :
    (rowScatter M E C wf).start (ix2 e k') idx ⟨0, h0⟩ + ((rowScatter M E C wf).window (ix2 e k') ⟨0, h0⟩ : ℤ)
      = (idx (ix2 e ⟨0, Nat.one_pos⟩)).toInt := by
  have hm : (⟨0, h0⟩ : Fin 2) ∈ (rowScatter M E C wf).scatterDimsToOperandDims := List.mem_singleton.mpr rfl
  have hk : (⟨0, h0⟩ : Fin 2) ∉ (rowScatter M E C wf).sKept := fun h =>
    (List.mem_filter.mp h).2 |> fun h' => by simp at h'
  unfold ScatterDims.start ScatterDims.window
  rw [dif_pos hm, dif_neg hk]
  have hsi : (rowScatter M E C wf).siIdx (ix2 e k')
      ⟨List.idxOf (⟨0, h0⟩ : Fin 2) (rowScatter M E C wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

private theorem row_land1 (h1 : 1 < 2) :
    (rowScatter M E C wf).start (ix2 e k') idx ⟨1, h1⟩ + ((rowScatter M E C wf).window (ix2 e k') ⟨1, h1⟩ : ℤ)
      = (k'.val : ℤ) := by
  have hm : (⟨1, h1⟩ : Fin 2) ∉ (rowScatter M E C wf).scatterDimsToOperandDims := fun h =>
    absurd (congrArg Fin.val (List.mem_singleton.mp h)) Nat.one_ne_zero
  have hk : (⟨1, h1⟩ : Fin 2) ∈ (rowScatter M E C wf).sKept :=
    List.mem_filter.mpr ⟨List.mem_finRange _, by simp⟩
  unfold ScatterDims.start ScatterDims.window
  rw [dif_neg hm, dif_pos hk, Int.zero_add]
  rfl

private theorem row_resultIdx_iff (q : Fin M) (k : Fin C) :
    (rowScatter M E C wf).resultIdx? (ix2 e k') idx = some (ix2 q k)
      ↔ (idx (ix2 e ⟨0, Nat.one_pos⟩)).toInt = (q.val : ℤ) ∧ k' = k := by
  unfold ScatterDims.resultIdx?
  constructor
  · intro h
    split at h
    · rename_i hall
      have hf := Option.some.inj h
      have e0 : ((rowScatter M E C wf).start (ix2 e k') idx ⟨0, Nat.zero_lt_two⟩
          + ((rowScatter M E C wf).window (ix2 e k') ⟨0, Nat.zero_lt_two⟩ : ℤ)).toNat = q.val :=
        congrArg Fin.val (congrFun hf ⟨0, Nat.zero_lt_two⟩)
      have e1 : ((rowScatter M E C wf).start (ix2 e k') idx ⟨1, Nat.one_lt_two⟩
          + ((rowScatter M E C wf).window (ix2 e k') ⟨1, Nat.one_lt_two⟩ : ℤ)).toNat = k.val :=
        congrArg Fin.val (congrFun hf ⟨1, Nat.one_lt_two⟩)
      have a0 := (hall ⟨0, Nat.zero_lt_two⟩).1
      rw [row_land0] at e0 a0
      rw [row_land1] at e1
      exact ⟨by omega, Fin.ext (by omega)⟩
    · exact absurd h (by simp)
  · rintro ⟨hq, rfl⟩
    have hall : ∀ a, 0 ≤ (rowScatter M E C wf).start (ix2 e k') idx a + ((rowScatter M E C wf).window (ix2 e k') a : ℤ)
        ∧ (rowScatter M E C wf).start (ix2 e k') idx a + ((rowScatter M E C wf).window (ix2 e k') a : ℤ)
          < (((⟨2, ![M, C]⟩ : Shape).size a : ℕ) : ℤ) := by
      intro a
      match a with
      | ⟨0, h0⟩ =>
        rw [row_land0, hq]
        have := q.isLt
        exact ⟨by omega, show (q.val : ℤ) < ((M : ℕ) : ℤ) by omega⟩
      | ⟨1, h1⟩ =>
        rw [row_land1]
        have := k'.isLt
        exact ⟨by omega, show (k'.val : ℤ) < ((C : ℕ) : ℤ) by omega⟩
    rw [dif_pos hall]
    congr 1
    funext a
    refine Fin.ext ?_
    match a with
    | ⟨0, h0⟩ =>
      show ((rowScatter M E C wf).start (ix2 e k') idx ⟨0, h0⟩
        + ((rowScatter M E C wf).window (ix2 e k') ⟨0, h0⟩ : ℤ)).toNat = q.val
      rw [row_land0, hq]; omega
    | ⟨1, h1⟩ =>
      show ((rowScatter M E C wf).start (ix2 e k') idx ⟨1, h1⟩
        + ((rowScatter M E C wf).window (ix2 e k') ⟨1, h1⟩ : ℤ)).toNat = k'.val
      rw [row_land1]; omega

end Row

theorem scatterAdd_row_apply {M E C w : Nat}
    (wf : ScatterDims.WF ⟨2, ![M, C]⟩ ⟨2, ![E, 1]⟩ ⟨2, ![E, C]⟩ [1] [0] [0] 1)
    (x : (⟨2, ![M, C]⟩ : Shape).Idx → EReal) (idx : IVec ⟨2, ![E, 1]⟩ w) (upd : (⟨2, ![E, C]⟩ : Shape).Idx → EReal)
    (q : Fin M) (k : Fin C) :
    Ideal.hostScatterAdd (rowScatter M E C wf) x idx upd (ix2 q k)
      = x (ix2 q k) + ∑ e ∈ univ.filter (fun e : Fin E => (idx (ix2 e ⟨0, Nat.one_pos⟩)).toInt = (q.val : ℤ)), upd (ix2 e k) := by
  unfold Ideal.hostScatterAdd
  congr 1
  refine Finset.sum_nbij' (fun j => (⟨(j ⟨0, Nat.zero_lt_two⟩).val, idx2_lt0 j⟩ : Fin E)) (fun e => ix2 e k) ?_ ?_ ?_ ?_ ?_
  · intro j hj
    have hj' := (Finset.mem_filter.mp hj).2
    rw [eq_ix2 j] at hj'
    exact Finset.mem_filter.mpr ⟨Finset.mem_univ _, ((row_resultIdx_iff wf idx _ _ q k).mp hj').1⟩
  · intro e he
    exact Finset.mem_filter.mpr ⟨Finset.mem_univ _,
      (row_resultIdx_iff wf idx e k q k).mpr ⟨(Finset.mem_filter.mp he).2, rfl⟩⟩
  · intro j hj
    have hj' := (Finset.mem_filter.mp hj).2
    rw [eq_ix2 j] at hj'
    have hk := ((row_resultIdx_iff wf idx _ _ q k).mp hj').2
    conv_rhs => rw [eq_ix2 j]
    rw [← hk]
    rfl
  · intro e _
    rfl
  · intro j hj
    have hj' := (Finset.mem_filter.mp hj).2
    rw [eq_ix2 j] at hj'
    have hk := ((row_resultIdx_iff wf idx _ _ q k).mp hj').2
    conv_lhs => rw [eq_ix2 j]
    rw [← hk]
    rfl

section Vec
variable {M E w : Nat} (wf : ScatterDims.WF ⟨1, ![M]⟩ ⟨2, ![E, 1]⟩ ⟨1, ![E]⟩ [] [0] [0] 1)
  (idx : IVec ⟨2, ![E, 1]⟩ w) (e : Fin E)

private theorem vec_land0 (h0 : 0 < 1) :
    (vecScatter M E wf).start (ix1 e) idx ⟨0, h0⟩ + ((vecScatter M E wf).window (ix1 e) ⟨0, h0⟩ : ℤ)
      = (idx (ix2 e ⟨0, Nat.one_pos⟩)).toInt := by
  have hm : (⟨0, h0⟩ : Fin 1) ∈ (vecScatter M E wf).scatterDimsToOperandDims := List.mem_singleton.mpr rfl
  have hk : (⟨0, h0⟩ : Fin 1) ∉ (vecScatter M E wf).sKept := fun h =>
    (List.mem_filter.mp h).2 |> fun h' => by simp at h'
  unfold ScatterDims.start ScatterDims.window
  rw [dif_pos hm, dif_neg hk]
  have hsi : (vecScatter M E wf).siIdx (ix1 e)
      ⟨List.idxOf (⟨0, h0⟩ : Fin 1) (vecScatter M E wf).scatterDimsToOperandDims,
        List.idxOf_lt_length_iff.2 hm⟩ = ix2 e ⟨0, Nat.one_pos⟩ := by
    funext b; refine Fin.ext ?_
    match b with
    | ⟨0, _⟩ => rfl
    | ⟨1, _⟩ => rfl
  rw [hsi]
  simp

private theorem vec_resultIdx_iff (q : Fin M) :
    (vecScatter M E wf).resultIdx? (ix1 e) idx = some (ix1 q)
      ↔ (idx (ix2 e ⟨0, Nat.one_pos⟩)).toInt = (q.val : ℤ) := by
  unfold ScatterDims.resultIdx?
  constructor
  · intro h
    split at h
    · rename_i hall
      have hf := Option.some.inj h
      have e0 : ((vecScatter M E wf).start (ix1 e) idx ⟨0, Nat.one_pos⟩
          + ((vecScatter M E wf).window (ix1 e) ⟨0, Nat.one_pos⟩ : ℤ)).toNat = q.val :=
        congrArg Fin.val (congrFun hf ⟨0, Nat.one_pos⟩)
      have a0 := (hall ⟨0, Nat.one_pos⟩).1
      rw [vec_land0] at e0 a0
      omega
    · exact absurd h (by simp)
  · intro hq
    have hall : ∀ a, 0 ≤ (vecScatter M E wf).start (ix1 e) idx a + ((vecScatter M E wf).window (ix1 e) a : ℤ)
        ∧ (vecScatter M E wf).start (ix1 e) idx a + ((vecScatter M E wf).window (ix1 e) a : ℤ)
          < (((⟨1, ![M]⟩ : Shape).size a : ℕ) : ℤ) := by
      intro a
      match a with
      | ⟨0, h0⟩ =>
        rw [vec_land0, hq]
        have := q.isLt
        exact ⟨by omega, show (q.val : ℤ) < ((M : ℕ) : ℤ) by omega⟩
    rw [dif_pos hall]
    congr 1
    funext a
    refine Fin.ext ?_
    match a with
    | ⟨0, h0⟩ =>
      show ((vecScatter M E wf).start (ix1 e) idx ⟨0, h0⟩
        + ((vecScatter M E wf).window (ix1 e) ⟨0, h0⟩ : ℤ)).toNat = q.val
      rw [vec_land0, hq]; omega

end Vec

theorem scatterAdd_vec_apply {M E w : Nat}
    (wf : ScatterDims.WF ⟨1, ![M]⟩ ⟨2, ![E, 1]⟩ ⟨1, ![E]⟩ [] [0] [0] 1)
    (x : (⟨1, ![M]⟩ : Shape).Idx → EReal) (idx : IVec ⟨2, ![E, 1]⟩ w) (upd : (⟨1, ![E]⟩ : Shape).Idx → EReal) (q : Fin M) :
    Ideal.hostScatterAdd (vecScatter M E wf) x idx upd (ix1 q)
      = x (ix1 q) + ∑ e ∈ univ.filter (fun e : Fin E => (idx (ix2 e ⟨0, Nat.one_pos⟩)).toInt = (q.val : ℤ)), upd (ix1 e) := by
  unfold Ideal.hostScatterAdd
  congr 1
  refine Finset.sum_nbij' (fun j => (⟨(j ⟨0, Nat.one_pos⟩).val, (j ⟨0, Nat.one_pos⟩).isLt⟩ : Fin E)) (fun e => ix1 e)
    ?_ ?_ ?_ ?_ ?_
  · intro j hj
    have hj' := (Finset.mem_filter.mp hj).2
    rw [eq_ix1 j] at hj'
    exact Finset.mem_filter.mpr ⟨Finset.mem_univ _, (vec_resultIdx_iff wf idx _ q).mp hj'⟩
  · intro e he
    exact Finset.mem_filter.mpr ⟨Finset.mem_univ _, (vec_resultIdx_iff wf idx e q).mpr (Finset.mem_filter.mp he).2⟩
  · intro j _
    exact (eq_ix1 j).symm
  · intro e _
    rfl
  · intro j _
    exact congrArg upd (eq_ix1 j)

end Gnn.Scatter

end
-- ==== Proof.KHost.lean ====
import proofs.«416992_j9088150798514_2_alg».proof.Proof.KTerms
import proofs.«416992_j9088150798514_2_alg».proof.Proof.Spec
import proofs.«416992_j9088150798514_2_alg».proof.Proof.LibCoe
import proofs.«416992_j9088150798514_2_alg».proof.Proof.LibScatter
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GnnK

open Cert.KernelIdeal Cert.KernelIdeal.Gen Idealize.ShloMosaic Idealize.ShloMosaic.ValueIdx

section Slices
variable {α : Type}

theorem sliceLead3 {n a b : Nat} (l : Nat) (w : (⟨3, ![n, a, b]⟩ : Shape).Idx → α)
    (hs : (⟨3, ![n, a, b]⟩ : Shape).Slices ![l, 0, 0] ⟨3, ![1, a, b]⟩)
    (hc : (⟨3, ![1, a, b]⟩ : Shape).ShapeCasts ⟨2, ![a, b]⟩) (L : Fin n) (hL : L.val = l) (k : Fin a) (d : Fin b) :
    shapeCast ⟨2, ![a, b]⟩ (extractStridedSlice ⟨3, ![1, a, b]⟩ ![l, 0, 0] w hs) hc (ix2 k d) = w (ix3 L k d) := by
  refine (shapeCast_1ab_ab_apply _ hc k d).trans ?_
  exact extractStridedSlice_apply _ _ _ _ _ (fun ax => by
    match ax with
    | ⟨0, _⟩ => exact hL.trans (Nat.add_zero l).symm
    | ⟨1, _⟩ => exact (Nat.zero_add _).symm
    | ⟨2, _⟩ => exact (Nat.zero_add _).symm)

theorem sliceLead2 {n a : Nat} (l : Nat) (w : (⟨2, ![n, a]⟩ : Shape).Idx → α)
    (hs : (⟨2, ![n, a]⟩ : Shape).Slices ![l, 0] ⟨2, ![1, a]⟩)
    (hc : (⟨2, ![1, a]⟩ : Shape).ShapeCasts ⟨1, ![a]⟩) (L : Fin n) (hL : L.val = l) (d : Fin a) :
    shapeCast ⟨1, ![a]⟩ (extractStridedSlice ⟨2, ![1, a]⟩ ![l, 0] w hs) hc (ix1 d) = w (ix2 L d) := by
  refine (shapeCast_1a_a_apply _ hc d).trans ?_
  exact extractStridedSlice_apply _ _ _ _ _ (fun ax => by
    match ax with
    | ⟨0, _⟩ => exact hL.trans (Nat.add_zero l).symm
    | ⟨1, _⟩ => exact (Nat.zero_add _).symm)

theorem sliceLead4 {n m a b : Nat} (l : Nat) (w : (⟨4, ![n, m, a, b]⟩ : Shape).Idx → α)
    (hs : (⟨4, ![n, m, a, b]⟩ : Shape).Slices ![l, 0, 0, 0] ⟨4, ![1, m, a, b]⟩)
    (hc : (⟨4, ![1, m, a, b]⟩ : Shape).ShapeCasts ⟨3, ![m, a, b]⟩) (L : Fin n) (hL : L.val = l)
    (r : Fin m) (k : Fin a) (d : Fin b) :
    shapeCast ⟨3, ![m, a, b]⟩ (extractStridedSlice ⟨4, ![1, m, a, b]⟩ ![l, 0, 0, 0] w hs) hc (ix3 r k d)
      = w (ix4 L r k d) := by
  refine (shapeCast_1abc_abc_apply _ hc r k d).trans ?_
  exact extractStridedSlice_apply _ _ _ _ _ (fun ax => by
    match ax with
    | ⟨0, _⟩ => exact hL.trans (Nat.add_zero l).symm
    | ⟨1, _⟩ => exact (Nat.zero_add _).symm
    | ⟨2, _⟩ => exact (Nat.zero_add _).symm
    | ⟨3, _⟩ => exact (Nat.zero_add _).symm)

theorem shapeCast_a_a1_apply {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Slices

theorem wsl0_apply (w : FVec Ideal S3x64x64 .f32) (k d : Fin 64) : Cert.KernelIdeal.KTerm.wsl0 w (ix2 k d) = w (ix3 (0 : Fin 3) k d) := by
  unfold Cert.KernelIdeal.KTerm.wsl0; exact sliceLead3 0 w _ _ 0 rfl k d
theorem bsl0_apply (w : FVec Ideal S3x64 .f32) (d : Fin 64) : Cert.KernelIdeal.KTerm.bsl0 w (ix1 d) = w (ix2 (0 : Fin 3) d) := by
  unfold Cert.KernelIdeal.KTerm.bsl0; exact sliceLead2 0 w _ _ 0 rfl d
theorem mat0_apply (w : FVec Ideal S3x4x64x64 .f32) (r : Fin 4) (k d : Fin 64) : Cert.KernelIdeal.KTerm.mat0 w (ix3 r k d) = w (ix4 (0 : Fin 3) r k d) := by
  unfold Cert.KernelIdeal.KTerm.mat0; exact sliceLead4 0 w _ _ 0 rfl r k d
theorem vec0_apply (w : FVec Ideal S3x4x64 .f32) (r : Fin 4) (d : Fin 64) : Cert.KernelIdeal.KTerm.vec0 w (ix2 r d) = w (ix3 (0 : Fin 3) r d) := by
  unfold Cert.KernelIdeal.KTerm.vec0; exact sliceLead3 0 w _ _ 0 rfl r d
theorem wsl1_apply (w : FVec Ideal S3x64x64 .f32) (k d : Fin 64) : Cert.KernelIdeal.KTerm.wsl1 w (ix2 k d) = w (ix3 (1 : Fin 3) k d) := by
  unfold Cert.KernelIdeal.KTerm.wsl1; exact sliceLead3 1 w _ _ 1 rfl k d
theorem bsl1_apply (w : FVec Ideal S3x64 .f32) (d : Fin 64) : Cert.KernelIdeal.KTerm.bsl1 w (ix1 d) = w (ix2 (1 : Fin 3) d) := by
  unfold Cert.KernelIdeal.KTerm.bsl1; exact sliceLead2 1 w _ _ 1 rfl d
theorem mat1_apply (w : FVec Ideal S3x4x64x64 .f32) (r : Fin 4) (k d : Fin 64) : Cert.KernelIdeal.KTerm.mat1 w (ix3 r k d) = w (ix4 (1 : Fin 3) r k d) := by
  unfold Cert.KernelIdeal.KTerm.mat1; exact sliceLead4 1 w _ _ 1 rfl r k d
theorem vec1_apply (w : FVec Ideal S3x4x64 .f32) (r : Fin 4) (d : Fin 64) : Cert.KernelIdeal.KTerm.vec1 w (ix2 r d) = w (ix3 (1 : Fin 3) r d) := by
  unfold Cert.KernelIdeal.KTerm.vec1; exact sliceLead3 1 w _ _ 1 rfl r d
theorem wsl2_apply (w : FVec Ideal S3x64x64 .f32) (k d : Fin 64) : Cert.KernelIdeal.KTerm.wsl2 w (ix2 k d) = w (ix3 (2 : Fin 3) k d) := by
  unfold Cert.KernelIdeal.KTerm.wsl2; exact sliceLead3 2 w _ _ 2 rfl k d
theorem bsl2_apply (w : FVec Ideal S3x64 .f32) (d : Fin 64) : Cert.KernelIdeal.KTerm.bsl2 w (ix1 d) = w (ix2 (2 : Fin 3) d) := by
  unfold Cert.KernelIdeal.KTerm.bsl2; exact sliceLead2 2 w _ _ 2 rfl d
theorem mat2_apply (w : FVec Ideal S3x4x64x64 .f32) (r : Fin 4) (k d : Fin 64) : Cert.KernelIdeal.KTerm.mat2 w (ix3 r k d) = w (ix4 (2 : Fin 3) r k d) := by
  unfold Cert.KernelIdeal.KTerm.mat2; exact sliceLead4 2 w _ _ 2 rfl r k d
theorem vec2_apply (w : FVec Ideal S3x4x64 .f32) (r : Fin 4) (d : Fin 64) : Cert.KernelIdeal.KTerm.vec2 w (ix2 r d) = w (ix3 (2 : Fin 3) r d) := by
  unfold Cert.KernelIdeal.KTerm.vec2; exact sliceLead3 2 w _ _ 2 rfl r d

theorem batchCol_apply (gr : IVec S100000 32) (n : Fin 100000) :
    Cert.KernelIdeal.KTerm.batchCol gr (ix2 n (0 : Fin 1)) = gr (ix1 n) := by
  unfold Cert.KernelIdeal.KTerm.batchCol; exact shapeCast_a_a1_apply gr _ n 0

section AnySize
variable {α : Type}

theorem hostScatterAdd_row {M E C w : Nat}
    (wf : ScatterDims.WF ⟨2, ![M, C]⟩ ⟨2, ![E, 1]⟩ ⟨2, ![E, C]⟩ [1] [0] [0] 1)
    (dn : ScatterDims ⟨2, ![M, C]⟩ ⟨2, ![E, 1]⟩ ⟨2, ![E, C]⟩) (hdn : dn = Gnn.Scatter.rowScatter M E C wf)
    (x : FVec Ideal ⟨2, ![M, C]⟩ .f32) (idx : IVec ⟨2, ![E, 1]⟩ w) (upd : FVec Ideal ⟨2, ![E, C]⟩ .f32)
    (q : Fin M) (k : Fin C) :
    Host.scatterAdd (F := Ideal) dn x idx upd (ix2 q k)
      = x (ix2 q k) + ∑ e ∈ Finset.univ.filter (fun e : Fin E => (idx (ix2 e ⟨0, Nat.one_pos⟩)).toInt = (q.val : ℤ)),
          upd (ix2 e k) := by
  subst hdn
  exact Gnn.Scatter.scatterAdd_row_apply wf x idx upd q k

theorem hostScatterAdd_vec {M E w : Nat}
    (wf : ScatterDims.WF ⟨1, ![M]⟩ ⟨2, ![E, 1]⟩ ⟨1, ![E]⟩ [] [0] [0] 1)
    (dn : ScatterDims ⟨1, ![M]⟩ ⟨2, ![E, 1]⟩ ⟨1, ![E]⟩) (hdn : dn = Gnn.Scatter.vecScatter M E wf)
    (x : FVec Ideal ⟨1, ![M]⟩ .f32) (idx : IVec ⟨2, ![E, 1]⟩ w) (upd : FVec Ideal ⟨1, ![E]⟩ .f32) (q : Fin M) :
    Host.scatterAdd (F := Ideal) dn x idx upd (ix1 q)
      = x (ix1 q) + ∑ e ∈ Finset.univ.filter (fun e : Fin E => (idx (ix2 e ⟨0, Nat.one_pos⟩)).toInt = (q.val : ℤ)),
          upd (ix1 e) := by
  subst hdn
  exact Gnn.Scatter.scatterAdd_vec_apply wf x idx upd q

theorem hostGather_row {N E C w : Nat} (hN : 0 < N)
    (wf : GatherDims.WF ⟨2, ![N, C]⟩ ⟨2, ![E, 1]⟩ ⟨2, ![E, C]⟩ [1] [0] [] [0] [] 1 ![1, C])
    (dn : GatherDims ⟨2, ![N, C]⟩ ⟨2, ![E, 1]⟩ ⟨2, ![E, C]⟩) (hdn : dn = Gnn.Scatter.rowGather N E C wf)
    (x : (⟨2, ![N, C]⟩ : Shape).Idx → α) (idx : IVec ⟨2, ![E, 1]⟩ w) (e : Fin E) (k : Fin C) :
    Host.gather dn x idx (ix2 e k)
      = x (ix2 ⟨min (idx (ix2 e ⟨0, Nat.one_pos⟩)).toInt.toNat (N - 1), by omega⟩ k) := by
  subst hdn
  exact Gnn.Scatter.gather_row_apply hN wf x idx e k

theorem splat_apply {s0 t : Shape} (dims : Fin s0.rank → Fin t.rank) (h : s0.BroadcastsInDim t dims) (b : BitVec 32)
    (j : t.Idx) : broadcastInDim t dims h (constant (F := Ideal) s0 .f32 b) j = Ideal.ofBits .f32 b := rfl

theorem hostDivf_apply {s : Shape} (a b : FVec Ideal s .f32) (j : s.Idx) : Host.divf a b j = Ideal.div (a j) (b j) := rfl

theorem hostReduceAdd_lead3 {T A B : Nat} {u : Shape} (x : FVec Ideal ⟨3, ![T, A, B]⟩ .f32) (init : u.Idx → Ideal .f32)
    (h : (⟨3, ![T, A, B]⟩ : Shape).ReducesTo [0] ⟨2, ![A, B]⟩) (hu : 0 < u.numel)
    (hR : (⟨3, ![T, A, B]⟩ : Shape).Reduces [0] ⟨2, ![A, B]⟩) (a : Fin A) (b : Fin B) :
    Host.reduceAdd (F := Ideal) x init h hu (ix2 a b) = init (Shape.Idx.first hu) + ∑ i : Fin T, x (ix3 i a b) := by
  show Ideal.hostReduceAdd h x (init (Shape.Idx.first hu)) (ix2 a b) = _
  refine (Ideal.hostReduceAdd_single h hR x _ (ix2 a b)).trans ?_
  congr 1
  show ∑ i : Fin T, x (hR.lift (ix2 a b) i) = _
  refine Finset.sum_congr rfl fun i _ => congrArg x (funext fun c => Fin.ext ?_)
  match c with
  | ⟨0, _⟩ => rfl
  | ⟨1, _⟩ => rfl
  | ⟨2, _⟩ => rfl

end AnySize

def tileEquiv : Fin 20 × Fin 5000 ≃ Fin 100000 where
  toFun x := Gnn.tileRow x.1 x.2
  invFun n := (⟨n.val / 5000, by have := n.isLt; omega⟩, ⟨n.val % 5000, by omega⟩)
  left_inv x := by
    have h1 := x.1.isLt
    have h2 := x.2.isLt
    refine Prod.ext (Fin.ext ?_) (Fin.ext ?_)
    · show (5000 * x.1.val + x.2.val) / 5000 = x.1.val
      omega
    · show (5000 * x.1.val + x.2.val) % 5000 = x.2.val
      omega
  right_inv n := by
    refine Fin.ext ?_
    show 5000 * (n.val / 5000) + n.val % 5000 = n.val
    omega

theorem sum_tiles {M : Type*} [AddCommMonoid M] (g : Fin 100000 → M) :
    ∑ i : Fin 20, ∑ p : Fin 5000, g (Gnn.tileRow i p) = ∑ n, g n :=
  (Fintype.sum_prod_type' fun i p => g (Gnn.tileRow i p)).symm.trans
    (Fintype.sum_equiv tileEquiv _ _ fun _ => rfl)

theorem tileSum_apply (t : FVec Ideal S20x4x64 .f32) (r : Fin 4) (d : Fin 64) :
    Cert.KernelIdeal.KTerm.tileSum (F := Ideal) t (ix2 r d) = ∑ i : Fin 20, t (ix3 i r d) := by
  have hR : S20x4x64.Reduces [0] S4x64 := by decide
  unfold Cert.KernelIdeal.KTerm.tileSum
  rw [hostReduceAdd_lead3 t _ reducesTo_S20x4x64_S4x64_d0 h_S_ hR r d, constant_apply, Ideal.ofBits_zero_f32, zero_add]

theorem meanTerm_eq (s : FVec Ideal S20x4x64 .f32) (r : Fin 4) (d : Fin 64) :
    Cert.KernelIdeal.KTerm.meanTerm (F := Ideal) s (ix2 r d)
      = Ideal.div (∑ i : Fin 20, s (ix3 i r d)) ((100000 : ℝ) : EReal) := by
  unfold Cert.KernelIdeal.KTerm.meanTerm
  rw [hostDivf_apply, tileSum_apply, splat_apply, Gnn.Coe.ofBits_100000]

theorem meanTerm_apply (s : FVec Ideal S20x4x64 .f32) (f : Fin 4 → Fin 100000 → Fin 64 → ℝ)
    (hs : ∀ i r d, s (ix3 i r d) = ((∑ p : Fin 5000, f r (Gnn.tileRow i p) d : ℝ) : EReal)) (r : Fin 4) (d : Fin 64) :
    Cert.KernelIdeal.KTerm.meanTerm (F := Ideal) s (ix2 r d) = (((∑ n, f r n d) / 100000 : ℝ) : EReal) := by
  have h : (∑ i : Fin 20, ∑ p : Fin 5000, f r (Gnn.tileRow i p) d) = ∑ n, f r n d := sum_tiles fun n => f r n d
  rw [meanTerm_eq, Finset.sum_congr rfl fun i _ => hs i r d, Gnn.Coe.coe_sum_univ,
    Gnn.Coe.div_coe' _ _ (by norm_num), h]

theorem varTerm_apply (s q : FVec Ideal S20x4x64 .f32) (f : Fin 4 → Fin 100000 → Fin 64 → ℝ)
    (hs : ∀ i r d, s (ix3 i r d) = ((∑ p : Fin 5000, f r (Gnn.tileRow i p) d : ℝ) : EReal))
    (hq : ∀ i r d, q (ix3 i r d) = ((∑ p : Fin 5000, f r (Gnn.tileRow i p) d * f r (Gnn.tileRow i p) d : ℝ) : EReal)) (r : Fin 4) (d : Fin 64) :
    Cert.KernelIdeal.KTerm.varTerm (F := Ideal) s q (ix2 r d)
      = ((max ((∑ n, f r n d * f r n d) / 100000 - (∑ n, f r n d) / 100000 * ((∑ n, f r n d) / 100000)) 0 : ℝ) : EReal) := by
  show max (Cert.KernelIdeal.KTerm.meanTerm (F := Ideal) q (ix2 r d)
      - Cert.KernelIdeal.KTerm.meanTerm (F := Ideal) s (ix2 r d) * Cert.KernelIdeal.KTerm.meanTerm (F := Ideal) s (ix2 r d))
    (Ideal.ofBits .f32 0x00000000#32) = _
  rw [meanTerm_apply s f hs r d, meanTerm_apply q (fun r n d => f r n d * f r n d) hq r d, Gnn.Coe.mul_coe,
    Gnn.Coe.sub_coe, Gnn.Coe.ofBits_zero_coe, Gnn.Coe.max_coe]

section Words
variable {α : Type}

theorem broadcastCol_apply {a : Nat} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun ax => by
    match ax with
    | ⟨0, _⟩ =>
      show i.val = if a = 1 then 0 else i.val
      split
      · omega
      · rfl)

theorem select_neg_add (a c : BitVec 32) :
    Scalar.select (IntOp.cmpi .slt a 0#32) (IntOp.addi a c) a = if a.toInt < 0 then a + c else a := by
  by_cases h : a.toInt < 0 <;> simp [Scalar.select, IntOp.cmpi, IntOp.addi, BitVec.slt, h]

theorem toInt_seg (t d : BitVec 32) (ht : 0 ≤ t.toInt ∧ t.toInt < 4) (hd : 0 ≤ d.toInt ∧ d.toInt < 100000) :
    (t * 100000#32 + d).toInt = t.toInt * 100000 + d.toInt := by
  have h1 : (100000#32 : BitVec 32).toInt = 100000 := by decide
  rw [BitVec.toInt_add, BitVec.toInt_mul, h1, Int.bmod_def, Int.bmod_def]
  omega

end Words

theorem srcIdx_apply (ei : IVec S2x1200000 32) (e : Fin 1200000) (u : Fin 1) :
    Cert.KernelIdeal.KTerm.srcIdx ei (ix2 e u)
      = if (ei (ix2 (0 : Fin 2) e)).toInt < 0 then ei (ix2 (0 : Fin 2) e) + 100000#32 else ei (ix2 (0 : Fin 2) e) := by
  unfold Cert.KernelIdeal.KTerm.srcIdx
  exact (broadcastCol_apply _ bcast_S1200000_S1200000x1_0 e u).trans ((select_neg_add _ 100000#32).trans
    (congrArg (fun a : BitVec 32 => if a.toInt < 0 then a + 100000#32 else a)
      (sliceLead2 0 ei slices_S2x1200000_S1x1200000_0_0 shapeCasts_S1x1200000_S1200000 0 rfl e)))

theorem segIdx_apply (ei : IVec S2x1200000 32) (et : IVec S1200000 32) (e : Fin 1200000) (u : Fin 1) :
    Cert.KernelIdeal.KTerm.segIdx ei et (ix2 e u) = et (ix1 e) * 100000#32 + ei (ix2 (1 : Fin 2) e) := by
  unfold Cert.KernelIdeal.KTerm.segIdx
  exact (broadcastCol_apply _ bcast_S1200000_S1200000x1_0 e u).trans (congrArg (et (ix1 e) * 100000#32 + ·)
    (sliceLead2 1 ei slices_S2x1200000_S1x1200000_1_0 shapeCasts_S1x1200000_S1200000 1 rfl e))

theorem aggTerm_apply (x : FVec Ideal S100000x64 .f32) (ei : IVec S2x1200000 32) (et : IVec S1200000 32) (xr : Gnn.Feat) (G : Gnn.Words)
    (hx : ∀ n k, x (ix2 n k) = ((xr n k : ℝ) : EReal))
    (hG0 : ∀ e, ei (ix2 (0 : Fin 2) e) = G.e0 e) (hG1 : ∀ e, ei (ix2 (1 : Fin 2) e) = G.e1 e) (hty : ∀ e, et (ix1 e) = G.ty e)
    (hdst : ∀ e : Fin 1200000, 0 ≤ (G.e1 e).toInt ∧ (G.e1 e).toInt < 100000) (het : ∀ e : Fin 1200000, 0 ≤ (G.ty e).toInt ∧ (G.ty e).toInt < 4)
    (r : Fin 4) (n : Fin 100000) (k : Fin 64) :
    Cert.KernelIdeal.KTerm.aggTerm (F := Ideal) x ei et (ix3 r n k) = ((Gnn.agg G xr r n k : ℝ) : EReal) := by
  have hr := r.isLt
  have hn := n.isLt
  have hQ : r.val * 100000 + n.val < 400000 := by omega
  unfold Cert.KernelIdeal.KTerm.aggTerm
  refine (shapeCast_apply _ shapeCasts_S400000x64_S4x100000x64 (ix3 r n k)
    (ix2 (⟨r.val * 100000 + n.val, hQ⟩ : Fin 400000) k) ?_).trans ?_
  · rw [Shape.rowMajor_val_two, Shape.rowMajor_val_three]
    show (r.val * 100000 + n.val) * 64 + k.val = (r.val * 100000 + n.val) * 64 + k.val
    rfl
  refine (hostScatterAdd_row scatter_S400000x64_S1200000x1_S1200000x64_1_0_0_1_wf
    scatter_S400000x64_S1200000x1_S1200000x64_1_0_0_1 rfl _ _ _ (⟨r.val * 100000 + n.val, hQ⟩ : Fin 400000) k).trans ?_
  rw [splat_apply, Ideal.ofBits_zero_f32, zero_add]
  show _ = ((∑ e ∈ Gnn.inn G r n, xr (Gnn.src G e) k : ℝ) : EReal)
  rw [← Gnn.Coe.coe_sum]
  refine Finset.sum_congr (Finset.filter_congr fun e _ => ?_) fun e _ => ?_
  · rw [segIdx_apply, hty, hG1, toInt_seg _ _ (het e) (hdst e)]
    have h1 := hdst e
    have h2 := het e
    show (G.ty e).toInt * 100000 + (G.e1 e).toInt = ((r.val * 100000 + n.val : ℕ) : ℤ)
      ↔ (G.e1 e).toInt = (n.val : ℤ) ∧ (G.ty e).toInt = (r.val : ℤ)
    omega
  · refine (hostGather_row (by decide : 0 < 100000) gather_S100000x64_S1200000x1_S1200000x64_1_0_n_n_0_1_164_wf
      gather_S100000x64_S1200000x1_S1200000x64_1_0_n_n_0_1_164 rfl x (Cert.KernelIdeal.KTerm.srcIdx ei) e k).trans ?_
    have hsrc := srcIdx_apply ei e ⟨0, Nat.one_pos⟩
    rw [hG0] at hsrc
    refine Eq.trans (congrArg x ?_) (hx (Gnn.src G e) k)
    refine congrArg (fun a : Fin 100000 => (ix2 a k : (⟨2, ![100000, 64]⟩ : Shape).Idx)) (Fin.ext ?_)
    show min (Cert.KernelIdeal.KTerm.srcIdx ei (ix2 e ⟨0, Nat.one_pos⟩)).toInt.toNat (100000 - 1) = (Gnn.src G e).val
    rw [hsrc]
    rfl

section Pool
variable {α : Type}

theorem broadcastRowwise_apply {a b : Nat} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i ⟨0, Nat.one_pos⟩) :=
  broadcastInDim_apply _ h x _ _ (fun ax => by
    match ax with
    | ⟨0, _⟩ =>
      show i.val = if a = 1 then 0 else i.val
      split
      · omega
      · rfl
    | ⟨1, _⟩ =>
      show 0 = if (1 : ℕ) = 1 then 0 else j.val
      rfl)

theorem sum_ones {ι : Type*} (s : Finset ι) : ∑ _i ∈ s, ((1 : ℝ) : EReal) = ((s.card : ℝ) : EReal) := by
  rw [Gnn.Coe.coe_sum s fun _ => (1 : ℝ), Finset.sum_const, nsmul_eq_mul, mul_one]

end Pool

theorem poolIdx_apply (gr : IVec S100000 32) (n : Fin 100000) (u : Fin 1) :
    broadcastInDim S100000x1 ![0] bcast_S100000_S100000x1_0
        (select (cmpi .slt gr (broadcastInDim S100000 ![] bcast_S_S100000 (constantI S_ 32 0#32)))
          (addi gr (broadcastInDim S100000 ![] bcast_S_S100000 (constantI S_ 32 128#32))) gr) (ix2 n u)
      = if (gr (ix1 n)).toInt < 0 then gr (ix1 n) + 128#32 else gr (ix1 n) := by
  refine (broadcastCol_apply _ bcast_S100000_S100000x1_0 n u).trans ?_
  exact select_neg_add (gr (ix1 n)) 128#32

theorem poolCount_apply (gr : IVec S100000 32) (G : Gnn.Words)
    (hgr : ∀ n, gr (ix1 n) = G.gr n) (hrange : ∀ n : Fin 100000, 0 ≤ (G.gr n).toInt ∧ (G.gr n).toInt < 128) (g : Fin 128) :
    Host.scatterAdd (F := Ideal) scatter_S128_S100000x1_S100000_n_0_0_1
        (broadcastInDim S128 ![] bcast_S_S128 (constant S_ .f32 0x00000000#32))
        (broadcastInDim S100000x1 ![0] bcast_S100000_S100000x1_0
          (select (cmpi .slt gr (broadcastInDim S100000 ![] bcast_S_S100000 (constantI S_ 32 0#32)))
            (addi gr (broadcastInDim S100000 ![] bcast_S_S100000 (constantI S_ 32 128#32))) gr))
        (broadcastInDim S100000 ![] bcast_S_S100000 (constant S_ .f32 0x3F800000#32)) (ix1 g)
      = (((Gnn.members G g).card : ℝ) : EReal) := by
  refine (hostScatterAdd_vec scatter_S128_S100000x1_S100000_n_0_0_1_wf scatter_S128_S100000x1_S100000_n_0_0_1 rfl
    _ _ _ g).trans ?_
  rw [splat_apply, Ideal.ofBits_zero_f32, zero_add]
  refine Eq.trans ?_ (sum_ones (Gnn.members G g))
  refine Finset.sum_congr (Finset.filter_congr fun n _ => ?_) fun n _ => ?_
  · rw [poolIdx_apply, hgr, if_neg (not_lt.mpr (hrange n).1)]
  · rw [splat_apply, Gnn.Coe.ofBits_one]

theorem poolTail_apply (tiles : FVec Ideal S20x128x64 .f32) (gr : IVec S100000 32) (xr : Gnn.Feat) (G : Gnn.Words)
    (hgr : ∀ n, gr (ix1 n) = G.gr n) (hrange : ∀ n : Fin 100000, 0 ≤ (G.gr n).toInt ∧ (G.gr n).toInt < 128)
    (ht : ∀ i g d, tiles (ix3 i g d)
      = ((∑ p : Fin 5000, (if (G.gr (Gnn.tileRow i p)).toInt = (g.val : ℤ) then xr (Gnn.tileRow i p) d else 0) : ℝ) : EReal))
    (g : Fin 128) (d : Fin 64) :
    Cert.KernelIdeal.KTerm.poolTail (F := Ideal) tiles gr (ix2 g d) = ((Gnn.pool G xr g d : ℝ) : EReal) := by
  have hR : S20x128x64.Reduces [0] S128x64 := by decide
  have hsum : (∑ i : Fin 20, ∑ p : Fin 5000,
        (if (G.gr (Gnn.tileRow i p)).toInt = (g.val : ℤ) then xr (Gnn.tileRow i p) d else 0))
      = ∑ n, (if (G.gr n).toInt = (g.val : ℤ) then xr n d else 0) :=
    sum_tiles fun n => if (G.gr n).toInt = (g.val : ℤ) then xr n d else 0
  have hne : max ((Gnn.members G g).card : ℝ) 1 ≠ 0 := ne_of_gt (lt_of_lt_of_le one_pos (le_max_right _ _))
  unfold Cert.KernelIdeal.KTerm.poolTail
  refine (hostDivf_apply _ _ _).trans ?_
  rw [hostReduceAdd_lead3 tiles _ reducesTo_S20x128x64_S128x64_d0 h_S_ hR g d, constant_apply, Ideal.ofBits_zero_f32,
    zero_add, broadcastRowwise_apply, broadcastCol_apply, maximumf_apply, poolCount_apply gr G hgr hrange g, splat_apply,
    Gnn.Coe.ofBits_one, Gnn.Coe.max_coe, Finset.sum_congr rfl fun i _ => ht i g d, Gnn.Coe.coe_sum_univ, hsum,
    Gnn.Coe.div_coe' _ _ hne]
  show _ = (((∑ n ∈ Finset.univ.filter (fun n => (G.gr n).toInt = (g.val : ℤ)), xr n d)
    / max ((Gnn.members G g).card : ℝ) 1 : ℝ) : EReal)
  rw [Finset.sum_filter]

end Cert.KernelIdeal.GnnK

end
-- ==== Proof.KThread.Base.lean ====
import proofs.«416992_j9088150798514_2_alg».proof.Proof.Gen.KernelIdeal.Frame
import proofs.«416992_j9088150798514_2_alg».proof.Proof.KHost

set_option maxRecDepth 16384

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)
open Idealize.SL.Sem

macro "host_keeps" : tactic => `(tactic| (
  refine StableHlo.after_of_forall_not_mem _ _ (List.forall_iff_forall_mem.mp ?_)
  simp only [hostOps0, hostOps1, hostOps2, hostOps3, hostOps4, hostOps5, hostOps6, hostOps7, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-- The graph-membership words and the stacked parameters. -/
def kept : List (Ref sig .tc) :=
  [main_arg3, main_arg4, main_arg5, main_arg6, main_arg7, main_arg8, main_arg9, main_arg10, main_arg11]

macro "each_kept " hb:ident " => " t:tacticSeq : tactic => `(tactic| (
  simp only [kept, List.mem_cons, List.not_mem_nil, or_false] at $hb:ident
  rcases $hb:ident with h | h | h | h | h | h | h | h | h <;> subst h <;> ($t)))

/-- The rows of first endpoints and of combined scatter indices. -/
def keptI : List (Ref sig .tc) := [main_v1, main_v6]

macro "each_keptI " hb:ident " => " t:tacticSeq : tactic => `(tactic| (
  simp only [keptI, List.mem_cons, List.not_mem_nil, or_false] at $hb:ident
  rcases $hb:ident with h | h <;> subst h <;> ($t)))

/-- The edges' first endpoints. -/
def e0Row (ei : IVec S2x1200000 32) : IVec S1200000 32 :=
  shapeCast _ (extractStridedSlice S1x1200000 ![0, 0] ei slices_S2x1200000_S1x1200000_0_0) shapeCasts_S1x1200000_S1200000

/-- `type * 100000 + second endpoint`. -/
def segRow (ei : IVec S2x1200000 32) (et : IVec S1200000 32) : IVec S1200000 32 :=
  addi (muli et (broadcastInDim S1200000 ![] bcast_S_S1200000 (constantI S_ 32 100000#32)))
    (shapeCast _ (extractStridedSlice S1x1200000 ![1, 0] ei slices_S2x1200000_S1x1200000_1_0) shapeCasts_S1x1200000_S1200000)

/-- The array `A` holds the real array `f`. -/
abbrev Holds1 {a : ℕ} (A : FVec Ideal ⟨1, ![a]⟩ .f32) (f : Fin a → ℝ) : Prop := ∀ i, A (ix1 i) = ((f i : ℝ) : EReal)
abbrev Holds2 {a b : ℕ} (A : FVec Ideal ⟨2, ![a, b]⟩ .f32) (f : Fin a → Fin b → ℝ) : Prop :=
  ∀ i j, A (ix2 i j) = ((f i j : ℝ) : EReal)
abbrev Holds3 {a b c : ℕ} (A : FVec Ideal ⟨3, ![a, b, c]⟩ .f32) (f : Fin a → Fin b → Fin c → ℝ) : Prop :=
  ∀ i j k, A (ix3 i j k) = ((f i j k : ℝ) : EReal)

/-- The integer and parameter inputs hold the graph words `G` and the rounds' parameters `P`. -/
structure Spells (m : (ℓ : Loc nD τ sig) → Buf (Elt Ideal) ℓ) (c : Dev nD) (G : Gnn.Words) (P : Fin 3 → Gnn.LayerP) : Prop where
  e0 : ∀ e, ((m ((c.tc : Thread nD τ).loc main_arg1)) : IVec S2x1200000 32) (ix2 (0 : Fin 2) e) = G.e0 e
  e1 : ∀ e, ((m ((c.tc : Thread nD τ).loc main_arg1)) : IVec S2x1200000 32) (ix2 (1 : Fin 2) e) = G.e1 e
  ty : ∀ e, ((m ((c.tc : Thread nD τ).loc main_arg2)) : IVec S1200000 32) (ix1 e) = G.ty e
  gr : ∀ n, ((m ((c.tc : Thread nD τ).loc main_arg3)) : IVec S100000 32) (ix1 n) = G.gr n
  e1_lt : ∀ e : Fin 1200000, 0 ≤ (G.e1 e).toInt ∧ (G.e1 e).toInt < 100000
  ty_lt : ∀ e : Fin 1200000, 0 ≤ (G.ty e).toInt ∧ (G.ty e).toInt < 4
  gr_lt : ∀ n : Fin 100000, 0 ≤ (G.gr n).toInt ∧ (G.gr n).toInt < 128
  wsl : ∀ l k d, ((m ((c.tc : Thread nD τ).loc main_arg4)) : FVec Ideal S3x64x64 .f32) (ix3 l k d) = (((P l).wsl k d : ℝ) : EReal)
  bsl : ∀ l d, ((m ((c.tc : Thread nD τ).loc main_arg5)) : FVec Ideal S3x64 .f32) (ix2 l d) = (((P l).bsl d : ℝ) : EReal)
  w1 : ∀ l r k d, ((m ((c.tc : Thread nD τ).loc main_arg6)) : FVec Ideal S3x4x64x64 .f32) (ix4 l r k d) = (((P l).w1 r k d : ℝ) : EReal)
  b1 : ∀ l r d, ((m ((c.tc : Thread nD τ).loc main_arg7)) : FVec Ideal S3x4x64 .f32) (ix3 l r d) = (((P l).b1 r d : ℝ) : EReal)
  ga : ∀ l r d, ((m ((c.tc : Thread nD τ).loc main_arg8)) : FVec Ideal S3x4x64 .f32) (ix3 l r d) = (((P l).ga r d : ℝ) : EReal)
  be : ∀ l r d, ((m ((c.tc : Thread nD τ).loc main_arg9)) : FVec Ideal S3x4x64 .f32) (ix3 l r d) = (((P l).be r d : ℝ) : EReal)
  w2 : ∀ l r k d, ((m ((c.tc : Thread nD τ).loc main_arg10)) : FVec Ideal S3x4x64x64 .f32) (ix4 l r k d) = (((P l).w2 r k d : ℝ) : EReal)
  b2 : ∀ l r d, ((m ((c.tc : Thread nD τ).loc main_arg11)) : FVec Ideal S3x4x64 .f32) (ix3 l r d) = (((P l).b2 r d : ℝ) : EReal)

section
variable (m : (ℓ : Loc nD τ sig) → Buf (Elt Ideal) ℓ) (ρ : Dev nD → PrngReg) (c : Dev nD)

/-- One round: the tile sums of the hidden products give the mean and the variance, and with them the output is `Gnn.layer relu` of `x`. -/
theorem round_of {G : Gnn.Words} {P : Fin 3 → Gnn.LayerP} (h : Spells m c G P) (l : Fin 3) (relu : Bool) (x : Gnn.Feat)
    {X xS xP out out' : FVec Ideal S100000x64 .f32} {aS aP : FVec Ideal S4x100000x64 .f32}
    {wS w1P w2P : FVec Ideal S4x64x64 .f32} {bS b1P muP vaP gaP beP b2P : FVec Ideal S4x64 .f32}
    {wslP : FVec Ideal S64x64 .f32} {bslP : FVec Ideal S64 .f32} {s s' q q' : FVec Ideal S20x4x64 .f32}
    (hx : Holds2 X x)
    (exS : xS = X) (eaS : aS = KTerm.aggTerm (F := Ideal) X (m ((c.tc : Thread nD τ).loc main_arg1)) (m ((c.tc : Thread nD τ).loc main_arg2)))
    (ewS : ∀ r k d, wS (ix3 r k d) = ((m ((c.tc : Thread nD τ).loc main_arg6)) : FVec Ideal S3x4x64x64 .f32) (ix4 l r k d))
    (ebS : ∀ r d, bS (ix2 r d) = ((m ((c.tc : Thread nD τ).loc main_arg7)) : FVec Ideal S3x4x64 .f32) (ix3 l r d))
    (es : s = s') (eqq : q = q')
    (hS : Holds2 xS x → Holds3 aS (Gnn.agg G x) → Holds3 wS (P l).w1 → Holds2 bS (P l).b1 →
      Holds3 s' fun i r d => ∑ p : Fin 5000, Gnn.preOf (P l).w1 (P l).b1 x (Gnn.agg G x) r (Gnn.tileRow i p) d)
    (hQ : Holds2 xS x → Holds3 aS (Gnn.agg G x) → Holds3 wS (P l).w1 → Holds2 bS (P l).b1 →
      Holds3 q' fun i r d => ∑ p : Fin 5000, Gnn.preOf (P l).w1 (P l).b1 x (Gnn.agg G x) r (Gnn.tileRow i p) d
        * Gnn.preOf (P l).w1 (P l).b1 x (Gnn.agg G x) r (Gnn.tileRow i p) d)
    (exP : xP = X) (eaP : aP = aS) (emu : muP = KTerm.meanTerm (F := Ideal) s) (eva : vaP = KTerm.varTerm (F := Ideal) s q)
    (ewsl : ∀ k d, wslP (ix2 k d) = ((m ((c.tc : Thread nD τ).loc main_arg4)) : FVec Ideal S3x64x64 .f32) (ix3 l k d))
    (ebsl : ∀ d, bslP (ix1 d) = ((m ((c.tc : Thread nD τ).loc main_arg5)) : FVec Ideal S3x64 .f32) (ix2 l d))
    (ew1 : ∀ r k d, w1P (ix3 r k d) = ((m ((c.tc : Thread nD τ).loc main_arg6)) : FVec Ideal S3x4x64x64 .f32) (ix4 l r k d))
    (eb1 : ∀ r d, b1P (ix2 r d) = ((m ((c.tc : Thread nD τ).loc main_arg7)) : FVec Ideal S3x4x64 .f32) (ix3 l r d))
    (ega : ∀ r d, gaP (ix2 r d) = ((m ((c.tc : Thread nD τ).loc main_arg8)) : FVec Ideal S3x4x64 .f32) (ix3 l r d))
    (ebe : ∀ r d, beP (ix2 r d) = ((m ((c.tc : Thread nD τ).loc main_arg9)) : FVec Ideal S3x4x64 .f32) (ix3 l r d))
    (ew2 : ∀ r k d, w2P (ix3 r k d) = ((m ((c.tc : Thread nD τ).loc main_arg10)) : FVec Ideal S3x4x64x64 .f32) (ix4 l r k d))
    (eb2 : ∀ r d, b2P (ix2 r d) = ((m ((c.tc : Thread nD τ).loc main_arg11)) : FVec Ideal S3x4x64 .f32) (ix3 l r d))
    (eo : out = out')
    (hO : Holds2 xP x → Holds3 aP (Gnn.agg G x) → Holds2 wslP (P l).wsl → Holds1 bslP (P l).bsl → Holds3 w1P (P l).w1 →
      Holds2 b1P (P l).b1 → Holds2 muP (Gnn.mean G (P l) x) → Holds2 vaP (Gnn.var G (P l) x) → Holds2 gaP (P l).ga →
      Holds2 beP (P l).be → Holds3 w2P (P l).w2 → Holds2 b2P (P l).b2 → (∀ r d, 0 ≤ Gnn.var G (P l) x r d) →
      Holds2 out' (Gnn.layer relu Gnn.epsR G (P l) x)) :
    Holds2 out (Gnn.layer relu Gnn.epsR G (P l) x) := by
  subst exS exP eaP es eqq eo emu eva
  have ha := fun (r : Fin 4) (n : Fin 100000) (k : Fin 64) =>
    (congrFun eaS (ix3 r n k)).trans (aggTerm_apply _ _ _ x G hx h.e0 h.e1 h.ty h.e1_lt h.ty_lt r n k)
  have hw := fun r k d => (ewS r k d).trans (h.w1 l r k d)
  have hb := fun r d => (ebS r d).trans (h.b1 l r d)
  have hs := hS hx ha hw hb
  have hq := hQ hx ha hw hb
  exact hO hx ha (fun k d => (ewsl k d).trans (h.wsl l k d)) (fun d => (ebsl d).trans (h.bsl l d))
    (fun r k d => (ew1 r k d).trans (h.w1 l r k d)) (fun r d => (eb1 r d).trans (h.b1 l r d))
    (fun r d => meanTerm_apply _ (Gnn.pre G (P l) x) hs r d)
    (fun r d => (varTerm_apply _ _ (Gnn.pre G (P l) x) hs hq r d).trans
      (congrArg (fun t : ℝ => (t : EReal)) (Gnn.varK_eq_var G (P l) x r d)))
    (fun r d => (ega r d).trans (h.ga l r d)) (fun r d => (ebe r d).trans (h.be l r d))
    (fun r k d => (ew2 r k d).trans (h.w2 l r k d)) (fun r d => (eb2 r d).trans (h.b2 l r d))
    (Gnn.var_nonneg G (P l) x)

theorem kept_W2 (b : Ref sig .tc) (hb : b ∈ kept) : W2 (F := Ideal) m ρ c (Proc.devRef .tc b) = m ((c.tc : Thread nD τ).loc b) := by
  each_kept hb => exact (W2_of_ne m ρ c _ (by decide)).trans (by host_keeps)
theorem kept_W4 (b : Ref sig .tc) (hb : b ∈ kept) : W4 (F := Ideal) m ρ c (Proc.devRef .tc b) = m ((c.tc : Thread nD τ).loc b) := by
  refine Eq.trans ?_ (kept_W2 m ρ c b hb)
  each_kept hb => exact (W4_of_ne m ρ c _ (by decide)).trans (by host_keeps)
theorem kept_W6 (b : Ref sig .tc) (hb : b ∈ kept) : W6 (F := Ideal) m ρ c (Proc.devRef .tc b) = m ((c.tc : Thread nD τ).loc b) := by
  refine Eq.trans ?_ (kept_W4 m ρ c b hb)
  each_kept hb => exact (W6_of_ne m ρ c _ (by decide)).trans (by host_keeps)
theorem kept_W8 (b : Ref sig .tc) (hb : b ∈ kept) : W8 (F := Ideal) m ρ c (Proc.devRef .tc b) = m ((c.tc : Thread nD τ).loc b) := by
  refine Eq.trans ?_ (kept_W6 m ρ c b hb)
  each_kept hb => exact (W8_of_ne m ρ c _ (by decide)).trans (by host_keeps)
theorem kept_W10 (b : Ref sig .tc) (hb : b ∈ kept) : W10 (F := Ideal) m ρ c (Proc.devRef .tc b) = m ((c.tc : Thread nD τ).loc b) := by
  refine Eq.trans ?_ (kept_W8 m ρ c b hb)
  each_kept hb => exact (W10_of_ne m ρ c _ (by decide)).trans (by host_keeps)
theorem kept_W12 (b : Ref sig .tc) (hb : b ∈ kept) : W12 (F := Ideal) m ρ c (Proc.devRef .tc b) = m ((c.tc : Thread nD τ).loc b) := by
  refine Eq.trans ?_ (kept_W10 m ρ c b hb)
  each_kept hb => exact (W12_of_ne m ρ c _ (by decide)).trans (by host_keeps)

theorem W1_v1 : (W1 (F := Ideal) m ρ c (Proc.devRef .tc main_v1) : IVec S1200000 32) = e0Row (m ((c.tc : Thread nD τ).loc main_arg1)) := by
  after_results_simp
  rfl
theorem W1_v6 : (W1 (F := Ideal) m ρ c (Proc.devRef .tc main_v6) : IVec S1200000 32)
    = segRow (m ((c.tc : Thread nD τ).loc main_arg1)) (m ((c.tc : Thread nD τ).loc main_arg2)) := by
  after_results_simp
  rfl
theorem keptI_W4 (b : Ref sig .tc) (hb : b ∈ keptI) : W4 (F := Ideal) m ρ c (Proc.devRef .tc b) = W1 m ρ c (Proc.devRef .tc b) := by
  each_keptI hb => exact ((W4_of_ne m ρ c _ (by decide)).trans (by host_keeps)).trans (W2_of_ne m ρ c _ (by decide))
theorem keptI_W8 (b : Ref sig .tc) (hb : b ∈ keptI) : W8 (F := Ideal) m ρ c (Proc.devRef .tc b) = W1 m ρ c (Proc.devRef .tc b) := by
  refine Eq.trans ?_ (keptI_W4 m ρ c b hb)
  each_keptI hb => exact ((W8_of_ne m ρ c _ (by decide)).trans (by host_keeps)).trans ((W6_of_ne m ρ c _ (by decide)).trans (by host_keeps))

end

end Cert.KernelIdeal.GnnK

end
-- ==== Proof.KThread.Round1.lean ====
import proofs.«416992_j9088150798514_2_alg».proof.Proof.KThread.Base

set_option maxRecDepth 16384

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)
open Idealize.SL.Sem

section
variable (m : (ℓ : Loc nD τ sig) → Buf (Elt Ideal) ℓ) (ρ : Dev nD → PrngReg) (c : Dev nD)

theorem W1_x : W1 (F := Ideal) m ρ c (Proc.devRef .tc main_arg0) = m ((c.tc : Thread nD τ).loc main_arg0) := by
  host_keeps
theorem W1_agg : (W1 (F := Ideal) m ρ c (Proc.devRef .tc main_v17) : FVec Ideal S4x100000x64 .f32)
    = KTerm.aggTerm (F := Ideal) (m ((c.tc : Thread nD τ).loc main_arg0)) (m ((c.tc : Thread nD τ).loc main_arg1)) (m ((c.tc : Thread nD τ).loc main_arg2)) := by
  after_results_simp
  rfl
theorem W1_w (r : Fin 4) (k d : Fin 64) : (W1 (F := Ideal) m ρ c (Proc.devRef .tc main_v19) : FVec Ideal S4x64x64 .f32) (ix3 r k d)
    = (m ((c.tc : Thread nD τ).loc main_arg6) : FVec Ideal S3x4x64x64 .f32) (ix4 (0 : Fin 3) r k d) := by
  after_results_simp
  exact mat0_apply _ r k d
theorem W1_b (r : Fin 4) (d : Fin 64) : (W1 (F := Ideal) m ρ c (Proc.devRef .tc main_v21) : FVec Ideal S4x64 .f32) (ix2 r d)
    = (m ((c.tc : Thread nD τ).loc main_arg7) : FVec Ideal S3x4x64 .f32) (ix3 (0 : Fin 3) r d) := by
  after_results_simp
  exact vec0_apply _ r d
theorem W3_x : W3 (F := Ideal) m ρ c (Proc.devRef .tc main_arg0) = m ((c.tc : Thread nD τ).loc main_arg0) :=
  (by host_keeps : W3 (F := Ideal) m ρ c (Proc.devRef .tc main_arg0) = W2 m ρ c (Proc.devRef .tc main_arg0)).trans
    (((W2_arr m ρ c 0).trans (((dat0 (V1 m ρ) c).arrAt_in 0 rfl _).trans (A_eq0 (V1 m ρ) c 0))).trans (W1_x m ρ c))
theorem W3_agg : W3 (F := Ideal) m ρ c (Proc.devRef .tc main_v17) = W1 m ρ c (Proc.devRef .tc main_v17) :=
  (by host_keeps : W3 (F := Ideal) m ρ c (Proc.devRef .tc main_v17) = W2 m ρ c (Proc.devRef .tc main_v17)).trans
    ((W2_arr m ρ c 1).trans (((dat0 (V1 m ρ) c).arrAt_in 1 rfl _).trans (A_eq0 (V1 m ρ) c 1)))
theorem W3_mu : (W3 (F := Ideal) m ρ c (Proc.devRef .tc main_v26) : FVec Ideal S4x64 .f32)
    = KTerm.meanTerm (F := Ideal) (W2 m ρ c (Proc.devRef .tc main_v22_0)) := by
  after_results_simp
  rfl
theorem W3_va : (W3 (F := Ideal) m ρ c (Proc.devRef .tc main_v32) : FVec Ideal S4x64 .f32)
    = KTerm.varTerm (F := Ideal) (W2 m ρ c (Proc.devRef .tc main_v22_0)) (W2 m ρ c (Proc.devRef .tc main_v22_1)) := by
  after_results_simp
  rfl
theorem W3_wsl (k d : Fin 64) : (W3 (F := Ideal) m ρ c (Proc.devRef .tc main_v34) : FVec Ideal S64x64 .f32) (ix2 k d)
    = (m ((c.tc : Thread nD τ).loc main_arg4) : FVec Ideal S3x64x64 .f32) (ix3 (0 : Fin 3) k d) := by
  after_results_simp
  rw [kept_W2 m ρ c main_arg4 (by decide)]
  exact wsl0_apply _ k d
theorem W3_bsl (d : Fin 64) : (W3 (F := Ideal) m ρ c (Proc.devRef .tc main_v36) : FVec Ideal S64 .f32) (ix1 d)
    = (m ((c.tc : Thread nD τ).loc main_arg5) : FVec Ideal S3x64 .f32) (ix2 (0 : Fin 3) d) := by
  after_results_simp
  rw [kept_W2 m ρ c main_arg5 (by decide)]
  exact bsl0_apply _ d
theorem W3_w1 (r : Fin 4) (k d : Fin 64) : (W3 (F := Ideal) m ρ c (Proc.devRef .tc main_v38) : FVec Ideal S4x64x64 .f32) (ix3 r k d)
    = (m ((c.tc : Thread nD τ).loc main_arg6) : FVec Ideal S3x4x64x64 .f32) (ix4 (0 : Fin 3) r k d) := by
  after_results_simp
  rw [kept_W2 m ρ c main_arg6 (by decide)]
  exact mat0_apply _ r k d
theorem W3_b1 (r : Fin 4) (d : Fin 64) : (W3 (F := Ideal) m ρ c (Proc.devRef .tc main_v40) : FVec Ideal S4x64 .f32) (ix2 r d)
    = (m ((c.tc : Thread nD τ).loc main_arg7) : FVec Ideal S3x4x64 .f32) (ix3 (0 : Fin 3) r d) := by
  after_results_simp
  rw [kept_W2 m ρ c main_arg7 (by decide)]
  exact vec0_apply _ r d
theorem W3_ga (r : Fin 4) (d : Fin 64) : (W3 (F := Ideal) m ρ c (Proc.devRef .tc main_v42) : FVec Ideal S4x64 .f32) (ix2 r d)
    = (m ((c.tc : Thread nD τ).loc main_arg8) : FVec Ideal S3x4x64 .f32) (ix3 (0 : Fin 3) r d) := by
  after_results_simp
  rw [kept_W2 m ρ c main_arg8 (by decide)]
  exact vec0_apply _ r d
theorem W3_be (r : Fin 4) (d : Fin 64) : (W3 (F := Ideal) m ρ c (Proc.devRef .tc main_v44) : FVec Ideal S4x64 .f32) (ix2 r d)
    = (m ((c.tc : Thread nD τ).loc main_arg9) : FVec Ideal S3x4x64 .f32) (ix3 (0 : Fin 3) r d) := by
  after_results_simp
  rw [kept_W2 m ρ c main_arg9 (by decide)]
  exact vec0_apply _ r d
theorem W3_w2 (r : Fin 4) (k d : Fin 64) : (W3 (F := Ideal) m ρ c (Proc.devRef .tc main_v46) : FVec Ideal S4x64x64 .f32) (ix3 r k d)
    = (m ((c.tc : Thread nD τ).loc main_arg10) : FVec Ideal S3x4x64x64 .f32) (ix4 (0 : Fin 3) r k d) := by
  after_results_simp
  rw [kept_W2 m ρ c main_arg10 (by decide)]
  exact mat0_apply _ r k d
theorem W3_b2 (r : Fin 4) (d : Fin 64) : (W3 (F := Ideal) m ρ c (Proc.devRef .tc main_v48) : FVec Ideal S4x64 .f32) (ix2 r d)
    = (m ((c.tc : Thread nD τ).loc main_arg11) : FVec Ideal S3x4x64 .f32) (ix3 (0 : Fin 3) r d) := by
  after_results_simp
  rw [kept_W2 m ρ c main_arg11 (by decide)]
  exact vec0_apply _ r d

end

end Cert.KernelIdeal.GnnK

end
-- ==== Proof.KThread.Round2.lean ====
import proofs.«416992_j9088150798514_2_alg».proof.Proof.KThread.Base

set_option maxRecDepth 16384

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)
open Idealize.SL.Sem

section
variable (m : (ℓ : Loc nD τ sig) → Buf (Elt Ideal) ℓ) (ρ : Dev nD → PrngReg) (c : Dev nD)

theorem W5_x : W5 (F := Ideal) m ρ c (Proc.devRef .tc main_v49) = W4 m ρ c (Proc.devRef .tc main_v49) := by
  host_keeps
theorem W5_agg : (W5 (F := Ideal) m ρ c (Proc.devRef .tc main_v60) : FVec Ideal S4x100000x64 .f32)
    = KTerm.aggTerm (F := Ideal) (W4 (F := Ideal) m ρ c (Proc.devRef .tc main_v49)) (m ((c.tc : Thread nD τ).loc main_arg1)) (m ((c.tc : Thread nD τ).loc main_arg2)) := by
  after_results_simp
  rw [keptI_W4 m ρ c main_v1 (by decide), keptI_W4 m ρ c main_v6 (by decide), W1_v1, W1_v6]
  rfl
theorem W5_w (r : Fin 4) (k d : Fin 64) : (W5 (F := Ideal) m ρ c (Proc.devRef .tc main_v62) : FVec Ideal S4x64x64 .f32) (ix3 r k d)
    = (m ((c.tc : Thread nD τ).loc main_arg6) : FVec Ideal S3x4x64x64 .f32) (ix4 (1 : Fin 3) r k d) := by
  after_results_simp
  rw [kept_W4 m ρ c main_arg6 (by decide)]
  exact mat1_apply _ r k d
theorem W5_b (r : Fin 4) (d : Fin 64) : (W5 (F := Ideal) m ρ c (Proc.devRef .tc main_v64) : FVec Ideal S4x64 .f32) (ix2 r d)
    = (m ((c.tc : Thread nD τ).loc main_arg7) : FVec Ideal S3x4x64 .f32) (ix3 (1 : Fin 3) r d) := by
  after_results_simp
  rw [kept_W4 m ρ c main_arg7 (by decide)]
  exact vec1_apply _ r d
theorem W7_x : W7 (F := Ideal) m ρ c (Proc.devRef .tc main_v49) = W4 m ρ c (Proc.devRef .tc main_v49) :=
  (by host_keeps : W7 (F := Ideal) m ρ c (Proc.devRef .tc main_v49) = W6 m ρ c (Proc.devRef .tc main_v49)).trans
    (((W6_arr m ρ c 0).trans (((dat2 (V5 m ρ) c).arrAt_in 0 rfl _).trans (A_eq2 (V5 m ρ) c 0))).trans (W5_x m ρ c))
theorem W7_agg : W7 (F := Ideal) m ρ c (Proc.devRef .tc main_v60) = W5 m ρ c (Proc.devRef .tc main_v60) :=
  (by host_keeps : W7 (F := Ideal) m ρ c (Proc.devRef .tc main_v60) = W6 m ρ c (Proc.devRef .tc main_v60)).trans
    ((W6_arr m ρ c 1).trans (((dat2 (V5 m ρ) c).arrAt_in 1 rfl _).trans (A_eq2 (V5 m ρ) c 1)))
theorem W7_mu : (W7 (F := Ideal) m ρ c (Proc.devRef .tc main_v69) : FVec Ideal S4x64 .f32)
    = KTerm.meanTerm (F := Ideal) (W6 m ρ c (Proc.devRef .tc main_v65_0)) := by
  after_results_simp
  rfl
theorem W7_va : (W7 (F := Ideal) m ρ c (Proc.devRef .tc main_v75) : FVec Ideal S4x64 .f32)
    = KTerm.varTerm (F := Ideal) (W6 m ρ c (Proc.devRef .tc main_v65_0)) (W6 m ρ c (Proc.devRef .tc main_v65_1)) := by
  after_results_simp
  rfl
theorem W7_wsl (k d : Fin 64) : (W7 (F := Ideal) m ρ c (Proc.devRef .tc main_v77) : FVec Ideal S64x64 .f32) (ix2 k d)
    = (m ((c.tc : Thread nD τ).loc main_arg4) : FVec Ideal S3x64x64 .f32) (ix3 (1 : Fin 3) k d) := by
  after_results_simp
  rw [kept_W6 m ρ c main_arg4 (by decide)]
  exact wsl1_apply _ k d
theorem W7_bsl (d : Fin 64) : (W7 (F := Ideal) m ρ c (Proc.devRef .tc main_v79) : FVec Ideal S64 .f32) (ix1 d)
    = (m ((c.tc : Thread nD τ).loc main_arg5) : FVec Ideal S3x64 .f32) (ix2 (1 : Fin 3) d) := by
  after_results_simp
  rw [kept_W6 m ρ c main_arg5 (by decide)]
  exact bsl1_apply _ d
theorem W7_w1 (r : Fin 4) (k d : Fin 64) : (W7 (F := Ideal) m ρ c (Proc.devRef .tc main_v81) : FVec Ideal S4x64x64 .f32) (ix3 r k d)
    = (m ((c.tc : Thread nD τ).loc main_arg6) : FVec Ideal S3x4x64x64 .f32) (ix4 (1 : Fin 3) r k d) := by
  after_results_simp
  rw [kept_W6 m ρ c main_arg6 (by decide)]
  exact mat1_apply _ r k d
theorem W7_b1 (r : Fin 4) (d : Fin 64) : (W7 (F := Ideal) m ρ c (Proc.devRef .tc main_v83) : FVec Ideal S4x64 .f32) (ix2 r d)
    = (m ((c.tc : Thread nD τ).loc main_arg7) : FVec Ideal S3x4x64 .f32) (ix3 (1 : Fin 3) r d) := by
  after_results_simp
  rw [kept_W6 m ρ c main_arg7 (by decide)]
  exact vec1_apply _ r d
theorem W7_ga (r : Fin 4) (d : Fin 64) : (W7 (F := Ideal) m ρ c (Proc.devRef .tc main_v85) : FVec Ideal S4x64 .f32) (ix2 r d)
    = (m ((c.tc : Thread nD τ).loc main_arg8) : FVec Ideal S3x4x64 .f32) (ix3 (1 : Fin 3) r d) := by
  after_results_simp
  rw [kept_W6 m ρ c main_arg8 (by decide)]
  exact vec1_apply _ r d
theorem W7_be (r : Fin 4) (d : Fin 64) : (W7 (F := Ideal) m ρ c (Proc.devRef .tc main_v87) : FVec Ideal S4x64 .f32) (ix2 r d)
    = (m ((c.tc : Thread nD τ).loc main_arg9) : FVec Ideal S3x4x64 .f32) (ix3 (1 : Fin 3) r d) := by
  after_results_simp
  rw [kept_W6 m ρ c main_arg9 (by decide)]
  exact vec1_apply _ r d
theorem W7_w2 (r : Fin 4) (k d : Fin 64) : (W7 (F := Ideal) m ρ c (Proc.devRef .tc main_v89) : FVec Ideal S4x64x64 .f32) (ix3 r k d)
    = (m ((c.tc : Thread nD τ).loc main_arg10) : FVec Ideal S3x4x64x64 .f32) (ix4 (1 : Fin 3) r k d) := by
  after_results_simp
  rw [kept_W6 m ρ c main_arg10 (by decide)]
  exact mat1_apply _ r k d
theorem W7_b2 (r : Fin 4) (d : Fin 64) : (W7 (F := Ideal) m ρ c (Proc.devRef .tc main_v91) : FVec Ideal S4x64 .f32) (ix2 r d)
    = (m ((c.tc : Thread nD τ).loc main_arg11) : FVec Ideal S3x4x64 .f32) (ix3 (1 : Fin 3) r d) := by
  after_results_simp
  rw [kept_W6 m ρ c main_arg11 (by decide)]
  exact vec1_apply _ r d

end

end Cert.KernelIdeal.GnnK

end
-- ==== Proof.KThread.Round3.lean ====
import proofs.«416992_j9088150798514_2_alg».proof.Proof.KThread.Base

set_option maxRecDepth 16384

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)
open Idealize.SL.Sem

section
variable (m : (ℓ : Loc nD τ sig) → Buf (Elt Ideal) ℓ) (ρ : Dev nD → PrngReg) (c : Dev nD)

theorem W9_x : W9 (F := Ideal) m ρ c (Proc.devRef .tc main_v92) = W8 m ρ c (Proc.devRef .tc main_v92) := by
  host_keeps
theorem W9_agg : (W9 (F := Ideal) m ρ c (Proc.devRef .tc main_v103) : FVec Ideal S4x100000x64 .f32)
    = KTerm.aggTerm (F := Ideal) (W8 (F := Ideal) m ρ c (Proc.devRef .tc main_v92)) (m ((c.tc : Thread nD τ).loc main_arg1)) (m ((c.tc : Thread nD τ).loc main_arg2)) := by
  after_results_simp
  rw [keptI_W8 m ρ c main_v1 (by decide), keptI_W8 m ρ c main_v6 (by decide), W1_v1, W1_v6]
  rfl
theorem W9_w (r : Fin 4) (k d : Fin 64) : (W9 (F := Ideal) m ρ c (Proc.devRef .tc main_v105) : FVec Ideal S4x64x64 .f32) (ix3 r k d)
    = (m ((c.tc : Thread nD τ).loc main_arg6) : FVec Ideal S3x4x64x64 .f32) (ix4 (2 : Fin 3) r k d) := by
  after_results_simp
  rw [kept_W8 m ρ c main_arg6 (by decide)]
  exact mat2_apply _ r k d
theorem W9_b (r : Fin 4) (d : Fin 64) : (W9 (F := Ideal) m ρ c (Proc.devRef .tc main_v107) : FVec Ideal S4x64 .f32) (ix2 r d)
    = (m ((c.tc : Thread nD τ).loc main_arg7) : FVec Ideal S3x4x64 .f32) (ix3 (2 : Fin 3) r d) := by
  after_results_simp
  rw [kept_W8 m ρ c main_arg7 (by decide)]
  exact vec2_apply _ r d
theorem W11_x : W11 (F := Ideal) m ρ c (Proc.devRef .tc main_v92) = W8 m ρ c (Proc.devRef .tc main_v92) :=
  (by host_keeps : W11 (F := Ideal) m ρ c (Proc.devRef .tc main_v92) = W10 m ρ c (Proc.devRef .tc main_v92)).trans
    (((W10_arr m ρ c 0).trans (((dat4 (V9 m ρ) c).arrAt_in 0 rfl _).trans (A_eq4 (V9 m ρ) c 0))).trans (W9_x m ρ c))
theorem W11_agg : W11 (F := Ideal) m ρ c (Proc.devRef .tc main_v103) = W9 m ρ c (Proc.devRef .tc main_v103) :=
  (by host_keeps : W11 (F := Ideal) m ρ c (Proc.devRef .tc main_v103) = W10 m ρ c (Proc.devRef .tc main_v103)).trans
    ((W10_arr m ρ c 1).trans (((dat4 (V9 m ρ) c).arrAt_in 1 rfl _).trans (A_eq4 (V9 m ρ) c 1)))
theorem W11_mu : (W11 (F := Ideal) m ρ c (Proc.devRef .tc main_v112) : FVec Ideal S4x64 .f32)
    = KTerm.meanTerm (F := Ideal) (W10 m ρ c (Proc.devRef .tc main_v108_0)) := by
  after_results_simp
  rfl
theorem W11_va : (W11 (F := Ideal) m ρ c (Proc.devRef .tc main_v118) : FVec Ideal S4x64 .f32)
    = KTerm.varTerm (F := Ideal) (W10 m ρ c (Proc.devRef .tc main_v108_0)) (W10 m ρ c (Proc.devRef .tc main_v108_1)) := by
  after_results_simp
  rfl
theorem W11_wsl (k d : Fin 64) : (W11 (F := Ideal) m ρ c (Proc.devRef .tc main_v120) : FVec Ideal S64x64 .f32) (ix2 k d)
    = (m ((c.tc : Thread nD τ).loc main_arg4) : FVec Ideal S3x64x64 .f32) (ix3 (2 : Fin 3) k d) := by
  after_results_simp
  rw [kept_W10 m ρ c main_arg4 (by decide)]
  exact wsl2_apply _ k d
theorem W11_bsl (d : Fin 64) : (W11 (F := Ideal) m ρ c (Proc.devRef .tc main_v122) : FVec Ideal S64 .f32) (ix1 d)
    = (m ((c.tc : Thread nD τ).loc main_arg5) : FVec Ideal S3x64 .f32) (ix2 (2 : Fin 3) d) := by
  after_results_simp
  rw [kept_W10 m ρ c main_arg5 (by decide)]
  exact bsl2_apply _ d
theorem W11_w1 (r : Fin 4) (k d : Fin 64) : (W11 (F := Ideal) m ρ c (Proc.devRef .tc main_v124) : FVec Ideal S4x64x64 .f32) (ix3 r k d)
    = (m ((c.tc : Thread nD τ).loc main_arg6) : FVec Ideal S3x4x64x64 .f32) (ix4 (2 : Fin 3) r k d) := by
  after_results_simp
  rw [kept_W10 m ρ c main_arg6 (by decide)]
  exact mat2_apply _ r k d
theorem W11_b1 (r : Fin 4) (d : Fin 64) : (W11 (F := Ideal) m ρ c (Proc.devRef .tc main_v126) : FVec Ideal S4x64 .f32) (ix2 r d)
    = (m ((c.tc : Thread nD τ).loc main_arg7) : FVec Ideal S3x4x64 .f32) (ix3 (2 : Fin 3) r d) := by
  after_results_simp
  rw [kept_W10 m ρ c main_arg7 (by decide)]
  exact vec2_apply _ r d
theorem W11_ga (r : Fin 4) (d : Fin 64) : (W11 (F := Ideal) m ρ c (Proc.devRef .tc main_v128) : FVec Ideal S4x64 .f32) (ix2 r d)
    = (m ((c.tc : Thread nD τ).loc main_arg8) : FVec Ideal S3x4x64 .f32) (ix3 (2 : Fin 3) r d) := by
  after_results_simp
  rw [kept_W10 m ρ c main_arg8 (by decide)]
  exact vec2_apply _ r d
theorem W11_be (r : Fin 4) (d : Fin 64) : (W11 (F := Ideal) m ρ c (Proc.devRef .tc main_v130) : FVec Ideal S4x64 .f32) (ix2 r d)
    = (m ((c.tc : Thread nD τ).loc main_arg9) : FVec Ideal S3x4x64 .f32) (ix3 (2 : Fin 3) r d) := by
  after_results_simp
  rw [kept_W10 m ρ c main_arg9 (by decide)]
  exact vec2_apply _ r d
theorem W11_w2 (r : Fin 4) (k d : Fin 64) : (W11 (F := Ideal) m ρ c (Proc.devRef .tc main_v132) : FVec Ideal S4x64x64 .f32) (ix3 r k d)
    = (m ((c.tc : Thread nD τ).loc main_arg10) : FVec Ideal S3x4x64x64 .f32) (ix4 (2 : Fin 3) r k d) := by
  after_results_simp
  rw [kept_W10 m ρ c main_arg10 (by decide)]
  exact mat2_apply _ r k d
theorem W11_b2 (r : Fin 4) (d : Fin 64) : (W11 (F := Ideal) m ρ c (Proc.devRef .tc main_v134) : FVec Ideal S4x64 .f32) (ix2 r d)
    = (m ((c.tc : Thread nD τ).loc main_arg11) : FVec Ideal S3x4x64 .f32) (ix3 (2 : Fin 3) r d) := by
  after_results_simp
  rw [kept_W10 m ρ c main_arg11 (by decide)]
  exact vec2_apply _ r d

end

end Cert.KernelIdeal.GnnK

end
-- ==== Proof.KMat.lean ====
import proofs.«416992_j9088150798514_2_alg».proof.Proof.Gen.KernelIdeal

import Idealize.ShloMosaic.Lib.ValueIdx
import Idealize.ShloMosaic.PureOps.Ideal.Laws

set_option maxRecDepth 16384

noncomputable section

namespace Cert.KernelIdeal.GnnK

open Cert.KernelIdeal Idealize.ShloMosaic Idealize.ShloMosaic.ValueIdx

theorem mm_lhs_0 (j : S5000x64.Idx) (k : dot_S5000x64_S64x64_S5000x64_1_0_0_1_n_n.contr.Idx) : (dot_S5000x64_S64x64_S5000x64_1_0_0_1_n_n.lhsIdx j k 0).val = (j 0).val := by
  unfold DotDims.lhsIdx
  rw [dif_neg (show ¬ (0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

theorem mm_lhs_1 (j : S5000x64.Idx) (k : dot_S5000x64_S64x64_S5000x64_1_0_0_1_n_n.contr.Idx) : (dot_S5000x64_S64x64_S5000x64_1_0_0_1_n_n.lhsIdx j k 1).val = (k ⟨0, by decide⟩).val :=
  DotDims.lhsIdx_val_of_single (d := dot_S5000x64_S64x64_S5000x64_1_0_0_1_n_n) (cl := 1) rfl j k

theorem mm_rhs_0 (j : S5000x64.Idx) (k : dot_S5000x64_S64x64_S5000x64_1_0_0_1_n_n.contr.Idx) : (dot_S5000x64_S64x64_S5000x64_1_0_0_1_n_n.rhsIdx j k 0).val = (k ⟨0, by decide⟩).val :=
  DotDims.rhsIdx_val_of_single (d := dot_S5000x64_S64x64_S5000x64_1_0_0_1_n_n) (cr := 0) rfl j k

theorem mm_rhs_1 (j : S5000x64.Idx) (k : dot_S5000x64_S64x64_S5000x64_1_0_0_1_n_n.contr.Idx) : (dot_S5000x64_S64x64_S5000x64_1_0_0_1_n_n.rhsIdx j k 1).val = (j 1).val := by
  unfold DotDims.rhsIdx
  rw [dif_neg (show ¬ (1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- A [5000,64] by [64,64] product into the zero accumulator is, entry by entry, the sum over the inner axis. -/
theorem mm_apply {φ₁ φ₂ : FTy} (A : FVec Ideal S5000x64 φ₁) (B : FVec Ideal S64x64 φ₂) (p : Fin 5000) (d : Fin 64) :
    matmul dot_S5000x64_S64x64_S5000x64_1_0_0_1_n_n none A B (constant (F := Ideal) S5000x64 .f32 0x00000000#32) (ix2 p d)
      = ∑ k : Fin 64, A (ix2 p k) * B (ix2 k d) := by
  refine (Ideal.matmul_constant_zero_apply dot_S5000x64_S64x64_S5000x64_1_0_0_1_n_n none A B (ix2 p d)).trans ?_
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  congr 2
  · funext a
    apply Fin.ext
    match a with
    | ⟨0, _⟩ => exact mm_lhs_0 _ _
    | ⟨1, _⟩ => exact (mm_lhs_1 _ _).trans hk
  · funext a
    apply Fin.ext
    match a with
    | ⟨0, _⟩ => exact (mm_rhs_0 _ _).trans hk
    | ⟨1, _⟩ => exact mm_rhs_1 _ _

end Cert.KernelIdeal.GnnK

end
-- ==== Proof.KStats.lean ====
import proofs.«416992_j9088150798514_2_alg».proof.Proof.Gen.KernelIdeal.Frame
import proofs.«416992_j9088150798514_2_alg».proof.Proof.KMat
import proofs.«416992_j9088150798514_2_alg».proof.Proof.Spec
import proofs.«416992_j9088150798514_2_alg».proof.Proof.LibCoe

import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GnnK

open Cert.KernelIdeal Cert.KernelIdeal.Gen Idealize.ShloMosaic Idealize.ShloMosaic.TcCoe Idealize.ShloMosaic.ValueIdx

/-- Column sums of a 5000 × 64 tile, as a 1 × 1 × 64 row. -/
def colSums (z : FVec Ideal S5000x64 .f32) : FVec Ideal S1x1x64 .f32 :=
  shapeCast S1x1x64 (multiReduction .add [0] S64 z 0x00000000#32 reduces_S5000x64_S64 (.inl rfl) rfl) shapeCasts_S64_S1x1x64

theorem colSums_apply (z : FVec Ideal S5000x64 .f32) (d : Fin 64) :
    colSums z (ix3 (0 : Fin 1) (0 : Fin 1) d) = ∑ p : Fin 5000, z (ix2 p d) := by
  unfold colSums
  refine (shapeCast_apply _ _ (ix3 (0 : Fin 1) (0 : Fin 1) d) (ix1 d) (by
    rw [Shape.rowMajor_val_three, Shape.rowMajor_val_one]
    show d.val = (0 * 1 + 0) * 64 + d.val
    omega)).trans ?_
  refine (Ideal.multiReduction_add_single z 0x00000000#32 reduces_S5000x64_S64 (.inl rfl) rfl (ix1 d)).trans ?_
  show ∑ p : Fin 5000, z (reduces_S5000x64_S64.lift (ix1 d) p) = _
  refine Finset.sum_congr rfl fun p _ => congrArg z (funext fun a => Fin.ext ?_)
  match a with
  | ⟨0, _⟩ => rfl
  | ⟨1, _⟩ => rfl

/-- One relation's pre-activation on a tile of 5000 nodes: (x + a) · w + b. -/
def preT (y0 : FVec Ideal S5000x64 .f32) (a : Vec Ideal S1x5000x64 .f32) (w : Vec Ideal S1x64x64 .f32) (b : Vec Ideal S1x64 .f32) :
    FVec Ideal S5000x64 .f32 :=
  addf (matmul dot_S5000x64_S64x64_S5000x64_1_0_0_1_n_n none
      (truncf .bf16 (addf y0 (shapeCast S5000x64 a shapeCasts_S1x5000x64_S5000x64)) bitsLt_bf16_f32)
      (truncf .bf16 (shapeCast S64x64 w shapeCasts_S1x64x64_S64x64) bitsLt_bf16_f32)
      (constant S5000x64 .f32 0x00000000#32))
    (broadcastTo S5000x64 (shapeCast S1x64 (shapeCast S64 b shapeCasts_S1x64_S64) shapeCasts_S64_S1x64) broadcasts_S1x64_S5000x64)

theorem preT_apply (y0 : FVec Ideal S5000x64 .f32) (a : Vec Ideal S1x5000x64 .f32) (w : Vec Ideal S1x64x64 .f32) (b : Vec Ideal S1x64 .f32)
    (p : Fin 5000) (d : Fin 64) :
    preT y0 a w b (ix2 p d)
      = (∑ k : Fin 64, (y0 (ix2 p k) + a (ix3 (0 : Fin 1) p k)) * w (ix3 (0 : Fin 1) k d)) + b (ix2 (0 : Fin 1) d) := by
  unfold preT
  refine (addf_apply _ _ (ix2 p d)).trans (congrArg₂ (· + ·) ((mm_apply _ _ p d).trans (Finset.sum_congr rfl fun k _ => ?_)) ?_)
  · exact congrArg₂ (· * ·) (congrArg (y0 (ix2 p k) + ·) (shapeCast_1ab_ab_apply a _ p k)) (shapeCast_1ab_ab_apply w _ k d)
  · rw [shapeCast_shapeCast]
    exact broadcastTo_1b_ab_apply b _ p d

/-- Reading slab r of a stack of n matrices through the unit rectangle at (r, 0, 0). -/
theorem ld_slab {n a b : Nat} (x : Vec Ideal ⟨3, ![n, a, b]⟩ .f32) (r : Fin n)
    (inb : ∀ ax, (![r.val, 0, 0] : Fin 3 → Nat) ax + (⟨3, ![1, a, b]⟩ : Shape).size ax ≤ (⟨3, ![n, a, b]⟩ : Shape).size ax)
    (i : Fin a) (j : Fin b) :
    View.ld x (Rect.unit (s := ⟨3, ![n, a, b]⟩) ![r.val, 0, 0] (⟨3, ![1, a, b]⟩ : Shape).size inb) (ix3 (0 : Fin 1) i j) = x (ix3 r i j) := by
  refine congrArg x (funext fun ax => Fin.ext ?_)
  match ax with
  | ⟨0, _⟩ => show r.val + 1 * 0 = r.val; omega
  | ⟨1, _⟩ => show 0 + 1 * i.val = i.val; omega
  | ⟨2, _⟩ => show 0 + 1 * j.val = j.val; omega

/-- Reading row r of n rows through the unit rectangle at (r, 0). -/
theorem ld_row {n b : Nat} (x : Vec Ideal ⟨2, ![n, b]⟩ .f32) (r : Fin n)
    (inb : ∀ ax, (![r.val, 0] : Fin 2 → Nat) ax + (⟨2, ![1, b]⟩ : Shape).size ax ≤ (⟨2, ![n, b]⟩ : Shape).size ax) (j : Fin b) :
    View.ld x (Rect.unit (s := ⟨2, ![n, b]⟩) ![r.val, 0] (⟨2, ![1, b]⟩ : Shape).size inb) (ix2 (0 : Fin 1) j) = x (ix2 r j) := by
  refine congrArg x (funext fun ax => Fin.ext ?_)
  match ax with
  | ⟨0, _⟩ => show r.val + 1 * 0 = r.val; omega
  | ⟨1, _⟩ => show 0 + 1 * j.val = j.val; omega

/-- Relation r's pre-activation at node n, feature d, from whole arrays X (features), A (aggregates), W, B. -/
def preE (X : FVec Ideal S100000x64 .f32) (A : FVec Ideal S4x100000x64 .f32) (W : FVec Ideal S4x64x64 .f32) (B : FVec Ideal S4x64 .f32)
    (r : Fin 4) (n : Fin 100000) (d : Fin 64) : EReal :=
  (∑ k : Fin 64, (X (ix2 n k) + A (ix3 r n k)) * W (ix3 r k d)) + B (ix2 r d)

/-- ∑ over tile i's 5000 nodes of φ (pre-activation): φ = id gives the sum, φ = square the sum of squares. -/
def tileStat (φ : EReal → EReal) (X : FVec Ideal S100000x64 .f32) (A : FVec Ideal S4x100000x64 .f32) (W : FVec Ideal S4x64x64 .f32)
    (B : FVec Ideal S4x64 .f32) (i : Fin 20) (r : Fin 4) (d : Fin 64) : EReal :=
  ∑ p : Fin 5000, φ (preE X A W B r (Gnn.tileRow i p) d)

/-- `tileStat` as a function of the 20 × 4 × 64 index (tile, relation, feature). -/
def statArr (φ : EReal → EReal) (X : FVec Ideal S100000x64 .f32) (A : FVec Ideal S4x100000x64 .f32) (W : FVec Ideal S4x64x64 .f32)
    (B : FVec Ideal S4x64 .f32) : S20x4x64.Idx → EReal := fun j => tileStat φ X A W B (j 0) (j 1) (j 2)

/-- Relation r's 1 × 1 × 64 row: column sums of φ ∘ pre-activation, from the tile y0 and slab r of x1, x2, x3. -/
def relRow (φ : EReal → EReal) (y0 : FVec Ideal S5000x64 .f32) (x1 : Vec Ideal S4x5000x64 .f32) (x2 : Vec Ideal S4x64x64 .f32)
    (x3 : Vec Ideal S4x64 .f32) (r : Fin 4)
    (iA : ∀ a, (![r.val, 0, 0] : Fin 3 → Nat) a + S1x5000x64.size a ≤ S4x5000x64.size a)
    (iW : ∀ a, (![r.val, 0, 0] : Fin 3 → Nat) a + S1x64x64.size a ≤ S4x64x64.size a)
    (iB : ∀ a, (![r.val, 0] : Fin 2 → Nat) a + S1x64.size a ≤ S4x64.size a) : FVec Ideal S1x1x64 .f32 :=
  colSums fun x => φ (preT y0 (View.ld x1 (Rect.unit (s := S4x5000x64) ![r.val, 0, 0] S1x5000x64.size iA))
    (View.ld x2 (Rect.unit (s := S4x64x64) ![r.val, 0, 0] S1x64x64.size iW))
    (View.ld x3 (Rect.unit (s := S4x64) ![r.val, 0] S1x64.size iB)) x)

/-- The 1 × 4 × 64 block whose row r is `relRow … r`. -/
def tileOut (φ : EReal → EReal) (y0 : FVec Ideal S5000x64 .f32) (x1 : Vec Ideal S4x5000x64 .f32) (x2 : Vec Ideal S4x64x64 .f32)
    (x3 : Vec Ideal S4x64 .f32) : Vec Ideal S1x4x64 .f32 :=
  View.canon ([⟨r0_16, relRow φ y0 x1 x2 x3 3 inb_S4x5000x64_S1x5000x64_3_0_0 inb_S4x64x64_S1x64x64_3_0_0 inb_S4x64_S1x64_3_0⟩,
    ⟨r0_12, relRow φ y0 x1 x2 x3 2 inb_S4x5000x64_S1x5000x64_2_0_0 inb_S4x64x64_S1x64x64_2_0_0 inb_S4x64_S1x64_2_0⟩,
    ⟨r0_8, relRow φ y0 x1 x2 x3 1 inb_S4x5000x64_S1x5000x64_1_0_0 inb_S4x64x64_S1x64x64_1_0_0 inb_S4x64_S1x64_1_0⟩,
    ⟨r0_4, relRow φ y0 x1 x2 x3 0 inb_S4x5000x64_S1x5000x64_0_0_0 inb_S4x64x64_S1x64x64_0_0_0 inb_S4x64_S1x64_0_0⟩] :
      List (View.Piece (Elt Ideal) S1x4x64 .f32))

/-- A row placed at row r of a 1 × 4 × 64 block agrees with G (row, feature) as soon as it is G r feature by feature. -/
theorem row_at (P : FVec Ideal S1x1x64 .f32) (G : Fin 4 → Fin 64 → EReal) (r : Fin 4)
    (inb : ∀ a, (![0, r.val, 0] : Fin 3 → Nat) a + S1x1x64.size a ≤ S1x4x64.size a)
    (h : ∀ d : Fin 64, P (ix3 (0 : Fin 1) (0 : Fin 1) d) = G r d) (x : S1x1x64.Idx) :
    P x = (fun y : S1x4x64.Idx => G (y 1) (y 2)) ((Rect.unit (s := S1x4x64) ![0, r.val, 0] S1x1x64.size inb).emb x) := by
  obtain ⟨a, b, d, rfl⟩ : ∃ (a b : Fin 1) (d : Fin 64), x = ix3 a b d := ⟨x 0, x 1, x 2, eq_ix3 x⟩
  obtain rfl : a = 0 := Subsingleton.elim _ _
  obtain rfl : b = 0 := Subsingleton.elim _ _
  rw [h d]
  exact congrArg₂ G (Fin.ext (by show r.val = r.val + 1 * 0; omega)) (Fin.ext (by show d.val = 0 + 1 * d.val; omega))

/-- Reading a tile through its whole rectangle is the identity. -/
theorem ld_tile (x0 : Vec Ideal S5000x64 .f32) : View.ld x0 r0_0 = x0 :=
  View.ld_unit_zero (S := S5000x64) (off := ![0, 0]) (funext fun a => match a with | ⟨0, _⟩ => rfl | ⟨1, _⟩ => rfl)
    inb_S5000x64_S5000x64_0_0 x0

/-- The same through an identity shape cast. -/
theorem cast_ld_tile (x0 : Vec Ideal S5000x64 .f32) :
    shapeCast S5000x64 (View.ld x0 r0_0) shapeCasts_S5000x64_S5000x64 = x0 := by
  rw [ld_tile]
  exact shapeCast_self _ _

/-- An index j of the 20 × 4 × 64 array lies in the 1 × 4 × 64 rectangle at block index (j 0, 0, 0). -/
theorem mem_tileRect (ix : Fin 3 → Nat) (inb : ∀ a : Fin 3, ix a * S1x4x64.size a + S1x4x64.size a ≤ S20x4x64.size a) (j : S20x4x64.Idx)
    (e0 : ix 0 = (j 0).val) (e1 : ix 1 = 0) (e2 : ix 2 = 0) :
    j ∈ (Rect.unit (s := S20x4x64) (fun a => ix a * S1x4x64.size a) S1x4x64.size inb).set := by
  have h1 : (j 1).val < 4 := (j 1).isLt
  have h2 : (j 2).val < 64 := (j 2).isLt
  rw [Rect.mem_set_unit]
  intro a
  match a with
  | ⟨0, _⟩ => show ix 0 * 1 ≤ (j 0).val ∧ (j 0).val < ix 0 * 1 + 1; omega
  | ⟨1, _⟩ => show ix 1 * 4 ≤ (j 1).val ∧ (j 1).val < ix 1 * 4 + 4; omega
  | ⟨2, _⟩ => show ix 2 * 64 ≤ (j 2).val ∧ (j 2).val < ix 2 * 64 + 64; omega

/-- At block index (i, 0), entry (p, k) of a 5000 × 64 block is entry (5000 i + p, k) of the array. -/
theorem tile_idx2 (e : S100000x64.Idx) (ix : Fin 2 → Nat) (i : Fin 20) (p : Fin 5000) (k : Fin 64)
    (he : ∀ a : Fin 2, (e a : Nat) = ix a * S5000x64.size a + (ix2 p k a : Nat)) (e0 : ix 0 = i.val) (e1 : ix 1 = 0) :
    e = ix2 (Gnn.tileRow i p) k :=
  Shape.idx_ext₂ ((he 0).trans (by rw [e0]; show i.val * 5000 + p.val = 5000 * i.val + p.val; omega))
    ((he 1).trans (by rw [e1]; show 0 * 64 + k.val = k.val; omega))

/-- At block index (0, i, 0), entry (r, p, k) of a 4 × 5000 × 64 block is entry (r, 5000 i + p, k) of the array. -/
theorem tile_idx3 (e : S4x100000x64.Idx) (ix : Fin 3 → Nat) (i : Fin 20) (r : Fin 4) (p : Fin 5000) (k : Fin 64)
    (he : ∀ a : Fin 3, (e a : Nat) = ix a * S4x5000x64.size a + (ix3 r p k a : Nat)) (e0 : ix 0 = 0) (e1 : ix 1 = i.val) (e2 : ix 2 = 0) :
    e = ix3 r (Gnn.tileRow i p) k :=
  funext fun a => Fin.ext <| match a with
    | ⟨0, _⟩ => (he 0).trans (by rw [e0]; show 0 * 4 + r.val = r.val; omega)
    | ⟨1, _⟩ => (he 1).trans (by rw [e1]; show i.val * 5000 + p.val = 5000 * i.val + p.val; omega)
    | ⟨2, _⟩ => (he 2).trans (by rw [e2]; show 0 * 64 + k.val = k.val; omega)

section Tile
variable (φ : EReal → EReal) (X : FVec Ideal S100000x64 .f32) (A : FVec Ideal S4x100000x64 .f32) (W : FVec Ideal S4x64x64 .f32)
  (B : FVec Ideal S4x64 .f32) (i : Fin 20)
  (y0 : FVec Ideal S5000x64 .f32) (x1 : Vec Ideal S4x5000x64 .f32) (x2 : Vec Ideal S4x64x64 .f32) (x3 : Vec Ideal S4x64 .f32)
  (h0 : ∀ p k, y0 (ix2 p k) = X (ix2 (Gnn.tileRow i p) k))
  (h1 : ∀ r p k, x1 (ix3 r p k) = A (ix3 r (Gnn.tileRow i p) k))
  (h2 : ∀ x, x2 x = W x) (h3 : ∀ x, x3 x = B x)
include h0 h1 h2 h3

/-- If y0, x1 are tile i's rows of X, A and x2 = W, x3 = B, then `relRow` at feature d is `tileStat` of tile i. -/
theorem relRow_apply (r : Fin 4) (iA iW iB) (d : Fin 64) :
    relRow φ y0 x1 x2 x3 r iA iW iB (ix3 (0 : Fin 1) (0 : Fin 1) d) = tileStat φ X A W B i r d := by
  unfold relRow tileStat
  refine (colSums_apply _ d).trans (Finset.sum_congr rfl fun p _ => congrArg φ ((preT_apply _ _ _ _ p d).trans ?_))
  unfold preE
  rw [ld_row x3 r iB d, h3]
  refine congrArg (· + B (ix2 r d)) (Finset.sum_congr rfl fun k _ => ?_)
  rw [h0 p k, ld_slab x1 r iA p k, h1 r p k, ld_slab x2 r iW k d, h2]

theorem tileOut_apply (y : S1x4x64.Idx) : tileOut φ y0 x1 x2 x3 y = tileStat φ X A W B i (y 1) (y 2) := by
  unfold tileOut
  refine View.canon_apply_of_pieces (Val := Elt Ideal) (fun y : S1x4x64.Idx => tileStat φ X A W B i (y 1) (y 2)) _ ?_ y (cover0_4 _ _ _ _ y)
  intro pc hpc
  simp only [List.mem_cons, List.mem_singleton, List.not_mem_nil, or_false] at hpc
  rcases hpc with rfl | rfl | rfl | rfl
  · exact row_at _ (tileStat φ X A W B i) 3 inb_S1x4x64_S1x1x64_0_3_0 fun d => relRow_apply φ X A W B i y0 x1 x2 x3 h0 h1 h2 h3 3 _ _ _ d
  · exact row_at _ (tileStat φ X A W B i) 2 inb_S1x4x64_S1x1x64_0_2_0 fun d => relRow_apply φ X A W B i y0 x1 x2 x3 h0 h1 h2 h3 2 _ _ _ d
  · exact row_at _ (tileStat φ X A W B i) 1 inb_S1x4x64_S1x1x64_0_1_0 fun d => relRow_apply φ X A W B i y0 x1 x2 x3 h0 h1 h2 h3 1 _ _ _ d
  · exact row_at _ (tileStat φ X A W B i) 0 inb_S1x4x64_S1x1x64_0_0_0 fun d => relRow_apply φ X A W B i y0 x1 x2 x3 h0 h1 h2 h3 0 _ _ _ d

/-- Under the same hypotheses `tileOut` is `statArr` read at any j = (i, y 1, y 2), given by block index (i, 0, 0). -/
theorem tileOut_eq_statArr (ix : Fin 3 → Nat) (y : S1x4x64.Idx) (j : S20x4x64.Idx)
    (hj : ∀ a : Fin 3, (j a : Nat) = ix a * S1x4x64.size a + (y a : Nat)) (e0 : ix 0 = i.val) (e1 : ix 1 = 0) (e2 : ix 2 = 0) :
    tileOut φ y0 x1 x2 x3 y = statArr φ X A W B j := by
  have j0 : (j 0).val = ix 0 * 1 + (y 0).val := hj 0
  have j1 : (j 1).val = ix 1 * 4 + (y 1).val := hj 1
  have j2 : (j 2).val = ix 2 * 64 + (y 2).val := hj 2
  have y0lt : (y 0).val < 1 := (y 0).isLt
  refine (tileOut_apply φ X A W B i y0 x1 x2 x3 h0 h1 h2 h3 y).trans ?_
  show _ = tileStat φ X A W B (j 0) (j 1) (j 2)
  rw [show j 0 = i from Fin.ext (by omega), show j 1 = y 1 from Fin.ext (by omega), show j 2 = y 2 from Fin.ext (by omega)]
end Tile

/-- With real entries the pre-activation is the coercion of `Gnn.preOf`. -/
theorem preE_coe (X : FVec Ideal S100000x64 .f32) (A : FVec Ideal S4x100000x64 .f32) (W : FVec Ideal S4x64x64 .f32) (B : FVec Ideal S4x64 .f32)
    (xr : Gnn.Feat) (ar : Fin 4 → Gnn.Feat) (w1r : Fin 4 → Fin 64 → Fin 64 → ℝ) (b1r : Fin 4 → Fin 64 → ℝ)
    (hx : ∀ n k, X (ix2 n k) = ((xr n k : ℝ) : EReal)) (ha : ∀ r n k, A (ix3 r n k) = ((ar r n k : ℝ) : EReal))
    (hw : ∀ r k d, W (ix3 r k d) = ((w1r r k d : ℝ) : EReal)) (hb : ∀ r d, B (ix2 r d) = ((b1r r d : ℝ) : EReal))
    (r : Fin 4) (n : Fin 100000) (d : Fin 64) :
    preE X A W B r n d = ((Gnn.preOf w1r b1r xr ar r n d : ℝ) : EReal) := by
  unfold preE Gnn.preOf
  have e : ∀ k : Fin 64, (X (ix2 n k) + A (ix3 r n k)) * W (ix3 r k d) = (((xr n k + ar r n k) * w1r r k d : ℝ) : EReal) := fun k => by
    rw [hx, ha, hw, Gnn.Coe.add_coe, Gnn.Coe.mul_coe]
  rw [Finset.sum_congr rfl fun k _ => e k, Gnn.Coe.coe_sum_univ, hb, Gnn.Coe.add_coe]

/-- If O = `statArr φ` of real arrays and φ restricts to ψ on ℝ, then O (i, r, d) is the real ∑ of ψ (`Gnn.preOf`). -/
theorem stat_coe (φ : EReal → EReal) (ψ : ℝ → ℝ) (hφ : ∀ x : ℝ, φ (x : EReal) = ((ψ x : ℝ) : EReal))
    (O : FVec Ideal S20x4x64 .f32)
    (X : FVec Ideal S100000x64 .f32) (A : FVec Ideal S4x100000x64 .f32) (W : FVec Ideal S4x64x64 .f32) (B : FVec Ideal S4x64 .f32)
    (hO : O = statArr φ X A W B)
    (xr : Gnn.Feat) (ar : Fin 4 → Gnn.Feat) (w1r : Fin 4 → Fin 64 → Fin 64 → ℝ) (b1r : Fin 4 → Fin 64 → ℝ)
    (hx : ∀ n k, X (ix2 n k) = ((xr n k : ℝ) : EReal)) (ha : ∀ r n k, A (ix3 r n k) = ((ar r n k : ℝ) : EReal))
    (hw : ∀ r k d, W (ix3 r k d) = ((w1r r k d : ℝ) : EReal)) (hb : ∀ r d, B (ix2 r d) = ((b1r r d : ℝ) : EReal))
    (i : Fin 20) (r : Fin 4) (d : Fin 64) :
    O (ix3 i r d) = ((∑ p : Fin 5000, ψ (Gnn.preOf w1r b1r xr ar r (Gnn.tileRow i p) d) : ℝ) : EReal) := by
  subst hO
  show ∑ p : Fin 5000, φ (preE X A W B r (Gnn.tileRow i p) d) = _
  rw [Finset.sum_congr rfl fun p _ => (congrArg φ (preE_coe X A W B xr ar w1r b1r hx ha hw hb r (Gnn.tileRow i p) d)).trans (hφ _),
    Gnn.Coe.coe_sum_univ]

end Cert.KernelIdeal.GnnK

end
-- ==== Proof.KStats0.lean ====
import proofs.«416992_j9088150798514_2_alg».proof.Proof.KStats
import proofs.«416992_j9088150798514_2_alg».proof.Proof.KTerms

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)

theorem s0_idx_facts : ∀ t : Fin cfg0.N,
    (win0_0.index t (0 : Fin 2) = t.val ∧ win0_0.index t (1 : Fin 2) = 0)
    ∧ (win0_1.index t (0 : Fin 3) = 0 ∧ win0_1.index t (1 : Fin 3) = t.val ∧ win0_1.index t (2 : Fin 3) = 0)
    ∧ (∀ a, win0_2.index t a = 0) ∧ (∀ a, win0_3.index t a = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0) :=
  (by decide +kernel : ∀ t : Fin grid0.N, _)

section Stats0
variable (V : EntryV) (c : Dev nD)

/-- At point t = i the four input blocks are tile i's rows of the features and aggregates, and all of the weights and biases. -/
theorem s0_blocks (t : Fin cfg0.N) (i : Fin 20) (ht : t.val = i.val) :
    (∀ p k, (View.ld (iblk0 V c 0 t) r0_0 : FVec Ideal S5000x64 .f32) (ix2 p k)
        = (V c main_arg0 : FVec Ideal S100000x64 .f32) (ix2 (Gnn.tileRow i p) k))
    ∧ (∀ r p k, (iblk0 V c 1 t : Vec Ideal S4x5000x64 .f32) (ix3 r p k)
        = (V c main_v17 : FVec Ideal S4x100000x64 .f32) (ix3 r (Gnn.tileRow i p) k))
    ∧ (∀ x, (iblk0 V c 2 t : Vec Ideal S4x64x64 .f32) x = (V c main_v19 : FVec Ideal S4x64x64 .f32) x)
    ∧ (∀ x, (iblk0 V c 3 t : Vec Ideal S4x64 .f32) x = (V c main_v21 : FVec Ideal S4x64 .f32) x) := by
  obtain ⟨⟨x0, x1⟩, ⟨a0, a1, a2⟩, w0, b0, -⟩ := s0_idx_facts t
  refine ⟨fun p k => ?_, fun r p k => ?_, fun x => ?_, fun x => ?_⟩
  · refine (congrFun (ld_tile (iblk0 V c 0 t)) (ix2 p k)).trans ?_
    show V c main_arg0 _ = V c main_arg0 _
    congr 1
    exact tile_idx2 _ (win0_0.index t) i p k (win0_0.rect_emb_val t (ix2 p k)) (x0.trans ht) x1
  · show V c main_v17 _ = V c main_v17 _
    congr 1
    exact tile_idx3 _ (win0_1.index t) i r p k (win0_1.rect_emb_val t (ix3 r p k)) a0 (a1.trans ht) a2
  · show V c main_v19 _ = V c main_v19 _
    congr 1
    exact funext fun a => Fin.ext (win0_2.rect_emb_val_of_index_zero t a (w0 a) x)
  · show V c main_v21 _ = V c main_v21 _
    congr 1
    exact funext fun a => Fin.ext (win0_3.rect_emb_val_of_index_zero t a (b0 a) x)

/-- `statArr φ` of the four arrays the region is entered with. -/
abbrev s0_stat (φ : EReal → EReal) : S20x4x64.Idx → EReal := statArr φ (V c main_arg0) (V c main_v17) (V c main_v19) (V c main_v21)

/-- Every point writes its tile's sums and the twenty blocks cover the array. -/
theorem s0_final4 : (dat0 (F := Ideal) V c).arrAt 4 cfg0.N = s0_stat V c id := by
  have hN : cfg0.N = 20 := N_0
  refine (dat0 (F := Ideal) V c).arrAt_eq_of_cover 4 _ (fun t _ => ?_) fun j => ?_
  · obtain ⟨-, -, -, -, ⟨e0, e1, e2⟩, -⟩ := s0_idx_facts t
    obtain ⟨h0, h1, h2, h3⟩ := s0_blocks V c t ⟨t.val, by omega⟩ rfl
    show (cfg0.win 4).cut (grid0.coords t) ((dat0 (F := Ideal) V c).after 4 t) = _
    rw [after0_4]
    funext y
    show tileOut id (View.ld (iblk0 V c 0 t) r0_0) (iblk0 V c 1 t) (iblk0 V c 2 t) (iblk0 V c 3 t) y
      = s0_stat V c id (((cfg0.win 4).blk t).view.emb y)
    exact tileOut_eq_statArr id _ _ _ _ ⟨t.val, by omega⟩ _ _ _ _ h0 h1 h2 h3 (win0_4.index t) y _
      (win0_4.rect_emb_val t y) e0 e1 e2
  · have h0 : (j 0).val < 20 := (j 0).isLt
    have ht : (j 0).val < cfg0.N := by omega
    obtain ⟨-, -, -, -, ⟨e0, e1, e2⟩, -⟩ := s0_idx_facts ⟨(j 0).val, ht⟩
    refine ⟨⟨(j 0).val, ht⟩, flush0_4 _, ?_⟩
    show j ∈ ((View.whole main_v22_0).slice (win0_4.rect ⟨(j 0).val, ht⟩)).set
    rw [View.set_slice_whole]
    exact mem_tileRect (win0_4.index ⟨(j 0).val, ht⟩) _ j e0 e1 e2

/-- The same for the sums of squares. -/
theorem s0_final5 : (dat0 (F := Ideal) V c).arrAt 5 cfg0.N = s0_stat V c (fun e => e * e) := by
  have hN : cfg0.N = 20 := N_0
  refine (dat0 (F := Ideal) V c).arrAt_eq_of_cover 5 _ (fun t _ => ?_) fun j => ?_
  · obtain ⟨-, -, -, -, -, ⟨e0, e1, e2⟩⟩ := s0_idx_facts t
    obtain ⟨h0, h1, h2, h3⟩ := s0_blocks V c t ⟨t.val, by omega⟩ rfl
    show (cfg0.win 5).cut (grid0.coords t) ((dat0 (F := Ideal) V c).after 5 t) = _
    rw [after0_5]
    funext y
    show tileOut (fun e => e * e) (View.ld (iblk0 V c 0 t) r0_0) (iblk0 V c 1 t) (iblk0 V c 2 t) (iblk0 V c 3 t) y
      = s0_stat V c (fun e => e * e) (((cfg0.win 5).blk t).view.emb y)
    exact tileOut_eq_statArr (fun e => e * e) _ _ _ _ ⟨t.val, by omega⟩ _ _ _ _ h0 h1 h2 h3 (win0_5.index t) y _
      (win0_5.rect_emb_val t y) e0 e1 e2
  · have h0 : (j 0).val < 20 := (j 0).isLt
    have ht : (j 0).val < cfg0.N := by omega
    obtain ⟨-, -, -, -, -, ⟨e0, e1, e2⟩⟩ := s0_idx_facts ⟨(j 0).val, ht⟩
    refine ⟨⟨(j 0).val, ht⟩, flush0_5 _, ?_⟩
    show j ∈ ((View.whole main_v22_1).slice (win0_5.rect ⟨(j 0).val, ht⟩)).set
    rw [View.set_slice_whole]
    exact mem_tileRect (win0_5.index ⟨(j 0).val, ht⟩) _ j e0 e1 e2

variable (xr : Gnn.Feat) (ar : Fin 4 → Gnn.Feat) (w1r : Fin 4 → Fin 64 → Fin 64 → ℝ) (b1r : Fin 4 → Fin 64 → ℝ)
  (hx : ∀ n k, (V c main_arg0 : FVec Ideal S100000x64 .f32) (ix2 n k) = ((xr n k : ℝ) : EReal))
  (ha : ∀ r n k, (V c main_v17 : FVec Ideal S4x100000x64 .f32) (ix3 r n k) = ((ar r n k : ℝ) : EReal))
  (hw : ∀ r k d, (V c main_v19 : FVec Ideal S4x64x64 .f32) (ix3 r k d) = ((w1r r k d : ℝ) : EReal))
  (hb : ∀ r d, (V c main_v21 : FVec Ideal S4x64 .f32) (ix2 r d) = ((b1r r d : ℝ) : EReal))
include hx ha hw hb

theorem stats0_sum (i : Fin 20) (r : Fin 4) (d : Fin 64) :
    ((dat0 (F := Ideal) V c).arrAt 4 cfg0.N : FVec Ideal S20x4x64 .f32) (ix3 i r d)
      = ((∑ p : Fin 5000, Gnn.preOf w1r b1r xr ar r (Gnn.tileRow i p) d : ℝ) : EReal) :=
  stat_coe id id (fun _ => rfl) _ _ _ _ _ (s0_final4 V c) xr ar w1r b1r hx ha hw hb i r d

theorem stats0_sumsq (i : Fin 20) (r : Fin 4) (d : Fin 64) :
    ((dat0 (F := Ideal) V c).arrAt 5 cfg0.N : FVec Ideal S20x4x64 .f32) (ix3 i r d)
      = ((∑ p : Fin 5000, Gnn.preOf w1r b1r xr ar r (Gnn.tileRow i p) d * Gnn.preOf w1r b1r xr ar r (Gnn.tileRow i p) d : ℝ) : EReal) :=
  stat_coe (fun e => e * e) (fun x => x * x) (fun x => Gnn.Coe.mul_coe x x) _ _ _ _ _ (s0_final5 V c) xr ar w1r b1r hx ha hw hb i r d
end Stats0

end Cert.KernelIdeal.GnnK

end
-- ==== Proof.KStats2.lean ====
import proofs.«416992_j9088150798514_2_alg».proof.Proof.KStats
import proofs.«416992_j9088150798514_2_alg».proof.Proof.KTerms

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)

theorem s2_idx_facts : ∀ t : Fin cfg2.N,
    (win2_0.index t (0 : Fin 2) = t.val ∧ win2_0.index t (1 : Fin 2) = 0)
    ∧ (win2_1.index t (0 : Fin 3) = 0 ∧ win2_1.index t (1 : Fin 3) = t.val ∧ win2_1.index t (2 : Fin 3) = 0)
    ∧ (∀ a, win2_2.index t a = 0) ∧ (∀ a, win2_3.index t a = 0)
    ∧ (win2_4.index t (0 : Fin 3) = t.val ∧ win2_4.index t (1 : Fin 3) = 0 ∧ win2_4.index t (2 : Fin 3) = 0)
    ∧ (win2_5.index t (0 : Fin 3) = t.val ∧ win2_5.index t (1 : Fin 3) = 0 ∧ win2_5.index t (2 : Fin 3) = 0) :=
  (by decide +kernel : ∀ t : Fin grid2.N, _)

section Stats2
variable (V : EntryV) (c : Dev nD)

/-- At point t = i the four input blocks are tile i's rows of the features and aggregates, and all of the weights and biases. -/
theorem s2_blocks (t : Fin cfg2.N) (i : Fin 20) (ht : t.val = i.val) :
    (∀ p k, (shapeCast S5000x64 (View.ld (iblk2 V c 0 t) r2_0) shapeCasts_S5000x64_S5000x64 : FVec Ideal S5000x64 .f32) (ix2 p k)
        = (V c main_v49 : FVec Ideal S100000x64 .f32) (ix2 (Gnn.tileRow i p) k))
    ∧ (∀ r p k, (iblk2 V c 1 t : Vec Ideal S4x5000x64 .f32) (ix3 r p k)
        = (V c main_v60 : FVec Ideal S4x100000x64 .f32) (ix3 r (Gnn.tileRow i p) k))
    ∧ (∀ x, (iblk2 V c 2 t : Vec Ideal S4x64x64 .f32) x = (V c main_v62 : FVec Ideal S4x64x64 .f32) x)
    ∧ (∀ x, (iblk2 V c 3 t : Vec Ideal S4x64 .f32) x = (V c main_v64 : FVec Ideal S4x64 .f32) x) := by
  obtain ⟨⟨x0, x1⟩, ⟨a0, a1, a2⟩, w0, b0, -⟩ := s2_idx_facts t
  refine ⟨fun p k => ?_, fun r p k => ?_, fun x => ?_, fun x => ?_⟩
  · refine (congrFun (cast_ld_tile (iblk2 V c 0 t)) (ix2 p k)).trans ?_
    show V c main_v49 _ = V c main_v49 _
    congr 1
    exact tile_idx2 _ (win2_0.index t) i p k (win2_0.rect_emb_val t (ix2 p k)) (x0.trans ht) x1
  · show V c main_v60 _ = V c main_v60 _
    congr 1
    exact tile_idx3 _ (win2_1.index t) i r p k (win2_1.rect_emb_val t (ix3 r p k)) a0 (a1.trans ht) a2
  · show V c main_v62 _ = V c main_v62 _
    congr 1
    exact funext fun a => Fin.ext (win2_2.rect_emb_val_of_index_zero t a (w0 a) x)
  · show V c main_v64 _ = V c main_v64 _
    congr 1
    exact funext fun a => Fin.ext (win2_3.rect_emb_val_of_index_zero t a (b0 a) x)

/-- `statArr φ` of the four arrays the region is entered with. -/
abbrev s2_stat (φ : EReal → EReal) : S20x4x64.Idx → EReal := statArr φ (V c main_v49) (V c main_v60) (V c main_v62) (V c main_v64)

/-- Every point writes its tile's sums and the twenty blocks cover the array. -/
theorem s2_final4 : (dat2 (F := Ideal) V c).arrAt 4 cfg2.N = s2_stat V c id := by
  have hN : cfg2.N = 20 := N_2
  refine (dat2 (F := Ideal) V c).arrAt_eq_of_cover 4 _ (fun t _ => ?_) fun j => ?_
  · obtain ⟨-, -, -, -, ⟨e0, e1, e2⟩, -⟩ := s2_idx_facts t
    obtain ⟨h0, h1, h2, h3⟩ := s2_blocks V c t ⟨t.val, by omega⟩ rfl
    show (cfg2.win 4).cut (grid2.coords t) ((dat2 (F := Ideal) V c).after 4 t) = _
    rw [after2_4]
    funext y
    show tileOut id (shapeCast S5000x64 (View.ld (iblk2 V c 0 t) r2_0) shapeCasts_S5000x64_S5000x64) (iblk2 V c 1 t) (iblk2 V c 2 t) (iblk2 V c 3 t) y
      = s2_stat V c id (((cfg2.win 4).blk t).view.emb y)
    exact tileOut_eq_statArr id _ _ _ _ ⟨t.val, by omega⟩ _ _ _ _ h0 h1 h2 h3 (win2_4.index t) y _
      (win2_4.rect_emb_val t y) e0 e1 e2
  · have h0 : (j 0).val < 20 := (j 0).isLt
    have ht : (j 0).val < cfg2.N := by omega
    obtain ⟨-, -, -, -, ⟨e0, e1, e2⟩, -⟩ := s2_idx_facts ⟨(j 0).val, ht⟩
    refine ⟨⟨(j 0).val, ht⟩, flush2_4 _, ?_⟩
    show j ∈ ((View.whole main_v65_0).slice (win2_4.rect ⟨(j 0).val, ht⟩)).set
    rw [View.set_slice_whole]
    exact mem_tileRect (win2_4.index ⟨(j 0).val, ht⟩) _ j e0 e1 e2

/-- The same for the sums of squares. -/
theorem s2_final5 : (dat2 (F := Ideal) V c).arrAt 5 cfg2.N = s2_stat V c (fun e => e * e) := by
  have hN : cfg2.N = 20 := N_2
  refine (dat2 (F := Ideal) V c).arrAt_eq_of_cover 5 _ (fun t _ => ?_) fun j => ?_
  · obtain ⟨-, -, -, -, -, ⟨e0, e1, e2⟩⟩ := s2_idx_facts t
    obtain ⟨h0, h1, h2, h3⟩ := s2_blocks V c t ⟨t.val, by omega⟩ rfl
    show (cfg2.win 5).cut (grid2.coords t) ((dat2 (F := Ideal) V c).after 5 t) = _
    rw [after2_5]
    funext y
    show tileOut (fun e => e * e) (shapeCast S5000x64 (View.ld (iblk2 V c 0 t) r2_0) shapeCasts_S5000x64_S5000x64) (iblk2 V c 1 t) (iblk2 V c 2 t) (iblk2 V c 3 t) y
      = s2_stat V c (fun e => e * e) (((cfg2.win 5).blk t).view.emb y)
    exact tileOut_eq_statArr (fun e => e * e) _ _ _ _ ⟨t.val, by omega⟩ _ _ _ _ h0 h1 h2 h3 (win2_5.index t) y _
      (win2_5.rect_emb_val t y) e0 e1 e2
  · have h0 : (j 0).val < 20 := (j 0).isLt
    have ht : (j 0).val < cfg2.N := by omega
    obtain ⟨-, -, -, -, -, ⟨e0, e1, e2⟩⟩ := s2_idx_facts ⟨(j 0).val, ht⟩
    refine ⟨⟨(j 0).val, ht⟩, flush2_5 _, ?_⟩
    show j ∈ ((View.whole main_v65_1).slice (win2_5.rect ⟨(j 0).val, ht⟩)).set
    rw [View.set_slice_whole]
    exact mem_tileRect (win2_5.index ⟨(j 0).val, ht⟩) _ j e0 e1 e2

variable (xr : Gnn.Feat) (ar : Fin 4 → Gnn.Feat) (w1r : Fin 4 → Fin 64 → Fin 64 → ℝ) (b1r : Fin 4 → Fin 64 → ℝ)
  (hx : ∀ n k, (V c main_v49 : FVec Ideal S100000x64 .f32) (ix2 n k) = ((xr n k : ℝ) : EReal))
  (ha : ∀ r n k, (V c main_v60 : FVec Ideal S4x100000x64 .f32) (ix3 r n k) = ((ar r n k : ℝ) : EReal))
  (hw : ∀ r k d, (V c main_v62 : FVec Ideal S4x64x64 .f32) (ix3 r k d) = ((w1r r k d : ℝ) : EReal))
  (hb : ∀ r d, (V c main_v64 : FVec Ideal S4x64 .f32) (ix2 r d) = ((b1r r d : ℝ) : EReal))
include hx ha hw hb

theorem stats2_sum (i : Fin 20) (r : Fin 4) (d : Fin 64) :
    ((dat2 (F := Ideal) V c).arrAt 4 cfg2.N : FVec Ideal S20x4x64 .f32) (ix3 i r d)
      = ((∑ p : Fin 5000, Gnn.preOf w1r b1r xr ar r (Gnn.tileRow i p) d : ℝ) : EReal) :=
  stat_coe id id (fun _ => rfl) _ _ _ _ _ (s2_final4 V c) xr ar w1r b1r hx ha hw hb i r d

theorem stats2_sumsq (i : Fin 20) (r : Fin 4) (d : Fin 64) :
    ((dat2 (F := Ideal) V c).arrAt 5 cfg2.N : FVec Ideal S20x4x64 .f32) (ix3 i r d)
      = ((∑ p : Fin 5000, Gnn.preOf w1r b1r xr ar r (Gnn.tileRow i p) d * Gnn.preOf w1r b1r xr ar r (Gnn.tileRow i p) d : ℝ) : EReal) :=
  stat_coe (fun e => e * e) (fun x => x * x) (fun x => Gnn.Coe.mul_coe x x) _ _ _ _ _ (s2_final5 V c) xr ar w1r b1r hx ha hw hb i r d
end Stats2

end Cert.KernelIdeal.GnnK

end
-- ==== Proof.KStats4.lean ====
import proofs.«416992_j9088150798514_2_alg».proof.Proof.KStats
import proofs.«416992_j9088150798514_2_alg».proof.Proof.KTerms

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)

theorem s4_idx_facts : ∀ t : Fin cfg4.N,
    (win4_0.index t (0 : Fin 2) = t.val ∧ win4_0.index t (1 : Fin 2) = 0)
    ∧ (win4_1.index t (0 : Fin 3) = 0 ∧ win4_1.index t (1 : Fin 3) = t.val ∧ win4_1.index t (2 : Fin 3) = 0)
    ∧ (∀ a, win4_2.index t a = 0) ∧ (∀ a, win4_3.index t a = 0)
    ∧ (win4_4.index t (0 : Fin 3) = t.val ∧ win4_4.index t (1 : Fin 3) = 0 ∧ win4_4.index t (2 : Fin 3) = 0)
    ∧ (win4_5.index t (0 : Fin 3) = t.val ∧ win4_5.index t (1 : Fin 3) = 0 ∧ win4_5.index t (2 : Fin 3) = 0) :=
  (by decide +kernel : ∀ t : Fin grid4.N, _)

section Stats4
variable (V : EntryV) (c : Dev nD)

/-- At point t = i the four input blocks are tile i's rows of the features and aggregates, and all of the weights and biases. -/
theorem s4_blocks (t : Fin cfg4.N) (i : Fin 20) (ht : t.val = i.val) :
    (∀ p k, (shapeCast S5000x64 (View.ld (iblk4 V c 0 t) r4_0) shapeCasts_S5000x64_S5000x64 : FVec Ideal S5000x64 .f32) (ix2 p k)
        = (V c main_v92 : FVec Ideal S100000x64 .f32) (ix2 (Gnn.tileRow i p) k))
    ∧ (∀ r p k, (iblk4 V c 1 t : Vec Ideal S4x5000x64 .f32) (ix3 r p k)
        = (V c main_v103 : FVec Ideal S4x100000x64 .f32) (ix3 r (Gnn.tileRow i p) k))
    ∧ (∀ x, (iblk4 V c 2 t : Vec Ideal S4x64x64 .f32) x = (V c main_v105 : FVec Ideal S4x64x64 .f32) x)
    ∧ (∀ x, (iblk4 V c 3 t : Vec Ideal S4x64 .f32) x = (V c main_v107 : FVec Ideal S4x64 .f32) x) := by
  obtain ⟨⟨x0, x1⟩, ⟨a0, a1, a2⟩, w0, b0, -⟩ := s4_idx_facts t
  refine ⟨fun p k => ?_, fun r p k => ?_, fun x => ?_, fun x => ?_⟩
  · refine (congrFun (cast_ld_tile (iblk4 V c 0 t)) (ix2 p k)).trans ?_
    show V c main_v92 _ = V c main_v92 _
    congr 1
    exact tile_idx2 _ (win4_0.index t) i p k (win4_0.rect_emb_val t (ix2 p k)) (x0.trans ht) x1
  · show V c main_v103 _ = V c main_v103 _
    congr 1
    exact tile_idx3 _ (win4_1.index t) i r p k (win4_1.rect_emb_val t (ix3 r p k)) a0 (a1.trans ht) a2
  · show V c main_v105 _ = V c main_v105 _
    congr 1
    exact funext fun a => Fin.ext (win4_2.rect_emb_val_of_index_zero t a (w0 a) x)
  · show V c main_v107 _ = V c main_v107 _
    congr 1
    exact funext fun a => Fin.ext (win4_3.rect_emb_val_of_index_zero t a (b0 a) x)

/-- `statArr φ` of the four arrays the region is entered with. -/
abbrev s4_stat (φ : EReal → EReal) : S20x4x64.Idx → EReal := statArr φ (V c main_v92) (V c main_v103) (V c main_v105) (V c main_v107)

/-- Every point writes its tile's sums and the twenty blocks cover the array. -/
theorem s4_final4 : (dat4 (F := Ideal) V c).arrAt 4 cfg4.N = s4_stat V c id := by
  have hN : cfg4.N = 20 := N_4
  refine (dat4 (F := Ideal) V c).arrAt_eq_of_cover 4 _ (fun t _ => ?_) fun j => ?_
  · obtain ⟨-, -, -, -, ⟨e0, e1, e2⟩, -⟩ := s4_idx_facts t
    obtain ⟨h0, h1, h2, h3⟩ := s4_blocks V c t ⟨t.val, by omega⟩ rfl
    show (cfg4.win 4).cut (grid4.coords t) ((dat4 (F := Ideal) V c).after 4 t) = _
    rw [after4_4]
    funext y
    show tileOut id (shapeCast S5000x64 (View.ld (iblk4 V c 0 t) r4_0) shapeCasts_S5000x64_S5000x64) (iblk4 V c 1 t) (iblk4 V c 2 t) (iblk4 V c 3 t) y
      = s4_stat V c id (((cfg4.win 4).blk t).view.emb y)
    exact tileOut_eq_statArr id _ _ _ _ ⟨t.val, by omega⟩ _ _ _ _ h0 h1 h2 h3 (win4_4.index t) y _
      (win4_4.rect_emb_val t y) e0 e1 e2
  · have h0 : (j 0).val < 20 := (j 0).isLt
    have ht : (j 0).val < cfg4.N := by omega
    obtain ⟨-, -, -, -, ⟨e0, e1, e2⟩, -⟩ := s4_idx_facts ⟨(j 0).val, ht⟩
    refine ⟨⟨(j 0).val, ht⟩, flush4_4 _, ?_⟩
    show j ∈ ((View.whole main_v108_0).slice (win4_4.rect ⟨(j 0).val, ht⟩)).set
    rw [View.set_slice_whole]
    exact mem_tileRect (win4_4.index ⟨(j 0).val, ht⟩) _ j e0 e1 e2

/-- The same for the sums of squares. -/
theorem s4_final5 : (dat4 (F := Ideal) V c).arrAt 5 cfg4.N = s4_stat V c (fun e => e * e) := by
  have hN : cfg4.N = 20 := N_4
  refine (dat4 (F := Ideal) V c).arrAt_eq_of_cover 5 _ (fun t _ => ?_) fun j => ?_
  · obtain ⟨-, -, -, -, -, ⟨e0, e1, e2⟩⟩ := s4_idx_facts t
    obtain ⟨h0, h1, h2, h3⟩ := s4_blocks V c t ⟨t.val, by omega⟩ rfl
    show (cfg4.win 5).cut (grid4.coords t) ((dat4 (F := Ideal) V c).after 5 t) = _
    rw [after4_5]
    funext y
    show tileOut (fun e => e * e) (shapeCast S5000x64 (View.ld (iblk4 V c 0 t) r4_0) shapeCasts_S5000x64_S5000x64) (iblk4 V c 1 t) (iblk4 V c 2 t) (iblk4 V c 3 t) y
      = s4_stat V c (fun e => e * e) (((cfg4.win 5).blk t).view.emb y)
    exact tileOut_eq_statArr (fun e => e * e) _ _ _ _ ⟨t.val, by omega⟩ _ _ _ _ h0 h1 h2 h3 (win4_5.index t) y _
      (win4_5.rect_emb_val t y) e0 e1 e2
  · have h0 : (j 0).val < 20 := (j 0).isLt
    have ht : (j 0).val < cfg4.N := by omega
    obtain ⟨-, -, -, -, -, ⟨e0, e1, e2⟩⟩ := s4_idx_facts ⟨(j 0).val, ht⟩
    refine ⟨⟨(j 0).val, ht⟩, flush4_5 _, ?_⟩
    show j ∈ ((View.whole main_v108_1).slice (win4_5.rect ⟨(j 0).val, ht⟩)).set
    rw [View.set_slice_whole]
    exact mem_tileRect (win4_5.index ⟨(j 0).val, ht⟩) _ j e0 e1 e2

variable (xr : Gnn.Feat) (ar : Fin 4 → Gnn.Feat) (w1r : Fin 4 → Fin 64 → Fin 64 → ℝ) (b1r : Fin 4 → Fin 64 → ℝ)
  (hx : ∀ n k, (V c main_v92 : FVec Ideal S100000x64 .f32) (ix2 n k) = ((xr n k : ℝ) : EReal))
  (ha : ∀ r n k, (V c main_v103 : FVec Ideal S4x100000x64 .f32) (ix3 r n k) = ((ar r n k : ℝ) : EReal))
  (hw : ∀ r k d, (V c main_v105 : FVec Ideal S4x64x64 .f32) (ix3 r k d) = ((w1r r k d : ℝ) : EReal))
  (hb : ∀ r d, (V c main_v107 : FVec Ideal S4x64 .f32) (ix2 r d) = ((b1r r d : ℝ) : EReal))
include hx ha hw hb

theorem stats4_sum (i : Fin 20) (r : Fin 4) (d : Fin 64) :
    ((dat4 (F := Ideal) V c).arrAt 4 cfg4.N : FVec Ideal S20x4x64 .f32) (ix3 i r d)
      = ((∑ p : Fin 5000, Gnn.preOf w1r b1r xr ar r (Gnn.tileRow i p) d : ℝ) : EReal) :=
  stat_coe id id (fun _ => rfl) _ _ _ _ _ (s4_final4 V c) xr ar w1r b1r hx ha hw hb i r d

theorem stats4_sumsq (i : Fin 20) (r : Fin 4) (d : Fin 64) :
    ((dat4 (F := Ideal) V c).arrAt 5 cfg4.N : FVec Ideal S20x4x64 .f32) (ix3 i r d)
      = ((∑ p : Fin 5000, Gnn.preOf w1r b1r xr ar r (Gnn.tileRow i p) d * Gnn.preOf w1r b1r xr ar r (Gnn.tileRow i p) d : ℝ) : EReal) :=
  stat_coe (fun e => e * e) (fun x => x * x) (fun x => Gnn.Coe.mul_coe x x) _ _ _ _ _ (s4_final5 V c) xr ar w1r b1r hx ha hw hb i r d
end Stats4

end Cert.KernelIdeal.GnnK

end
-- ==== Proof.KRound.lean ====
import proofs.«416992_j9088150798514_2_alg».proof.Proof.Gen.KernelIdeal.Frame
import proofs.«416992_j9088150798514_2_alg».proof.Proof.Spec
import proofs.«416992_j9088150798514_2_alg».proof.Proof.LibCoe
import proofs.«416992_j9088150798514_2_alg».proof.Proof.KMat

import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GnnK.Round

open Cert.KernelIdeal Cert.KernelIdeal.Gen Idealize.ShloMosaic Idealize.ShloMosaic.TcCoe Idealize.ShloMosaic.ValueIdx
open Idealize.ShloMosaic.Pipeline (Dat Cfg Window)

def IsBlk (v : S5000x64.Idx → EReal) (f : Fin 5000 → Fin 64 → ℝ) : Prop := ∀ p d, v (ix2 p d) = ((f p d : ℝ) : EReal)
def IsMat (v : S64x64.Idx → EReal) (f : Fin 64 → Fin 64 → ℝ) : Prop := ∀ k d, v (ix2 k d) = ((f k d : ℝ) : EReal)
def IsRow (v : S1x64.Idx → EReal) (f : Fin 64 → ℝ) : Prop := ∀ d, v (ix2 (0 : Fin 1) d) = ((f d : ℝ) : EReal)

section Closure
variable {φ ψ : FTy}

theorem IsBlk.addf {a b : FVec Ideal S5000x64 φ} {f g : Fin 5000 → Fin 64 → ℝ} (ha : IsBlk a f) (hb : IsBlk b g) :
    IsBlk (addf a b) (fun p d => f p d + g p d) := fun p d => by
  show a (ix2 p d) + b (ix2 p d) = _
  rw [ha p d, hb p d, Gnn.Coe.add_coe]

theorem IsBlk.subf {a b : FVec Ideal S5000x64 φ} {f g : Fin 5000 → Fin 64 → ℝ} (ha : IsBlk a f) (hb : IsBlk b g) :
    IsBlk (subf a b) (fun p d => f p d - g p d) := fun p d => by
  show a (ix2 p d) - b (ix2 p d) = _
  rw [ha p d, hb p d, Gnn.Coe.sub_coe]

theorem IsBlk.mulf {a b : FVec Ideal S5000x64 φ} {f g : Fin 5000 → Fin 64 → ℝ} (ha : IsBlk a f) (hb : IsBlk b g) :
    IsBlk (mulf a b) (fun p d => f p d * g p d) := fun p d => by
  show a (ix2 p d) * b (ix2 p d) = _
  rw [ha p d, hb p d, Gnn.Coe.mul_coe]

theorem IsBlk.max0 {a : FVec Ideal S5000x64 .f32} {f : Fin 5000 → Fin 64 → ℝ} (ha : IsBlk a f) :
    IsBlk (maximumf a (broadcast S5000x64 (Scalar.ofBits (F := Ideal) .f32 0x00000000#32))) (fun p d => max (f p d) 0) := fun p d => by
  show max (a (ix2 p d)) (Ideal.ofBits .f32 0x00000000#32) = _
  rw [ha p d, Gnn.Coe.ofBits_zero_coe, Gnn.Coe.max_coe]

/-- Narrowing the float format is the identity on ideal values. -/
theorem IsBlk.truncf {a : FVec Ideal S5000x64 φ} {f : Fin 5000 → Fin 64 → ℝ} (ha : IsBlk a f) {h : ψ.bits < φ.bits} :
    IsBlk (truncf ψ a h) f := ha

theorem IsMat.truncf {a : FVec Ideal S64x64 φ} {f : Fin 64 → Fin 64 → ℝ} (ha : IsMat a f) {h : ψ.bits < φ.bits} :
    IsMat (truncf ψ a h) f := ha

theorem IsBlk.self {a : S5000x64.Idx → EReal} {f : Fin 5000 → Fin 64 → ℝ} (ha : IsBlk a f) :
    IsBlk (shapeCast S5000x64 a shapeCasts_S5000x64_S5000x64) f := by
  rw [shapeCast_self]; exact ha

theorem IsMat.self {a : S64x64.Idx → EReal} {f : Fin 64 → Fin 64 → ℝ} (ha : IsMat a f) :
    IsMat (shapeCast S64x64 a shapeCasts_S64x64_S64x64) f := by
  rw [shapeCast_self]; exact ha

theorem IsBlk.ofSlab {a : S1x5000x64.Idx → EReal} {f : Fin 5000 → Fin 64 → ℝ}
    (ha : ∀ p k, a (ix3 (0 : Fin 1) p k) = ((f p k : ℝ) : EReal)) :
    IsBlk (shapeCast S5000x64 a shapeCasts_S1x5000x64_S5000x64) f := fun p k =>
  (shapeCast_1ab_ab_apply a _ p k).trans (ha p k)

theorem IsMat.ofSlab {a : S1x64x64.Idx → EReal} {f : Fin 64 → Fin 64 → ℝ}
    (ha : ∀ k d, a (ix3 (0 : Fin 1) k d) = ((f k d : ℝ) : EReal)) :
    IsMat (shapeCast S64x64 a shapeCasts_S1x64x64_S64x64) f := fun k d =>
  (shapeCast_1ab_ab_apply a _ k d).trans (ha k d)

theorem IsRow.recast {a : S1x64.Idx → EReal} {f : Fin 64 → ℝ} (ha : IsRow a f) :
    IsRow (shapeCast S1x64 (shapeCast S64 a shapeCasts_S1x64_S64) shapeCasts_S64_S1x64) f := fun d =>
  ((shapeCast_a_1a_apply _ _ (0 : Fin 1) d).trans (shapeCast_1a_a_apply a _ d)).trans (ha d)

theorem IsRow.ofVec {a : S64.Idx → EReal} {f : Fin 64 → ℝ} (ha : ∀ d, a (ix1 d) = ((f d : ℝ) : EReal)) :
    IsRow (shapeCast S1x64 (shapeCast S64 a shapeCasts_S64_S64) shapeCasts_S64_S1x64) f := fun d => by
  rw [shapeCast_self]
  exact (shapeCast_a_1a_apply a _ (0 : Fin 1) d).trans (ha d)

theorem IsBlk.ofRow {a : S1x64.Idx → EReal} {f : Fin 64 → ℝ} (ha : IsRow a f) :
    IsBlk (broadcastTo S5000x64 a broadcasts_S1x64_S5000x64) (fun _ d => f d) := fun p d =>
  (broadcastTo_1b_ab_apply a _ p d).trans (ha d)

/-- The row is non-negative and the epsilon positive, so the root is of a positive real. -/
theorem IsRow.rsqrtEps {a : FVec Ideal S1x64 .f32} {f : Fin 64 → ℝ} (ha : IsRow a f) (h0 : ∀ d, 0 ≤ f d) :
    IsRow (rsqrt (Idealize.ShloMosaic.addf a (broadcast S1x64 (Scalar.ofBits (F := Ideal) .f32 0x3727C5AC#32))))
      (fun d => (Real.sqrt (f d + Gnn.epsR))⁻¹) := fun d => by
  show Ideal.rsqrt (a (ix2 (0 : Fin 1) d) + Ideal.ofBits .f32 0x3727C5AC#32) = _
  rw [ha d, Gnn.Coe.ofBits_eps, Gnn.Coe.add_coe, Gnn.Coe.rsqrt_coe _ (add_pos_of_nonneg_of_pos (h0 d) Gnn.epsR_pos)]

theorem IsBlk.mm {φ₁ φ₂ : FTy} {a : FVec Ideal S5000x64 φ₁} {w : FVec Ideal S64x64 φ₂} {f : Fin 5000 → Fin 64 → ℝ}
    {g : Fin 64 → Fin 64 → ℝ} (ha : IsBlk a f) (hw : IsMat w g) :
    IsBlk (matmul dot_S5000x64_S64x64_S5000x64_1_0_0_1_n_n none a w (constant (F := Ideal) S5000x64 .f32 0x00000000#32))
      (fun p d => ∑ k, f p k * g k d) := fun p d => by
  rw [mm_apply]
  exact Gnn.Coe.sum_eq_coe Finset.univ _ _ fun k _ => by rw [ha, hw, Gnn.Coe.mul_coe]

end Closure

def bcRow (b : FVec Ideal S1x64 .f32) : FVec Ideal S5000x64 .f32 :=
  broadcastTo S5000x64 (shapeCast S1x64 (shapeCast S64 b shapeCasts_S1x64_S64) shapeCasts_S64_S1x64) broadcasts_S1x64_S5000x64

theorem IsRow.bc {a : FVec Ideal S1x64 .f32} {f : Fin 64 → ℝ} (ha : IsRow a f) : IsBlk (bcRow a) (fun _ d => f d) :=
  IsBlk.ofRow ha.recast

theorem hz1 : (![0] : Fin 1 → Nat) = fun _ => 0 := funext fun a => by fin_cases a <;> rfl

theorem hz2 : (![0, 0] : Fin 2 → Nat) = fun _ => 0 := funext fun a => by fin_cases a <;> rfl

section Loads
variable {f : Fin 4 → Fin 64 → ℝ} {f3 : Fin 4 → Fin 64 → Fin 64 → ℝ} {g3 : Fin 4 → Fin 5000 → Fin 64 → ℝ}

theorem row_ld {x : Vec Ideal S4x64 .f32} (hx : ∀ r d, x (ix2 r d) = ((f r d : ℝ) : EReal)) (r : Fin 4) {off : Fin 2 → Nat}
    (hoff : off = ![r.val, 0]) (inb : ∀ a, off a + S1x64.size a ≤ S4x64.size a) :
    IsRow (View.ld x (Rect.unit (s := S4x64) off S1x64.size inb)) (f r) := fun d => by
  subst hoff
  refine Eq.trans (congrArg x (funext fun a => Fin.ext ?_)) (hx r d)
  match a with
  | ⟨0, _⟩ => show r.val + 1 * 0 = r.val; omega
  | ⟨1, _⟩ => show 0 + 1 * d.val = d.val; omega

theorem mat_ld {x : Vec Ideal S4x64x64 .f32} (hx : ∀ r k d, x (ix3 r k d) = ((f3 r k d : ℝ) : EReal)) (r : Fin 4)
    {off : Fin 3 → Nat} (hoff : off = ![r.val, 0, 0]) (inb : ∀ a, off a + S1x64x64.size a ≤ S4x64x64.size a) (k d : Fin 64) :
    View.ld x (Rect.unit (s := S4x64x64) off S1x64x64.size inb) (ix3 (0 : Fin 1) k d) = ((f3 r k d : ℝ) : EReal) := by
  subst hoff
  refine Eq.trans (congrArg x (funext fun a => Fin.ext ?_)) (hx r k d)
  match a with
  | ⟨0, _⟩ => show r.val + 1 * 0 = r.val; omega
  | ⟨1, _⟩ => show 0 + 1 * k.val = k.val; omega
  | ⟨2, _⟩ => show 0 + 1 * d.val = d.val; omega

theorem slab_ld {x : Vec Ideal S4x5000x64 .f32} (hx : ∀ r p k, x (ix3 r p k) = ((g3 r p k : ℝ) : EReal)) (r : Fin 4)
    {off : Fin 3 → Nat} (hoff : off = ![r.val, 0, 0]) (inb : ∀ a, off a + S1x5000x64.size a ≤ S4x5000x64.size a)
    (p : Fin 5000) (k : Fin 64) :
    View.ld x (Rect.unit (s := S4x5000x64) off S1x5000x64.size inb) (ix3 (0 : Fin 1) p k) = ((g3 r p k : ℝ) : EReal) := by
  subst hoff
  refine Eq.trans (congrArg x (funext fun a => Fin.ext ?_)) (hx r p k)
  match a with
  | ⟨0, _⟩ => show r.val + 1 * 0 = r.val; omega
  | ⟨1, _⟩ => show 0 + 1 * p.val = p.val; omega
  | ⟨2, _⟩ => show 0 + 1 * k.val = k.val; omega

end Loads

/-- One relation's arithmetic on a tile, as the kernel body spells it. -/
def relOps (s x : FVec Ideal S5000x64 .f32) (a : Vec Ideal S1x5000x64 .f32) (w1 : Vec Ideal S1x64x64 .f32)
    (b1 m v g be : FVec Ideal S1x64 .f32) (w2 : Vec Ideal S1x64x64 .f32) (b2 : FVec Ideal S1x64 .f32) : FVec Ideal S5000x64 .f32 :=
  have l := truncf .bf16 (addf x (shapeCast S5000x64 a shapeCasts_S1x5000x64_S5000x64)) bitsLt_bf16_f32
  have z := addf (matmul dot_S5000x64_S64x64_S5000x64_1_0_0_1_n_n none l (truncf .bf16 (shapeCast S64x64 w1 shapeCasts_S1x64x64_S64x64) bitsLt_bf16_f32)
    (constant S5000x64 .f32 0x00000000#32)) (bcRow b1)
  have n := mulf (subf z (bcRow m)) (broadcastTo S5000x64 (rsqrt (addf (shapeCast S1x64 (shapeCast S64 v shapeCasts_S1x64_S64)
    shapeCasts_S64_S1x64) (broadcast S1x64 (Scalar.ofBits (F := Ideal) .f32 0x3727C5AC#32)))) broadcasts_S1x64_S5000x64)
  have c := truncf .bf16 (maximumf (addf (mulf n (bcRow g)) (bcRow be))
    (broadcast S5000x64 (Scalar.ofBits (F := Ideal) .f32 0x00000000#32))) bitsLt_bf16_f32
  addf (addf s (matmul dot_S5000x64_S64x64_S5000x64_1_0_0_1_n_n none c (truncf .bf16 (shapeCast S64x64 w2 shapeCasts_S1x64x64_S64x64) bitsLt_bf16_f32)
    (constant S5000x64 .f32 0x00000000#32))) (bcRow b2)

section Relation
variable {x s : FVec Ideal S5000x64 .f32} {x1 : Vec Ideal S4x5000x64 .f32} {x4 x10 : Vec Ideal S4x64x64 .f32}
  {x5 x6 x7 x8 x9 x11 : Vec Ideal S4x64 .f32} {X S : Fin 5000 → Fin 64 → ℝ} {A : Fin 4 → Fin 5000 → Fin 64 → ℝ}
  {W1 W2 : Fin 4 → Fin 64 → Fin 64 → ℝ} {B1 M Vr Ga Be B2 : Fin 4 → Fin 64 → ℝ}

/-- Relation `r`'s contribution from the stacked parameter arrays: every step keeps coerced reals coerced. -/
theorem rel_ld (hs : IsBlk s S) (hx : IsBlk x X) (hx1 : ∀ r p k, x1 (ix3 r p k) = ((A r p k : ℝ) : EReal))
    (hx4 : ∀ r k d, x4 (ix3 r k d) = ((W1 r k d : ℝ) : EReal)) (hx5 : ∀ r d, x5 (ix2 r d) = ((B1 r d : ℝ) : EReal))
    (hx6 : ∀ r d, x6 (ix2 r d) = ((M r d : ℝ) : EReal)) (hx7 : ∀ r d, x7 (ix2 r d) = ((Vr r d : ℝ) : EReal))
    (hx8 : ∀ r d, x8 (ix2 r d) = ((Ga r d : ℝ) : EReal)) (hx9 : ∀ r d, x9 (ix2 r d) = ((Be r d : ℝ) : EReal))
    (hx10 : ∀ r k d, x10 (ix3 r k d) = ((W2 r k d : ℝ) : EReal)) (hx11 : ∀ r d, x11 (ix2 r d) = ((B2 r d : ℝ) : EReal))
    (h0 : ∀ r d, 0 ≤ Vr r d) (r : Fin 4) {o2 : Fin 2 → Nat} {o3 : Fin 3 → Nat} (h2 : o2 = ![r.val, 0]) (h3 : o3 = ![r.val, 0, 0])
    (i1 : ∀ a, o3 a + S1x5000x64.size a ≤ S4x5000x64.size a) (i4 : ∀ a, o3 a + S1x64x64.size a ≤ S4x64x64.size a)
    (i5 : ∀ a, o2 a + S1x64.size a ≤ S4x64.size a) :
    IsBlk (relOps s x (View.ld x1 (Rect.unit o3 S1x5000x64.size i1)) (View.ld x4 (Rect.unit o3 S1x64x64.size i4))
        (View.ld x5 (Rect.unit o2 S1x64.size i5)) (View.ld x6 (Rect.unit o2 S1x64.size i5)) (View.ld x7 (Rect.unit o2 S1x64.size i5))
        (View.ld x8 (Rect.unit o2 S1x64.size i5)) (View.ld x9 (Rect.unit o2 S1x64.size i5)) (View.ld x10 (Rect.unit o3 S1x64x64.size i4))
        (View.ld x11 (Rect.unit o2 S1x64.size i5)))
      (fun p d => (S p d + ∑ k, max ((((∑ j, (X p j + A r p j) * W1 r j k) + B1 r k) - M r k) * (Real.sqrt (Vr r k + Gnn.epsR))⁻¹
        * Ga r k + Be r k) 0 * W2 r k d) + B2 r d) :=
  (hs.addf (((((((((hx.addf (IsBlk.ofSlab (slab_ld hx1 r h3 i1))).truncf.mm (IsMat.ofSlab (mat_ld hx4 r h3 i4)).truncf).addf (row_ld hx5 r
    h2 i5).bc).subf (row_ld hx6 r h2 i5).bc).mulf (IsBlk.ofRow ((row_ld hx7 r h2 i5).recast.rsqrtEps (h0 r)))).mulf (row_ld hx8 r h2
    i5).bc).addf (row_ld hx9 r h2 i5).bc).max0.truncf).mm (IsMat.ofSlab (mat_ld hx10 r h3 i4)).truncf)).addf (row_ld hx11 r h2 i5).bc

end Relation

/-- A round's arithmetic on a tile before its closing positive part: the self-loop term, then the four relations in turn. -/
def coreOps (x : FVec Ideal S5000x64 .f32) (x1 : Vec Ideal S4x5000x64 .f32) (x2 : Vec Ideal S64x64 .f32) (x3 : Vec Ideal S64 .f32)
    (x4 : Vec Ideal S4x64x64 .f32) (x5 x6 x7 x8 x9 : Vec Ideal S4x64 .f32) (x10 : Vec Ideal S4x64x64 .f32) (x11 : Vec Ideal S4x64 .f32) :
    FVec Ideal S5000x64 .f32 :=
  have s0 := addf (matmul dot_S5000x64_S64x64_S5000x64_1_0_0_1_n_n none (truncf .bf16 x bitsLt_bf16_f32)
    (truncf .bf16 (shapeCast S64x64 x2 shapeCasts_S64x64_S64x64) bitsLt_bf16_f32) (constant S5000x64 .f32 0x00000000#32))
    (broadcastTo S5000x64 (shapeCast S1x64 (shapeCast S64 x3 shapeCasts_S64_S64) shapeCasts_S64_S1x64) broadcasts_S1x64_S5000x64)
  have s1 := relOps s0 x (View.ld x1 r1_3) (View.ld x4 r1_4) (View.ld x5 r1_5) (View.ld x6 r1_5) (View.ld x7 r1_5) (View.ld x8 r1_5)
    (View.ld x9 r1_5) (View.ld x10 r1_4) (View.ld x11 r1_5)
  have s2 := relOps s1 x (View.ld x1 r1_6) (View.ld x4 r1_7) (View.ld x5 r1_8) (View.ld x6 r1_8) (View.ld x7 r1_8) (View.ld x8 r1_8)
    (View.ld x9 r1_8) (View.ld x10 r1_7) (View.ld x11 r1_8)
  have s3 := relOps s2 x (View.ld x1 r1_9) (View.ld x4 r1_10) (View.ld x5 r1_11) (View.ld x6 r1_11) (View.ld x7 r1_11) (View.ld x8 r1_11)
    (View.ld x9 r1_11) (View.ld x10 r1_10) (View.ld x11 r1_11)
  relOps s3 x (View.ld x1 r1_12) (View.ld x4 r1_13) (View.ld x5 r1_14) (View.ld x6 r1_14) (View.ld x7 r1_14) (View.ld x8 r1_14)
    (View.ld x9 r1_14) (View.ld x10 r1_13) (View.ld x11 r1_14)

/-- On a tile whose feature and aggregate rows are the rows `ρ` names, it is the round's real value at those rows. -/
theorem core_ld (ρ : Fin 5000 → Fin 100000) (xr : Gnn.Feat) (ar : Fin 4 → Gnn.Feat) (P : Gnn.LayerP) (mur var : Fin 4 → Fin 64 → ℝ)
    (hvar0 : ∀ r d, 0 ≤ var r d) {x : FVec Ideal S5000x64 .f32} {x1 : Vec Ideal S4x5000x64 .f32} {x2 : Vec Ideal S64x64 .f32}
    {x3 : Vec Ideal S64 .f32} {x4 : Vec Ideal S4x64x64 .f32} {x5 x6 x7 x8 x9 : Vec Ideal S4x64 .f32} {x10 : Vec Ideal S4x64x64 .f32}
    {x11 : Vec Ideal S4x64 .f32}
    (hx : IsBlk x fun p k => xr (ρ p) k) (hx1 : ∀ r p k, x1 (ix3 r p k) = ((ar r (ρ p) k : ℝ) : EReal))
    (hx2 : IsMat x2 P.wsl) (hx3 : ∀ d, x3 (ix1 d) = ((P.bsl d : ℝ) : EReal))
    (hx4 : ∀ r k d, x4 (ix3 r k d) = ((P.w1 r k d : ℝ) : EReal)) (hx5 : ∀ r d, x5 (ix2 r d) = ((P.b1 r d : ℝ) : EReal))
    (hx6 : ∀ r d, x6 (ix2 r d) = ((mur r d : ℝ) : EReal)) (hx7 : ∀ r d, x7 (ix2 r d) = ((var r d : ℝ) : EReal))
    (hx8 : ∀ r d, x8 (ix2 r d) = ((P.ga r d : ℝ) : EReal)) (hx9 : ∀ r d, x9 (ix2 r d) = ((P.be r d : ℝ) : EReal))
    (hx10 : ∀ r k d, x10 (ix3 r k d) = ((P.w2 r k d : ℝ) : EReal)) (hx11 : ∀ r d, x11 (ix2 r d) = ((P.b2 r d : ℝ) : EReal)) :
    IsBlk (coreOps x x1 x2 x3 x4 x5 x6 x7 x8 x9 x10 x11) (fun p d => Gnn.coreOf Gnn.epsR P xr ar mur var (ρ p) d) :=
  rel_ld (rel_ld (rel_ld (rel_ld ((hx.truncf.mm hx2.self.truncf).addf (IsBlk.ofRow (IsRow.ofVec hx3)))
    hx hx1 hx4 hx5 hx6 hx7 hx8 hx9 hx10 hx11 hvar0 0 rfl rfl _ _ _)
    hx hx1 hx4 hx5 hx6 hx7 hx8 hx9 hx10 hx11 hvar0 1 rfl rfl _ _ _)
    hx hx1 hx4 hx5 hx6 hx7 hx8 hx9 hx10 hx11 hvar0 2 rfl rfl _ _ _)
    hx hx1 hx4 hx5 hx6 hx7 hx8 hx9 hx10 hx11 hvar0 3 rfl rfl _ _ _

theorem emb_zero {sig : RefSig} {G : Pipeline.Grid} (w : Window sig G) (t : Fin G.N) (hz : ∀ a, w.index t a = 0)
    (y : (w.xblock (G.coords t)).Idx) (j : w.shape.Idx) (h : ∀ a, (y a : Nat) = j a) : (w.rect t).emb y = j :=
  funext fun a => Fin.ext ((w.rect_emb_val_of_index_zero t a (hz a) y).trans (h a))

theorem emb_tile2 {off : Fin 2 → Nat} {inb} (i : Fin 20) (p : Fin 5000) (q : Fin 64) (h0 : off 0 = i.val * 5000) (h1 : off 1 = 0) :
    (Rect.unit (s := S100000x64) off S5000x64.size inb).emb (ix2 p q) = ix2 (Gnn.tileRow i p) q := funext fun a => Fin.ext (by
  match a with
  | ⟨0, _⟩ => show off 0 + 1 * p.val = 5000 * i.val + p.val; rw [h0]; omega
  | ⟨1, _⟩ => show off 1 + 1 * q.val = q.val; rw [h1]; omega)

theorem emb_tile3 {off : Fin 3 → Nat} {inb} (i : Fin 20) (r : Fin 4) (p : Fin 5000) (q : Fin 64) (h0 : off 0 = 0) (h1 : off 1 = i.val * 5000)
    (h2 : off 2 = 0) :
    (Rect.unit (s := S4x100000x64) off S4x5000x64.size inb).emb (ix3 r p q) = ix3 r (Gnn.tileRow i p) q := funext fun a => Fin.ext (by
  match a with
  | ⟨0, _⟩ => show off 0 + 1 * r.val = r.val; rw [h0]; omega
  | ⟨1, _⟩ => show off 1 + 1 * p.val = 5000 * i.val + p.val; rw [h1]; omega
  | ⟨2, _⟩ => show off 2 + 1 * q.val = q.val; rw [h2]; omega)

/-- Row `n` lies in tile `n / 5000`. -/
theorem mem_tile {off size : Fin 2 → Nat} {inb} (i : S100000x64.Idx) (h0 : off 0 = (i 0).val / 5000 * 5000) (h1 : off 1 = 0)
    (s0 : size 0 = 5000) (s1 : size 1 = 64) : i ∈ (Rect.unit (s := S100000x64) off size inb).set := by
  have hi : (i 1).val < 64 := (i 1).isLt
  rw [Rect.mem_set_unit]
  intro a
  match a with
  | ⟨0, _⟩ => show off 0 ≤ (i 0).val ∧ (i 0).val < off 0 + size 0; rw [h0, s0]; omega
  | ⟨1, _⟩ => show off 1 ≤ (i 1).val ∧ (i 1).val < off 1 + size 1; rw [h1, s1]; omega

def arrOf (g : Gnn.Feat) : FVec Ideal S100000x64 .f32 := fun i => ((g (i 0) (i 1) : ℝ) : EReal)

end Cert.KernelIdeal.GnnK.Round

end
-- ==== Proof.KApply1.lean ====
import proofs.«416992_j9088150798514_2_alg».proof.Proof.KTerms
import proofs.«416992_j9088150798514_2_alg».proof.Proof.KRound

set_option maxRecDepth 16384

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)
open Round

namespace R1

theorem idx_tile : ∀ t : Fin cfg1.N, (win1_0.index t (0 : Fin 2) = t.val ∧ win1_0.index t (1 : Fin 2) = 0)
    ∧ (win1_1.index t (0 : Fin 3) = 0 ∧ win1_1.index t (1 : Fin 3) = t.val ∧ win1_1.index t (2 : Fin 3) = 0)
    ∧ (win1_12.index t (0 : Fin 2) = t.val ∧ win1_12.index t (1 : Fin 2) = 0) :=
  (by decide +kernel : ∀ t : Fin grid1.N, _)

theorem idx_zero : ∀ t : Fin cfg1.N, (∀ a : Fin 2, win1_2.index t a = 0)
    ∧ (∀ a : Fin 1, win1_3.index t a = 0)
    ∧ (∀ a : Fin 3, win1_4.index t a = 0)
    ∧ (∀ a : Fin 2, win1_5.index t a = 0)
    ∧ (∀ a : Fin 2, win1_6.index t a = 0)
    ∧ (∀ a : Fin 2, win1_7.index t a = 0)
    ∧ (∀ a : Fin 2, win1_8.index t a = 0)
    ∧ (∀ a : Fin 2, win1_9.index t a = 0)
    ∧ (∀ a : Fin 3, win1_10.index t a = 0)
    ∧ (∀ a : Fin 2, win1_11.index t a = 0) :=
  (by decide +kernel : ∀ t : Fin grid1.N, _)

theorem cover (i : S100000x64.Idx) : ∃ t : Fin cfg1.N, (cfg1.win 12).flush t = true ∧ i ∈ ((cfg1.win 12).blk t).view.set := by
  have h0 : (i 0).val < 100000 := (i 0).isLt
  have hN : cfg1.N = 20 := N_1
  have hlt : (i 0).val / 5000 < cfg1.N := by omega
  obtain ⟨-, -, e0, e1⟩ := idx_tile ⟨(i 0).val / 5000, hlt⟩
  refine ⟨⟨(i 0).val / 5000, hlt⟩, flush1_12 _, ?_⟩
  show i ∈ ((View.whole main_v49).slice (win1_12.rect ⟨(i 0).val / 5000, hlt⟩)).set
  rw [View.set_slice_whole]
  exact mem_tile i (by show win1_12.index _ 0 * 5000 = _; rw [e0]) (by show win1_12.index _ 1 * 64 = 0; rw [e1]) rfl rfl

end R1

section Apply1
variable (V : EntryV) (c : Dev nD) (xr : Gnn.Feat) (ar : Fin 4 → Gnn.Feat) (P : Gnn.LayerP) (mur var : Fin 4 → Fin 64 → ℝ)
  (hx : ∀ n k, (V c main_arg0 : FVec Ideal S100000x64 .f32) (ix2 n k) = ((xr n k : ℝ) : EReal))
  (ha : ∀ r n k, (V c main_v17 : FVec Ideal S4x100000x64 .f32) (ix3 r n k) = ((ar r n k : ℝ) : EReal))
  (hwsl : ∀ k d, (V c main_v34 : FVec Ideal S64x64 .f32) (ix2 k d) = ((P.wsl k d : ℝ) : EReal))
  (hbsl : ∀ d, (V c main_v36 : FVec Ideal S64 .f32) (ix1 d) = ((P.bsl d : ℝ) : EReal))
  (hw1 : ∀ r k d, (V c main_v38 : FVec Ideal S4x64x64 .f32) (ix3 r k d) = ((P.w1 r k d : ℝ) : EReal))
  (hb1 : ∀ r d, (V c main_v40 : FVec Ideal S4x64 .f32) (ix2 r d) = ((P.b1 r d : ℝ) : EReal))
  (hmu : ∀ r d, (V c main_v26 : FVec Ideal S4x64 .f32) (ix2 r d) = ((mur r d : ℝ) : EReal))
  (hva : ∀ r d, (V c main_v32 : FVec Ideal S4x64 .f32) (ix2 r d) = ((var r d : ℝ) : EReal))
  (hga : ∀ r d, (V c main_v42 : FVec Ideal S4x64 .f32) (ix2 r d) = ((P.ga r d : ℝ) : EReal))
  (hbe : ∀ r d, (V c main_v44 : FVec Ideal S4x64 .f32) (ix2 r d) = ((P.be r d : ℝ) : EReal))
  (hw2 : ∀ r k d, (V c main_v46 : FVec Ideal S4x64x64 .f32) (ix3 r k d) = ((P.w2 r k d : ℝ) : EReal))
  (hb2 : ∀ r d, (V c main_v48 : FVec Ideal S4x64 .f32) (ix2 r d) = ((P.b2 r d : ℝ) : EReal))
  (hvar0 : ∀ r d, 0 ≤ var r d)
include hx ha hwsl hbsl hw1 hb1 hmu hva hga hbe hw2 hb2 hvar0

/-- Tile `t` of the result is the round's value on the rows of tile `t`. -/
theorem R1.flushed (t : Fin cfg1.N) : (dat1 (F := Ideal) V c).flushed 12 t
    = ((cfg1.win 12).blk t).view.read (Elt Ideal) (arrOf fun n d => max (Gnn.coreOf Gnn.epsR P xr ar mur var n d) 0) := by
  have ht : t.val < 20 := by have h := t.isLt; have hN : cfg1.N = 20 := N_1; omega
  obtain ⟨⟨a0, a1⟩, ⟨b0, b1, b2⟩, c0, c1⟩ := R1.idx_tile t
  obtain ⟨z2, z3, z4, z5, z6, z7, z8, z9, z10, z11⟩ := R1.idx_zero t
  show (cfg1.win 12).cut (grid1.coords t) ((dat1 (F := Ideal) V c).after 12 t) = _
  rw [after1_12]
  funext y
  obtain ⟨p, q, rfl⟩ : ∃ (p : Fin 5000) (q : Fin 64), y = ix2 p q := ⟨y 0, y 1, eq_ix2 y⟩
  have e0 : ∀ (p : Fin 5000) (k : Fin 64), (win1_0.rect t).emb (ix2 p k) = ix2 (Gnn.tileRow ⟨t.val, ht⟩ p) k := fun p k =>
    emb_tile2 ⟨t.val, ht⟩ p k (by show win1_0.index t 0 * 5000 = _; rw [a0]) (by show win1_0.index t 1 * 64 = 0; rw [a1])
  have e12 : (win1_12.rect t).emb (ix2 p q) = ix2 (Gnn.tileRow ⟨t.val, ht⟩ p) q :=
    emb_tile2 ⟨t.val, ht⟩ p q (by show win1_12.index t 0 * 5000 = _; rw [c0]) (by show win1_12.index t 1 * 64 = 0; rw [c1])
  have e1 : ∀ (r : Fin 4) (p : Fin 5000) (k : Fin 64), (win1_1.rect t).emb (ix3 r p k) = ix3 r (Gnn.tileRow ⟨t.val, ht⟩ p) k :=
    fun r p k => emb_tile3 ⟨t.val, ht⟩ r p k (by show win1_1.index t 0 * 4 = 0; rw [b0]) (by show win1_1.index t 1 * 5000 = _; rw [b1])
      (by show win1_1.index t 2 * 64 = 0; rw [b2])
  unfold out1_12
  rw [View.canon_unit_zero hz2, View.ld_unit_zero (S := S5000x64) hz2, View.ld_unit_zero (S := S64x64) hz2, View.ld_unit_zero (S := S64) hz1]
  unfold k1_pay1 k1_pay10 k1_pay7 k1_pay4 k1_pay2 k1_pay3 k1_pay5 k1_pay6 k1_pay8 k1_pay9 k1_pay11
  refine ((core_ld (Gnn.tileRow ⟨t.val, ht⟩) xr ar P mur var hvar0
    (fun p k => (congrArg (V c main_arg0) (e0 p k)).trans (hx _ _)) (fun r p k => (congrArg (V c main_v17) (e1 r p k)).trans (ha _ _ _))
    (fun k d => (congrArg (V c main_v34) (emb_zero win1_2 t z2 (ix2 k d) (ix2 k d) fun _ => rfl)).trans (hwsl k d)) (fun d => (congrArg (V c main_v36) (emb_zero win1_3 t z3 (ix1 d) (ix1 d) fun _ => rfl)).trans (hbsl d))
    (fun r k d => (congrArg (V c main_v38) (emb_zero win1_4 t z4 (ix3 r k d) (ix3 r k d) fun _ => rfl)).trans (hw1 r k d)) (fun r d => (congrArg (V c main_v40) (emb_zero win1_5 t z5 (ix2 r d) (ix2 r d) fun _ => rfl)).trans (hb1 r d))
    (fun r d => (congrArg (V c main_v26) (emb_zero win1_6 t z6 (ix2 r d) (ix2 r d) fun _ => rfl)).trans (hmu r d)) (fun r d => (congrArg (V c main_v32) (emb_zero win1_7 t z7 (ix2 r d) (ix2 r d) fun _ => rfl)).trans (hva r d))
    (fun r d => (congrArg (V c main_v42) (emb_zero win1_8 t z8 (ix2 r d) (ix2 r d) fun _ => rfl)).trans (hga r d)) (fun r d => (congrArg (V c main_v44) (emb_zero win1_9 t z9 (ix2 r d) (ix2 r d) fun _ => rfl)).trans (hbe r d))
    (fun r k d => (congrArg (V c main_v46) (emb_zero win1_10 t z10 (ix3 r k d) (ix3 r k d) fun _ => rfl)).trans (hw2 r k d)) (fun r d => (congrArg (V c main_v48) (emb_zero win1_11 t z11 (ix2 r d) (ix2 r d) fun _ => rfl)).trans (hb2 r d))).max0 p q).trans ?_
  show _ = arrOf (fun n d => max (Gnn.coreOf Gnn.epsR P xr ar mur var n d) 0) ((win1_12.rect t).emb (ix2 p q))
  rw [e12]
  rfl

theorem apply1_out (n : Fin 100000) (d : Fin 64) :
    ((dat1 (F := Ideal) V c).arrAt 12 cfg1.N : FVec Ideal S100000x64 .f32) (ix2 n d) = ((max (Gnn.coreOf Gnn.epsR P xr ar mur var n d) 0 : ℝ) : EReal) :=
  congrFun ((dat1 (F := Ideal) V c).arrAt_eq_of_cover 12 (arrOf fun n d => max (Gnn.coreOf Gnn.epsR P xr ar mur var n d) 0)
    (fun t _ => R1.flushed V c xr ar P mur var hx ha hwsl hbsl hw1 hb1 hmu hva hga hbe hw2 hb2 hvar0 t) R1.cover) (ix2 n d)

end Apply1

end Cert.KernelIdeal.GnnK

end
-- ==== Proof.KApply3.lean ====
import proofs.«416992_j9088150798514_2_alg».proof.Proof.KTerms
import proofs.«416992_j9088150798514_2_alg».proof.Proof.KRound

set_option maxRecDepth 16384

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)
open Round

namespace R3

theorem idx_tile : ∀ t : Fin cfg3.N, (win3_0.index t (0 : Fin 2) = t.val ∧ win3_0.index t (1 : Fin 2) = 0)
    ∧ (win3_1.index t (0 : Fin 3) = 0 ∧ win3_1.index t (1 : Fin 3) = t.val ∧ win3_1.index t (2 : Fin 3) = 0)
    ∧ (win3_12.index t (0 : Fin 2) = t.val ∧ win3_12.index t (1 : Fin 2) = 0) :=
  (by decide +kernel : ∀ t : Fin grid3.N, _)

theorem idx_zero : ∀ t : Fin cfg3.N, (∀ a : Fin 2, win3_2.index t a = 0)
    ∧ (∀ a : Fin 1, win3_3.index t a = 0)
    ∧ (∀ a : Fin 3, win3_4.index t a = 0)
    ∧ (∀ a : Fin 2, win3_5.index t a = 0)
    ∧ (∀ a : Fin 2, win3_6.index t a = 0)
    ∧ (∀ a : Fin 2, win3_7.index t a = 0)
    ∧ (∀ a : Fin 2, win3_8.index t a = 0)
    ∧ (∀ a : Fin 2, win3_9.index t a = 0)
    ∧ (∀ a : Fin 3, win3_10.index t a = 0)
    ∧ (∀ a : Fin 2, win3_11.index t a = 0) :=
  (by decide +kernel : ∀ t : Fin grid3.N, _)

theorem cover (i : S100000x64.Idx) : ∃ t : Fin cfg3.N, (cfg3.win 12).flush t = true ∧ i ∈ ((cfg3.win 12).blk t).view.set := by
  have h0 : (i 0).val < 100000 := (i 0).isLt
  have hN : cfg3.N = 20 := N_3
  have hlt : (i 0).val / 5000 < cfg3.N := by omega
  obtain ⟨-, -, e0, e1⟩ := idx_tile ⟨(i 0).val / 5000, hlt⟩
  refine ⟨⟨(i 0).val / 5000, hlt⟩, flush3_12 _, ?_⟩
  show i ∈ ((View.whole main_v92).slice (win3_12.rect ⟨(i 0).val / 5000, hlt⟩)).set
  rw [View.set_slice_whole]
  exact mem_tile i (by show win3_12.index _ 0 * 5000 = _; rw [e0]) (by show win3_12.index _ 1 * 64 = 0; rw [e1]) rfl rfl

end R3

section Apply3
variable (V : EntryV) (c : Dev nD) (xr : Gnn.Feat) (ar : Fin 4 → Gnn.Feat) (P : Gnn.LayerP) (mur var : Fin 4 → Fin 64 → ℝ)
  (hx : ∀ n k, (V c main_v49 : FVec Ideal S100000x64 .f32) (ix2 n k) = ((xr n k : ℝ) : EReal))
  (ha : ∀ r n k, (V c main_v60 : FVec Ideal S4x100000x64 .f32) (ix3 r n k) = ((ar r n k : ℝ) : EReal))
  (hwsl : ∀ k d, (V c main_v77 : FVec Ideal S64x64 .f32) (ix2 k d) = ((P.wsl k d : ℝ) : EReal))
  (hbsl : ∀ d, (V c main_v79 : FVec Ideal S64 .f32) (ix1 d) = ((P.bsl d : ℝ) : EReal))
  (hw1 : ∀ r k d, (V c main_v81 : FVec Ideal S4x64x64 .f32) (ix3 r k d) = ((P.w1 r k d : ℝ) : EReal))
  (hb1 : ∀ r d, (V c main_v83 : FVec Ideal S4x64 .f32) (ix2 r d) = ((P.b1 r d : ℝ) : EReal))
  (hmu : ∀ r d, (V c main_v69 : FVec Ideal S4x64 .f32) (ix2 r d) = ((mur r d : ℝ) : EReal))
  (hva : ∀ r d, (V c main_v75 : FVec Ideal S4x64 .f32) (ix2 r d) = ((var r d : ℝ) : EReal))
  (hga : ∀ r d, (V c main_v85 : FVec Ideal S4x64 .f32) (ix2 r d) = ((P.ga r d : ℝ) : EReal))
  (hbe : ∀ r d, (V c main_v87 : FVec Ideal S4x64 .f32) (ix2 r d) = ((P.be r d : ℝ) : EReal))
  (hw2 : ∀ r k d, (V c main_v89 : FVec Ideal S4x64x64 .f32) (ix3 r k d) = ((P.w2 r k d : ℝ) : EReal))
  (hb2 : ∀ r d, (V c main_v91 : FVec Ideal S4x64 .f32) (ix2 r d) = ((P.b2 r d : ℝ) : EReal))
  (hvar0 : ∀ r d, 0 ≤ var r d)
include hx ha hwsl hbsl hw1 hb1 hmu hva hga hbe hw2 hb2 hvar0

/-- Tile `t` of the result is the round's value on the rows of tile `t`. -/
theorem R3.flushed (t : Fin cfg3.N) : (dat3 (F := Ideal) V c).flushed 12 t
    = ((cfg3.win 12).blk t).view.read (Elt Ideal) (arrOf fun n d => max (Gnn.coreOf Gnn.epsR P xr ar mur var n d) 0) := by
  have ht : t.val < 20 := by have h := t.isLt; have hN : cfg3.N = 20 := N_3; omega
  obtain ⟨⟨a0, a1⟩, ⟨b0, b1, b2⟩, c0, c1⟩ := R3.idx_tile t
  obtain ⟨z2, z3, z4, z5, z6, z7, z8, z9, z10, z11⟩ := R3.idx_zero t
  show (cfg3.win 12).cut (grid3.coords t) ((dat3 (F := Ideal) V c).after 12 t) = _
  rw [after3_12]
  funext y
  obtain ⟨p, q, rfl⟩ : ∃ (p : Fin 5000) (q : Fin 64), y = ix2 p q := ⟨y 0, y 1, eq_ix2 y⟩
  have e0 : ∀ (p : Fin 5000) (k : Fin 64), (win3_0.rect t).emb (ix2 p k) = ix2 (Gnn.tileRow ⟨t.val, ht⟩ p) k := fun p k =>
    emb_tile2 ⟨t.val, ht⟩ p k (by show win3_0.index t 0 * 5000 = _; rw [a0]) (by show win3_0.index t 1 * 64 = 0; rw [a1])
  have e12 : (win3_12.rect t).emb (ix2 p q) = ix2 (Gnn.tileRow ⟨t.val, ht⟩ p) q :=
    emb_tile2 ⟨t.val, ht⟩ p q (by show win3_12.index t 0 * 5000 = _; rw [c0]) (by show win3_12.index t 1 * 64 = 0; rw [c1])
  have e1 : ∀ (r : Fin 4) (p : Fin 5000) (k : Fin 64), (win3_1.rect t).emb (ix3 r p k) = ix3 r (Gnn.tileRow ⟨t.val, ht⟩ p) k :=
    fun r p k => emb_tile3 ⟨t.val, ht⟩ r p k (by show win3_1.index t 0 * 4 = 0; rw [b0]) (by show win3_1.index t 1 * 5000 = _; rw [b1])
      (by show win3_1.index t 2 * 64 = 0; rw [b2])
  unfold out3_12
  rw [View.canon_unit_zero hz2, View.ld_unit_zero (S := S5000x64) hz2, View.ld_unit_zero (S := S64x64) hz2, View.ld_unit_zero (S := S64) hz1]
  unfold k3_pay1 k3_pay13 k3_pay12 k3_pay11 k3_pay8 k3_pay5 k3_pay3 k3_pay4 k3_pay6 k3_pay7 k3_pay9 k3_pay10 k3_pay14 k3_pay2
  refine ((core_ld (Gnn.tileRow ⟨t.val, ht⟩) xr ar P mur var hvar0
    (IsBlk.self fun p k => (congrArg (V c main_v49) (e0 p k)).trans (hx _ _)) (fun r p k => (congrArg (V c main_v60) (e1 r p k)).trans (ha _ _ _))
    (fun k d => (congrArg (V c main_v77) (emb_zero win3_2 t z2 (ix2 k d) (ix2 k d) fun _ => rfl)).trans (hwsl k d)) (fun d => (congrArg (V c main_v79) (emb_zero win3_3 t z3 (ix1 d) (ix1 d) fun _ => rfl)).trans (hbsl d))
    (fun r k d => (congrArg (V c main_v81) (emb_zero win3_4 t z4 (ix3 r k d) (ix3 r k d) fun _ => rfl)).trans (hw1 r k d)) (fun r d => (congrArg (V c main_v83) (emb_zero win3_5 t z5 (ix2 r d) (ix2 r d) fun _ => rfl)).trans (hb1 r d))
    (fun r d => (congrArg (V c main_v69) (emb_zero win3_6 t z6 (ix2 r d) (ix2 r d) fun _ => rfl)).trans (hmu r d)) (fun r d => (congrArg (V c main_v75) (emb_zero win3_7 t z7 (ix2 r d) (ix2 r d) fun _ => rfl)).trans (hva r d))
    (fun r d => (congrArg (V c main_v85) (emb_zero win3_8 t z8 (ix2 r d) (ix2 r d) fun _ => rfl)).trans (hga r d)) (fun r d => (congrArg (V c main_v87) (emb_zero win3_9 t z9 (ix2 r d) (ix2 r d) fun _ => rfl)).trans (hbe r d))
    (fun r k d => (congrArg (V c main_v89) (emb_zero win3_10 t z10 (ix3 r k d) (ix3 r k d) fun _ => rfl)).trans (hw2 r k d)) (fun r d => (congrArg (V c main_v91) (emb_zero win3_11 t z11 (ix2 r d) (ix2 r d) fun _ => rfl)).trans (hb2 r d))).max0 p q).trans ?_
  show _ = arrOf (fun n d => max (Gnn.coreOf Gnn.epsR P xr ar mur var n d) 0) ((win3_12.rect t).emb (ix2 p q))
  rw [e12]
  rfl

theorem apply3_out (n : Fin 100000) (d : Fin 64) :
    ((dat3 (F := Ideal) V c).arrAt 12 cfg3.N : FVec Ideal S100000x64 .f32) (ix2 n d) = ((max (Gnn.coreOf Gnn.epsR P xr ar mur var n d) 0 : ℝ) : EReal) :=
  congrFun ((dat3 (F := Ideal) V c).arrAt_eq_of_cover 12 (arrOf fun n d => max (Gnn.coreOf Gnn.epsR P xr ar mur var n d) 0)
    (fun t _ => R3.flushed V c xr ar P mur var hx ha hwsl hbsl hw1 hb1 hmu hva hga hbe hw2 hb2 hvar0 t) R3.cover) (ix2 n d)

end Apply3

end Cert.KernelIdeal.GnnK

end
-- ==== Proof.KApply5.lean ====
import proofs.«416992_j9088150798514_2_alg».proof.Proof.KTerms
import proofs.«416992_j9088150798514_2_alg».proof.Proof.KRound

set_option maxRecDepth 16384

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)
open Round

namespace R5

theorem idx_tile : ∀ t : Fin cfg5.N, (win5_0.index t (0 : Fin 2) = t.val ∧ win5_0.index t (1 : Fin 2) = 0)
    ∧ (win5_1.index t (0 : Fin 3) = 0 ∧ win5_1.index t (1 : Fin 3) = t.val ∧ win5_1.index t (2 : Fin 3) = 0)
    ∧ (win5_12.index t (0 : Fin 2) = t.val ∧ win5_12.index t (1 : Fin 2) = 0) :=
  (by decide +kernel : ∀ t : Fin grid5.N, _)

theorem idx_zero : ∀ t : Fin cfg5.N, (∀ a : Fin 2, win5_2.index t a = 0)
    ∧ (∀ a : Fin 1, win5_3.index t a = 0)
    ∧ (∀ a : Fin 3, win5_4.index t a = 0)
    ∧ (∀ a : Fin 2, win5_5.index t a = 0)
    ∧ (∀ a : Fin 2, win5_6.index t a = 0)
    ∧ (∀ a : Fin 2, win5_7.index t a = 0)
    ∧ (∀ a : Fin 2, win5_8.index t a = 0)
    ∧ (∀ a : Fin 2, win5_9.index t a = 0)
    ∧ (∀ a : Fin 3, win5_10.index t a = 0)
    ∧ (∀ a : Fin 2, win5_11.index t a = 0) :=
  (by decide +kernel : ∀ t : Fin grid5.N, _)

theorem cover (i : S100000x64.Idx) : ∃ t : Fin cfg5.N, (cfg5.win 12).flush t = true ∧ i ∈ ((cfg5.win 12).blk t).view.set := by
  have h0 : (i 0).val < 100000 := (i 0).isLt
  have hN : cfg5.N = 20 := N_5
  have hlt : (i 0).val / 5000 < cfg5.N := by omega
  obtain ⟨-, -, e0, e1⟩ := idx_tile ⟨(i 0).val / 5000, hlt⟩
  refine ⟨⟨(i 0).val / 5000, hlt⟩, flush5_12 _, ?_⟩
  show i ∈ ((View.whole main_v135).slice (win5_12.rect ⟨(i 0).val / 5000, hlt⟩)).set
  rw [View.set_slice_whole]
  exact mem_tile i (by show win5_12.index _ 0 * 5000 = _; rw [e0]) (by show win5_12.index _ 1 * 64 = 0; rw [e1]) rfl rfl

end R5

section Apply5
variable (V : EntryV) (c : Dev nD) (xr : Gnn.Feat) (ar : Fin 4 → Gnn.Feat) (P : Gnn.LayerP) (mur var : Fin 4 → Fin 64 → ℝ)
  (hx : ∀ n k, (V c main_v92 : FVec Ideal S100000x64 .f32) (ix2 n k) = ((xr n k : ℝ) : EReal))
  (ha : ∀ r n k, (V c main_v103 : FVec Ideal S4x100000x64 .f32) (ix3 r n k) = ((ar r n k : ℝ) : EReal))
  (hwsl : ∀ k d, (V c main_v120 : FVec Ideal S64x64 .f32) (ix2 k d) = ((P.wsl k d : ℝ) : EReal))
  (hbsl : ∀ d, (V c main_v122 : FVec Ideal S64 .f32) (ix1 d) = ((P.bsl d : ℝ) : EReal))
  (hw1 : ∀ r k d, (V c main_v124 : FVec Ideal S4x64x64 .f32) (ix3 r k d) = ((P.w1 r k d : ℝ) : EReal))
  (hb1 : ∀ r d, (V c main_v126 : FVec Ideal S4x64 .f32) (ix2 r d) = ((P.b1 r d : ℝ) : EReal))
  (hmu : ∀ r d, (V c main_v112 : FVec Ideal S4x64 .f32) (ix2 r d) = ((mur r d : ℝ) : EReal))
  (hva : ∀ r d, (V c main_v118 : FVec Ideal S4x64 .f32) (ix2 r d) = ((var r d : ℝ) : EReal))
  (hga : ∀ r d, (V c main_v128 : FVec Ideal S4x64 .f32) (ix2 r d) = ((P.ga r d : ℝ) : EReal))
  (hbe : ∀ r d, (V c main_v130 : FVec Ideal S4x64 .f32) (ix2 r d) = ((P.be r d : ℝ) : EReal))
  (hw2 : ∀ r k d, (V c main_v132 : FVec Ideal S4x64x64 .f32) (ix3 r k d) = ((P.w2 r k d : ℝ) : EReal))
  (hb2 : ∀ r d, (V c main_v134 : FVec Ideal S4x64 .f32) (ix2 r d) = ((P.b2 r d : ℝ) : EReal))
  (hvar0 : ∀ r d, 0 ≤ var r d)
include hx ha hwsl hbsl hw1 hb1 hmu hva hga hbe hw2 hb2 hvar0

/-- Tile `t` of the result is the round's value on the rows of tile `t`. -/
theorem R5.flushed (t : Fin cfg5.N) : (dat5 (F := Ideal) V c).flushed 12 t
    = ((cfg5.win 12).blk t).view.read (Elt Ideal) (arrOf fun n d => Gnn.coreOf Gnn.epsR P xr ar mur var n d) := by
  have ht : t.val < 20 := by have h := t.isLt; have hN : cfg5.N = 20 := N_5; omega
  obtain ⟨⟨a0, a1⟩, ⟨b0, b1, b2⟩, c0, c1⟩ := R5.idx_tile t
  obtain ⟨z2, z3, z4, z5, z6, z7, z8, z9, z10, z11⟩ := R5.idx_zero t
  show (cfg5.win 12).cut (grid5.coords t) ((dat5 (F := Ideal) V c).after 12 t) = _
  rw [after5_12]
  funext y
  obtain ⟨p, q, rfl⟩ : ∃ (p : Fin 5000) (q : Fin 64), y = ix2 p q := ⟨y 0, y 1, eq_ix2 y⟩
  have e0 : ∀ (p : Fin 5000) (k : Fin 64), (win5_0.rect t).emb (ix2 p k) = ix2 (Gnn.tileRow ⟨t.val, ht⟩ p) k := fun p k =>
    emb_tile2 ⟨t.val, ht⟩ p k (by show win5_0.index t 0 * 5000 = _; rw [a0]) (by show win5_0.index t 1 * 64 = 0; rw [a1])
  have e12 : (win5_12.rect t).emb (ix2 p q) = ix2 (Gnn.tileRow ⟨t.val, ht⟩ p) q :=
    emb_tile2 ⟨t.val, ht⟩ p q (by show win5_12.index t 0 * 5000 = _; rw [c0]) (by show win5_12.index t 1 * 64 = 0; rw [c1])
  have e1 : ∀ (r : Fin 4) (p : Fin 5000) (k : Fin 64), (win5_1.rect t).emb (ix3 r p k) = ix3 r (Gnn.tileRow ⟨t.val, ht⟩ p) k :=
    fun r p k => emb_tile3 ⟨t.val, ht⟩ r p k (by show win5_1.index t 0 * 4 = 0; rw [b0]) (by show win5_1.index t 1 * 5000 = _; rw [b1])
      (by show win5_1.index t 2 * 64 = 0; rw [b2])
  unfold out5_12
  rw [View.canon_unit_zero hz2, View.ld_unit_zero (S := S5000x64) hz2, View.ld_unit_zero (S := S64x64) hz2, View.ld_unit_zero (S := S64) hz1]
  unfold k5_pay1 k5_pay13 k5_pay12 k5_pay11 k5_pay8 k5_pay5 k5_pay3 k5_pay4 k5_pay6 k5_pay7 k5_pay9 k5_pay10 k5_pay14 k5_pay2
  refine (core_ld (Gnn.tileRow ⟨t.val, ht⟩) xr ar P mur var hvar0
    (IsBlk.self fun p k => (congrArg (V c main_v92) (e0 p k)).trans (hx _ _)) (fun r p k => (congrArg (V c main_v103) (e1 r p k)).trans (ha _ _ _))
    (fun k d => (congrArg (V c main_v120) (emb_zero win5_2 t z2 (ix2 k d) (ix2 k d) fun _ => rfl)).trans (hwsl k d)) (fun d => (congrArg (V c main_v122) (emb_zero win5_3 t z3 (ix1 d) (ix1 d) fun _ => rfl)).trans (hbsl d))
    (fun r k d => (congrArg (V c main_v124) (emb_zero win5_4 t z4 (ix3 r k d) (ix3 r k d) fun _ => rfl)).trans (hw1 r k d)) (fun r d => (congrArg (V c main_v126) (emb_zero win5_5 t z5 (ix2 r d) (ix2 r d) fun _ => rfl)).trans (hb1 r d))
    (fun r d => (congrArg (V c main_v112) (emb_zero win5_6 t z6 (ix2 r d) (ix2 r d) fun _ => rfl)).trans (hmu r d)) (fun r d => (congrArg (V c main_v118) (emb_zero win5_7 t z7 (ix2 r d) (ix2 r d) fun _ => rfl)).trans (hva r d))
    (fun r d => (congrArg (V c main_v128) (emb_zero win5_8 t z8 (ix2 r d) (ix2 r d) fun _ => rfl)).trans (hga r d)) (fun r d => (congrArg (V c main_v130) (emb_zero win5_9 t z9 (ix2 r d) (ix2 r d) fun _ => rfl)).trans (hbe r d))
    (fun r k d => (congrArg (V c main_v132) (emb_zero win5_10 t z10 (ix3 r k d) (ix3 r k d) fun _ => rfl)).trans (hw2 r k d)) (fun r d => (congrArg (V c main_v134) (emb_zero win5_11 t z11 (ix2 r d) (ix2 r d) fun _ => rfl)).trans (hb2 r d)) p q).trans ?_
  show _ = arrOf (fun n d => Gnn.coreOf Gnn.epsR P xr ar mur var n d) ((win5_12.rect t).emb (ix2 p q))
  rw [e12]
  rfl

theorem apply5_out (n : Fin 100000) (d : Fin 64) :
    ((dat5 (F := Ideal) V c).arrAt 12 cfg5.N : FVec Ideal S100000x64 .f32) (ix2 n d) = ((Gnn.coreOf Gnn.epsR P xr ar mur var n d : ℝ) : EReal) :=
  congrFun ((dat5 (F := Ideal) V c).arrAt_eq_of_cover 12 (arrOf fun n d => Gnn.coreOf Gnn.epsR P xr ar mur var n d)
    (fun t _ => R5.flushed V c xr ar P mur var hx ha hwsl hbsl hw1 hb1 hmu hva hga hbe hw2 hb2 hvar0 t) R5.cover) (ix2 n d)

end Apply5

end Cert.KernelIdeal.GnnK

end
-- ==== Proof.KPool6.lean ====
import proofs.«416992_j9088150798514_2_alg».proof.Proof.KStats
import proofs.«416992_j9088150798514_2_alg».proof.Proof.KTerms

import Idealize.ShloMosaic.Lib.StableHlo.Predicate

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)

namespace Pool6

theorem onehot_word (w : BitVec 32) (g : Fin 128) :
    FloatOps.sitofp (F := Ideal) .f32 ((IntOp.cmpi .eq w (BitVec.ofNat 32 g.val)).setWidth 32)
      = if w.toInt = (g.val : ℤ) then ((1 : ℝ) : EReal) else ((0 : ℝ) : EReal) := by
  have hg : (BitVec.ofNat 32 g.val).toInt = (g.val : ℤ) :=
    StableHlo.Predicate.toInt_ofNat_small g.val (by have := g.isLt; omega)
  by_cases h : w = BitVec.ofNat 32 g.val
  · have e1 : IntOp.cmpi .eq w (BitVec.ofNat 32 g.val) = 1#1 := StableHlo.Predicate.cmpi_eq_iff.2 h
    rw [e1, if_pos (h ▸ hg)]
    show ((((1#1 : BitVec 1).setWidth 32).toInt : ℝ) : EReal) = ((1 : ℝ) : EReal)
    have e2 : ((1#1 : BitVec 1).setWidth 32).toInt = 1 := by decide
    rw [e2]; norm_num
  · have hne : w.toInt ≠ (g.val : ℤ) := fun e => h (BitVec.eq_of_toInt_eq (e.trans hg.symm))
    have e1 : IntOp.cmpi .eq w (BitVec.ofNat 32 g.val) = 0#1 := by
      rcases BitVec.eq_zero_or_eq_one (IntOp.cmpi .eq w (BitVec.ofNat 32 g.val)) with h0 | h1
      · exact h0
      · exact absurd (StableHlo.Predicate.cmpi_eq_iff.1 h1) h
    rw [e1, if_neg hne]
    show ((((0#1 : BitVec 1).setWidth 32).toInt : ℝ) : EReal) = ((0 : ℝ) : EReal)
    have e2 : ((0#1 : BitVec 1).setWidth 32).toInt = 0 := by decide
    rw [e2]; norm_num

abbrev rowOf : dot_S5000x128_S5000x64_S128x64_0_0_1_1_n_n.contr.Idx ≃ Fin 5000 :=
  contrEquiv1 dot_S5000x128_S5000x64_S128x64_0_0_1_1_n_n 5000 rfl rfl

theorem lhsIdx_pool (g : Fin 128) (d : Fin 64) (k : dot_S5000x128_S5000x64_S128x64_0_0_1_1_n_n.contr.Idx) :
    dot_S5000x128_S5000x64_S128x64_0_0_1_1_n_n.lhsIdx (ix2 g d) k = ix2 (rowOf k) g := by
  funext a
  apply Fin.ext
  match a with
  | ⟨0, _⟩ => exact DotDims.lhsIdx_val_of_single dot_S5000x128_S5000x64_S128x64_0_0_1_1_n_n rfl _ k
  | ⟨1, _⟩ =>
    show (dot_S5000x128_S5000x64_S128x64_0_0_1_1_n_n.lhsIdx (ix2 g d) k 1).val = g.val
    unfold DotDims.lhsIdx
    rw [dif_neg (show ¬ (1 : Fin S5000x128.rank) ∈ dot_S5000x128_S5000x64_S128x64_0_0_1_1_n_n.lhsBatch by decide),
      dif_pos (show (1 : Fin S5000x128.rank) ∈ dot_S5000x128_S5000x64_S128x64_0_0_1_1_n_n.lhsNonContracting by decide)]
    rfl

theorem rhsIdx_pool (g : Fin 128) (d : Fin 64) (k : dot_S5000x128_S5000x64_S128x64_0_0_1_1_n_n.contr.Idx) :
    dot_S5000x128_S5000x64_S128x64_0_0_1_1_n_n.rhsIdx (ix2 g d) k = ix2 (rowOf k) d := by
  funext a
  apply Fin.ext
  match a with
  | ⟨0, _⟩ => exact DotDims.rhsIdx_val_of_single dot_S5000x128_S5000x64_S128x64_0_0_1_1_n_n rfl _ k
  | ⟨1, _⟩ =>
    show (dot_S5000x128_S5000x64_S128x64_0_0_1_1_n_n.rhsIdx (ix2 g d) k 1).val = d.val
    unfold DotDims.rhsIdx
    rw [dif_neg (show ¬ (1 : Fin S5000x64.rank) ∈ dot_S5000x128_S5000x64_S128x64_0_0_1_1_n_n.rhsBatch by decide),
      dif_pos (show (1 : Fin S5000x64.rank) ∈ dot_S5000x128_S5000x64_S128x64_0_0_1_1_n_n.rhsNonContracting by decide)]
    rfl

theorem word_col_apply (x1 : IVec S5000x1 32) (p : Fin 5000) (g : Fin 128) :
    broadcastTo S5000x128 (shapeCast S5000x1 x1 shapeCasts_S5000x1_S5000x1) broadcasts_S5000x1_S5000x128 (ix2 p g)
      = x1 (ix2 p (0 : Fin 1)) := by
  rw [shapeCast_self]
  refine broadcastTo_apply x1 _ (ix2 p g) (ix2 p (0 : Fin 1)) fun ax => ?_
  match ax with
  | ⟨0, _⟩ =>
    show p.val = if (5000 : ℕ) = 1 then 0 else p.val
    rw [if_neg (by decide)]
  | ⟨1, _⟩ => rfl

theorem onehot_apply (x1 : IVec S5000x1 32) (p : Fin 5000) (g : Fin 128) :
    (sitofp (F := Ideal) .f32 (extui 32 (cmpi .eq
        (broadcastTo S5000x128 (shapeCast S5000x1 x1 shapeCasts_S5000x1_S5000x1) broadcasts_S5000x1_S5000x128)
        (iota .tc S5000x128 32 [1] iota_S5000x128_d1_w32)) natLt_1_32) : FVec Ideal S5000x128 .f32) (ix2 p g)
      = if (x1 (ix2 p (0 : Fin 1))).toInt = (g.val : ℤ) then ((1 : ℝ) : EReal) else ((0 : ℝ) : EReal) := by
  show FloatOps.sitofp (F := Ideal) .f32 ((IntOp.cmpi .eq
      (broadcastTo S5000x128 (shapeCast S5000x1 x1 shapeCasts_S5000x1_S5000x1) broadcasts_S5000x1_S5000x128 (ix2 p g))
      (iota .tc S5000x128 32 [1] iota_S5000x128_d1_w32 (ix2 p g))).setWidth 32) = _
  rw [word_col_apply, iota_single_apply]
  exact onehot_word _ g

theorem pay1_apply (x0 : Vec Ideal S5000x64 .f32) (x1 : Vec Ideal S5000x1 .i32) (g : Fin 128) (d : Fin 64) :
    k6_pay1 (F := Ideal) x0 x1 (ix3 (0 : Fin 1) g d)
      = ∑ p : Fin 5000, (if (x1 (ix2 p (0 : Fin 1))).toInt = (g.val : ℤ) then ((1 : ℝ) : EReal) else ((0 : ℝ) : EReal))
          * x0 (ix2 p d) := by
  unfold k6_pay1
  dsimp only
  refine (shapeCast_ab_1ab_apply _ _ (0 : Fin 1) g d).trans ?_
  refine (Ideal.matmul_constant_zero_apply dot_S5000x128_S5000x64_S128x64_0_0_1_1_n_n (some .fp32) _ _ (ix2 g d)).trans ?_
  refine (Finset.sum_congr rfl (fun k _ => ?_)).trans
    (Equiv.sum_comp rowOf (fun p : Fin 5000 =>
      (if (x1 (ix2 p (0 : Fin 1))).toInt = (g.val : ℤ) then ((1 : ℝ) : EReal) else ((0 : ℝ) : EReal)) * x0 (ix2 p d)))
  rw [lhsIdx_pool, rhsIdx_pool, onehot_apply, shapeCast_self]

theorem pay1_real (x0 : Vec Ideal S5000x64 .f32) (x1 : Vec Ideal S5000x1 .i32) (xt : Fin 5000 → Fin 64 → ℝ) (gt : Fin 5000 → BitVec 32)
    (h0 : ∀ p k, x0 (ix2 p k) = ((xt p k : ℝ) : EReal)) (h1 : ∀ p, x1 (ix2 p (0 : Fin 1)) = gt p) (g : Fin 128) (d : Fin 64) :
    k6_pay1 (F := Ideal) x0 x1 (ix3 (0 : Fin 1) g d)
      = ((∑ p : Fin 5000, (if (gt p).toInt = (g.val : ℤ) then xt p d else 0) : ℝ) : EReal) := by
  rw [pay1_apply, ← Gnn.Coe.coe_sum_univ]
  refine Finset.sum_congr rfl fun p _ => ?_
  rw [h0, h1]
  by_cases hc : (gt p).toInt = (g.val : ℤ)
  · rw [if_pos hc, if_pos hc, Gnn.Coe.coe_one_mul]
  · rw [if_neg hc, if_neg hc, Gnn.Coe.coe_zero_mul, EReal.coe_zero]

def poolR (xr : Gnn.Feat) (gw : Fin 100000 → BitVec 32) (i : Fin 20) (g : Fin 128) (d : Fin 64) : ℝ :=
  ∑ p : Fin 5000, (if (gw (Gnn.tileRow i p)).toInt = (g.val : ℤ) then xr (Gnn.tileRow i p) d else 0)

abbrev G6 (xr : Gnn.Feat) (gw : Fin 100000 → BitVec 32) : S20x128x64.Idx → EReal :=
  fun j => ((poolR xr gw (j 0) (j 1) (j 2) : ℝ) : EReal)

theorem hz2 : (![0, 0] : Fin 2 → Nat) = fun _ => 0 := funext fun a => by fin_cases a <;> rfl
theorem hz3 : (![0, 0, 0] : Fin 3 → Nat) = fun _ => 0 := funext fun a => by fin_cases a <;> rfl

theorem N6 : cfg6.N = 20 := by decide

theorem idx_facts6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 3) = t.val ∧ win6_2.index t (1 : Fin 3) = 0 ∧ win6_2.index t (2 : Fin 3) = 0 :=
  (by decide +kernel : ∀ t : Fin grid6.N, _)

section Blocks
variable (V : EntryV) (c : Dev nD) (xr : Gnn.Feat) (gw : Fin 100000 → BitVec 32)
  (hx : ∀ n k, (V c main_v135 : FVec Ideal S100000x64 .f32) (ix2 n k) = ((xr n k : ℝ) : EReal))
  (hg : ∀ n, (V c main_v136 : IVec S100000x1 32) (ix2 n (0 : Fin 1)) = gw n)

theorem iblk6_0_apply (t : Fin cfg6.N) (i : Fin 20) (hi : i.val = t.val) (p : Fin 5000) (k : Fin 64) :
    (iblk6 (F := Ideal) V c 0 t : Vec Ideal S5000x64 .f32) (ix2 p k)
      = (V c main_v135 : FVec Ideal S100000x64 .f32) (ix2 (Gnn.tileRow i p) k) := by
  obtain ⟨e0, e1, -⟩ := idx_facts6 t
  show V c main_v135 (((cfg6.win 0).blk t).view.emb (ix2 p k)) = _
  exact congrArg (V c main_v135) (tile_idx2 _ (win6_0.index t) i p k (win6_0.rect_emb_val t (ix2 p k)) (e0.trans hi.symm) e1)

theorem iblk6_1_apply (t : Fin cfg6.N) (i : Fin 20) (hi : i.val = t.val) (p : Fin 5000) :
    (iblk6 (F := Ideal) V c 1 t : Vec Ideal S5000x1 .i32) (ix2 p (0 : Fin 1))
      = (V c main_v136 : IVec S100000x1 32) (ix2 (Gnn.tileRow i p) (0 : Fin 1)) := by
  obtain ⟨-, -, e0, e1, -⟩ := idx_facts6 t
  show V c main_v136 (((cfg6.win 1).blk t).view.emb (ix2 p (0 : Fin 1))) = _
  refine congrArg (V c main_v136) (Shape.idx_ext₂ ((win6_1.rect_emb_val t (ix2 p (0 : Fin 1)) 0).trans ?_)
    (win6_1.rect_emb_val_of_index_zero t 1 e1 (ix2 p (0 : Fin 1))))
  rw [e0]
  show t.val * 5000 + p.val = 5000 * i.val + p.val
  omega

include hx hg

theorem flushed6_eq (t : Fin cfg6.N) :
    (dat6 (F := Ideal) V c).flushed 2 t = ((cfg6.win 2).blk t).view.read (Elt Ideal) (G6 xr gw) := by
  have ht : t.val < 20 := N6 ▸ t.isLt
  obtain ⟨-, -, -, -, e0, e1, e2⟩ := idx_facts6 t
  show (cfg6.win 2).cut (grid6.coords t) ((dat6 (F := Ideal) V c).after 2 t) = _
  rw [after6_2]
  unfold out6_2
  rw [View.canon_unit_zero hz3]
  simp only [View.ld_unit_zero (S := S5000x64) hz2, View.ld_unit_zero (S := S5000x1) hz2]
  funext j
  obtain ⟨u, g, d, rfl⟩ : ∃ (u : Fin 1) (g : Fin 128) (d : Fin 64), j = ix3 u g d := ⟨j 0, j 1, j 2, eq_ix3 j⟩
  obtain rfl : u = 0 := Subsingleton.elim _ _
  show k6_pay1 (F := Ideal) (iblk6 V c 0 t) (iblk6 V c 1 t) (ix3 (0 : Fin 1) g d)
    = G6 xr gw (((cfg6.win 2).blk t).view.emb (ix3 (0 : Fin 1) g d))
  have hemb : ((cfg6.win 2).blk t).view.emb (ix3 (0 : Fin 1) g d) = ix3 (⟨t.val, ht⟩ : Fin 20) g d := by
    funext a; apply Fin.ext
    match a with
    | ⟨0, _⟩ => exact (win6_2.rect_emb_val t (ix3 (0 : Fin 1) g d) 0).trans (by rw [e0]; show t.val * 1 + 0 = t.val; omega)
    | ⟨1, _⟩ => exact win6_2.rect_emb_val_of_index_zero t 1 e1 (ix3 (0 : Fin 1) g d)
    | ⟨2, _⟩ => exact win6_2.rect_emb_val_of_index_zero t 2 e2 (ix3 (0 : Fin 1) g d)
  rw [hemb]
  refine (pay1_real (iblk6 V c 0 t) (iblk6 V c 1 t) (fun p k => xr (Gnn.tileRow ⟨t.val, ht⟩ p) k)
    (fun p => gw (Gnn.tileRow ⟨t.val, ht⟩ p)) (fun p k => ?_) (fun p => ?_) g d).trans rfl
  · exact (iblk6_0_apply V c t ⟨t.val, ht⟩ rfl p k).trans (hx _ _)
  · exact (iblk6_1_apply V c t ⟨t.val, ht⟩ rfl p).trans (hg _)

omit hx hg in

theorem cover6 (i : S20x128x64.Idx) :
    ∃ t : Fin cfg6.N, (cfg6.win 2).flush t = true ∧ i ∈ ((cfg6.win 2).blk t).view.set := by
  have h0 : (i 0).val < 20 := (i 0).isLt
  have h1 : (i 1).val < 128 := (i 1).isLt
  have h2 : (i 2).val < 64 := (i 2).isLt
  have ht : (i 0).val < cfg6.N := N6.symm ▸ h0
  refine ⟨⟨(i 0).val, ht⟩, flush6_2 _, ?_⟩
  obtain ⟨-, -, -, -, e0, e1, e2⟩ := idx_facts6 ⟨(i 0).val, ht⟩
  show i ∈ ((View.whole main_v137).slice (win6_2.rect ⟨(i 0).val, ht⟩)).set
  rw [View.set_slice_whole, Rect.mem_set_unit]
  intro a
  match a with
  | ⟨0, _⟩ =>
    show win6_2.index _ (0 : Fin 3) * 1 ≤ (i 0).val ∧ (i 0).val < win6_2.index _ (0 : Fin 3) * 1 + 1
    rw [e0]; constructor <;> simp
  | ⟨1, _⟩ =>
    show win6_2.index _ (1 : Fin 3) * 128 ≤ (i 1).val ∧ (i 1).val < win6_2.index _ (1 : Fin 3) * 128 + 128
    rw [e1]; omega
  | ⟨2, _⟩ =>
    show win6_2.index _ (2 : Fin 3) * 64 ≤ (i 2).val ∧ (i 2).val < win6_2.index _ (2 : Fin 3) * 64 + 64
    rw [e2]; omega

theorem final6 : (dat6 (F := Ideal) V c).arrAt 2 cfg6.N = G6 xr gw :=
  (dat6 (F := Ideal) V c).arrAt_eq_of_cover 2 (G6 xr gw) (fun t _ => flushed6_eq V c xr gw hx hg t) cover6

end Blocks

end Pool6

section Pool6
variable (V : EntryV) (c : Dev nD) (xr : Gnn.Feat) (gw : Fin 100000 → BitVec 32)
  (hx : ∀ n k, (V c main_v135 : FVec Ideal S100000x64 .f32) (ix2 n k) = ((xr n k : ℝ) : EReal))
  (hg : ∀ n, (V c main_v136 : IVec S100000x1 32) (ix2 n (0 : Fin 1)) = gw n)
include hx hg

theorem pool6_out (i : Fin 20) (g : Fin 128) (d : Fin 64) :
    ((dat6 (F := Ideal) V c).arrAt 2 cfg6.N : FVec Ideal S20x128x64 .f32) (ix3 i g d)
      = ((∑ p : Fin 5000, (if (gw (Gnn.tileRow i p)).toInt = (g.val : ℤ) then xr (Gnn.tileRow i p) d else 0) : ℝ) : EReal) := by
  rw [Pool6.final6 V c xr gw hx hg]
  rfl
end Pool6

end Cert.KernelIdeal.GnnK

end
-- ==== Proof.KTail.lean ====
import proofs.«416992_j9088150798514_2_alg».proof.Proof.Gen.KernelIdeal.Frame
import proofs.«416992_j9088150798514_2_alg».proof.Proof.KTerms
import proofs.«416992_j9088150798514_2_alg».proof.Proof.KHost
import proofs.«416992_j9088150798514_2_alg».proof.Proof.KPool6
import proofs.«416992_j9088150798514_2_alg».proof.Proof.Spec
import proofs.«416992_j9088150798514_2_alg».proof.Proof.LibCoe
import Idealize.ShloMosaic.Lib.ValueIdx
import Idealize.ShloMosaic.Lib.Pipeline.Value

set_option maxRecDepth 16384

noncomputable section

namespace Cert.KernelIdeal.GnnK

open Cert.KernelIdeal Cert.KernelIdeal.Gen Idealize.ShloMosaic Idealize.ShloMosaic.TcCoe Idealize.ShloMosaic.ValueIdx

theorem tail_after6_col (Wv : Valuation τ sig (Elt Ideal)) :
    (StableHlo.after (hostOps6 (F := Ideal)) Wv (Proc.devRef .tc main_v136) : IVec S100000x1 32)
      = Cert.KernelIdeal.KTerm.batchCol (Wv (Proc.devRef .tc main_arg3) : IVec S100000 32) := by
  after_results
  rfl

theorem tail_after6_feat (Wv : Valuation τ sig (Elt Ideal)) :
    (StableHlo.after (hostOps6 (F := Ideal)) Wv (Proc.devRef .tc main_v135) : FVec Ideal S100000x64 .f32)
      = (Wv (Proc.devRef .tc main_v135) : FVec Ideal S100000x64 .f32) := by
  after_results

theorem tail_after6_words (Wv : Valuation τ sig (Elt Ideal)) :
    (StableHlo.after (hostOps6 (F := Ideal)) Wv (Proc.devRef .tc main_arg3) : IVec S100000 32)
      = (Wv (Proc.devRef .tc main_arg3) : IVec S100000 32) := by
  after_results

theorem tail_after7_result (Wv : Valuation τ sig (Elt Ideal)) :
    (StableHlo.after (hostOps7 (F := Ideal)) Wv (Proc.devRef .tc main_v152) : FVec Ideal S128x64 .f32)
      = Cert.KernelIdeal.KTerm.poolTail (F := Ideal) (Wv (Proc.devRef .tc main_v137) : FVec Ideal S20x128x64 .f32)
          (Wv (Proc.devRef .tc main_arg3) : IVec S100000 32) := by
  after_results_simp
  rfl

theorem tail_value (m : (ℓ : Loc nD τ sig) → Buf (Elt Ideal) ℓ) (ρ : Dev nD → PrngReg) (c : Dev nD) (xr : Gnn.Feat) (G : Gnn.Words)
    (hx : ∀ n k, (V12 (F := Ideal) m ρ c main_v135 : FVec Ideal S100000x64 .f32) (ix2 n k) = ((xr n k : ℝ) : EReal))
    (ha3 : (V12 (F := Ideal) m ρ c main_arg3 : IVec S100000 32) = m ((c.tc : Thread nD τ).loc main_arg3))
    (hgr : ∀ n, (m ((c.tc : Thread nD τ).loc main_arg3) : IVec S100000 32) (ix1 n) = G.gr n)
    (hrange : ∀ n : Fin 100000, 0 ≤ (G.gr n).toInt ∧ (G.gr n).toInt < 128) (g : Fin 128) (d : Fin 64) :
    (W15 (F := Ideal) m ρ c (Proc.devRef .tc main_v152) : FVec Ideal S128x64 .f32) (ix2 g d) = ((Gnn.pool G xr g d : ℝ) : EReal) := by

  have e136 : (V13 (F := Ideal) m ρ c main_v136 : IVec S100000x1 32)
      = Cert.KernelIdeal.KTerm.batchCol (V12 (F := Ideal) m ρ c main_arg3 : IVec S100000 32) :=
    tail_after6_col (W12 (F := Ideal) m ρ c)
  have e135 : (V13 (F := Ideal) m ρ c main_v135 : FVec Ideal S100000x64 .f32)
      = (V12 (F := Ideal) m ρ c main_v135 : FVec Ideal S100000x64 .f32) :=
    tail_after6_feat (W12 (F := Ideal) m ρ c)
  have e3 : (V13 (F := Ideal) m ρ c main_arg3 : IVec S100000 32) = (V12 (F := Ideal) m ρ c main_arg3 : IVec S100000 32) :=
    tail_after6_words (W12 (F := Ideal) m ρ c)

  have e137 : (V14 (F := Ideal) m ρ c main_v137 : FVec Ideal S20x128x64 .f32)
      = ((dat6 (F := Ideal) (V13 (F := Ideal) m ρ) c).arrAt 2 cfg6.N : FVec Ideal S20x128x64 .f32) :=
    W14_arr (F := Ideal) m ρ c 2
  have e3' : (V14 (F := Ideal) m ρ c main_arg3 : IVec S100000 32) = (V13 (F := Ideal) m ρ c main_arg3 : IVec S100000 32) :=
    W14_of_ne (F := Ideal) m ρ c main_arg3 (by decide)

  have e152 : (W15 (F := Ideal) m ρ c (Proc.devRef .tc main_v152) : FVec Ideal S128x64 .f32)
      = Cert.KernelIdeal.KTerm.poolTail (F := Ideal) (V14 (F := Ideal) m ρ c main_v137 : FVec Ideal S20x128x64 .f32)
          (V14 (F := Ideal) m ρ c main_arg3 : IVec S100000 32) :=
    tail_after7_result (W14 (F := Ideal) m ρ c)
  have hwords : ∀ n, (V14 (F := Ideal) m ρ c main_arg3 : IVec S100000 32) (ix1 n) = G.gr n := fun n =>
    (congrFun e3' (ix1 n)).trans ((congrFun e3 (ix1 n)).trans ((congrFun ha3 (ix1 n)).trans (hgr n)))
  have hcol : ∀ n, (V13 (F := Ideal) m ρ c main_v136 : IVec S100000x1 32) (ix2 n (0 : Fin 1)) = G.gr n := fun n =>
    (congrFun e136 (ix2 n (0 : Fin 1))).trans ((batchCol_apply _ n).trans ((congrFun ha3 (ix1 n)).trans (hgr n)))
  have hfeat : ∀ n k, (V13 (F := Ideal) m ρ c main_v135 : FVec Ideal S100000x64 .f32) (ix2 n k) = ((xr n k : ℝ) : EReal) :=
    fun n k => (congrFun e135 (ix2 n k)).trans (hx n k)
  refine (congrFun e152 (ix2 g d)).trans ?_
  refine poolTail_apply _ _ xr G hwords hrange ?_ g d
  intro i g' d'
  refine (congrFun e137 (ix3 i g' d')).trans ?_
  exact pool6_out (V13 (F := Ideal) m ρ) c xr G.gr hfeat hcol i g' d'

end Cert.KernelIdeal.GnnK

end
-- ==== Proof.KThread.lean ====
import proofs.«416992_j9088150798514_2_alg».proof.Proof.KThread.Round1
import proofs.«416992_j9088150798514_2_alg».proof.Proof.KThread.Round2
import proofs.«416992_j9088150798514_2_alg».proof.Proof.KThread.Round3
import proofs.«416992_j9088150798514_2_alg».proof.Proof.KStats0
import proofs.«416992_j9088150798514_2_alg».proof.Proof.KStats2
import proofs.«416992_j9088150798514_2_alg».proof.Proof.KStats4
import proofs.«416992_j9088150798514_2_alg».proof.Proof.KApply1
import proofs.«416992_j9088150798514_2_alg».proof.Proof.KApply3
import proofs.«416992_j9088150798514_2_alg».proof.Proof.KApply5
import proofs.«416992_j9088150798514_2_alg».proof.Proof.KTail

set_option maxRecDepth 16384

noncomputable section

namespace Cert.KernelIdeal.GnnK

open Cert.KernelIdeal Cert.KernelIdeal.Gen Idealize.ShloMosaic Idealize.ShloMosaic.TcCoe Idealize.ShloMosaic.ValueIdx
open Idealize.ShloMosaic.Pipeline (Dat Cfg Window)
open Idealize.SL.Sem

section
variable (m : (ℓ : Loc nD τ sig) → Buf (Elt Ideal) ℓ) (ρ : Dev nD → PrngReg) (c : Dev nD)

/-- Three rounds, then the mean over each graph. -/
theorem kernel_value_of {G : Gnn.Words} (P : Fin 3 → Gnn.LayerP) (xr : Gnn.Feat) (h : Spells m c G P)
    (hx : Holds2 (m ((c.tc : Thread nD τ).loc main_arg0) : FVec Ideal S100000x64 .f32) xr)
    (g : Fin 128) (d : Fin 64) :
    (W15 (F := Ideal) m ρ c (Proc.devRef .tc main_v152) : FVec Ideal S128x64 .f32) (ix2 g d)
      = ((Gnn.result Gnn.epsR G (P 0) (P 1) (P 2) xr g d : ℝ) : EReal) := by
  have h4 : Holds2 (W4 (F := Ideal) m ρ c (Proc.devRef .tc main_v49) : FVec Ideal S100000x64 .f32) (Gnn.layer true Gnn.epsR G (P 0) xr) :=
    round_of m c h 0 true xr hx (W1_x m ρ c) (W1_agg m ρ c) (W1_w m ρ c) (W1_b m ρ c) (W2_arr m ρ c 4) (W2_arr m ρ c 5)
      (stats0_sum (V1 m ρ) c xr (Gnn.agg G xr) (P 0).w1 (P 0).b1) (stats0_sumsq (V1 m ρ) c xr (Gnn.agg G xr) (P 0).w1 (P 0).b1)
      (W3_x m ρ c) (W3_agg m ρ c) (W3_mu m ρ c) (W3_va m ρ c) (W3_wsl m ρ c) (W3_bsl m ρ c) (W3_w1 m ρ c) (W3_b1 m ρ c)
      (W3_ga m ρ c) (W3_be m ρ c) (W3_w2 m ρ c) (W3_b2 m ρ c) (W4_arr m ρ c 12)
      (apply1_out (V3 m ρ) c xr (Gnn.agg G xr) (P 0) (Gnn.mean G (P 0) xr) (Gnn.var G (P 0) xr))
  have h8 : Holds2 (W8 (F := Ideal) m ρ c (Proc.devRef .tc main_v92) : FVec Ideal S100000x64 .f32)
      (Gnn.layer true Gnn.epsR G (P 1) (Gnn.layer true Gnn.epsR G (P 0) xr)) :=
    round_of m c h 1 true _ h4 (W5_x m ρ c) (W5_agg m ρ c) (W5_w m ρ c) (W5_b m ρ c) (W6_arr m ρ c 4) (W6_arr m ρ c 5)
      (stats2_sum (V5 m ρ) c _ (Gnn.agg G _) (P 1).w1 (P 1).b1) (stats2_sumsq (V5 m ρ) c _ (Gnn.agg G _) (P 1).w1 (P 1).b1)
      (W7_x m ρ c) (W7_agg m ρ c) (W7_mu m ρ c) (W7_va m ρ c) (W7_wsl m ρ c) (W7_bsl m ρ c) (W7_w1 m ρ c) (W7_b1 m ρ c)
      (W7_ga m ρ c) (W7_be m ρ c) (W7_w2 m ρ c) (W7_b2 m ρ c) (W8_arr m ρ c 12)
      (apply3_out (V7 m ρ) c _ (Gnn.agg G _) (P 1) (Gnn.mean G (P 1) _) (Gnn.var G (P 1) _))
  have h12 : Holds2 (W12 (F := Ideal) m ρ c (Proc.devRef .tc main_v135) : FVec Ideal S100000x64 .f32)
      (Gnn.layer false Gnn.epsR G (P 2) (Gnn.layer true Gnn.epsR G (P 1) (Gnn.layer true Gnn.epsR G (P 0) xr))) :=
    round_of m c h 2 false _ h8 (W9_x m ρ c) (W9_agg m ρ c) (W9_w m ρ c) (W9_b m ρ c) (W10_arr m ρ c 4) (W10_arr m ρ c 5)
      (stats4_sum (V9 m ρ) c _ (Gnn.agg G _) (P 2).w1 (P 2).b1) (stats4_sumsq (V9 m ρ) c _ (Gnn.agg G _) (P 2).w1 (P 2).b1)
      (W11_x m ρ c) (W11_agg m ρ c) (W11_mu m ρ c) (W11_va m ρ c) (W11_wsl m ρ c) (W11_bsl m ρ c) (W11_w1 m ρ c) (W11_b1 m ρ c)
      (W11_ga m ρ c) (W11_be m ρ c) (W11_w2 m ρ c) (W11_b2 m ρ c) (W12_arr m ρ c 12)
      (apply5_out (V11 m ρ) c _ (Gnn.agg G _) (P 2) (Gnn.mean G (P 2) _) (Gnn.var G (P 2) _))
  exact tail_value m ρ c _ G h12 (kept_W12 m ρ c main_arg3 (by decide)) h.gr h.gr_lt g d

end

/-- The result at `(g, d)` is `Gnn.result` of the words and the real arrays that the inputs hold. -/
theorem kernel_value (m : (ℓ : Loc nD τ sig) → Buf (Elt Ideal) ℓ) (ρ : Dev nD → PrngReg) (c : Dev nD)
    (xr : Fin 100000 → Fin 64 → ℝ) (wslR : Fin 3 → Fin 64 → Fin 64 → ℝ) (bslR : Fin 3 → Fin 64 → ℝ)
    (w1R : Fin 3 → Fin 4 → Fin 64 → Fin 64 → ℝ) (b1R gaR beR : Fin 3 → Fin 4 → Fin 64 → ℝ)
    (w2R : Fin 3 → Fin 4 → Fin 64 → Fin 64 → ℝ) (b2R : Fin 3 → Fin 4 → Fin 64 → ℝ)
    (hx : ∀ n k, ((m ((c.tc : Thread nD τ).loc main_arg0)) : FVec Ideal S100000x64 .f32) (ix2 n k) = ((xr n k : ℝ) : EReal))
    (hwsl : ∀ l k d, ((m ((c.tc : Thread nD τ).loc main_arg4)) : FVec Ideal S3x64x64 .f32) (ix3 l k d) = ((wslR l k d : ℝ) : EReal)) (hbsl : ∀ l d, ((m ((c.tc : Thread nD τ).loc main_arg5)) : FVec Ideal S3x64 .f32) (ix2 l d) = ((bslR l d : ℝ) : EReal))
    (hw1 : ∀ l q k d, ((m ((c.tc : Thread nD τ).loc main_arg6)) : FVec Ideal S3x4x64x64 .f32) (ix4 l q k d) = ((w1R l q k d : ℝ) : EReal)) (hb1 : ∀ l q d, ((m ((c.tc : Thread nD τ).loc main_arg7)) : FVec Ideal S3x4x64 .f32) (ix3 l q d) = ((b1R l q d : ℝ) : EReal))
    (hga : ∀ l q d, ((m ((c.tc : Thread nD τ).loc main_arg8)) : FVec Ideal S3x4x64 .f32) (ix3 l q d) = ((gaR l q d : ℝ) : EReal)) (hbe : ∀ l q d, ((m ((c.tc : Thread nD τ).loc main_arg9)) : FVec Ideal S3x4x64 .f32) (ix3 l q d) = ((beR l q d : ℝ) : EReal))
    (hw2 : ∀ l q k d, ((m ((c.tc : Thread nD τ).loc main_arg10)) : FVec Ideal S3x4x64x64 .f32) (ix4 l q k d) = ((w2R l q k d : ℝ) : EReal)) (hb2 : ∀ l q d, ((m ((c.tc : Thread nD τ).loc main_arg11)) : FVec Ideal S3x4x64 .f32) (ix3 l q d) = ((b2R l q d : ℝ) : EReal))
    (hdst : ∀ e : Fin 1200000, 0 ≤ (((m ((c.tc : Thread nD τ).loc main_arg1)) : IVec S2x1200000 32) (ix2 (1 : Fin 2) e)).toInt ∧ (((m ((c.tc : Thread nD τ).loc main_arg1)) : IVec S2x1200000 32) (ix2 (1 : Fin 2) e)).toInt < 100000)
    (het : ∀ e : Fin 1200000, 0 ≤ (((m ((c.tc : Thread nD τ).loc main_arg2)) : IVec S1200000 32) (ix1 e)).toInt ∧ (((m ((c.tc : Thread nD τ).loc main_arg2)) : IVec S1200000 32) (ix1 e)).toInt < 4)
    (hgr : ∀ n : Fin 100000, 0 ≤ (((m ((c.tc : Thread nD τ).loc main_arg3)) : IVec S100000 32) (ix1 n)).toInt ∧ (((m ((c.tc : Thread nD τ).loc main_arg3)) : IVec S100000 32) (ix1 n)).toInt < 128)
    (g : Fin 128) (d : Fin 64) :
    (W15 (F := Ideal) m ρ c (Proc.devRef .tc main_v152) : FVec Ideal S128x64 .f32) (ix2 g d)
      = ((Gnn.result Gnn.epsR ⟨fun e => ((m ((c.tc : Thread nD τ).loc main_arg1)) : IVec S2x1200000 32) (ix2 (0 : Fin 2) e), fun e => ((m ((c.tc : Thread nD τ).loc main_arg1)) : IVec S2x1200000 32) (ix2 (1 : Fin 2) e), fun e => ((m ((c.tc : Thread nD τ).loc main_arg2)) : IVec S1200000 32) (ix1 e), fun n => ((m ((c.tc : Thread nD τ).loc main_arg3)) : IVec S100000 32) (ix1 n)⟩
          (Gnn.layerP wslR bslR w1R b1R gaR beR w2R b2R 0) (Gnn.layerP wslR bslR w1R b1R gaR beR w2R b2R 1) (Gnn.layerP wslR bslR w1R b1R gaR beR w2R b2R 2) xr g d : ℝ) : EReal) := by
  exact kernel_value_of m ρ c (Gnn.layerP wslR bslR w1R b1R gaR beR w2R b2R) xr
    ⟨fun _ => rfl, fun _ => rfl, fun _ => rfl, fun _ => rfl, hdst, het, hgr, hwsl, hbsl, hw1, hb1, hga, hbe, hw2, hb2⟩ hx g d

end Cert.KernelIdeal.GnnK

end
-- ==== Proof.RefTerms.lean ====
import proofs.«416992_j9088150798514_2_alg».proof.Proof.Gen.ReferenceIdeal
import Idealize.ShloMosaic.Lib.StableHlo.Run

noncomputable section

namespace Cert.ReferenceIdeal.RefTerm

open Cert.ReferenceIdeal Cert.ReferenceIdeal.Gen Idealize.ShloMosaic Idealize.ShloMosaic.TcCoe Idealize.SL.Sem Idealize.ShloMosaic.StableHlo

variable {F : FTy → Type} [FloatOps F]

def rowB (v : FVec F S64 .f32) : FVec F S100000x64 .f32 :=
  broadcastInDim S100000x64 ![0, 1] bcast_S1x64_S100000x64_0_1 (broadcastInDim S1x64 ![1] bcast_S64_S1x64_1 v)

def zeroX : FVec F S100000x64 .f32 := broadcastInDim S100000x64 ![] bcast_S_S100000x64 (constant S_ .f32 0x00000000#32)

def srcIdx (ei : IVec S2x1200000 32) : IVec S1200000x1 32 :=
  let v1 : IVec S1200000 32 := shapeCast _ (extractStridedSlice S1x1200000 ![0, 0] ei slices_S2x1200000_S1x1200000_0_0) shapeCasts_S1x1200000_S1200000
  broadcastInDim S1200000x1 ![0] bcast_S1200000_S1200000x1_0
    (select (cmpi .slt v1 (broadcastInDim S1200000 ![] bcast_S_S1200000 (constantI S_ 32 0#32)))
      (addi v1 (broadcastInDim S1200000 ![] bcast_S_S1200000 (constantI S_ 32 100000#32))) v1)

def dstIdx (ei : IVec S2x1200000 32) : IVec S1200000x1 32 :=
  broadcastInDim S1200000x1 ![0] bcast_S1200000_S1200000x1_0
    (shapeCast _ (extractStridedSlice S1x1200000 ![1, 0] ei slices_S2x1200000_S1x1200000_1_0) shapeCasts_S1x1200000_S1200000)

def selfTerm (x : FVec F S100000x64 .f32) (wsl : FVec F S64x64 .f32) (bsl : FVec F S64 .f32) : FVec F S100000x64 .f32 :=
  addf (Host.dotGeneral dot_S100000x64_S64x64_S100000x64_1_0_0_1_n_n none x wsl) (rowB bsl)

def colMean (z : FVec F S100000x64 .f32) : FVec F S1x64 .f32 :=
  Host.divf (broadcastInDim S1x64 ![1] bcast_S64_S1x64_1 (Host.reduceAdd z (constant S_ .f32 0x00000000#32) reducesTo_S100000x64_S64_d0 h_S_))
    (broadcastInDim S1x64 ![] bcast_S_S1x64 (constant S_ .f32 0x47C35000#32))

def relStep (rw : BitVec 32) (x : FVec F S100000x64 .f32) (msgs : FVec F S1200000x64 .f32) (dsti : IVec S1200000x1 32) (et : IVec S1200000 32)
    (w1 : FVec F S64x64 .f32) (b1 ga be : FVec F S64 .f32) (w2 : FVec F S64x64 .f32) (b2 : FVec F S64 .f32)
    (acc : FVec F S100000x64 .f32) : FVec F S100000x64 .f32 :=
  let mask : FVec F S1200000x64 .f32 := broadcastInDim S1200000x64 ![0, 1] bcast_S1200000x1_S1200000x64_0_1
    (broadcastInDim S1200000x1 ![0] bcast_S1200000_S1200000x1_0
      (uitofp .f32 (cmpi .eq et (broadcastInDim S1200000 ![] bcast_S_S1200000 (constantI S_ 32 rw)))))
  let agg : FVec F S100000x64 .f32 := Host.scatterAdd scatter_S100000x64_S1200000x1_S1200000x64_1_0_0_1 zeroX dsti (mulf msgs mask)
  let z : FVec F S100000x64 .f32 := addf (Host.dotGeneral dot_S100000x64_S64x64_S100000x64_1_0_0_1_n_n none (addf x agg) w1) (rowB b1)
  let mu : FVec F S1x64 .f32 := colMean z
  let c : FVec F S100000x64 .f32 := subf z (broadcastInDim S100000x64 ![0, 1] bcast_S1x64_S100000x64_0_1 mu)
  let va : FVec F S1x64 .f32 := colMean (mulf c c)
  let rs : FVec F S1x64 .f32 := Host.rsqrt (addf va (broadcastInDim S1x64 ![] bcast_S_S1x64 (constant S_ .f32 0x3727C5AC#32)))
  let zn : FVec F S100000x64 .f32 := addf (mulf (mulf (subf z (broadcastInDim S100000x64 ![0, 1] bcast_S1x64_S100000x64_0_1 mu))
    (broadcastInDim S100000x64 ![0, 1] bcast_S1x64_S100000x64_0_1 rs)) (rowB ga)) (rowB be)
  let zr : FVec F S100000x64 .f32 := maximumf zn zeroX
  addf (addf acc (Host.dotGeneral dot_S100000x64_S64x64_S100000x64_1_0_0_1_n_n none zr w2)) (rowB b2)

def poolTerm (x : FVec F S100000x64 .f32) (gr : IVec S100000 32) : FVec F S128x64 .f32 :=
  Host.divf (Host.scatterAdd scatter_S128x64_S100000x1_S100000x64_1_0_0_1 (broadcastInDim S128x64 ![] bcast_S_S128x64 (constant S_ .f32 0x00000000#32))
      (broadcastInDim S100000x1 ![0] bcast_S100000_S100000x1_0 gr) x)
    (broadcastInDim S128x64 ![0, 1] bcast_S128x1_S128x64_0_1 (broadcastInDim S128x1 ![0] bcast_S128_S128x1_0
      (maximumf (Host.scatterAdd scatter_S128_S100000x1_S100000_n_0_0_1 (broadcastInDim S128 ![] bcast_S_S128 (constant S_ .f32 0x00000000#32))
          (broadcastInDim S100000x1 ![0] bcast_S100000_S100000x1_0 gr) (broadcastInDim S100000 ![] bcast_S_S100000 (constant S_ .f32 0x3F800000#32)))
        (broadcastInDim S128 ![] bcast_S_S128 (constant S_ .f32 0x3F800000#32)))))

section Rounds
variable (ei : IVec S2x1200000 32) (et : IVec S1200000 32)
  (wsl : FVec F S3x64x64 .f32) (bsl : FVec F S3x64 .f32) (w1 : FVec F S3x4x64x64 .f32) (b1 ga be : FVec F S3x4x64 .f32)
  (w2 : FVec F S3x4x64x64 .f32) (b2 : FVec F S3x4x64 .f32)

def core0 (x : FVec F S100000x64 .f32) : FVec F S100000x64 .f32 :=
  (relStep 3#32 x (Host.gather gather_S100000x64_S1200000x1_S1200000x64_1_0_n_n_0_1_164 x (srcIdx ei)) (dstIdx ei) et
      (shapeCast _ (extractStridedSlice S1x1x64x64 ![0, 3, 0, 0] w1 slices_S3x4x64x64_S1x1x64x64_0_3_0_0) shapeCasts_S1x1x64x64_S64x64) (shapeCast _ (extractStridedSlice S1x1x64 ![0, 3, 0] b1 slices_S3x4x64_S1x1x64_0_3_0) shapeCasts_S1x1x64_S64)
      (shapeCast _ (extractStridedSlice S1x1x64 ![0, 3, 0] ga slices_S3x4x64_S1x1x64_0_3_0) shapeCasts_S1x1x64_S64) (shapeCast _ (extractStridedSlice S1x1x64 ![0, 3, 0] be slices_S3x4x64_S1x1x64_0_3_0) shapeCasts_S1x1x64_S64)
      (shapeCast _ (extractStridedSlice S1x1x64x64 ![0, 3, 0, 0] w2 slices_S3x4x64x64_S1x1x64x64_0_3_0_0) shapeCasts_S1x1x64x64_S64x64) (shapeCast _ (extractStridedSlice S1x1x64 ![0, 3, 0] b2 slices_S3x4x64_S1x1x64_0_3_0) shapeCasts_S1x1x64_S64)
      (relStep 2#32 x (Host.gather gather_S100000x64_S1200000x1_S1200000x64_1_0_n_n_0_1_164 x (srcIdx ei)) (dstIdx ei) et
      (shapeCast _ (extractStridedSlice S1x1x64x64 ![0, 2, 0, 0] w1 slices_S3x4x64x64_S1x1x64x64_0_2_0_0) shapeCasts_S1x1x64x64_S64x64) (shapeCast _ (extractStridedSlice S1x1x64 ![0, 2, 0] b1 slices_S3x4x64_S1x1x64_0_2_0) shapeCasts_S1x1x64_S64)
      (shapeCast _ (extractStridedSlice S1x1x64 ![0, 2, 0] ga slices_S3x4x64_S1x1x64_0_2_0) shapeCasts_S1x1x64_S64) (shapeCast _ (extractStridedSlice S1x1x64 ![0, 2, 0] be slices_S3x4x64_S1x1x64_0_2_0) shapeCasts_S1x1x64_S64)
      (shapeCast _ (extractStridedSlice S1x1x64x64 ![0, 2, 0, 0] w2 slices_S3x4x64x64_S1x1x64x64_0_2_0_0) shapeCasts_S1x1x64x64_S64x64) (shapeCast _ (extractStridedSlice S1x1x64 ![0, 2, 0] b2 slices_S3x4x64_S1x1x64_0_2_0) shapeCasts_S1x1x64_S64)
      (relStep 1#32 x (Host.gather gather_S100000x64_S1200000x1_S1200000x64_1_0_n_n_0_1_164 x (srcIdx ei)) (dstIdx ei) et
      (shapeCast _ (extractStridedSlice S1x1x64x64 ![0, 1, 0, 0] w1 slices_S3x4x64x64_S1x1x64x64_0_1_0_0) shapeCasts_S1x1x64x64_S64x64) (shapeCast _ (extractStridedSlice S1x1x64 ![0, 1, 0] b1 slices_S3x4x64_S1x1x64_0_1_0) shapeCasts_S1x1x64_S64)
      (shapeCast _ (extractStridedSlice S1x1x64 ![0, 1, 0] ga slices_S3x4x64_S1x1x64_0_1_0) shapeCasts_S1x1x64_S64) (shapeCast _ (extractStridedSlice S1x1x64 ![0, 1, 0] be slices_S3x4x64_S1x1x64_0_1_0) shapeCasts_S1x1x64_S64)
      (shapeCast _ (extractStridedSlice S1x1x64x64 ![0, 1, 0, 0] w2 slices_S3x4x64x64_S1x1x64x64_0_1_0_0) shapeCasts_S1x1x64x64_S64x64) (shapeCast _ (extractStridedSlice S1x1x64 ![0, 1, 0] b2 slices_S3x4x64_S1x1x64_0_1_0) shapeCasts_S1x1x64_S64)
      (relStep 0#32 x (Host.gather gather_S100000x64_S1200000x1_S1200000x64_1_0_n_n_0_1_164 x (srcIdx ei)) (dstIdx ei) et
      (shapeCast _ (extractStridedSlice S1x1x64x64 ![0, 0, 0, 0] w1 slices_S3x4x64x64_S1x1x64x64_0_0_0_0) shapeCasts_S1x1x64x64_S64x64) (shapeCast _ (extractStridedSlice S1x1x64 ![0, 0, 0] b1 slices_S3x4x64_S1x1x64_0_0_0) shapeCasts_S1x1x64_S64)
      (shapeCast _ (extractStridedSlice S1x1x64 ![0, 0, 0] ga slices_S3x4x64_S1x1x64_0_0_0) shapeCasts_S1x1x64_S64) (shapeCast _ (extractStridedSlice S1x1x64 ![0, 0, 0] be slices_S3x4x64_S1x1x64_0_0_0) shapeCasts_S1x1x64_S64)
      (shapeCast _ (extractStridedSlice S1x1x64x64 ![0, 0, 0, 0] w2 slices_S3x4x64x64_S1x1x64x64_0_0_0_0) shapeCasts_S1x1x64x64_S64x64) (shapeCast _ (extractStridedSlice S1x1x64 ![0, 0, 0] b2 slices_S3x4x64_S1x1x64_0_0_0) shapeCasts_S1x1x64_S64)
      (selfTerm x (shapeCast _ (extractStridedSlice S1x64x64 ![0, 0, 0] wsl slices_S3x64x64_S1x64x64_0_0_0) shapeCasts_S1x64x64_S64x64) (shapeCast _ (extractStridedSlice S1x64 ![0, 0] bsl slices_S3x64_S1x64_0_0) shapeCasts_S1x64_S64))))))

def core1 (x : FVec F S100000x64 .f32) : FVec F S100000x64 .f32 :=
  (relStep 3#32 x (Host.gather gather_S100000x64_S1200000x1_S1200000x64_1_0_n_n_0_1_164 x (srcIdx ei)) (dstIdx ei) et
      (shapeCast _ (extractStridedSlice S1x1x64x64 ![1, 3, 0, 0] w1 slices_S3x4x64x64_S1x1x64x64_1_3_0_0) shapeCasts_S1x1x64x64_S64x64) (shapeCast _ (extractStridedSlice S1x1x64 ![1, 3, 0] b1 slices_S3x4x64_S1x1x64_1_3_0) shapeCasts_S1x1x64_S64)
      (shapeCast _ (extractStridedSlice S1x1x64 ![1, 3, 0] ga slices_S3x4x64_S1x1x64_1_3_0) shapeCasts_S1x1x64_S64) (shapeCast _ (extractStridedSlice S1x1x64 ![1, 3, 0] be slices_S3x4x64_S1x1x64_1_3_0) shapeCasts_S1x1x64_S64)
      (shapeCast _ (extractStridedSlice S1x1x64x64 ![1, 3, 0, 0] w2 slices_S3x4x64x64_S1x1x64x64_1_3_0_0) shapeCasts_S1x1x64x64_S64x64) (shapeCast _ (extractStridedSlice S1x1x64 ![1, 3, 0] b2 slices_S3x4x64_S1x1x64_1_3_0) shapeCasts_S1x1x64_S64)
      (relStep 2#32 x (Host.gather gather_S100000x64_S1200000x1_S1200000x64_1_0_n_n_0_1_164 x (srcIdx ei)) (dstIdx ei) et
      (shapeCast _ (extractStridedSlice S1x1x64x64 ![1, 2, 0, 0] w1 slices_S3x4x64x64_S1x1x64x64_1_2_0_0) shapeCasts_S1x1x64x64_S64x64) (shapeCast _ (extractStridedSlice S1x1x64 ![1, 2, 0] b1 slices_S3x4x64_S1x1x64_1_2_0) shapeCasts_S1x1x64_S64)
      (shapeCast _ (extractStridedSlice S1x1x64 ![1, 2, 0] ga slices_S3x4x64_S1x1x64_1_2_0) shapeCasts_S1x1x64_S64) (shapeCast _ (extractStridedSlice S1x1x64 ![1, 2, 0] be slices_S3x4x64_S1x1x64_1_2_0) shapeCasts_S1x1x64_S64)
      (shapeCast _ (extractStridedSlice S1x1x64x64 ![1, 2, 0, 0] w2 slices_S3x4x64x64_S1x1x64x64_1_2_0_0) shapeCasts_S1x1x64x64_S64x64) (shapeCast _ (extractStridedSlice S1x1x64 ![1, 2, 0] b2 slices_S3x4x64_S1x1x64_1_2_0) shapeCasts_S1x1x64_S64)
      (relStep 1#32 x (Host.gather gather_S100000x64_S1200000x1_S1200000x64_1_0_n_n_0_1_164 x (srcIdx ei)) (dstIdx ei) et
      (shapeCast _ (extractStridedSlice S1x1x64x64 ![1, 1, 0, 0] w1 slices_S3x4x64x64_S1x1x64x64_1_1_0_0) shapeCasts_S1x1x64x64_S64x64) (shapeCast _ (extractStridedSlice S1x1x64 ![1, 1, 0] b1 slices_S3x4x64_S1x1x64_1_1_0) shapeCasts_S1x1x64_S64)
      (shapeCast _ (extractStridedSlice S1x1x64 ![1, 1, 0] ga slices_S3x4x64_S1x1x64_1_1_0) shapeCasts_S1x1x64_S64) (shapeCast _ (extractStridedSlice S1x1x64 ![1, 1, 0] be slices_S3x4x64_S1x1x64_1_1_0) shapeCasts_S1x1x64_S64)
      (shapeCast _ (extractStridedSlice S1x1x64x64 ![1, 1, 0, 0] w2 slices_S3x4x64x64_S1x1x64x64_1_1_0_0) shapeCasts_S1x1x64x64_S64x64) (shapeCast _ (extractStridedSlice S1x1x64 ![1, 1, 0] b2 slices_S3x4x64_S1x1x64_1_1_0) shapeCasts_S1x1x64_S64)
      (relStep 0#32 x (Host.gather gather_S100000x64_S1200000x1_S1200000x64_1_0_n_n_0_1_164 x (srcIdx ei)) (dstIdx ei) et
      (shapeCast _ (extractStridedSlice S1x1x64x64 ![1, 0, 0, 0] w1 slices_S3x4x64x64_S1x1x64x64_1_0_0_0) shapeCasts_S1x1x64x64_S64x64) (shapeCast _ (extractStridedSlice S1x1x64 ![1, 0, 0] b1 slices_S3x4x64_S1x1x64_1_0_0) shapeCasts_S1x1x64_S64)
      (shapeCast _ (extractStridedSlice S1x1x64 ![1, 0, 0] ga slices_S3x4x64_S1x1x64_1_0_0) shapeCasts_S1x1x64_S64) (shapeCast _ (extractStridedSlice S1x1x64 ![1, 0, 0] be slices_S3x4x64_S1x1x64_1_0_0) shapeCasts_S1x1x64_S64)
      (shapeCast _ (extractStridedSlice S1x1x64x64 ![1, 0, 0, 0] w2 slices_S3x4x64x64_S1x1x64x64_1_0_0_0) shapeCasts_S1x1x64x64_S64x64) (shapeCast _ (extractStridedSlice S1x1x64 ![1, 0, 0] b2 slices_S3x4x64_S1x1x64_1_0_0) shapeCasts_S1x1x64_S64)
      (selfTerm x (shapeCast _ (extractStridedSlice S1x64x64 ![1, 0, 0] wsl slices_S3x64x64_S1x64x64_1_0_0) shapeCasts_S1x64x64_S64x64) (shapeCast _ (extractStridedSlice S1x64 ![1, 0] bsl slices_S3x64_S1x64_1_0) shapeCasts_S1x64_S64))))))

def core2 (x : FVec F S100000x64 .f32) : FVec F S100000x64 .f32 :=
  (relStep 3#32 x (Host.gather gather_S100000x64_S1200000x1_S1200000x64_1_0_n_n_0_1_164 x (srcIdx ei)) (dstIdx ei) et
      (shapeCast _ (extractStridedSlice S1x1x64x64 ![2, 3, 0, 0] w1 slices_S3x4x64x64_S1x1x64x64_2_3_0_0) shapeCasts_S1x1x64x64_S64x64) (shapeCast _ (extractStridedSlice S1x1x64 ![2, 3, 0] b1 slices_S3x4x64_S1x1x64_2_3_0) shapeCasts_S1x1x64_S64)
      (shapeCast _ (extractStridedSlice S1x1x64 ![2, 3, 0] ga slices_S3x4x64_S1x1x64_2_3_0) shapeCasts_S1x1x64_S64) (shapeCast _ (extractStridedSlice S1x1x64 ![2, 3, 0] be slices_S3x4x64_S1x1x64_2_3_0) shapeCasts_S1x1x64_S64)
      (shapeCast _ (extractStridedSlice S1x1x64x64 ![2, 3, 0, 0] w2 slices_S3x4x64x64_S1x1x64x64_2_3_0_0) shapeCasts_S1x1x64x64_S64x64) (shapeCast _ (extractStridedSlice S1x1x64 ![2, 3, 0] b2 slices_S3x4x64_S1x1x64_2_3_0) shapeCasts_S1x1x64_S64)
      (relStep 2#32 x (Host.gather gather_S100000x64_S1200000x1_S1200000x64_1_0_n_n_0_1_164 x (srcIdx ei)) (dstIdx ei) et
      (shapeCast _ (extractStridedSlice S1x1x64x64 ![2, 2, 0, 0] w1 slices_S3x4x64x64_S1x1x64x64_2_2_0_0) shapeCasts_S1x1x64x64_S64x64) (shapeCast _ (extractStridedSlice S1x1x64 ![2, 2, 0] b1 slices_S3x4x64_S1x1x64_2_2_0) shapeCasts_S1x1x64_S64)
      (shapeCast _ (extractStridedSlice S1x1x64 ![2, 2, 0] ga slices_S3x4x64_S1x1x64_2_2_0) shapeCasts_S1x1x64_S64) (shapeCast _ (extractStridedSlice S1x1x64 ![2, 2, 0] be slices_S3x4x64_S1x1x64_2_2_0) shapeCasts_S1x1x64_S64)
      (shapeCast _ (extractStridedSlice S1x1x64x64 ![2, 2, 0, 0] w2 slices_S3x4x64x64_S1x1x64x64_2_2_0_0) shapeCasts_S1x1x64x64_S64x64) (shapeCast _ (extractStridedSlice S1x1x64 ![2, 2, 0] b2 slices_S3x4x64_S1x1x64_2_2_0) shapeCasts_S1x1x64_S64)
      (relStep 1#32 x (Host.gather gather_S100000x64_S1200000x1_S1200000x64_1_0_n_n_0_1_164 x (srcIdx ei)) (dstIdx ei) et
      (shapeCast _ (extractStridedSlice S1x1x64x64 ![2, 1, 0, 0] w1 slices_S3x4x64x64_S1x1x64x64_2_1_0_0) shapeCasts_S1x1x64x64_S64x64) (shapeCast _ (extractStridedSlice S1x1x64 ![2, 1, 0] b1 slices_S3x4x64_S1x1x64_2_1_0) shapeCasts_S1x1x64_S64)
      (shapeCast _ (extractStridedSlice S1x1x64 ![2, 1, 0] ga slices_S3x4x64_S1x1x64_2_1_0) shapeCasts_S1x1x64_S64) (shapeCast _ (extractStridedSlice S1x1x64 ![2, 1, 0] be slices_S3x4x64_S1x1x64_2_1_0) shapeCasts_S1x1x64_S64)
      (shapeCast _ (extractStridedSlice S1x1x64x64 ![2, 1, 0, 0] w2 slices_S3x4x64x64_S1x1x64x64_2_1_0_0) shapeCasts_S1x1x64x64_S64x64) (shapeCast _ (extractStridedSlice S1x1x64 ![2, 1, 0] b2 slices_S3x4x64_S1x1x64_2_1_0) shapeCasts_S1x1x64_S64)
      (relStep 0#32 x (Host.gather gather_S100000x64_S1200000x1_S1200000x64_1_0_n_n_0_1_164 x (srcIdx ei)) (dstIdx ei) et
      (shapeCast _ (extractStridedSlice S1x1x64x64 ![2, 0, 0, 0] w1 slices_S3x4x64x64_S1x1x64x64_2_0_0_0) shapeCasts_S1x1x64x64_S64x64) (shapeCast _ (extractStridedSlice S1x1x64 ![2, 0, 0] b1 slices_S3x4x64_S1x1x64_2_0_0) shapeCasts_S1x1x64_S64)
      (shapeCast _ (extractStridedSlice S1x1x64 ![2, 0, 0] ga slices_S3x4x64_S1x1x64_2_0_0) shapeCasts_S1x1x64_S64) (shapeCast _ (extractStridedSlice S1x1x64 ![2, 0, 0] be slices_S3x4x64_S1x1x64_2_0_0) shapeCasts_S1x1x64_S64)
      (shapeCast _ (extractStridedSlice S1x1x64x64 ![2, 0, 0, 0] w2 slices_S3x4x64x64_S1x1x64x64_2_0_0_0) shapeCasts_S1x1x64x64_S64x64) (shapeCast _ (extractStridedSlice S1x1x64 ![2, 0, 0] b2 slices_S3x4x64_S1x1x64_2_0_0) shapeCasts_S1x1x64_S64)
      (selfTerm x (shapeCast _ (extractStridedSlice S1x64x64 ![2, 0, 0] wsl slices_S3x64x64_S1x64x64_2_0_0) shapeCasts_S1x64x64_S64x64) (shapeCast _ (extractStridedSlice S1x64 ![2, 0] bsl slices_S3x64_S1x64_2_0) shapeCasts_S1x64_S64))))))

def result (x : FVec F S100000x64 .f32) (gr : IVec S100000 32) : FVec F S128x64 .f32 :=
  poolTerm (core2 ei et wsl bsl w1 b1 ga be w2 b2
    (maximumf (core1 ei et wsl bsl w1 b1 ga be w2 b2
      (maximumf (core0 ei et wsl bsl w1 b1 ga be w2 b2 x) zeroX)) zeroX)) gr
end Rounds

end Cert.ReferenceIdeal.RefTerm

end
-- ==== Proof.RefRun.Common.lean ====
import proofs.«416992_j9088150798514_2_alg».proof.Proof.RefTerms
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

notation "⟪" W ", " b "⟫" => W (Proc.devRef Proc.tc b)

abbrev ARGS : List (Ref sig .tc) :=
  [main_arg0, main_arg1, main_arg2, main_arg3, main_arg4, main_arg5, main_arg6, main_arg7, main_arg8, main_arg9, main_arg10, main_arg11]

/-- An operation with the one buffer it writes: all its buffers are in `tcRefs` and none is fresh. -/
structure TcOp (F : FTy → Type) where
  op : HloOp τ sig (Elt F)
  out : Ref sig .tc
  writes_eq : op.writes = {Proc.devRef .tc out}
  bufs_sub : op.bufs ⊆ tcRefs τ sig
  fresh_eq : op.fresh = ∅

namespace TcOp

/-- What the library's builders ask of a buffer. -/
abbrev OnDev (y : Ref sig .tc) : Prop := y.space ≠ .host ∧ (Proc.devRef .tc y : DevRef τ sig).isScoped = false

def nullary (y : Ref sig .tc) (v : y.ty.Contents (Elt F)) (hy : OnDev y := by exact ⟨by decide, rfl⟩) : TcOp F :=
  ⟨StableHlo.nullary y v hy, y, rfl, nullary_bufs_sub .., rfl⟩

def unary (x y : Ref sig .tc) (f : x.ty.Contents (Elt F) → y.ty.Contents (Elt F))
    (hx : OnDev x := by exact ⟨by decide, rfl⟩) (hy : OnDev y := by exact ⟨by decide, rfl⟩) : TcOp F :=
  ⟨StableHlo.unary x y f hx hy, y, rfl, unary_bufs_sub .., rfl⟩

def binary (a b y : Ref sig .tc) (f : a.ty.Contents (Elt F) → b.ty.Contents (Elt F) → y.ty.Contents (Elt F))
    (ha : OnDev a := by exact ⟨by decide, rfl⟩) (hb : OnDev b := by exact ⟨by decide, rfl⟩) (hy : OnDev y := by exact ⟨by decide, rfl⟩) : TcOp F :=
  ⟨StableHlo.binary a b y f ha hb hy, y, rfl, binary_bufs_sub .., rfl⟩

def ternary (c a b y : Ref sig .tc) (f : c.ty.Contents (Elt F) → a.ty.Contents (Elt F) → b.ty.Contents (Elt F) → y.ty.Contents (Elt F))
    (hc : OnDev c := by exact ⟨by decide, rfl⟩) (ha : OnDev a := by exact ⟨by decide, rfl⟩) (hb : OnDev b := by exact ⟨by decide, rfl⟩)
    (hy : OnDev y := by exact ⟨by decide, rfl⟩) : TcOp F :=
  ⟨StableHlo.ternary c a b y f hc ha hb hy, y, rfl, ternary_bufs_sub .., rfl⟩

def reshape (x y : Ref sig .tc) (he : x.ty.elt = y.ty.elt) (hn : x.ty.shape.ShapeCasts y.ty.shape)
    (hx : OnDev x := by exact ⟨by decide, rfl⟩) (hy : OnDev y := by exact ⟨by decide, rfl⟩) : TcOp F :=
  ⟨StableHlo.reshape x y he hn hx hy, y, rfl, reshape_bufs_sub .., rfl⟩

theorem op_nullary (y : Ref sig .tc) (v : y.ty.Contents (Elt F)) (hy) : (TcOp.nullary y v hy).op = StableHlo.nullary y v hy := rfl
theorem op_unary (x y : Ref sig .tc) (f : x.ty.Contents (Elt F) → y.ty.Contents (Elt F)) (hx hy) : (TcOp.unary x y f hx hy).op = StableHlo.unary x y f hx hy := rfl
theorem op_binary (a b y : Ref sig .tc) (f : a.ty.Contents (Elt F) → b.ty.Contents (Elt F) → y.ty.Contents (Elt F)) (ha hb hy) :
    (TcOp.binary a b y f ha hb hy).op = StableHlo.binary a b y f ha hb hy := rfl
theorem op_ternary (c a b y : Ref sig .tc) (f : c.ty.Contents (Elt F) → a.ty.Contents (Elt F) → b.ty.Contents (Elt F) → y.ty.Contents (Elt F)) (hc ha hb hy) :
    (TcOp.ternary c a b y f hc ha hb hy).op = StableHlo.ternary c a b y f hc ha hb hy := rfl
theorem op_reshape (x y : Ref sig .tc) (he hn hx hy) : (TcOp.reshape (F := F) x y he hn hx hy).op = StableHlo.reshape x y he hn hx hy := rfl

end TcOp

/-- A line's operations. -/
def ops (l : List (TcOp F)) : List (HloOp τ sig (Elt F)) := l.map (·.op)

/-- The buffers a line writes. -/
def outs (l : List (TcOp F)) : List (Ref sig .tc) := l.map (·.out)

theorem ops_nil : ops ([] : List (TcOp F)) = [] := rfl
theorem ops_cons (t : TcOp F) (l : List (TcOp F)) : ops (t :: l) = t.op :: ops l := rfl

theorem ops_append (l₁ l₂ : List (TcOp F)) : ops (l₁ ++ l₂) = ops l₁ ++ ops l₂ := by simp only [ops, List.map_append]

theorem ops_sub (l : List (TcOp F)) : (ops l).Forall fun op => op.bufs ⊆ tcRefs τ sig :=
  List.forall_iff_forall_mem.mpr fun _ h => by obtain ⟨t, _, rfl⟩ := List.mem_map.mp h; exact t.bufs_sub

theorem ops_fresh (l : List (TcOp F)) : ∀ op ∈ ops l, op.fresh = ∅ := fun _ h => by
  obtain ⟨t, _, rfl⟩ := List.mem_map.mp h; exact t.fresh_eq

/-- `after` of a concatenation is the composition of the two `after`s. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- A buffer that is none of a line's outputs keeps its contents through the line. -/
theorem after_keep (l : List (TcOp F)) (V : Valuation τ sig (Elt F)) {r : Ref sig .tc} (h : (outs l).contains r = false) :
    after (ops l) V (no_index (Proc.devRef .tc r)) = V (Proc.devRef .tc r) :=
  after_of_forall_not_mem _ V fun _ ho hb => by
    obtain ⟨t, ht, rfl⟩ := List.mem_map.mp ho
    rw [t.writes_eq, Finset.mem_singleton] at hb
    exact Bool.false_ne_true (h.symm.trans (List.contains_iff_mem.mpr (List.mem_map.mpr ⟨t, ht, (Proc.devRef_injective _ hb).symm⟩)))

def edgeRow0 (ei : IVec S2x1200000 32) : IVec S1200000 32 :=
  shapeCast _ (extractStridedSlice S1x1200000 ![0, 0] ei slices_S2x1200000_S1x1200000_0_0) shapeCasts_S1x1200000_S1200000

def edgeRow1 (ei : IVec S2x1200000 32) : IVec S1200000 32 :=
  shapeCast _ (extractStridedSlice S1x1200000 ![1, 0] ei slices_S2x1200000_S1x1200000_1_0) shapeCasts_S1x1200000_S1200000

/-- The gather's indices from the first endpoints `v`: `v + 100000` where `v < 0`, else `v`. -/
def srcOf (v : IVec S1200000 32) : IVec S1200000x1 32 :=
  broadcastInDim S1200000x1 ![0] bcast_S1200000_S1200000x1_0
    (select (cmpi .slt v (broadcastInDim S1200000 ![] bcast_S_S1200000 (constantI S_ 32 0#32)))
      (addi v (broadcastInDim S1200000 ![] bcast_S_S1200000 (constantI S_ 32 100000#32))) v)

/-- The scatter's indices: the second endpoints as a column. -/
def dstOf (v : IVec S1200000 32) : IVec S1200000x1 32 :=
  broadcastInDim S1200000x1 ![0] bcast_S1200000_S1200000x1_0 v

theorem srcIdx_eq (ei : IVec S2x1200000 32) : RefTerm.srcIdx ei = srcOf (edgeRow0 ei) := rfl
theorem dstIdx_eq (ei : IVec S2x1200000 32) : RefTerm.dstIdx ei = dstOf (edgeRow1 ei) := rfl

/-- The self-loop term of round `r` on the features `x`, the parameter arrays read from `W`. -/
def selfAt (W : Valuation τ sig (Elt F)) (r : ℕ) (hw : S3x64x64.Slices ![r, 0, 0] S1x64x64) (hb : S3x64.Slices ![r, 0] S1x64)
    (x : FVec F S100000x64 .f32) : FVec F S100000x64 .f32 :=
  RefTerm.selfTerm x (shapeCast _ (extractStridedSlice S1x64x64 ![r, 0, 0] ⟪W, main_arg4⟫ hw) shapeCasts_S1x64x64_S64x64)
    (shapeCast _ (extractStridedSlice S1x64 ![r, 0] ⟪W, main_arg5⟫ hb) shapeCasts_S1x64_S64)

/-- Relation `k` of round `r` added to `acc`: one `relStep` on the parameter arrays' slices read from `W`. -/
def relAt (W : Valuation τ sig (Elt F)) (r k : ℕ) (hw : S3x4x64x64.Slices ![r, k, 0, 0] S1x1x64x64) (hb : S3x4x64.Slices ![r, k, 0] S1x1x64)
    (kw : BitVec 32) (x : FVec F S100000x64 .f32) (msgs : FVec F S1200000x64 .f32) (acc : FVec F S100000x64 .f32) : FVec F S100000x64 .f32 :=
  RefTerm.relStep kw x msgs (dstOf ⟪W, main_v3⟫) ⟪W, main_arg2⟫
    (shapeCast _ (extractStridedSlice S1x1x64x64 ![r, k, 0, 0] ⟪W, main_arg6⟫ hw) shapeCasts_S1x1x64x64_S64x64)
    (shapeCast _ (extractStridedSlice S1x1x64 ![r, k, 0] ⟪W, main_arg7⟫ hb) shapeCasts_S1x1x64_S64)
    (shapeCast _ (extractStridedSlice S1x1x64 ![r, k, 0] ⟪W, main_arg8⟫ hb) shapeCasts_S1x1x64_S64)
    (shapeCast _ (extractStridedSlice S1x1x64 ![r, k, 0] ⟪W, main_arg9⟫ hb) shapeCasts_S1x1x64_S64)
    (shapeCast _ (extractStridedSlice S1x1x64x64 ![r, k, 0, 0] ⟪W, main_arg10⟫ hw) shapeCasts_S1x1x64x64_S64x64)
    (shapeCast _ (extractStridedSlice S1x1x64 ![r, k, 0] ⟪W, main_arg11⟫ hb) shapeCasts_S1x1x64_S64) acc

/-- A line's result at one buffer, from any contents: its operations' results read back. -/
macro "seg_result" : tactic => `(tactic| (
  simp only [ops_cons, ops_nil, TcOp.op_nullary, TcOp.op_unary, TcOp.op_binary, TcOp.op_ternary, TcOp.op_reshape]
  after_results_simp <;> rfl))

end Cert.ReferenceIdeal.RefRun

end
-- ==== Proof.RefRun.OpsA.lean ====
import proofs.«416992_j9088150798514_2_alg».proof.Proof.RefRun.Common

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
def seg0 : List (TcOp F) :=
  [ .unary main_arg1 main_v0 (extractStridedSlice S1x1200000 ![0, 0] · slices_S2x1200000_S1x1200000_0_0),
    .reshape main_v0 main_v1 rfl shapeCasts_S1x1200000_S1200000,
    .unary main_arg1 main_v2 (extractStridedSlice S1x1200000 ![1, 0] · slices_S2x1200000_S1x1200000_1_0),
    .reshape main_v2 main_v3 rfl shapeCasts_S1x1200000_S1200000 ]

set_option maxRecDepth 8192 in
set_option maxHeartbeats 4000000 in
def seg4 : List (TcOp F) :=
  [ .unary main_arg4 main_v4 (extractStridedSlice S1x64x64 ![0, 0, 0] · slices_S3x64x64_S1x64x64_0_0_0),
    .reshape main_v4 main_v5 rfl shapeCasts_S1x64x64_S64x64,
    .binary main_arg0 main_v5 main_v6 (fun l r => Host.dotGeneral dot_S100000x64_S64x64_S100000x64_1_0_0_1_n_n none l r),
    .unary main_arg5 main_v7 (extractStridedSlice S1x64 ![0, 0] · slices_S3x64_S1x64_0_0),
    .reshape main_v7 main_v8 rfl shapeCasts_S1x64_S64,
    .unary main_v8 main_v9 (broadcastInDim S1x64 ![1] bcast_S64_S1x64_1),
    .unary main_v9 main_v10 (broadcastInDim S100000x64 ![0, 1] bcast_S1x64_S100000x64_0_1),
    .binary main_v6 main_v10 main_v11 addf,
    .nullary main_c (constantI S_ 32 0#32),
    .unary main_c main_v12 (broadcastInDim S1200000 ![] bcast_S_S1200000),
    .binary main_v1 main_v12 main_v13 (cmpi .slt),
    .nullary main_c_0 (constantI S_ 32 100000#32),
    .unary main_c_0 main_v14 (broadcastInDim S1200000 ![] bcast_S_S1200000),
    .binary main_v1 main_v14 main_v15 addi,
    .ternary main_v13 main_v15 main_v1 main_v16 select,
    .unary main_v16 main_v17 (broadcastInDim S1200000x1 ![0] bcast_S1200000_S1200000x1_0),
    .binary main_arg0 main_v17 main_v18 (fun x i => Host.gather gather_S100000x64_S1200000x1_S1200000x64_1_0_n_n_0_1_164 x i) ]

set_option maxRecDepth 8192 in
set_option maxHeartbeats 4000000 in
def seg21 : List (TcOp F) :=
  [ .nullary main_c_1 (constantI S_ 32 0#32),
    .unary main_c_1 main_v19 (broadcastInDim S1200000 ![] bcast_S_S1200000),
    .binary main_arg2 main_v19 main_v20 (cmpi .eq),
    .unary main_v20 main_v21 (uitofp .f32),
    .unary main_v21 main_v22 (broadcastInDim S1200000x1 ![0] bcast_S1200000_S1200000x1_0),
    .unary main_v22 main_v23 (broadcastInDim S1200000x64 ![0, 1] bcast_S1200000x1_S1200000x64_0_1),
    .binary main_v18 main_v23 main_v24 mulf,
    .nullary main_cst (constant S_ .f32 0x00000000#32),
    .unary main_cst main_v25 (broadcastInDim S100000x64 ![] bcast_S_S100000x64),
    .unary main_v3 main_v26 (broadcastInDim S1200000x1 ![0] bcast_S1200000_S1200000x1_0),
    .ternary main_v25 main_v26 main_v24 main_v27 (fun x i u => Host.scatterAdd scatter_S100000x64_S1200000x1_S1200000x64_1_0_0_1 x i u),
    .binary main_arg0 main_v27 main_v28 addf,
    .unary main_arg6 main_v29 (extractStridedSlice S1x1x64x64 ![0, 0, 0, 0] · slices_S3x4x64x64_S1x1x64x64_0_0_0_0),
    .reshape main_v29 main_v30 rfl shapeCasts_S1x1x64x64_S64x64,
    .binary main_v28 main_v30 main_v31 (fun l r => Host.dotGeneral dot_S100000x64_S64x64_S100000x64_1_0_0_1_n_n none l r),
    .unary main_arg7 main_v32 (extractStridedSlice S1x1x64 ![0, 0, 0] · slices_S3x4x64_S1x1x64_0_0_0),
    .reshape main_v32 main_v33 rfl shapeCasts_S1x1x64_S64,
    .unary main_v33 main_v34 (broadcastInDim S1x64 ![1] bcast_S64_S1x64_1),
    .unary main_v34 main_v35 (broadcastInDim S100000x64 ![0, 1] bcast_S1x64_S100000x64_0_1),
    .binary main_v31 main_v35 main_v36 addf,
    .unary main_arg8 main_v37 (extractStridedSlice S1x1x64 ![0, 0, 0] · slices_S3x4x64_S1x1x64_0_0_0),
    .reshape main_v37 main_v38 rfl shapeCasts_S1x1x64_S64,
    .unary main_arg9 main_v39 (extractStridedSlice S1x1x64 ![0, 0, 0] · slices_S3x4x64_S1x1x64_0_0_0),
    .reshape main_v39 main_v40 rfl shapeCasts_S1x1x64_S64,
    .nullary main_cst_2 (constant S_ .f32 0x00000000#32),
    .binary main_v36 main_cst_2 main_v41 (fun x v => Host.reduceAdd x v reducesTo_S100000x64_S64_d0 h_S_),
    .unary main_v41 main_v42 (broadcastInDim S1x64 ![1] bcast_S64_S1x64_1),
    .nullary main_cst_3 (constant S_ .f32 0x47C35000#32),
    .unary main_cst_3 main_v43 (broadcastInDim S1x64 ![] bcast_S_S1x64),
    .binary main_v42 main_v43 main_v44 Host.divf,
    .unary main_v44 main_v45 (broadcastInDim S100000x64 ![0, 1] bcast_S1x64_S100000x64_0_1),
    .binary main_v36 main_v45 main_v46 subf,
    .binary main_v46 main_v46 main_v47 mulf,
    .nullary main_cst_4 (constant S_ .f32 0x00000000#32),
    .binary main_v47 main_cst_4 main_v48 (fun x v => Host.reduceAdd x v reducesTo_S100000x64_S64_d0 h_S_),
    .unary main_v48 main_v49 (broadcastInDim S1x64 ![1] bcast_S64_S1x64_1),
    .nullary main_cst_5 (constant S_ .f32 0x47C35000#32),
    .unary main_cst_5 main_v50 (broadcastInDim S1x64 ![] bcast_S_S1x64),
    .binary main_v49 main_v50 main_v51 Host.divf ]

set_option maxRecDepth 8192 in
set_option maxHeartbeats 4000000 in
def seg60 : List (TcOp F) :=
  [ .unary main_v44 main_v52 (broadcastInDim S100000x64 ![0, 1] bcast_S1x64_S100000x64_0_1),
    .binary main_v36 main_v52 main_v53 subf,
    .nullary main_cst_6 (constant S_ .f32 0x3727C5AC#32),
    .unary main_cst_6 main_v54 (broadcastInDim S1x64 ![] bcast_S_S1x64),
    .binary main_v51 main_v54 main_v55 addf,
    .unary main_v55 main_v56 Host.rsqrt,
    .unary main_v56 main_v57 (broadcastInDim S100000x64 ![0, 1] bcast_S1x64_S100000x64_0_1),
    .binary main_v53 main_v57 main_v58 mulf,
    .unary main_v38 main_v59 (broadcastInDim S1x64 ![1] bcast_S64_S1x64_1),
    .unary main_v59 main_v60 (broadcastInDim S100000x64 ![0, 1] bcast_S1x64_S100000x64_0_1),
    .binary main_v58 main_v60 main_v61 mulf,
    .unary main_v40 main_v62 (broadcastInDim S1x64 ![1] bcast_S64_S1x64_1),
    .unary main_v62 main_v63 (broadcastInDim S100000x64 ![0, 1] bcast_S1x64_S100000x64_0_1),
    .binary main_v61 main_v63 main_v64 addf,
    .nullary main_call0_cst (constant S_ .f32 0x00000000#32),
    .unary main_call0_cst main_call0_v0 (broadcastInDim S100000x64 ![] bcast_S_S100000x64),
    .binary main_v64 main_call0_v0 main_v65 maximumf,
    .unary main_arg10 main_v66 (extractStridedSlice S1x1x64x64 ![0, 0, 0, 0] · slices_S3x4x64x64_S1x1x64x64_0_0_0_0),
    .reshape main_v66 main_v67 rfl shapeCasts_S1x1x64x64_S64x64,
    .binary main_v65 main_v67 main_v68 (fun l r => Host.dotGeneral dot_S100000x64_S64x64_S100000x64_1_0_0_1_n_n none l r),
    .binary main_v11 main_v68 main_v69 addf,
    .unary main_arg11 main_v70 (extractStridedSlice S1x1x64 ![0, 0, 0] · slices_S3x4x64_S1x1x64_0_0_0),
    .reshape main_v70 main_v71 rfl shapeCasts_S1x1x64_S64,
    .unary main_v71 main_v72 (broadcastInDim S1x64 ![1] bcast_S64_S1x64_1),
    .unary main_v72 main_v73 (broadcastInDim S100000x64 ![0, 1] bcast_S1x64_S100000x64_0_1),
    .binary main_v69 main_v73 main_v74 addf ]

set_option maxRecDepth 8192 in
set_option maxHeartbeats 4000000 in
def seg86 : List (TcOp F) :=
  [ .nullary main_c_7 (constantI S_ 32 1#32),
    .unary main_c_7 main_v75 (broadcastInDim S1200000 ![] bcast_S_S1200000),
    .binary main_arg2 main_v75 main_v76 (cmpi .eq),
    .unary main_v76 main_v77 (uitofp .f32),
    .unary main_v77 main_v78 (broadcastInDim S1200000x1 ![0] bcast_S1200000_S1200000x1_0),
    .unary main_v78 main_v79 (broadcastInDim S1200000x64 ![0, 1] bcast_S1200000x1_S1200000x64_0_1),
    .binary main_v18 main_v79 main_v80 mulf,
    .nullary main_cst_8 (constant S_ .f32 0x00000000#32),
    .unary main_cst_8 main_v81 (broadcastInDim S100000x64 ![] bcast_S_S100000x64),
    .unary main_v3 main_v82 (broadcastInDim S1200000x1 ![0] bcast_S1200000_S1200000x1_0),
    .ternary main_v81 main_v82 main_v80 main_v83 (fun x i u => Host.scatterAdd scatter_S100000x64_S1200000x1_S1200000x64_1_0_0_1 x i u),
    .binary main_arg0 main_v83 main_v84 addf,
    .unary main_arg6 main_v85 (extractStridedSlice S1x1x64x64 ![0, 1, 0, 0] · slices_S3x4x64x64_S1x1x64x64_0_1_0_0),
    .reshape main_v85 main_v86 rfl shapeCasts_S1x1x64x64_S64x64,
    .binary main_v84 main_v86 main_v87 (fun l r => Host.dotGeneral dot_S100000x64_S64x64_S100000x64_1_0_0_1_n_n none l r),
    .unary main_arg7 main_v88 (extractStridedSlice S1x1x64 ![0, 1, 0] · slices_S3x4x64_S1x1x64_0_1_0),
    .reshape main_v88 main_v89 rfl shapeCasts_S1x1x64_S64,
    .unary main_v89 main_v90 (broadcastInDim S1x64 ![1] bcast_S64_S1x64_1),
    .unary main_v90 main_v91 (broadcastInDim S100000x64 ![0, 1] bcast_S1x64_S100000x64_0_1),
    .binary main_v87 main_v91 main_v92 addf,
    .unary main_arg8 main_v93 (extractStridedSlice S1x1x64 ![0, 1, 0] · slices_S3x4x64_S1x1x64_0_1_0),
    .reshape main_v93 main_v94 rfl shapeCasts_S1x1x64_S64,
    .unary main_arg9 main_v95 (extractStridedSlice S1x1x64 ![0, 1, 0] · slices_S3x4x64_S1x1x64_0_1_0),
    .reshape main_v95 main_v96 rfl shapeCasts_S1x1x64_S64,
    .nullary main_cst_9 (constant S_ .f32 0x00000000#32),
    .binary main_v92 main_cst_9 main_v97 (fun x v => Host.reduceAdd x v reducesTo_S100000x64_S64_d0 h_S_),
    .unary main_v97 main_v98 (broadcastInDim S1x64 ![1] bcast_S64_S1x64_1),
    .nullary main_cst_10 (constant S_ .f32 0x47C35000#32),
    .unary main_cst_10 main_v99 (broadcastInDim S1x64 ![] bcast_S_S1x64),
    .binary main_v98 main_v99 main_v100 Host.divf,
    .unary main_v100 main_v101 (broadcastInDim S100000x64 ![0, 1] bcast_S1x64_S100000x64_0_1),
    .binary main_v92 main_v101 main_v102 subf,
    .binary main_v102 main_v102 main_v103 mulf,
    .nullary main_cst_11 (constant S_ .f32 0x00000000#32),
    .binary main_v103 main_cst_11 main_v104 (fun x v => Host.reduceAdd x v reducesTo_S100000x64_S64_d0 h_S_),
    .unary main_v104 main_v105 (broadcastInDim S1x64 ![1] bcast_S64_S1x64_1) ]

set_option maxRecDepth 8192 in
set_option maxHeartbeats 4000000 in
def seg122 : List (TcOp F) :=
  [ .nullary main_cst_12 (constant S_ .f32 0x47C35000#32),
    .unary main_cst_12 main_v106 (broadcastInDim S1x64 ![] bcast_S_S1x64),
    .binary main_v105 main_v106 main_v107 Host.divf,
    .unary main_v100 main_v108 (broadcastInDim S100000x64 ![0, 1] bcast_S1x64_S100000x64_0_1),
    .binary main_v92 main_v108 main_v109 subf,
    .nullary main_cst_13 (constant S_ .f32 0x3727C5AC#32),
    .unary main_cst_13 main_v110 (broadcastInDim S1x64 ![] bcast_S_S1x64),
    .binary main_v107 main_v110 main_v111 addf,
    .unary main_v111 main_v112 Host.rsqrt,
    .unary main_v112 main_v113 (broadcastInDim S100000x64 ![0, 1] bcast_S1x64_S100000x64_0_1),
    .binary main_v109 main_v113 main_v114 mulf,
    .unary main_v94 main_v115 (broadcastInDim S1x64 ![1] bcast_S64_S1x64_1),
    .unary main_v115 main_v116 (broadcastInDim S100000x64 ![0, 1] bcast_S1x64_S100000x64_0_1),
    .binary main_v114 main_v116 main_v117 mulf,
    .unary main_v96 main_v118 (broadcastInDim S1x64 ![1] bcast_S64_S1x64_1),
    .unary main_v118 main_v119 (broadcastInDim S100000x64 ![0, 1] bcast_S1x64_S100000x64_0_1),
    .binary main_v117 main_v119 main_v120 addf,
    .nullary main_call1_cst (constant S_ .f32 0x00000000#32),
    .unary main_call1_cst main_call1_v0 (broadcastInDim S100000x64 ![] bcast_S_S100000x64),
    .binary main_v120 main_call1_v0 main_v121 maximumf,
    .unary main_arg10 main_v122 (extractStridedSlice S1x1x64x64 ![0, 1, 0, 0] · slices_S3x4x64x64_S1x1x64x64_0_1_0_0),
    .reshape main_v122 main_v123 rfl shapeCasts_S1x1x64x64_S64x64,
    .binary main_v121 main_v123 main_v124 (fun l r => Host.dotGeneral dot_S100000x64_S64x64_S100000x64_1_0_0_1_n_n none l r),
    .binary main_v74 main_v124 main_v125 addf,
    .unary main_arg11 main_v126 (extractStridedSlice S1x1x64 ![0, 1, 0] · slices_S3x4x64_S1x1x64_0_1_0),
    .reshape main_v126 main_v127 rfl shapeCasts_S1x1x64_S64,
    .unary main_v127 main_v128 (broadcastInDim S1x64 ![1] bcast_S64_S1x64_1),
    .unary main_v128 main_v129 (broadcastInDim S100000x64 ![0, 1] bcast_S1x64_S100000x64_0_1),
    .binary main_v125 main_v129 main_v130 addf ]

set_option maxRecDepth 8192 in
set_option maxHeartbeats 4000000 in
def seg151 : List (TcOp F) :=
  [ .nullary main_c_14 (constantI S_ 32 2#32),
    .unary main_c_14 main_v131 (broadcastInDim S1200000 ![] bcast_S_S1200000),
    .binary main_arg2 main_v131 main_v132 (cmpi .eq),
    .unary main_v132 main_v133 (uitofp .f32),
    .unary main_v133 main_v134 (broadcastInDim S1200000x1 ![0] bcast_S1200000_S1200000x1_0),
    .unary main_v134 main_v135 (broadcastInDim S1200000x64 ![0, 1] bcast_S1200000x1_S1200000x64_0_1),
    .binary main_v18 main_v135 main_v136 mulf,
    .nullary main_cst_15 (constant S_ .f32 0x00000000#32),
    .unary main_cst_15 main_v137 (broadcastInDim S100000x64 ![] bcast_S_S100000x64),
    .unary main_v3 main_v138 (broadcastInDim S1200000x1 ![0] bcast_S1200000_S1200000x1_0),
    .ternary main_v137 main_v138 main_v136 main_v139 (fun x i u => Host.scatterAdd scatter_S100000x64_S1200000x1_S1200000x64_1_0_0_1 x i u),
    .binary main_arg0 main_v139 main_v140 addf,
    .unary main_arg6 main_v141 (extractStridedSlice S1x1x64x64 ![0, 2, 0, 0] · slices_S3x4x64x64_S1x1x64x64_0_2_0_0),
    .reshape main_v141 main_v142 rfl shapeCasts_S1x1x64x64_S64x64,
    .binary main_v140 main_v142 main_v143 (fun l r => Host.dotGeneral dot_S100000x64_S64x64_S100000x64_1_0_0_1_n_n none l r),
    .unary main_arg7 main_v144 (extractStridedSlice S1x1x64 ![0, 2, 0] · slices_S3x4x64_S1x1x64_0_2_0),
    .reshape main_v144 main_v145 rfl shapeCasts_S1x1x64_S64,
    .unary main_v145 main_v146 (broadcastInDim S1x64 ![1] bcast_S64_S1x64_1),
    .unary main_v146 main_v147 (broadcastInDim S100000x64 ![0, 1] bcast_S1x64_S100000x64_0_1),
    .binary main_v143 main_v147 main_v148 addf,
    .unary main_arg8 main_v149 (extractStridedSlice S1x1x64 ![0, 2, 0] · slices_S3x4x64_S1x1x64_0_2_0),
    .reshape main_v149 main_v150 rfl shapeCasts_S1x1x64_S64,
    .unary main_arg9 main_v151 (extractStridedSlice S1x1x64 ![0, 2, 0] · slices_S3x4x64_S1x1x64_0_2_0),
    .reshape main_v151 main_v152 rfl shapeCasts_S1x1x64_S64,
    .nullary main_cst_16 (constant S_ .f32 0x00000000#32),
    .binary main_v148 main_cst_16 main_v153 (fun x v => Host.reduceAdd x v reducesTo_S100000x64_S64_d0 h_S_),
    .unary main_v153 main_v154 (broadcastInDim S1x64 ![1] bcast_S64_S1x64_1),
    .nullary main_cst_17 (constant S_ .f32 0x47C35000#32),
    .unary main_cst_17 main_v155 (broadcastInDim S1x64 ![] bcast_S_S1x64),
    .binary main_v154 main_v155 main_v156 Host.divf,
    .unary main_v156 main_v157 (broadcastInDim S100000x64 ![0, 1] bcast_S1x64_S100000x64_0_1),
    .binary main_v148 main_v157 main_v158 subf,
    .binary main_v158 main_v158 main_v159 mulf ]

set_option maxRecDepth 8192 in
set_option maxHeartbeats 4000000 in
def seg184 : List (TcOp F) :=
  [ .nullary main_cst_18 (constant S_ .f32 0x00000000#32),
    .binary main_v159 main_cst_18 main_v160 (fun x v => Host.reduceAdd x v reducesTo_S100000x64_S64_d0 h_S_),
    .unary main_v160 main_v161 (broadcastInDim S1x64 ![1] bcast_S64_S1x64_1),
    .nullary main_cst_19 (constant S_ .f32 0x47C35000#32),
    .unary main_cst_19 main_v162 (broadcastInDim S1x64 ![] bcast_S_S1x64),
    .binary main_v161 main_v162 main_v163 Host.divf,
    .unary main_v156 main_v164 (broadcastInDim S100000x64 ![0, 1] bcast_S1x64_S100000x64_0_1),
    .binary main_v148 main_v164 main_v165 subf,
    .nullary main_cst_20 (constant S_ .f32 0x3727C5AC#32),
    .unary main_cst_20 main_v166 (broadcastInDim S1x64 ![] bcast_S_S1x64),
    .binary main_v163 main_v166 main_v167 addf,
    .unary main_v167 main_v168 Host.rsqrt,
    .unary main_v168 main_v169 (broadcastInDim S100000x64 ![0, 1] bcast_S1x64_S100000x64_0_1),
    .binary main_v165 main_v169 main_v170 mulf,
    .unary main_v150 main_v171 (broadcastInDim S1x64 ![1] bcast_S64_S1x64_1),
    .unary main_v171 main_v172 (broadcastInDim S100000x64 ![0, 1] bcast_S1x64_S100000x64_0_1),
    .binary main_v170 main_v172 main_v173 mulf,
    .unary main_v152 main_v174 (broadcastInDim S1x64 ![1] bcast_S64_S1x64_1),
    .unary main_v174 main_v175 (broadcastInDim S100000x64 ![0, 1] bcast_S1x64_S100000x64_0_1),
    .binary main_v173 main_v175 main_v176 addf,
    .nullary main_call2_cst (constant S_ .f32 0x00000000#32),
    .unary main_call2_cst main_call2_v0 (broadcastInDim S100000x64 ![] bcast_S_S100000x64),
    .binary main_v176 main_call2_v0 main_v177 maximumf,
    .unary main_arg10 main_v178 (extractStridedSlice S1x1x64x64 ![0, 2, 0, 0] · slices_S3x4x64x64_S1x1x64x64_0_2_0_0),
    .reshape main_v178 main_v179 rfl shapeCasts_S1x1x64x64_S64x64,
    .binary main_v177 main_v179 main_v180 (fun l r => Host.dotGeneral dot_S100000x64_S64x64_S100000x64_1_0_0_1_n_n none l r),
    .binary main_v130 main_v180 main_v181 addf,
    .unary main_arg11 main_v182 (extractStridedSlice S1x1x64 ![0, 2, 0] · slices_S3x4x64_S1x1x64_0_2_0),
    .reshape main_v182 main_v183 rfl shapeCasts_S1x1x64_S64,
    .unary main_v183 main_v184 (broadcastInDim S1x64 ![1] bcast_S64_S1x64_1),
    .unary main_v184 main_v185 (broadcastInDim S100000x64 ![0, 1] bcast_S1x64_S100000x64_0_1),
    .binary main_v181 main_v185 main_v186 addf ]

set_option maxRecDepth 8192 in
set_option maxHeartbeats 4000000 in
def seg216 : List (TcOp F) :=
  [ .nullary main_c_21 (constantI S_ 32 3#32),
    .unary main_c_21 main_v187 (broadcastInDim S1200000 ![] bcast_S_S1200000),
    .binary main_arg2 main_v187 main_v188 (cmpi .eq),
    .unary main_v188 main_v189 (uitofp .f32),
    .unary main_v189 main_v190 (broadcastInDim S1200000x1 ![0] bcast_S1200000_S1200000x1_0),
    .unary main_v190 main_v191 (broadcastInDim S1200000x64 ![0, 1] bcast_S1200000x1_S1200000x64_0_1),
    .binary main_v18 main_v191 main_v192 mulf,
    .nullary main_cst_22 (constant S_ .f32 0x00000000#32),
    .unary main_cst_22 main_v193 (broadcastInDim S100000x64 ![] bcast_S_S100000x64),
    .unary main_v3 main_v194 (broadcastInDim S1200000x1 ![0] bcast_S1200000_S1200000x1_0),
    .ternary main_v193 main_v194 main_v192 main_v195 (fun x i u => Host.scatterAdd scatter_S100000x64_S1200000x1_S1200000x64_1_0_0_1 x i u),
    .binary main_arg0 main_v195 main_v196 addf,
    .unary main_arg6 main_v197 (extractStridedSlice S1x1x64x64 ![0, 3, 0, 0] · slices_S3x4x64x64_S1x1x64x64_0_3_0_0),
    .reshape main_v197 main_v198 rfl shapeCasts_S1x1x64x64_S64x64,
    .binary main_v196 main_v198 main_v199 (fun l r => Host.dotGeneral dot_S100000x64_S64x64_S100000x64_1_0_0_1_n_n none l r),
    .unary main_arg7 main_v200 (extractStridedSlice S1x1x64 ![0, 3, 0] · slices_S3x4x64_S1x1x64_0_3_0),
    .reshape main_v200 main_v201 rfl shapeCasts_S1x1x64_S64,
    .unary main_v201 main_v202 (broadcastInDim S1x64 ![1] bcast_S64_S1x64_1),
    .unary main_v202 main_v203 (broadcastInDim S100000x64 ![0, 1] bcast_S1x64_S100000x64_0_1),
    .binary main_v199 main_v203 main_v204 addf,
    .unary main_arg8 main_v205 (extractStridedSlice S1x1x64 ![0, 3, 0] · slices_S3x4x64_S1x1x64_0_3_0),
    .reshape main_v205 main_v206 rfl shapeCasts_S1x1x64_S64,
    .unary main_arg9 main_v207 (extractStridedSlice S1x1x64 ![0, 3, 0] · slices_S3x4x64_S1x1x64_0_3_0),
    .reshape main_v207 main_v208 rfl shapeCasts_S1x1x64_S64,
    .nullary main_cst_23 (constant S_ .f32 0x00000000#32),
    .binary main_v204 main_cst_23 main_v209 (fun x v => Host.reduceAdd x v reducesTo_S100000x64_S64_d0 h_S_),
    .unary main_v209 main_v210 (broadcastInDim S1x64 ![1] bcast_S64_S1x64_1),
    .nullary main_cst_24 (constant S_ .f32 0x47C35000#32),
    .unary main_cst_24 main_v211 (broadcastInDim S1x64 ![] bcast_S_S1x64),
    .binary main_v210 main_v211 main_v212 Host.divf ]

set_option maxRecDepth 8192 in
set_option maxHeartbeats 4000000 in
def seg246 : List (TcOp F) :=
  [ .unary main_v212 main_v213 (broadcastInDim S100000x64 ![0, 1] bcast_S1x64_S100000x64_0_1),
    .binary main_v204 main_v213 main_v214 subf,
    .binary main_v214 main_v214 main_v215 mulf,
    .nullary main_cst_25 (constant S_ .f32 0x00000000#32),
    .binary main_v215 main_cst_25 main_v216 (fun x v => Host.reduceAdd x v reducesTo_S100000x64_S64_d0 h_S_),
    .unary main_v216 main_v217 (broadcastInDim S1x64 ![1] bcast_S64_S1x64_1),
    .nullary main_cst_26 (constant S_ .f32 0x47C35000#32),
    .unary main_cst_26 main_v218 (broadcastInDim S1x64 ![] bcast_S_S1x64),
    .binary main_v217 main_v218 main_v219 Host.divf,
    .unary main_v212 main_v220 (broadcastInDim S100000x64 ![0, 1] bcast_S1x64_S100000x64_0_1),
    .binary main_v204 main_v220 main_v221 subf,
    .nullary main_cst_27 (constant S_ .f32 0x3727C5AC#32),
    .unary main_cst_27 main_v222 (broadcastInDim S1x64 ![] bcast_S_S1x64),
    .binary main_v219 main_v222 main_v223 addf,
    .unary main_v223 main_v224 Host.rsqrt,
    .unary main_v224 main_v225 (broadcastInDim S100000x64 ![0, 1] bcast_S1x64_S100000x64_0_1),
    .binary main_v221 main_v225 main_v226 mulf,
    .unary main_v206 main_v227 (broadcastInDim S1x64 ![1] bcast_S64_S1x64_1),
    .unary main_v227 main_v228 (broadcastInDim S100000x64 ![0, 1] bcast_S1x64_S100000x64_0_1),
    .binary main_v226 main_v228 main_v229 mulf,
    .unary main_v208 main_v230 (broadcastInDim S1x64 ![1] bcast_S64_S1x64_1),
    .unary main_v230 main_v231 (broadcastInDim S100000x64 ![0, 1] bcast_S1x64_S100000x64_0_1),
    .binary main_v229 main_v231 main_v232 addf,
    .nullary main_call3_cst (constant S_ .f32 0x00000000#32),
    .unary main_call3_cst main_call3_v0 (broadcastInDim S100000x64 ![] bcast_S_S100000x64),
    .binary main_v232 main_call3_v0 main_v233 maximumf,
    .unary main_arg10 main_v234 (extractStridedSlice S1x1x64x64 ![0, 3, 0, 0] · slices_S3x4x64x64_S1x1x64x64_0_3_0_0),
    .reshape main_v234 main_v235 rfl shapeCasts_S1x1x64x64_S64x64,
    .binary main_v233 main_v235 main_v236 (fun l r => Host.dotGeneral dot_S100000x64_S64x64_S100000x64_1_0_0_1_n_n none l r),
    .binary main_v186 main_v236 main_v237 addf,
    .unary main_arg11 main_v238 (extractStridedSlice S1x1x64 ![0, 3, 0] · slices_S3x4x64_S1x1x64_0_3_0),
    .reshape main_v238 main_v239 rfl shapeCasts_S1x1x64_S64,
    .unary main_v239 main_v240 (broadcastInDim S1x64 ![1] bcast_S64_S1x64_1),
    .unary main_v240 main_v241 (broadcastInDim S100000x64 ![0, 1] bcast_S1x64_S100000x64_0_1),
    .binary main_v237 main_v241 main_v242 addf ]

set_option maxRecDepth 8192 in
set_option maxHeartbeats 4000000 in
def seg281 : List (TcOp F) :=
  [ .nullary main_call4_cst (constant S_ .f32 0x00000000#32),
    .unary main_call4_cst main_call4_v0 (broadcastInDim S100000x64 ![] bcast_S_S100000x64),
    .binary main_v242 main_call4_v0 main_v243 maximumf ]

end Cert.ReferenceIdeal.RefRun

end
-- ==== Proof.RefRun.OpsB.lean ====
import proofs.«416992_j9088150798514_2_alg».proof.Proof.RefRun.Common

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
def seg284 : List (TcOp F) :=
  [ .unary main_arg4 main_v244 (extractStridedSlice S1x64x64 ![1, 0, 0] · slices_S3x64x64_S1x64x64_1_0_0),
    .reshape main_v244 main_v245 rfl shapeCasts_S1x64x64_S64x64,
    .binary main_v243 main_v245 main_v246 (fun l r => Host.dotGeneral dot_S100000x64_S64x64_S100000x64_1_0_0_1_n_n none l r),
    .unary main_arg5 main_v247 (extractStridedSlice S1x64 ![1, 0] · slices_S3x64_S1x64_1_0),
    .reshape main_v247 main_v248 rfl shapeCasts_S1x64_S64,
    .unary main_v248 main_v249 (broadcastInDim S1x64 ![1] bcast_S64_S1x64_1),
    .unary main_v249 main_v250 (broadcastInDim S100000x64 ![0, 1] bcast_S1x64_S100000x64_0_1),
    .binary main_v246 main_v250 main_v251 addf,
    .nullary main_c_28 (constantI S_ 32 0#32),
    .unary main_c_28 main_v252 (broadcastInDim S1200000 ![] bcast_S_S1200000),
    .binary main_v1 main_v252 main_v253 (cmpi .slt),
    .nullary main_c_29 (constantI S_ 32 100000#32),
    .unary main_c_29 main_v254 (broadcastInDim S1200000 ![] bcast_S_S1200000),
    .binary main_v1 main_v254 main_v255 addi,
    .ternary main_v253 main_v255 main_v1 main_v256 select,
    .unary main_v256 main_v257 (broadcastInDim S1200000x1 ![0] bcast_S1200000_S1200000x1_0),
    .binary main_v243 main_v257 main_v258 (fun x i => Host.gather gather_S100000x64_S1200000x1_S1200000x64_1_0_n_n_0_1_164 x i) ]

set_option maxRecDepth 8192 in
set_option maxHeartbeats 4000000 in
def seg301 : List (TcOp F) :=
  [ .nullary main_c_30 (constantI S_ 32 0#32),
    .unary main_c_30 main_v259 (broadcastInDim S1200000 ![] bcast_S_S1200000),
    .binary main_arg2 main_v259 main_v260 (cmpi .eq),
    .unary main_v260 main_v261 (uitofp .f32),
    .unary main_v261 main_v262 (broadcastInDim S1200000x1 ![0] bcast_S1200000_S1200000x1_0),
    .unary main_v262 main_v263 (broadcastInDim S1200000x64 ![0, 1] bcast_S1200000x1_S1200000x64_0_1),
    .binary main_v258 main_v263 main_v264 mulf,
    .nullary main_cst_31 (constant S_ .f32 0x00000000#32),
    .unary main_cst_31 main_v265 (broadcastInDim S100000x64 ![] bcast_S_S100000x64) ]

set_option maxRecDepth 8192 in
set_option maxHeartbeats 4000000 in
def seg310 : List (TcOp F) :=
  [ .unary main_v3 main_v266 (broadcastInDim S1200000x1 ![0] bcast_S1200000_S1200000x1_0),
    .ternary main_v265 main_v266 main_v264 main_v267 (fun x i u => Host.scatterAdd scatter_S100000x64_S1200000x1_S1200000x64_1_0_0_1 x i u),
    .binary main_v243 main_v267 main_v268 addf,
    .unary main_arg6 main_v269 (extractStridedSlice S1x1x64x64 ![1, 0, 0, 0] · slices_S3x4x64x64_S1x1x64x64_1_0_0_0),
    .reshape main_v269 main_v270 rfl shapeCasts_S1x1x64x64_S64x64,
    .binary main_v268 main_v270 main_v271 (fun l r => Host.dotGeneral dot_S100000x64_S64x64_S100000x64_1_0_0_1_n_n none l r),
    .unary main_arg7 main_v272 (extractStridedSlice S1x1x64 ![1, 0, 0] · slices_S3x4x64_S1x1x64_1_0_0),
    .reshape main_v272 main_v273 rfl shapeCasts_S1x1x64_S64,
    .unary main_v273 main_v274 (broadcastInDim S1x64 ![1] bcast_S64_S1x64_1),
    .unary main_v274 main_v275 (broadcastInDim S100000x64 ![0, 1] bcast_S1x64_S100000x64_0_1),
    .binary main_v271 main_v275 main_v276 addf,
    .unary main_arg8 main_v277 (extractStridedSlice S1x1x64 ![1, 0, 0] · slices_S3x4x64_S1x1x64_1_0_0),
    .reshape main_v277 main_v278 rfl shapeCasts_S1x1x64_S64,
    .unary main_arg9 main_v279 (extractStridedSlice S1x1x64 ![1, 0, 0] · slices_S3x4x64_S1x1x64_1_0_0),
    .reshape main_v279 main_v280 rfl shapeCasts_S1x1x64_S64,
    .nullary main_cst_32 (constant S_ .f32 0x00000000#32),
    .binary main_v276 main_cst_32 main_v281 (fun x v => Host.reduceAdd x v reducesTo_S100000x64_S64_d0 h_S_),
    .unary main_v281 main_v282 (broadcastInDim S1x64 ![1] bcast_S64_S1x64_1),
    .nullary main_cst_33 (constant S_ .f32 0x47C35000#32),
    .unary main_cst_33 main_v283 (broadcastInDim S1x64 ![] bcast_S_S1x64),
    .binary main_v282 main_v283 main_v284 Host.divf,
    .unary main_v284 main_v285 (broadcastInDim S100000x64 ![0, 1] bcast_S1x64_S100000x64_0_1),
    .binary main_v276 main_v285 main_v286 subf,
    .binary main_v286 main_v286 main_v287 mulf,
    .nullary main_cst_34 (constant S_ .f32 0x00000000#32),
    .binary main_v287 main_cst_34 main_v288 (fun x v => Host.reduceAdd x v reducesTo_S100000x64_S64_d0 h_S_),
    .unary main_v288 main_v289 (broadcastInDim S1x64 ![1] bcast_S64_S1x64_1),
    .nullary main_cst_35 (constant S_ .f32 0x47C35000#32),
    .unary main_cst_35 main_v290 (broadcastInDim S1x64 ![] bcast_S_S1x64),
    .binary main_v289 main_v290 main_v291 Host.divf,
    .unary main_v284 main_v292 (broadcastInDim S100000x64 ![0, 1] bcast_S1x64_S100000x64_0_1),
    .binary main_v276 main_v292 main_v293 subf,
    .nullary main_cst_36 (constant S_ .f32 0x3727C5AC#32),
    .unary main_cst_36 main_v294 (broadcastInDim S1x64 ![] bcast_S_S1x64),
    .binary main_v291 main_v294 main_v295 addf,
    .unary main_v295 main_v296 Host.rsqrt,
    .unary main_v296 main_v297 (broadcastInDim S100000x64 ![0, 1] bcast_S1x64_S100000x64_0_1),
    .binary main_v293 main_v297 main_v298 mulf,
    .unary main_v278 main_v299 (broadcastInDim S1x64 ![1] bcast_S64_S1x64_1),
    .unary main_v299 main_v300 (broadcastInDim S100000x64 ![0, 1] bcast_S1x64_S100000x64_0_1),
    .binary main_v298 main_v300 main_v301 mulf,
    .unary main_v280 main_v302 (broadcastInDim S1x64 ![1] bcast_S64_S1x64_1),
    .unary main_v302 main_v303 (broadcastInDim S100000x64 ![0, 1] bcast_S1x64_S100000x64_0_1),
    .binary main_v301 main_v303 main_v304 addf,
    .nullary main_call5_cst (constant S_ .f32 0x00000000#32),
    .unary main_call5_cst main_call5_v0 (broadcastInDim S100000x64 ![] bcast_S_S100000x64),
    .binary main_v304 main_call5_v0 main_v305 maximumf,
    .unary main_arg10 main_v306 (extractStridedSlice S1x1x64x64 ![1, 0, 0, 0] · slices_S3x4x64x64_S1x1x64x64_1_0_0_0),
    .reshape main_v306 main_v307 rfl shapeCasts_S1x1x64x64_S64x64,
    .binary main_v305 main_v307 main_v308 (fun l r => Host.dotGeneral dot_S100000x64_S64x64_S100000x64_1_0_0_1_n_n none l r),
    .binary main_v251 main_v308 main_v309 addf,
    .unary main_arg11 main_v310 (extractStridedSlice S1x1x64 ![1, 0, 0] · slices_S3x4x64_S1x1x64_1_0_0),
    .reshape main_v310 main_v311 rfl shapeCasts_S1x1x64_S64,
    .unary main_v311 main_v312 (broadcastInDim S1x64 ![1] bcast_S64_S1x64_1),
    .unary main_v312 main_v313 (broadcastInDim S100000x64 ![0, 1] bcast_S1x64_S100000x64_0_1),
    .binary main_v309 main_v313 main_v314 addf ]

set_option maxRecDepth 8192 in
set_option maxHeartbeats 4000000 in
def seg366 : List (TcOp F) :=
  [ .nullary main_c_37 (constantI S_ 32 1#32),
    .unary main_c_37 main_v315 (broadcastInDim S1200000 ![] bcast_S_S1200000),
    .binary main_arg2 main_v315 main_v316 (cmpi .eq),
    .unary main_v316 main_v317 (uitofp .f32),
    .unary main_v317 main_v318 (broadcastInDim S1200000x1 ![0] bcast_S1200000_S1200000x1_0),
    .unary main_v318 main_v319 (broadcastInDim S1200000x64 ![0, 1] bcast_S1200000x1_S1200000x64_0_1) ]

set_option maxRecDepth 8192 in
set_option maxHeartbeats 4000000 in
def seg372 : List (TcOp F) :=
  [ .binary main_v258 main_v319 main_v320 mulf,
    .nullary main_cst_38 (constant S_ .f32 0x00000000#32),
    .unary main_cst_38 main_v321 (broadcastInDim S100000x64 ![] bcast_S_S100000x64),
    .unary main_v3 main_v322 (broadcastInDim S1200000x1 ![0] bcast_S1200000_S1200000x1_0),
    .ternary main_v321 main_v322 main_v320 main_v323 (fun x i u => Host.scatterAdd scatter_S100000x64_S1200000x1_S1200000x64_1_0_0_1 x i u),
    .binary main_v243 main_v323 main_v324 addf,
    .unary main_arg6 main_v325 (extractStridedSlice S1x1x64x64 ![1, 1, 0, 0] · slices_S3x4x64x64_S1x1x64x64_1_1_0_0),
    .reshape main_v325 main_v326 rfl shapeCasts_S1x1x64x64_S64x64,
    .binary main_v324 main_v326 main_v327 (fun l r => Host.dotGeneral dot_S100000x64_S64x64_S100000x64_1_0_0_1_n_n none l r),
    .unary main_arg7 main_v328 (extractStridedSlice S1x1x64 ![1, 1, 0] · slices_S3x4x64_S1x1x64_1_1_0),
    .reshape main_v328 main_v329 rfl shapeCasts_S1x1x64_S64,
    .unary main_v329 main_v330 (broadcastInDim S1x64 ![1] bcast_S64_S1x64_1),
    .unary main_v330 main_v331 (broadcastInDim S100000x64 ![0, 1] bcast_S1x64_S100000x64_0_1),
    .binary main_v327 main_v331 main_v332 addf,
    .unary main_arg8 main_v333 (extractStridedSlice S1x1x64 ![1, 1, 0] · slices_S3x4x64_S1x1x64_1_1_0),
    .reshape main_v333 main_v334 rfl shapeCasts_S1x1x64_S64,
    .unary main_arg9 main_v335 (extractStridedSlice S1x1x64 ![1, 1, 0] · slices_S3x4x64_S1x1x64_1_1_0),
    .reshape main_v335 main_v336 rfl shapeCasts_S1x1x64_S64,
    .nullary main_cst_39 (constant S_ .f32 0x00000000#32),
    .binary main_v332 main_cst_39 main_v337 (fun x v => Host.reduceAdd x v reducesTo_S100000x64_S64_d0 h_S_),
    .unary main_v337 main_v338 (broadcastInDim S1x64 ![1] bcast_S64_S1x64_1),
    .nullary main_cst_40 (constant S_ .f32 0x47C35000#32),
    .unary main_cst_40 main_v339 (broadcastInDim S1x64 ![] bcast_S_S1x64),
    .binary main_v338 main_v339 main_v340 Host.divf,
    .unary main_v340 main_v341 (broadcastInDim S100000x64 ![0, 1] bcast_S1x64_S100000x64_0_1),
    .binary main_v332 main_v341 main_v342 subf,
    .binary main_v342 main_v342 main_v343 mulf,
    .nullary main_cst_41 (constant S_ .f32 0x00000000#32),
    .binary main_v343 main_cst_41 main_v344 (fun x v => Host.reduceAdd x v reducesTo_S100000x64_S64_d0 h_S_),
    .unary main_v344 main_v345 (broadcastInDim S1x64 ![1] bcast_S64_S1x64_1),
    .nullary main_cst_42 (constant S_ .f32 0x47C35000#32),
    .unary main_cst_42 main_v346 (broadcastInDim S1x64 ![] bcast_S_S1x64),
    .binary main_v345 main_v346 main_v347 Host.divf,
    .unary main_v340 main_v348 (broadcastInDim S100000x64 ![0, 1] bcast_S1x64_S100000x64_0_1),
    .binary main_v332 main_v348 main_v349 subf,
    .nullary main_cst_43 (constant S_ .f32 0x3727C5AC#32),
    .unary main_cst_43 main_v350 (broadcastInDim S1x64 ![] bcast_S_S1x64),
    .binary main_v347 main_v350 main_v351 addf,
    .unary main_v351 main_v352 Host.rsqrt,
    .unary main_v352 main_v353 (broadcastInDim S100000x64 ![0, 1] bcast_S1x64_S100000x64_0_1),
    .binary main_v349 main_v353 main_v354 mulf,
    .unary main_v334 main_v355 (broadcastInDim S1x64 ![1] bcast_S64_S1x64_1),
    .unary main_v355 main_v356 (broadcastInDim S100000x64 ![0, 1] bcast_S1x64_S100000x64_0_1),
    .binary main_v354 main_v356 main_v357 mulf,
    .unary main_v336 main_v358 (broadcastInDim S1x64 ![1] bcast_S64_S1x64_1),
    .unary main_v358 main_v359 (broadcastInDim S100000x64 ![0, 1] bcast_S1x64_S100000x64_0_1),
    .binary main_v357 main_v359 main_v360 addf,
    .nullary main_call6_cst (constant S_ .f32 0x00000000#32),
    .unary main_call6_cst main_call6_v0 (broadcastInDim S100000x64 ![] bcast_S_S100000x64),
    .binary main_v360 main_call6_v0 main_v361 maximumf,
    .unary main_arg10 main_v362 (extractStridedSlice S1x1x64x64 ![1, 1, 0, 0] · slices_S3x4x64x64_S1x1x64x64_1_1_0_0),
    .reshape main_v362 main_v363 rfl shapeCasts_S1x1x64x64_S64x64,
    .binary main_v361 main_v363 main_v364 (fun l r => Host.dotGeneral dot_S100000x64_S64x64_S100000x64_1_0_0_1_n_n none l r),
    .binary main_v314 main_v364 main_v365 addf,
    .unary main_arg11 main_v366 (extractStridedSlice S1x1x64 ![1, 1, 0] · slices_S3x4x64_S1x1x64_1_1_0),
    .reshape main_v366 main_v367 rfl shapeCasts_S1x1x64_S64,
    .unary main_v367 main_v368 (broadcastInDim S1x64 ![1] bcast_S64_S1x64_1),
    .unary main_v368 main_v369 (broadcastInDim S100000x64 ![0, 1] bcast_S1x64_S100000x64_0_1),
    .binary main_v365 main_v369 main_v370 addf ]

set_option maxRecDepth 8192 in
set_option maxHeartbeats 4000000 in
def seg431 : List (TcOp F) :=
  [ .nullary main_c_44 (constantI S_ 32 2#32),
    .unary main_c_44 main_v371 (broadcastInDim S1200000 ![] bcast_S_S1200000),
    .binary main_arg2 main_v371 main_v372 (cmpi .eq) ]

set_option maxRecDepth 8192 in
set_option maxHeartbeats 4000000 in
def seg434 : List (TcOp F) :=
  [ .unary main_v372 main_v373 (uitofp .f32),
    .unary main_v373 main_v374 (broadcastInDim S1200000x1 ![0] bcast_S1200000_S1200000x1_0),
    .unary main_v374 main_v375 (broadcastInDim S1200000x64 ![0, 1] bcast_S1200000x1_S1200000x64_0_1),
    .binary main_v258 main_v375 main_v376 mulf,
    .nullary main_cst_45 (constant S_ .f32 0x00000000#32),
    .unary main_cst_45 main_v377 (broadcastInDim S100000x64 ![] bcast_S_S100000x64),
    .unary main_v3 main_v378 (broadcastInDim S1200000x1 ![0] bcast_S1200000_S1200000x1_0),
    .ternary main_v377 main_v378 main_v376 main_v379 (fun x i u => Host.scatterAdd scatter_S100000x64_S1200000x1_S1200000x64_1_0_0_1 x i u),
    .binary main_v243 main_v379 main_v380 addf,
    .unary main_arg6 main_v381 (extractStridedSlice S1x1x64x64 ![1, 2, 0, 0] · slices_S3x4x64x64_S1x1x64x64_1_2_0_0),
    .reshape main_v381 main_v382 rfl shapeCasts_S1x1x64x64_S64x64,
    .binary main_v380 main_v382 main_v383 (fun l r => Host.dotGeneral dot_S100000x64_S64x64_S100000x64_1_0_0_1_n_n none l r),
    .unary main_arg7 main_v384 (extractStridedSlice S1x1x64 ![1, 2, 0] · slices_S3x4x64_S1x1x64_1_2_0),
    .reshape main_v384 main_v385 rfl shapeCasts_S1x1x64_S64,
    .unary main_v385 main_v386 (broadcastInDim S1x64 ![1] bcast_S64_S1x64_1),
    .unary main_v386 main_v387 (broadcastInDim S100000x64 ![0, 1] bcast_S1x64_S100000x64_0_1),
    .binary main_v383 main_v387 main_v388 addf,
    .unary main_arg8 main_v389 (extractStridedSlice S1x1x64 ![1, 2, 0] · slices_S3x4x64_S1x1x64_1_2_0),
    .reshape main_v389 main_v390 rfl shapeCasts_S1x1x64_S64,
    .unary main_arg9 main_v391 (extractStridedSlice S1x1x64 ![1, 2, 0] · slices_S3x4x64_S1x1x64_1_2_0),
    .reshape main_v391 main_v392 rfl shapeCasts_S1x1x64_S64,
    .nullary main_cst_46 (constant S_ .f32 0x00000000#32),
    .binary main_v388 main_cst_46 main_v393 (fun x v => Host.reduceAdd x v reducesTo_S100000x64_S64_d0 h_S_),
    .unary main_v393 main_v394 (broadcastInDim S1x64 ![1] bcast_S64_S1x64_1),
    .nullary main_cst_47 (constant S_ .f32 0x47C35000#32),
    .unary main_cst_47 main_v395 (broadcastInDim S1x64 ![] bcast_S_S1x64),
    .binary main_v394 main_v395 main_v396 Host.divf,
    .unary main_v396 main_v397 (broadcastInDim S100000x64 ![0, 1] bcast_S1x64_S100000x64_0_1),
    .binary main_v388 main_v397 main_v398 subf,
    .binary main_v398 main_v398 main_v399 mulf,
    .nullary main_cst_48 (constant S_ .f32 0x00000000#32),
    .binary main_v399 main_cst_48 main_v400 (fun x v => Host.reduceAdd x v reducesTo_S100000x64_S64_d0 h_S_),
    .unary main_v400 main_v401 (broadcastInDim S1x64 ![1] bcast_S64_S1x64_1),
    .nullary main_cst_49 (constant S_ .f32 0x47C35000#32),
    .unary main_cst_49 main_v402 (broadcastInDim S1x64 ![] bcast_S_S1x64),
    .binary main_v401 main_v402 main_v403 Host.divf,
    .unary main_v396 main_v404 (broadcastInDim S100000x64 ![0, 1] bcast_S1x64_S100000x64_0_1),
    .binary main_v388 main_v404 main_v405 subf,
    .nullary main_cst_50 (constant S_ .f32 0x3727C5AC#32),
    .unary main_cst_50 main_v406 (broadcastInDim S1x64 ![] bcast_S_S1x64),
    .binary main_v403 main_v406 main_v407 addf,
    .unary main_v407 main_v408 Host.rsqrt,
    .unary main_v408 main_v409 (broadcastInDim S100000x64 ![0, 1] bcast_S1x64_S100000x64_0_1),
    .binary main_v405 main_v409 main_v410 mulf,
    .unary main_v390 main_v411 (broadcastInDim S1x64 ![1] bcast_S64_S1x64_1),
    .unary main_v411 main_v412 (broadcastInDim S100000x64 ![0, 1] bcast_S1x64_S100000x64_0_1),
    .binary main_v410 main_v412 main_v413 mulf,
    .unary main_v392 main_v414 (broadcastInDim S1x64 ![1] bcast_S64_S1x64_1),
    .unary main_v414 main_v415 (broadcastInDim S100000x64 ![0, 1] bcast_S1x64_S100000x64_0_1),
    .binary main_v413 main_v415 main_v416 addf,
    .nullary main_call7_cst (constant S_ .f32 0x00000000#32),
    .unary main_call7_cst main_call7_v0 (broadcastInDim S100000x64 ![] bcast_S_S100000x64),
    .binary main_v416 main_call7_v0 main_v417 maximumf,
    .unary main_arg10 main_v418 (extractStridedSlice S1x1x64x64 ![1, 2, 0, 0] · slices_S3x4x64x64_S1x1x64x64_1_2_0_0),
    .reshape main_v418 main_v419 rfl shapeCasts_S1x1x64x64_S64x64,
    .binary main_v417 main_v419 main_v420 (fun l r => Host.dotGeneral dot_S100000x64_S64x64_S100000x64_1_0_0_1_n_n none l r),
    .binary main_v370 main_v420 main_v421 addf,
    .unary main_arg11 main_v422 (extractStridedSlice S1x1x64 ![1, 2, 0] · slices_S3x4x64_S1x1x64_1_2_0),
    .reshape main_v422 main_v423 rfl shapeCasts_S1x1x64_S64,
    .unary main_v423 main_v424 (broadcastInDim S1x64 ![1] bcast_S64_S1x64_1),
    .unary main_v424 main_v425 (broadcastInDim S100000x64 ![0, 1] bcast_S1x64_S100000x64_0_1),
    .binary main_v421 main_v425 main_v426 addf ]

set_option maxRecDepth 8192 in
set_option maxHeartbeats 4000000 in
def seg496 : List (TcOp F) :=
  [ .nullary main_c_51 (constantI S_ 32 3#32),
    .unary main_c_51 main_v427 (broadcastInDim S1200000 ![] bcast_S_S1200000),
    .binary main_arg2 main_v427 main_v428 (cmpi .eq),
    .unary main_v428 main_v429 (uitofp .f32),
    .unary main_v429 main_v430 (broadcastInDim S1200000x1 ![0] bcast_S1200000_S1200000x1_0),
    .unary main_v430 main_v431 (broadcastInDim S1200000x64 ![0, 1] bcast_S1200000x1_S1200000x64_0_1),
    .binary main_v258 main_v431 main_v432 mulf,
    .nullary main_cst_52 (constant S_ .f32 0x00000000#32),
    .unary main_cst_52 main_v433 (broadcastInDim S100000x64 ![] bcast_S_S100000x64),
    .unary main_v3 main_v434 (broadcastInDim S1200000x1 ![0] bcast_S1200000_S1200000x1_0),
    .ternary main_v433 main_v434 main_v432 main_v435 (fun x i u => Host.scatterAdd scatter_S100000x64_S1200000x1_S1200000x64_1_0_0_1 x i u),
    .binary main_v243 main_v435 main_v436 addf,
    .unary main_arg6 main_v437 (extractStridedSlice S1x1x64x64 ![1, 3, 0, 0] · slices_S3x4x64x64_S1x1x64x64_1_3_0_0),
    .reshape main_v437 main_v438 rfl shapeCasts_S1x1x64x64_S64x64,
    .binary main_v436 main_v438 main_v439 (fun l r => Host.dotGeneral dot_S100000x64_S64x64_S100000x64_1_0_0_1_n_n none l r),
    .unary main_arg7 main_v440 (extractStridedSlice S1x1x64 ![1, 3, 0] · slices_S3x4x64_S1x1x64_1_3_0),
    .reshape main_v440 main_v441 rfl shapeCasts_S1x1x64_S64,
    .unary main_v441 main_v442 (broadcastInDim S1x64 ![1] bcast_S64_S1x64_1),
    .unary main_v442 main_v443 (broadcastInDim S100000x64 ![0, 1] bcast_S1x64_S100000x64_0_1),
    .binary main_v439 main_v443 main_v444 addf,
    .unary main_arg8 main_v445 (extractStridedSlice S1x1x64 ![1, 3, 0] · slices_S3x4x64_S1x1x64_1_3_0),
    .reshape main_v445 main_v446 rfl shapeCasts_S1x1x64_S64,
    .unary main_arg9 main_v447 (extractStridedSlice S1x1x64 ![1, 3, 0] · slices_S3x4x64_S1x1x64_1_3_0),
    .reshape main_v447 main_v448 rfl shapeCasts_S1x1x64_S64,
    .nullary main_cst_53 (constant S_ .f32 0x00000000#32),
    .binary main_v444 main_cst_53 main_v449 (fun x v => Host.reduceAdd x v reducesTo_S100000x64_S64_d0 h_S_),
    .unary main_v449 main_v450 (broadcastInDim S1x64 ![1] bcast_S64_S1x64_1),
    .nullary main_cst_54 (constant S_ .f32 0x47C35000#32),
    .unary main_cst_54 main_v451 (broadcastInDim S1x64 ![] bcast_S_S1x64),
    .binary main_v450 main_v451 main_v452 Host.divf,
    .unary main_v452 main_v453 (broadcastInDim S100000x64 ![0, 1] bcast_S1x64_S100000x64_0_1),
    .binary main_v444 main_v453 main_v454 subf,
    .binary main_v454 main_v454 main_v455 mulf,
    .nullary main_cst_55 (constant S_ .f32 0x00000000#32),
    .binary main_v455 main_cst_55 main_v456 (fun x v => Host.reduceAdd x v reducesTo_S100000x64_S64_d0 h_S_),
    .unary main_v456 main_v457 (broadcastInDim S1x64 ![1] bcast_S64_S1x64_1),
    .nullary main_cst_56 (constant S_ .f32 0x47C35000#32),
    .unary main_cst_56 main_v458 (broadcastInDim S1x64 ![] bcast_S_S1x64),
    .binary main_v457 main_v458 main_v459 Host.divf,
    .unary main_v452 main_v460 (broadcastInDim S100000x64 ![0, 1] bcast_S1x64_S100000x64_0_1),
    .binary main_v444 main_v460 main_v461 subf,
    .nullary main_cst_57 (constant S_ .f32 0x3727C5AC#32),
    .unary main_cst_57 main_v462 (broadcastInDim S1x64 ![] bcast_S_S1x64),
    .binary main_v459 main_v462 main_v463 addf,
    .unary main_v463 main_v464 Host.rsqrt,
    .unary main_v464 main_v465 (broadcastInDim S100000x64 ![0, 1] bcast_S1x64_S100000x64_0_1),
    .binary main_v461 main_v465 main_v466 mulf,
    .unary main_v446 main_v467 (broadcastInDim S1x64 ![1] bcast_S64_S1x64_1),
    .unary main_v467 main_v468 (broadcastInDim S100000x64 ![0, 1] bcast_S1x64_S100000x64_0_1),
    .binary main_v466 main_v468 main_v469 mulf,
    .unary main_v448 main_v470 (broadcastInDim S1x64 ![1] bcast_S64_S1x64_1),
    .unary main_v470 main_v471 (broadcastInDim S100000x64 ![0, 1] bcast_S1x64_S100000x64_0_1),
    .binary main_v469 main_v471 main_v472 addf,
    .nullary main_call8_cst (constant S_ .f32 0x00000000#32),
    .unary main_call8_cst main_call8_v0 (broadcastInDim S100000x64 ![] bcast_S_S100000x64),
    .binary main_v472 main_call8_v0 main_v473 maximumf,
    .unary main_arg10 main_v474 (extractStridedSlice S1x1x64x64 ![1, 3, 0, 0] · slices_S3x4x64x64_S1x1x64x64_1_3_0_0),
    .reshape main_v474 main_v475 rfl shapeCasts_S1x1x64x64_S64x64,
    .binary main_v473 main_v475 main_v476 (fun l r => Host.dotGeneral dot_S100000x64_S64x64_S100000x64_1_0_0_1_n_n none l r),
    .binary main_v426 main_v476 main_v477 addf,
    .unary main_arg11 main_v478 (extractStridedSlice S1x1x64 ![1, 3, 0] · slices_S3x4x64_S1x1x64_1_3_0),
    .reshape main_v478 main_v479 rfl shapeCasts_S1x1x64_S64 ]

set_option maxRecDepth 8192 in
set_option maxHeartbeats 4000000 in
def seg558 : List (TcOp F) :=
  [ .unary main_v479 main_v480 (broadcastInDim S1x64 ![1] bcast_S64_S1x64_1),
    .unary main_v480 main_v481 (broadcastInDim S100000x64 ![0, 1] bcast_S1x64_S100000x64_0_1),
    .binary main_v477 main_v481 main_v482 addf ]

set_option maxRecDepth 8192 in
set_option maxHeartbeats 4000000 in
def seg561 : List (TcOp F) :=
  [ .nullary main_call9_cst (constant S_ .f32 0x00000000#32),
    .unary main_call9_cst main_call9_v0 (broadcastInDim S100000x64 ![] bcast_S_S100000x64),
    .binary main_v482 main_call9_v0 main_v483 maximumf ]

end Cert.ReferenceIdeal.RefRun

end
-- ==== Proof.RefRun.OpsC.lean ====
import proofs.«416992_j9088150798514_2_alg».proof.Proof.RefRun.Common

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in
def seg564 : List (TcOp F) :=
  [ .unary main_arg4 main_v484 (extractStridedSlice S1x64x64 ![2, 0, 0] · slices_S3x64x64_S1x64x64_2_0_0),
    .reshape main_v484 main_v485 rfl shapeCasts_S1x64x64_S64x64,
    .binary main_v483 main_v485 main_v486 (fun l r => Host.dotGeneral dot_S100000x64_S64x64_S100000x64_1_0_0_1_n_n none l r),
    .unary main_arg5 main_v487 (extractStridedSlice S1x64 ![2, 0] · slices_S3x64_S1x64_2_0),
    .reshape main_v487 main_v488 rfl shapeCasts_S1x64_S64,
    .unary main_v488 main_v489 (broadcastInDim S1x64 ![1] bcast_S64_S1x64_1),
    .unary main_v489 main_v490 (broadcastInDim S100000x64 ![0, 1] bcast_S1x64_S100000x64_0_1),
    .binary main_v486 main_v490 main_v491 addf,
    .nullary main_c_58 (constantI S_ 32 0#32),
    .unary main_c_58 main_v492 (broadcastInDim S1200000 ![] bcast_S_S1200000),
    .binary main_v1 main_v492 main_v493 (cmpi .slt),
    .nullary main_c_59 (constantI S_ 32 100000#32),
    .unary main_c_59 main_v494 (broadcastInDim S1200000 ![] bcast_S_S1200000),
    .binary main_v1 main_v494 main_v495 addi,
    .ternary main_v493 main_v495 main_v1 main_v496 select,
    .unary main_v496 main_v497 (broadcastInDim S1200000x1 ![0] bcast_S1200000_S1200000x1_0),
    .binary main_v483 main_v497 main_v498 (fun x i => Host.gather gather_S100000x64_S1200000x1_S1200000x64_1_0_n_n_0_1_164 x i) ]

set_option maxRecDepth 8192 in
set_option maxHeartbeats 4000000 in
def seg581 : List (TcOp F) :=
  [ .nullary main_c_60 (constantI S_ 32 0#32),
    .unary main_c_60 main_v499 (broadcastInDim S1200000 ![] bcast_S_S1200000),
    .binary main_arg2 main_v499 main_v500 (cmpi .eq),
    .unary main_v500 main_v501 (uitofp .f32),
    .unary main_v501 main_v502 (broadcastInDim S1200000x1 ![0] bcast_S1200000_S1200000x1_0),
    .unary main_v502 main_v503 (broadcastInDim S1200000x64 ![0, 1] bcast_S1200000x1_S1200000x64_0_1),
    .binary main_v498 main_v503 main_v504 mulf,
    .nullary main_cst_61 (constant S_ .f32 0x00000000#32),
    .unary main_cst_61 main_v505 (broadcastInDim S100000x64 ![] bcast_S_S100000x64),
    .unary main_v3 main_v506 (broadcastInDim S1200000x1 ![0] bcast_S1200000_S1200000x1_0),
    .ternary main_v505 main_v506 main_v504 main_v507 (fun x i u => Host.scatterAdd scatter_S100000x64_S1200000x1_S1200000x64_1_0_0_1 x i u),
    .binary main_v483 main_v507 main_v508 addf,
    .unary main_arg6 main_v509 (extractStridedSlice S1x1x64x64 ![2, 0, 0, 0] · slices_S3x4x64x64_S1x1x64x64_2_0_0_0),
    .reshape main_v509 main_v510 rfl shapeCasts_S1x1x64x64_S64x64,
    .binary main_v508 main_v510 main_v511 (fun l r => Host.dotGeneral dot_S100000x64_S64x64_S100000x64_1_0_0_1_n_n none l r),
    .unary main_arg7 main_v512 (extractStridedSlice S1x1x64 ![2, 0, 0] · slices_S3x4x64_S1x1x64_2_0_0),
    .reshape main_v512 main_v513 rfl shapeCasts_S1x1x64_S64,
    .unary main_v513 main_v514 (broadcastInDim S1x64 ![1] bcast_S64_S1x64_1),
    .unary main_v514 main_v515 (broadcastInDim S100000x64 ![0, 1] bcast_S1x64_S100000x64_0_1),
    .binary main_v511 main_v515 main_v516 addf,
    .unary main_arg8 main_v517 (extractStridedSlice S1x1x64 ![2, 0, 0] · slices_S3x4x64_S1x1x64_2_0_0),
    .reshape main_v517 main_v518 rfl shapeCasts_S1x1x64_S64,
    .unary main_arg9 main_v519 (extractStridedSlice S1x1x64 ![2, 0, 0] · slices_S3x4x64_S1x1x64_2_0_0),
    .reshape main_v519 main_v520 rfl shapeCasts_S1x1x64_S64,
    .nullary main_cst_62 (constant S_ .f32 0x00000000#32),
    .binary main_v516 main_cst_62 main_v521 (fun x v => Host.reduceAdd x v reducesTo_S100000x64_S64_d0 h_S_),
    .unary main_v521 main_v522 (broadcastInDim S1x64 ![1] bcast_S64_S1x64_1),
    .nullary main_cst_63 (constant S_ .f32 0x47C35000#32),
    .unary main_cst_63 main_v523 (broadcastInDim S1x64 ![] bcast_S_S1x64),
    .binary main_v522 main_v523 main_v524 Host.divf,
    .unary main_v524 main_v525 (broadcastInDim S100000x64 ![0, 1] bcast_S1x64_S100000x64_0_1),
    .binary main_v516 main_v525 main_v526 subf,
    .binary main_v526 main_v526 main_v527 mulf,
    .nullary main_cst_64 (constant S_ .f32 0x00000000#32),
    .binary main_v527 main_cst_64 main_v528 (fun x v => Host.reduceAdd x v reducesTo_S100000x64_S64_d0 h_S_),
    .unary main_v528 main_v529 (broadcastInDim S1x64 ![1] bcast_S64_S1x64_1),
    .nullary main_cst_65 (constant S_ .f32 0x47C35000#32),
    .unary main_cst_65 main_v530 (broadcastInDim S1x64 ![] bcast_S_S1x64),
    .binary main_v529 main_v530 main_v531 Host.divf ]

set_option maxRecDepth 8192 in
set_option maxHeartbeats 4000000 in
def seg620 : List (TcOp F) :=
  [ .unary main_v524 main_v532 (broadcastInDim S100000x64 ![0, 1] bcast_S1x64_S100000x64_0_1),
    .binary main_v516 main_v532 main_v533 subf,
    .nullary main_cst_66 (constant S_ .f32 0x3727C5AC#32),
    .unary main_cst_66 main_v534 (broadcastInDim S1x64 ![] bcast_S_S1x64),
    .binary main_v531 main_v534 main_v535 addf,
    .unary main_v535 main_v536 Host.rsqrt,
    .unary main_v536 main_v537 (broadcastInDim S100000x64 ![0, 1] bcast_S1x64_S100000x64_0_1),
    .binary main_v533 main_v537 main_v538 mulf,
    .unary main_v518 main_v539 (broadcastInDim S1x64 ![1] bcast_S64_S1x64_1),
    .unary main_v539 main_v540 (broadcastInDim S100000x64 ![0, 1] bcast_S1x64_S100000x64_0_1),
    .binary main_v538 main_v540 main_v541 mulf,
    .unary main_v520 main_v542 (broadcastInDim S1x64 ![1] bcast_S64_S1x64_1),
    .unary main_v542 main_v543 (broadcastInDim S100000x64 ![0, 1] bcast_S1x64_S100000x64_0_1),
    .binary main_v541 main_v543 main_v544 addf,
    .nullary main_call10_cst (constant S_ .f32 0x00000000#32),
    .unary main_call10_cst main_call10_v0 (broadcastInDim S100000x64 ![] bcast_S_S100000x64),
    .binary main_v544 main_call10_v0 main_v545 maximumf,
    .unary main_arg10 main_v546 (extractStridedSlice S1x1x64x64 ![2, 0, 0, 0] · slices_S3x4x64x64_S1x1x64x64_2_0_0_0),
    .reshape main_v546 main_v547 rfl shapeCasts_S1x1x64x64_S64x64,
    .binary main_v545 main_v547 main_v548 (fun l r => Host.dotGeneral dot_S100000x64_S64x64_S100000x64_1_0_0_1_n_n none l r),
    .binary main_v491 main_v548 main_v549 addf,
    .unary main_arg11 main_v550 (extractStridedSlice S1x1x64 ![2, 0, 0] · slices_S3x4x64_S1x1x64_2_0_0),
    .reshape main_v550 main_v551 rfl shapeCasts_S1x1x64_S64,
    .unary main_v551 main_v552 (broadcastInDim S1x64 ![1] bcast_S64_S1x64_1),
    .unary main_v552 main_v553 (broadcastInDim S100000x64 ![0, 1] bcast_S1x64_S100000x64_0_1),
    .binary main_v549 main_v553 main_v554 addf ]

set_option maxRecDepth 8192 in
set_option maxHeartbeats 4000000 in
def seg646 : List (TcOp F) :=
  [ .nullary main_c_67 (constantI S_ 32 1#32),
    .unary main_c_67 main_v555 (broadcastInDim S1200000 ![] bcast_S_S1200000),
    .binary main_arg2 main_v555 main_v556 (cmpi .eq),
    .unary main_v556 main_v557 (uitofp .f32),
    .unary main_v557 main_v558 (broadcastInDim S1200000x1 ![0] bcast_S1200000_S1200000x1_0),
    .unary main_v558 main_v559 (broadcastInDim S1200000x64 ![0, 1] bcast_S1200000x1_S1200000x64_0_1),
    .binary main_v498 main_v559 main_v560 mulf,
    .nullary main_cst_68 (constant S_ .f32 0x00000000#32),
    .unary main_cst_68 main_v561 (broadcastInDim S100000x64 ![] bcast_S_S100000x64),
    .unary main_v3 main_v562 (broadcastInDim S1200000x1 ![0] bcast_S1200000_S1200000x1_0),
    .ternary main_v561 main_v562 main_v560 main_v563 (fun x i u => Host.scatterAdd scatter_S100000x64_S1200000x1_S1200000x64_1_0_0_1 x i u),
    .binary main_v483 main_v563 main_v564 addf,
    .unary main_arg6 main_v565 (extractStridedSlice S1x1x64x64 ![2, 1, 0, 0] · slices_S3x4x64x64_S1x1x64x64_2_1_0_0),
    .reshape main_v565 main_v566 rfl shapeCasts_S1x1x64x64_S64x64,
    .binary main_v564 main_v566 main_v567 (fun l r => Host.dotGeneral dot_S100000x64_S64x64_S100000x64_1_0_0_1_n_n none l r),
    .unary main_arg7 main_v568 (extractStridedSlice S1x1x64 ![2, 1, 0] · slices_S3x4x64_S1x1x64_2_1_0),
    .reshape main_v568 main_v569 rfl shapeCasts_S1x1x64_S64,
    .unary main_v569 main_v570 (broadcastInDim S1x64 ![1] bcast_S64_S1x64_1),
    .unary main_v570 main_v571 (broadcastInDim S100000x64 ![0, 1] bcast_S1x64_S100000x64_0_1),
    .binary main_v567 main_v571 main_v572 addf,
    .unary main_arg8 main_v573 (extractStridedSlice S1x1x64 ![2, 1, 0] · slices_S3x4x64_S1x1x64_2_1_0),
    .reshape main_v573 main_v574 rfl shapeCasts_S1x1x64_S64,
    .unary main_arg9 main_v575 (extractStridedSlice S1x1x64 ![2, 1, 0] · slices_S3x4x64_S1x1x64_2_1_0),
    .reshape main_v575 main_v576 rfl shapeCasts_S1x1x64_S64,
    .nullary main_cst_69 (constant S_ .f32 0x00000000#32),
    .binary main_v572 main_cst_69 main_v577 (fun x v => Host.reduceAdd x v reducesTo_S100000x64_S64_d0 h_S_),
    .unary main_v577 main_v578 (broadcastInDim S1x64 ![1] bcast_S64_S1x64_1),
    .nullary main_cst_70 (constant S_ .f32 0x47C35000#32),
    .unary main_cst_70 main_v579 (broadcastInDim S1x64 ![] bcast_S_S1x64),
    .binary main_v578 main_v579 main_v580 Host.divf,
    .unary main_v580 main_v581 (broadcastInDim S100000x64 ![0, 1] bcast_S1x64_S100000x64_0_1),
    .binary main_v572 main_v581 main_v582 subf,
    .binary main_v582 main_v582 main_v583 mulf,
    .nullary main_cst_71 (constant S_ .f32 0x00000000#32),
    .binary main_v583 main_cst_71 main_v584 (fun x v => Host.reduceAdd x v reducesTo_S100000x64_S64_d0 h_S_),
    .unary main_v584 main_v585 (broadcastInDim S1x64 ![1] bcast_S64_S1x64_1) ]

set_option maxRecDepth 8192 in
set_option maxHeartbeats 4000000 in
def seg682 : List (TcOp F) :=
  [ .nullary main_cst_72 (constant S_ .f32 0x47C35000#32),
    .unary main_cst_72 main_v586 (broadcastInDim S1x64 ![] bcast_S_S1x64),
    .binary main_v585 main_v586 main_v587 Host.divf,
    .unary main_v580 main_v588 (broadcastInDim S100000x64 ![0, 1] bcast_S1x64_S100000x64_0_1),
    .binary main_v572 main_v588 main_v589 subf,
    .nullary main_cst_73 (constant S_ .f32 0x3727C5AC#32),
    .unary main_cst_73 main_v590 (broadcastInDim S1x64 ![] bcast_S_S1x64),
    .binary main_v587 main_v590 main_v591 addf,
    .unary main_v591 main_v592 Host.rsqrt,
    .unary main_v592 main_v593 (broadcastInDim S100000x64 ![0, 1] bcast_S1x64_S100000x64_0_1),
    .binary main_v589 main_v593 main_v594 mulf,
    .unary main_v574 main_v595 (broadcastInDim S1x64 ![1] bcast_S64_S1x64_1),
    .unary main_v595 main_v596 (broadcastInDim S100000x64 ![0, 1] bcast_S1x64_S100000x64_0_1),
    .binary main_v594 main_v596 main_v597 mulf,
    .unary main_v576 main_v598 (broadcastInDim S1x64 ![1] bcast_S64_S1x64_1),
    .unary main_v598 main_v599 (broadcastInDim S100000x64 ![0, 1] bcast_S1x64_S100000x64_0_1),
    .binary main_v597 main_v599 main_v600 addf,
    .nullary main_call11_cst (constant S_ .f32 0x00000000#32),
    .unary main_call11_cst main_call11_v0 (broadcastInDim S100000x64 ![] bcast_S_S100000x64),
    .binary main_v600 main_call11_v0 main_v601 maximumf,
    .unary main_arg10 main_v602 (extractStridedSlice S1x1x64x64 ![2, 1, 0, 0] · slices_S3x4x64x64_S1x1x64x64_2_1_0_0),
    .reshape main_v602 main_v603 rfl shapeCasts_S1x1x64x64_S64x64,
    .binary main_v601 main_v603 main_v604 (fun l r => Host.dotGeneral dot_S100000x64_S64x64_S100000x64_1_0_0_1_n_n none l r),
    .binary main_v554 main_v604 main_v605 addf,
    .unary main_arg11 main_v606 (extractStridedSlice S1x1x64 ![2, 1, 0] · slices_S3x4x64_S1x1x64_2_1_0),
    .reshape main_v606 main_v607 rfl shapeCasts_S1x1x64_S64,
    .unary main_v607 main_v608 (broadcastInDim S1x64 ![1] bcast_S64_S1x64_1),
    .unary main_v608 main_v609 (broadcastInDim S100000x64 ![0, 1] bcast_S1x64_S100000x64_0_1),
    .binary main_v605 main_v609 main_v610 addf ]

set_option maxRecDepth 8192 in
set_option maxHeartbeats 4000000 in
def seg711 : List (TcOp F) :=
  [ .nullary main_c_74 (constantI S_ 32 2#32),
    .unary main_c_74 main_v611 (broadcastInDim S1200000 ![] bcast_S_S1200000),
    .binary main_arg2 main_v611 main_v612 (cmpi .eq),
    .unary main_v612 main_v613 (uitofp .f32),
    .unary main_v613 main_v614 (broadcastInDim S1200000x1 ![0] bcast_S1200000_S1200000x1_0),
    .unary main_v614 main_v615 (broadcastInDim S1200000x64 ![0, 1] bcast_S1200000x1_S1200000x64_0_1),
    .binary main_v498 main_v615 main_v616 mulf,
    .nullary main_cst_75 (constant S_ .f32 0x00000000#32),
    .unary main_cst_75 main_v617 (broadcastInDim S100000x64 ![] bcast_S_S100000x64),
    .unary main_v3 main_v618 (broadcastInDim S1200000x1 ![0] bcast_S1200000_S1200000x1_0),
    .ternary main_v617 main_v618 main_v616 main_v619 (fun x i u => Host.scatterAdd scatter_S100000x64_S1200000x1_S1200000x64_1_0_0_1 x i u),
    .binary main_v483 main_v619 main_v620 addf,
    .unary main_arg6 main_v621 (extractStridedSlice S1x1x64x64 ![2, 2, 0, 0] · slices_S3x4x64x64_S1x1x64x64_2_2_0_0),
    .reshape main_v621 main_v622 rfl shapeCasts_S1x1x64x64_S64x64,
    .binary main_v620 main_v622 main_v623 (fun l r => Host.dotGeneral dot_S100000x64_S64x64_S100000x64_1_0_0_1_n_n none l r),
    .unary main_arg7 main_v624 (extractStridedSlice S1x1x64 ![2, 2, 0] · slices_S3x4x64_S1x1x64_2_2_0),
    .reshape main_v624 main_v625 rfl shapeCasts_S1x1x64_S64,
    .unary main_v625 main_v626 (broadcastInDim S1x64 ![1] bcast_S64_S1x64_1),
    .unary main_v626 main_v627 (broadcastInDim S100000x64 ![0, 1] bcast_S1x64_S100000x64_0_1),
    .binary main_v623 main_v627 main_v628 addf,
    .unary main_arg8 main_v629 (extractStridedSlice S1x1x64 ![2, 2, 0] · slices_S3x4x64_S1x1x64_2_2_0),
    .reshape main_v629 main_v630 rfl shapeCasts_S1x1x64_S64,
    .unary main_arg9 main_v631 (extractStridedSlice S1x1x64 ![2, 2, 0] · slices_S3x4x64_S1x1x64_2_2_0),
    .reshape main_v631 main_v632 rfl shapeCasts_S1x1x64_S64,
    .nullary main_cst_76 (constant S_ .f32 0x00000000#32),
    .binary main_v628 main_cst_76 main_v633 (fun x v => Host.reduceAdd x v reducesTo_S100000x64_S64_d0 h_S_),
    .unary main_v633 main_v634 (broadcastInDim S1x64 ![1] bcast_S64_S1x64_1),
    .nullary main_cst_77 (constant S_ .f32 0x47C35000#32),
    .unary main_cst_77 main_v635 (broadcastInDim S1x64 ![] bcast_S_S1x64),
    .binary main_v634 main_v635 main_v636 Host.divf,
    .unary main_v636 main_v637 (broadcastInDim S100000x64 ![0, 1] bcast_S1x64_S100000x64_0_1),
    .binary main_v628 main_v637 main_v638 subf,
    .binary main_v638 main_v638 main_v639 mulf ]

set_option maxRecDepth 8192 in
set_option maxHeartbeats 4000000 in
def seg744 : List (TcOp F) :=
  [ .nullary main_cst_78 (constant S_ .f32 0x00000000#32),
    .binary main_v639 main_cst_78 main_v640 (fun x v => Host.reduceAdd x v reducesTo_S100000x64_S64_d0 h_S_),
    .unary main_v640 main_v641 (broadcastInDim S1x64 ![1] bcast_S64_S1x64_1),
    .nullary main_cst_79 (constant S_ .f32 0x47C35000#32),
    .unary main_cst_79 main_v642 (broadcastInDim S1x64 ![] bcast_S_S1x64),
    .binary main_v641 main_v642 main_v643 Host.divf,
    .unary main_v636 main_v644 (broadcastInDim S100000x64 ![0, 1] bcast_S1x64_S100000x64_0_1),
    .binary main_v628 main_v644 main_v645 subf,
    .nullary main_cst_80 (constant S_ .f32 0x3727C5AC#32),
    .unary main_cst_80 main_v646 (broadcastInDim S1x64 ![] bcast_S_S1x64),
    .binary main_v643 main_v646 main_v647 addf,
    .unary main_v647 main_v648 Host.rsqrt,
    .unary main_v648 main_v649 (broadcastInDim S100000x64 ![0, 1] bcast_S1x64_S100000x64_0_1),
    .binary main_v645 main_v649 main_v650 mulf,
    .unary main_v630 main_v651 (broadcastInDim S1x64 ![1] bcast_S64_S1x64_1),
    .unary main_v651 main_v652 (broadcastInDim S100000x64 ![0, 1] bcast_S1x64_S100000x64_0_1),
    .binary main_v650 main_v652 main_v653 mulf,
    .unary main_v632 main_v654 (broadcastInDim S1x64 ![1] bcast_S64_S1x64_1),
    .unary main_v654 main_v655 (broadcastInDim S100000x64 ![0, 1] bcast_S1x64_S100000x64_0_1),
    .binary main_v653 main_v655 main_v656 addf,
    .nullary main_call12_cst (constant S_ .f32 0x00000000#32),
    .unary main_call12_cst main_call12_v0 (broadcastInDim S100000x64 ![] bcast_S_S100000x64),
    .binary main_v656 main_call12_v0 main_v657 maximumf,
    .unary main_arg10 main_v658 (extractStridedSlice S1x1x64x64 ![2, 2, 0, 0] · slices_S3x4x64x64_S1x1x64x64_2_2_0_0),
    .reshape main_v658 main_v659 rfl shapeCasts_S1x1x64x64_S64x64,
    .binary main_v657 main_v659 main_v660 (fun l r => Host.dotGeneral dot_S100000x64_S64x64_S100000x64_1_0_0_1_n_n none l r),
    .binary main_v610 main_v660 main_v661 addf,
    .unary main_arg11 main_v662 (extractStridedSlice S1x1x64 ![2, 2, 0] · slices_S3x4x64_S1x1x64_2_2_0),
    .reshape main_v662 main_v663 rfl shapeCasts_S1x1x64_S64,
    .unary main_v663 main_v664 (broadcastInDim S1x64 ![1] bcast_S64_S1x64_1),
    .unary main_v664 main_v665 (broadcastInDim S100000x64 ![0, 1] bcast_S1x64_S100000x64_0_1),
    .binary main_v661 main_v665 main_v666 addf ]

set_option maxRecDepth 8192 in
set_option maxHeartbeats 4000000 in
def seg776 : List (TcOp F) :=
  [ .nullary main_c_81 (constantI S_ 32 3#32),
    .unary main_c_81 main_v667 (broadcastInDim S1200000 ![] bcast_S_S1200000),
    .binary main_arg2 main_v667 main_v668 (cmpi .eq),
    .unary main_v668 main_v669 (uitofp .f32),
    .unary main_v669 main_v670 (broadcastInDim S1200000x1 ![0] bcast_S1200000_S1200000x1_0),
    .unary main_v670 main_v671 (broadcastInDim S1200000x64 ![0, 1] bcast_S1200000x1_S1200000x64_0_1),
    .binary main_v498 main_v671 main_v672 mulf,
    .nullary main_cst_82 (constant S_ .f32 0x00000000#32),
    .unary main_cst_82 main_v673 (broadcastInDim S100000x64 ![] bcast_S_S100000x64),
    .unary main_v3 main_v674 (broadcastInDim S1200000x1 ![0] bcast_S1200000_S1200000x1_0),
    .ternary main_v673 main_v674 main_v672 main_v675 (fun x i u => Host.scatterAdd scatter_S100000x64_S1200000x1_S1200000x64_1_0_0_1 x i u),
    .binary main_v483 main_v675 main_v676 addf,
    .unary main_arg6 main_v677 (extractStridedSlice S1x1x64x64 ![2, 3, 0, 0] · slices_S3x4x64x64_S1x1x64x64_2_3_0_0),
    .reshape main_v677 main_v678 rfl shapeCasts_S1x1x64x64_S64x64,
    .binary main_v676 main_v678 main_v679 (fun l r => Host.dotGeneral dot_S100000x64_S64x64_S100000x64_1_0_0_1_n_n none l r),
    .unary main_arg7 main_v680 (extractStridedSlice S1x1x64 ![2, 3, 0] · slices_S3x4x64_S1x1x64_2_3_0),
    .reshape main_v680 main_v681 rfl shapeCasts_S1x1x64_S64,
    .unary main_v681 main_v682 (broadcastInDim S1x64 ![1] bcast_S64_S1x64_1),
    .unary main_v682 main_v683 (broadcastInDim S100000x64 ![0, 1] bcast_S1x64_S100000x64_0_1),
    .binary main_v679 main_v683 main_v684 addf,
    .unary main_arg8 main_v685 (extractStridedSlice S1x1x64 ![2, 3, 0] · slices_S3x4x64_S1x1x64_2_3_0),
    .reshape main_v685 main_v686 rfl shapeCasts_S1x1x64_S64,
    .unary main_arg9 main_v687 (extractStridedSlice S1x1x64 ![2, 3, 0] · slices_S3x4x64_S1x1x64_2_3_0),
    .reshape main_v687 main_v688 rfl shapeCasts_S1x1x64_S64,
    .nullary main_cst_83 (constant S_ .f32 0x00000000#32),
    .binary main_v684 main_cst_83 main_v689 (fun x v => Host.reduceAdd x v reducesTo_S100000x64_S64_d0 h_S_),
    .unary main_v689 main_v690 (broadcastInDim S1x64 ![1] bcast_S64_S1x64_1),
    .nullary main_cst_84 (constant S_ .f32 0x47C35000#32),
    .unary main_cst_84 main_v691 (broadcastInDim S1x64 ![] bcast_S_S1x64),
    .binary main_v690 main_v691 main_v692 Host.divf ]

set_option maxRecDepth 8192 in
set_option maxHeartbeats 4000000 in
def seg806 : List (TcOp F) :=
  [ .unary main_v692 main_v693 (broadcastInDim S100000x64 ![0, 1] bcast_S1x64_S100000x64_0_1),
    .binary main_v684 main_v693 main_v694 subf,
    .binary main_v694 main_v694 main_v695 mulf,
    .nullary main_cst_85 (constant S_ .f32 0x00000000#32),
    .binary main_v695 main_cst_85 main_v696 (fun x v => Host.reduceAdd x v reducesTo_S100000x64_S64_d0 h_S_),
    .unary main_v696 main_v697 (broadcastInDim S1x64 ![1] bcast_S64_S1x64_1),
    .nullary main_cst_86 (constant S_ .f32 0x47C35000#32),
    .unary main_cst_86 main_v698 (broadcastInDim S1x64 ![] bcast_S_S1x64),
    .binary main_v697 main_v698 main_v699 Host.divf,
    .unary main_v692 main_v700 (broadcastInDim S100000x64 ![0, 1] bcast_S1x64_S100000x64_0_1),
    .binary main_v684 main_v700 main_v701 subf,
    .nullary main_cst_87 (constant S_ .f32 0x3727C5AC#32),
    .unary main_cst_87 main_v702 (broadcastInDim S1x64 ![] bcast_S_S1x64),
    .binary main_v699 main_v702 main_v703 addf,
    .unary main_v703 main_v704 Host.rsqrt,
    .unary main_v704 main_v705 (broadcastInDim S100000x64 ![0, 1] bcast_S1x64_S100000x64_0_1),
    .binary main_v701 main_v705 main_v706 mulf,
    .unary main_v686 main_v707 (broadcastInDim S1x64 ![1] bcast_S64_S1x64_1),
    .unary main_v707 main_v708 (broadcastInDim S100000x64 ![0, 1] bcast_S1x64_S100000x64_0_1),
    .binary main_v706 main_v708 main_v709 mulf,
    .unary main_v688 main_v710 (broadcastInDim S1x64 ![1] bcast_S64_S1x64_1),
    .unary main_v710 main_v711 (broadcastInDim S100000x64 ![0, 1] bcast_S1x64_S100000x64_0_1),
    .binary main_v709 main_v711 main_v712 addf,
    .nullary main_call13_cst (constant S_ .f32 0x00000000#32),
    .unary main_call13_cst main_call13_v0 (broadcastInDim S100000x64 ![] bcast_S_S100000x64),
    .binary main_v712 main_call13_v0 main_v713 maximumf,
    .unary main_arg10 main_v714 (extractStridedSlice S1x1x64x64 ![2, 3, 0, 0] · slices_S3x4x64x64_S1x1x64x64_2_3_0_0),
    .reshape main_v714 main_v715 rfl shapeCasts_S1x1x64x64_S64x64,
    .binary main_v713 main_v715 main_v716 (fun l r => Host.dotGeneral dot_S100000x64_S64x64_S100000x64_1_0_0_1_n_n none l r),
    .binary main_v666 main_v716 main_v717 addf,
    .unary main_arg11 main_v718 (extractStridedSlice S1x1x64 ![2, 3, 0] · slices_S3x4x64_S1x1x64_2_3_0),
    .reshape main_v718 main_v719 rfl shapeCasts_S1x1x64_S64,
    .unary main_v719 main_v720 (broadcastInDim S1x64 ![1] bcast_S64_S1x64_1),
    .unary main_v720 main_v721 (broadcastInDim S100000x64 ![0, 1] bcast_S1x64_S100000x64_0_1),
    .binary main_v717 main_v721 main_v722 addf ]

set_option maxRecDepth 8192 in
set_option maxHeartbeats 4000000 in
def seg841 : List (TcOp F) :=
  [ .nullary main_cst_88 (constant S_ .f32 0x00000000#32),
    .unary main_cst_88 main_v723 (broadcastInDim S128x64 ![] bcast_S_S128x64),
    .unary main_arg3 main_v724 (broadcastInDim S100000x1 ![0] bcast_S100000_S100000x1_0),
    .ternary main_v723 main_v724 main_v722 main_v725 (fun x i u => Host.scatterAdd scatter_S128x64_S100000x1_S100000x64_1_0_0_1 x i u),
    .nullary main_cst_89 (constant S_ .f32 0x3F800000#32),
    .unary main_cst_89 main_v726 (broadcastInDim S100000 ![] bcast_S_S100000),
    .nullary main_cst_90 (constant S_ .f32 0x00000000#32),
    .unary main_cst_90 main_v727 (broadcastInDim S128 ![] bcast_S_S128),
    .unary main_arg3 main_v728 (broadcastInDim S100000x1 ![0] bcast_S100000_S100000x1_0),
    .ternary main_v727 main_v728 main_v726 main_v729 (fun x i u => Host.scatterAdd scatter_S128_S100000x1_S100000_n_0_0_1 x i u),
    .nullary main_cst_91 (constant S_ .f32 0x3F800000#32),
    .unary main_cst_91 main_v730 (broadcastInDim S128 ![] bcast_S_S128),
    .binary main_v729 main_v730 main_v731 maximumf,
    .unary main_v731 main_v732 (broadcastInDim S128x1 ![0] bcast_S128_S128x1_0),
    .unary main_v732 main_v733 (broadcastInDim S128x64 ![0, 1] bcast_S128x1_S128x64_0_1),
    .binary main_v725 main_v733 main_v734 Host.divf ]

end Cert.ReferenceIdeal.RefRun

end
-- ==== Proof.RefRun.Main.lean ====
import proofs.«416992_j9088150798514_2_alg».proof.Proof.RefRun.OpsA
import proofs.«416992_j9088150798514_2_alg».proof.Proof.RefRun.OpsB
import proofs.«416992_j9088150798514_2_alg».proof.Proof.RefRun.OpsC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- All the operations of @main, bracketed as its windows are. -/
def line : List (TcOp F) :=
  (seg0 ++ seg4 ++ seg21) ++ ((seg60 ++ seg86) ++ ((seg122 ++ seg151) ++ ((seg184 ++ seg216) ++ ((seg246 ++ seg281 ++ seg284 ++ seg301) ++ ((seg310 ++ seg366) ++ ((seg372 ++ seg431) ++ (seg434 ++ (seg496 ++ ((seg558 ++ seg561 ++ seg564 ++ seg581) ++ ((seg620 ++ seg646) ++ ((seg682 ++ seg711) ++ ((seg744 ++ seg776) ++ ((seg806 ++ seg841))))))))))))))

set_option maxRecDepth 8192 in
set_option maxHeartbeats 4000000 in
theorem main_part0_eq (c : Dev nD) : main_part0 (F := F) c = seq (ops (seg0 ++ seg4 ++ seg21)) := rfl

set_option maxRecDepth 8192 in
set_option maxHeartbeats 4000000 in
theorem main_part1_eq (c : Dev nD) : main_part1 (F := F) c = seq (ops (seg60 ++ seg86)) := rfl

set_option maxRecDepth 8192 in
set_option maxHeartbeats 4000000 in
theorem main_part2_eq (c : Dev nD) : main_part2 (F := F) c = seq (ops (seg122 ++ seg151)) := rfl

set_option maxRecDepth 8192 in
set_option maxHeartbeats 4000000 in
theorem main_part3_eq (c : Dev nD) : main_part3 (F := F) c = seq (ops (seg184 ++ seg216)) := rfl

set_option maxRecDepth 8192 in
set_option maxHeartbeats 4000000 in
theorem main_part4_eq (c : Dev nD) : main_part4 (F := F) c = seq (ops (seg246 ++ seg281 ++ seg284 ++ seg301)) := rfl

set_option maxRecDepth 8192 in
set_option maxHeartbeats 4000000 in
theorem main_part5_eq (c : Dev nD) : main_part5 (F := F) c = seq (ops (seg310 ++ seg366)) := rfl

set_option maxRecDepth 8192 in
set_option maxHeartbeats 4000000 in
theorem main_part6_eq (c : Dev nD) : main_part6 (F := F) c = seq (ops (seg372 ++ seg431)) := rfl

set_option maxRecDepth 8192 in
set_option maxHeartbeats 4000000 in
theorem main_part7_eq (c : Dev nD) : main_part7 (F := F) c = seq (ops (seg434)) := rfl

set_option maxRecDepth 8192 in
set_option maxHeartbeats 4000000 in
theorem main_part8_eq (c : Dev nD) : main_part8 (F := F) c = seq (ops (seg496)) := rfl

set_option maxRecDepth 8192 in
set_option maxHeartbeats 4000000 in
theorem main_part9_eq (c : Dev nD) : main_part9 (F := F) c = seq (ops (seg558 ++ seg561 ++ seg564 ++ seg581)) := rfl

set_option maxRecDepth 8192 in
set_option maxHeartbeats 4000000 in
theorem main_part10_eq (c : Dev nD) : main_part10 (F := F) c = seq (ops (seg620 ++ seg646)) := rfl

set_option maxRecDepth 8192 in
set_option maxHeartbeats 4000000 in
theorem main_part11_eq (c : Dev nD) : main_part11 (F := F) c = seq (ops (seg682 ++ seg711)) := rfl

set_option maxRecDepth 8192 in
set_option maxHeartbeats 4000000 in
theorem main_part12_eq (c : Dev nD) : main_part12 (F := F) c = seq (ops (seg744 ++ seg776)) := rfl

set_option maxRecDepth 8192 in
set_option maxHeartbeats 4000000 in
theorem main_part13_eq (c : Dev nD) : main_part13 (F := F) c = seq (ops (seg806 ++ seg841)) := rfl

theorem scopedRefs_eq : (Finset.univ.filter fun b : Ref sig .tc => b.isScoped) = ∅ := by decide
theorem scopedSems_eq : (Finset.univ.filter fun sm : SemLoc sig => sm.isScoped .tc) = ∅ := by decide

theorem bind_seq {Λ : Labels} {a b : Prog (TpuEff nD τ sig (Elt F) Λ .tc) PUnit} {l₁ l₂ : List (TcOp F)}
    (ha : a = seq (ops l₁)) (hb : b = seq (ops l₂)) : (a >>= fun _ => b) = seq (ops (l₁ ++ l₂)) := by
  rw [ops_append, seq_append, ha, hb]

theorem main_eq (c : Dev nD) : main (F := F) c = seq (ops line) :=
  bind_seq (main_part0_eq c) (bind_seq (main_part1_eq c) (bind_seq (main_part2_eq c) (bind_seq (main_part3_eq c) (bind_seq (main_part4_eq c) (bind_seq (main_part5_eq c) (bind_seq (main_part6_eq c) (bind_seq (main_part7_eq c) (bind_seq (main_part8_eq c) (bind_seq (main_part9_eq c) (bind_seq (main_part10_eq c) (bind_seq (main_part11_eq c) (bind_seq (main_part12_eq c) (main_part13_eq c)))))))))))))

end Cert.ReferenceIdeal.RefRun

end
-- ==== Proof.RefRun.PartA.lean ====
import proofs.«416992_j9088150798514_2_alg».proof.Proof.RefRun.OpsA

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem seg0_v1 (W : Valuation τ sig (Elt F)) : after (ops seg0) W (no_index (Proc.devRef .tc main_v1)) = edgeRow0 ⟪W, main_arg1⟫ := by
  simp only [seg0]
  seg_result

theorem seg0_v3 (W : Valuation τ sig (Elt F)) : after (ops seg0) W (no_index (Proc.devRef .tc main_v3)) = edgeRow1 ⟪W, main_arg1⟫ := by
  simp only [seg0]
  seg_result

theorem seg4_self (W : Valuation τ sig (Elt F)) :
    after (ops seg4) W (no_index (Proc.devRef .tc main_v11)) = selfAt W 0 slices_S3x64x64_S1x64x64_0_0_0 slices_S3x64_S1x64_0_0 ⟪W, main_arg0⟫ := by
  simp only [seg4]
  seg_result

theorem seg4_msgs (W : Valuation τ sig (Elt F)) :
    after (ops seg4) W (no_index (Proc.devRef .tc main_v18)) = Host.gather gather_S100000x64_S1200000x1_S1200000x64_1_0_n_n_0_1_164 ⟪W, main_arg0⟫ (srcOf ⟪W, main_v1⟫) := by
  simp only [seg4]
  seg_result

set_option maxRecDepth 8192 in
set_option maxHeartbeats 4000000 in
theorem rel_0_0 (W : Valuation τ sig (Elt F)) :
    after (ops seg60) (after (ops seg21) W) (no_index (Proc.devRef .tc main_v74))
      = relAt W 0 0 slices_S3x4x64x64_S1x1x64x64_0_0_0_0 slices_S3x4x64_S1x1x64_0_0_0 0#32 ⟪W, main_arg0⟫ ⟪W, main_v18⟫ ⟪W, main_v11⟫ := by
  simp only [seg21, seg60]
  seg_result

set_option maxRecDepth 8192 in
set_option maxHeartbeats 4000000 in
theorem rel_0_1 (W : Valuation τ sig (Elt F)) :
    after (ops seg122) (after (ops seg86) W) (no_index (Proc.devRef .tc main_v130))
      = relAt W 0 1 slices_S3x4x64x64_S1x1x64x64_0_1_0_0 slices_S3x4x64_S1x1x64_0_1_0 1#32 ⟪W, main_arg0⟫ ⟪W, main_v18⟫ ⟪W, main_v74⟫ := by
  simp only [seg86, seg122]
  seg_result

set_option maxRecDepth 8192 in
set_option maxHeartbeats 4000000 in
theorem rel_0_2 (W : Valuation τ sig (Elt F)) :
    after (ops seg184) (after (ops seg151) W) (no_index (Proc.devRef .tc main_v186))
      = relAt W 0 2 slices_S3x4x64x64_S1x1x64x64_0_2_0_0 slices_S3x4x64_S1x1x64_0_2_0 2#32 ⟪W, main_arg0⟫ ⟪W, main_v18⟫ ⟪W, main_v130⟫ := by
  simp only [seg151, seg184]
  seg_result

set_option maxRecDepth 8192 in
set_option maxHeartbeats 4000000 in
theorem rel_0_3 (W : Valuation τ sig (Elt F)) :
    after (ops seg246) (after (ops seg216) W) (no_index (Proc.devRef .tc main_v242))
      = relAt W 0 3 slices_S3x4x64x64_S1x1x64x64_0_3_0_0 slices_S3x4x64_S1x1x64_0_3_0 3#32 ⟪W, main_arg0⟫ ⟪W, main_v18⟫ ⟪W, main_v186⟫ := by
  simp only [seg216, seg246]
  seg_result

theorem seg281_v243 (W : Valuation τ sig (Elt F)) : after (ops seg281) W (no_index (Proc.devRef .tc main_v243)) = maximumf ⟪W, main_v242⟫ RefTerm.zeroX := by
  simp only [seg281]
  seg_result

/-- Round 0: operations 0 … 283. -/
def roundA : List (TcOp F) := seg0 ++ seg4 ++ seg21 ++ seg60 ++ seg86 ++ seg122 ++ seg151 ++ seg184 ++ seg216 ++ seg246 ++ seg281

theorem roundA_v1 (W : Valuation τ sig (Elt F)) : after (ops roundA) W (no_index (Proc.devRef .tc main_v1)) = edgeRow0 ⟪W, main_arg1⟫ := by
  simp only [roundA, ops_append, after_app]
  simp (disch := exact id rfl) only [after_keep, seg0_v1]

theorem roundA_v3 (W : Valuation τ sig (Elt F)) : after (ops roundA) W (no_index (Proc.devRef .tc main_v3)) = edgeRow1 ⟪W, main_arg1⟫ := by
  simp only [roundA, ops_append, after_app]
  simp (disch := exact id rfl) only [after_keep, seg0_v3]

set_option maxRecDepth 8192 in
set_option maxHeartbeats 4000000 in
/-- Round 0's output is the positive part of `core0` of the arguments. -/
theorem roundA_out (W : Valuation τ sig (Elt F)) :
    after (ops roundA) W (no_index (Proc.devRef .tc main_v243))
      = maximumf (RefTerm.core0 ⟪W, main_arg1⟫ ⟪W, main_arg2⟫ ⟪W, main_arg4⟫ ⟪W, main_arg5⟫ ⟪W, main_arg6⟫ ⟪W, main_arg7⟫ ⟪W, main_arg8⟫
          ⟪W, main_arg9⟫ ⟪W, main_arg10⟫ ⟪W, main_arg11⟫ ⟪W, main_arg0⟫) RefTerm.zeroX := by
  simp only [roundA, ops_append, after_app]
  simp (disch := exact id rfl) only [seg281_v243, rel_0_3, rel_0_2, rel_0_1, rel_0_0, seg4_self, seg4_msgs, seg0_v1, seg0_v3, relAt, selfAt, after_keep]
  simp only [RefTerm.core0, srcIdx_eq, dstIdx_eq]

end Cert.ReferenceIdeal.RefRun

end
-- ==== Proof.RefRun.PartB.lean ====
import proofs.«416992_j9088150798514_2_alg».proof.Proof.RefRun.OpsB

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem seg284_self (W : Valuation τ sig (Elt F)) :
    after (ops seg284) W (no_index (Proc.devRef .tc main_v251)) = selfAt W 1 slices_S3x64x64_S1x64x64_1_0_0 slices_S3x64_S1x64_1_0 ⟪W, main_v243⟫ := by
  simp only [seg284]
  seg_result

theorem seg284_msgs (W : Valuation τ sig (Elt F)) :
    after (ops seg284) W (no_index (Proc.devRef .tc main_v258)) = Host.gather gather_S100000x64_S1200000x1_S1200000x64_1_0_n_n_0_1_164 ⟪W, main_v243⟫ (srcOf ⟪W, main_v1⟫) := by
  simp only [seg284]
  seg_result

set_option maxRecDepth 8192 in
set_option maxHeartbeats 4000000 in
theorem rel_1_0 (W : Valuation τ sig (Elt F)) :
    after (ops seg310) (after (ops seg301) W) (no_index (Proc.devRef .tc main_v314))
      = relAt W 1 0 slices_S3x4x64x64_S1x1x64x64_1_0_0_0 slices_S3x4x64_S1x1x64_1_0_0 0#32 ⟪W, main_v243⟫ ⟪W, main_v258⟫ ⟪W, main_v251⟫ := by
  simp only [seg301, seg310]
  seg_result

set_option maxRecDepth 8192 in
set_option maxHeartbeats 4000000 in
theorem rel_1_1 (W : Valuation τ sig (Elt F)) :
    after (ops seg372) (after (ops seg366) W) (no_index (Proc.devRef .tc main_v370))
      = relAt W 1 1 slices_S3x4x64x64_S1x1x64x64_1_1_0_0 slices_S3x4x64_S1x1x64_1_1_0 1#32 ⟪W, main_v243⟫ ⟪W, main_v258⟫ ⟪W, main_v314⟫ := by
  simp only [seg366, seg372]
  seg_result

set_option maxRecDepth 8192 in
set_option maxHeartbeats 4000000 in
theorem rel_1_2 (W : Valuation τ sig (Elt F)) :
    after (ops seg434) (after (ops seg431) W) (no_index (Proc.devRef .tc main_v426))
      = relAt W 1 2 slices_S3x4x64x64_S1x1x64x64_1_2_0_0 slices_S3x4x64_S1x1x64_1_2_0 2#32 ⟪W, main_v243⟫ ⟪W, main_v258⟫ ⟪W, main_v370⟫ := by
  simp only [seg431, seg434]
  seg_result

set_option maxRecDepth 8192 in
set_option maxHeartbeats 4000000 in
theorem rel_1_3 (W : Valuation τ sig (Elt F)) :
    after (ops seg558) (after (ops seg496) W) (no_index (Proc.devRef .tc main_v482))
      = relAt W 1 3 slices_S3x4x64x64_S1x1x64x64_1_3_0_0 slices_S3x4x64_S1x1x64_1_3_0 3#32 ⟪W, main_v243⟫ ⟪W, main_v258⟫ ⟪W, main_v426⟫ := by
  simp only [seg496, seg558]
  seg_result

theorem seg561_v483 (W : Valuation τ sig (Elt F)) : after (ops seg561) W (no_index (Proc.devRef .tc main_v483)) = maximumf ⟪W, main_v482⟫ RefTerm.zeroX := by
  simp only [seg561]
  seg_result

/-- Round 1: operations 284 … 563. -/
def roundB : List (TcOp F) := seg284 ++ seg301 ++ seg310 ++ seg366 ++ seg372 ++ seg431 ++ seg434 ++ seg496 ++ seg558 ++ seg561

set_option maxRecDepth 8192 in
set_option maxHeartbeats 4000000 in
/-- Round 1's output is the positive part of `core1` of the arguments and round 0's output, once the edge index's rows are read. -/
theorem roundB_out (W : Valuation τ sig (Elt F)) (h1 : ⟪W, main_v1⟫ = edgeRow0 ⟪W, main_arg1⟫) (h3 : ⟪W, main_v3⟫ = edgeRow1 ⟪W, main_arg1⟫) :
    after (ops roundB) W (no_index (Proc.devRef .tc main_v483))
      = maximumf (RefTerm.core1 ⟪W, main_arg1⟫ ⟪W, main_arg2⟫ ⟪W, main_arg4⟫ ⟪W, main_arg5⟫ ⟪W, main_arg6⟫ ⟪W, main_arg7⟫ ⟪W, main_arg8⟫
          ⟪W, main_arg9⟫ ⟪W, main_arg10⟫ ⟪W, main_arg11⟫ ⟪W, main_v243⟫) RefTerm.zeroX := by
  simp only [roundB, ops_append, after_app]
  simp (disch := exact id rfl) only [seg561_v483, rel_1_3, rel_1_2, rel_1_1, rel_1_0, seg284_self, seg284_msgs, relAt, selfAt, after_keep, h1, h3]
  simp only [RefTerm.core1, srcIdx_eq, dstIdx_eq]

end Cert.ReferenceIdeal.RefRun

end
-- ==== Proof.RefRun.PartC.lean ====
import proofs.«416992_j9088150798514_2_alg».proof.Proof.RefRun.OpsC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem seg564_self (W : Valuation τ sig (Elt F)) :
    after (ops seg564) W (no_index (Proc.devRef .tc main_v491)) = selfAt W 2 slices_S3x64x64_S1x64x64_2_0_0 slices_S3x64_S1x64_2_0 ⟪W, main_v483⟫ := by
  simp only [seg564]
  seg_result

theorem seg564_msgs (W : Valuation τ sig (Elt F)) :
    after (ops seg564) W (no_index (Proc.devRef .tc main_v498)) = Host.gather gather_S100000x64_S1200000x1_S1200000x64_1_0_n_n_0_1_164 ⟪W, main_v483⟫ (srcOf ⟪W, main_v1⟫) := by
  simp only [seg564]
  seg_result

set_option maxRecDepth 8192 in
set_option maxHeartbeats 4000000 in
theorem rel_2_0 (W : Valuation τ sig (Elt F)) :
    after (ops seg620) (after (ops seg581) W) (no_index (Proc.devRef .tc main_v554))
      = relAt W 2 0 slices_S3x4x64x64_S1x1x64x64_2_0_0_0 slices_S3x4x64_S1x1x64_2_0_0 0#32 ⟪W, main_v483⟫ ⟪W, main_v498⟫ ⟪W, main_v491⟫ := by
  simp only [seg581, seg620]
  seg_result

set_option maxRecDepth 8192 in
set_option maxHeartbeats 4000000 in
theorem rel_2_1 (W : Valuation τ sig (Elt F)) :
    after (ops seg682) (after (ops seg646) W) (no_index (Proc.devRef .tc main_v610))
      = relAt W 2 1 slices_S3x4x64x64_S1x1x64x64_2_1_0_0 slices_S3x4x64_S1x1x64_2_1_0 1#32 ⟪W, main_v483⟫ ⟪W, main_v498⟫ ⟪W, main_v554⟫ := by
  simp only [seg646, seg682]
  seg_result

set_option maxRecDepth 8192 in
set_option maxHeartbeats 4000000 in
theorem rel_2_2 (W : Valuation τ sig (Elt F)) :
    after (ops seg744) (after (ops seg711) W) (no_index (Proc.devRef .tc main_v666))
      = relAt W 2 2 slices_S3x4x64x64_S1x1x64x64_2_2_0_0 slices_S3x4x64_S1x1x64_2_2_0 2#32 ⟪W, main_v483⟫ ⟪W, main_v498⟫ ⟪W, main_v610⟫ := by
  simp only [seg711, seg744]
  seg_result

set_option maxRecDepth 8192 in
set_option maxHeartbeats 4000000 in
theorem rel_2_3 (W : Valuation τ sig (Elt F)) :
    after (ops seg806) (after (ops seg776) W) (no_index (Proc.devRef .tc main_v722))
      = relAt W 2 3 slices_S3x4x64x64_S1x1x64x64_2_3_0_0 slices_S3x4x64_S1x1x64_2_3_0 3#32 ⟪W, main_v483⟫ ⟪W, main_v498⟫ ⟪W, main_v666⟫ := by
  simp only [seg776, seg806]
  seg_result

theorem seg841_v734 (W : Valuation τ sig (Elt F)) : after (ops seg841) W (no_index (Proc.devRef .tc main_v734)) = RefTerm.poolTerm ⟪W, main_v722⟫ ⟪W, main_arg3⟫ := by
  simp only [seg841]
  seg_result

/-- Round 2 and the pooling tail: operations 564 … 856. -/
def roundC : List (TcOp F) := seg564 ++ seg581 ++ seg620 ++ seg646 ++ seg682 ++ seg711 ++ seg744 ++ seg776 ++ seg806 ++ seg841

set_option maxRecDepth 8192 in
set_option maxHeartbeats 4000000 in
/-- The result buffer is the per-graph mean of `core2` of the arguments and round 1's output, once the edge index's rows are read. -/
theorem roundC_out (W : Valuation τ sig (Elt F)) (h1 : ⟪W, main_v1⟫ = edgeRow0 ⟪W, main_arg1⟫) (h3 : ⟪W, main_v3⟫ = edgeRow1 ⟪W, main_arg1⟫) :
    after (ops roundC) W (no_index (Proc.devRef .tc main_v734))
      = RefTerm.poolTerm (RefTerm.core2 ⟪W, main_arg1⟫ ⟪W, main_arg2⟫ ⟪W, main_arg4⟫ ⟪W, main_arg5⟫ ⟪W, main_arg6⟫ ⟪W, main_arg7⟫ ⟪W, main_arg8⟫
          ⟪W, main_arg9⟫ ⟪W, main_arg10⟫ ⟪W, main_arg11⟫ ⟪W, main_v483⟫) ⟪W, main_arg3⟫ := by
  simp only [roundC, ops_append, after_app]
  simp (disch := exact id rfl) only [seg841_v734, rel_2_3, rel_2_2, rel_2_1, rel_2_0, seg564_self, seg564_msgs, relAt, selfAt, after_keep, h1, h3]
  simp only [RefTerm.core2, srcIdx_eq, dstIdx_eq]

end Cert.ReferenceIdeal.RefRun

end
-- ==== Proof.RefRun.lean ====
import proofs.«416992_j9088150798514_2_alg».proof.Proof.RefRun.Main
import proofs.«416992_j9088150798514_2_alg».proof.Proof.RefRun.PartA
import proofs.«416992_j9088150798514_2_alg».proof.Proof.RefRun.PartB
import proofs.«416992_j9088150798514_2_alg».proof.Proof.RefRun.PartC

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The line is the three rounds in turn. -/
theorem after_line (V : Valuation τ sig (Elt F)) : after (ops line) V = after (ops roundC) (after (ops roundB) (after (ops roundA) V)) := by
  simp only [line, roundA, roundB, roundC, ops_append, after_app]

/-- A buffer whose index is below that of every output of a line keeps its contents through the line. -/
theorem after_keep_below (l : List (TcOp F)) (V : Valuation τ sig (Elt F)) (n : ℕ) (hl : (outs l).all (fun y => n ≤ y.idx.val) = true) {r : Ref sig .tc}
    (hr : r.idx.val < n) : after (ops l) V (Proc.devRef .tc r) = V (Proc.devRef .tc r) :=
  after_of_forall_not_mem _ V fun _ ho hb => by
    obtain ⟨t, ht, rfl⟩ := List.mem_map.mp ho
    rw [t.writes_eq, Finset.mem_singleton] at hb
    have hn := of_decide_eq_true (List.all_eq_true.mp hl t.out (List.mem_map.mpr ⟨t, ht, rfl⟩))
    rw [← Proc.devRef_injective _ hb] at hn
    exact Nat.not_le.mpr hr hn

set_option maxRecDepth 8192 in
theorem roundA_outs : (outs (roundA (F := F))).all (fun y => 12 ≤ y.idx.val) = true := rfl
set_option maxRecDepth 8192 in
theorem roundB_outs : (outs (roundB (F := F))).all (fun y => 16 ≤ y.idx.val) = true := rfl
set_option maxRecDepth 8192 in
theorem roundC_outs : (outs (roundC (F := F))).all (fun y => 16 ≤ y.idx.val) = true := rfl

theorem args_below : ∀ r ∈ ARGS ++ [main_v1, main_v3], r.idx.val < 16 ∧ (r ∈ ARGS → r.idx.val < 12) := by decide

theorem line_arg (V : Valuation τ sig (Elt F)) (r : Ref sig .tc) (h : r ∈ ARGS) : after (ops line) V (Proc.devRef .tc r) = V (Proc.devRef .tc r) := by
  have hr := args_below r (List.mem_append_left _ h)
  rw [after_line, after_keep_below roundC _ 16 roundC_outs hr.1, after_keep_below roundB _ 16 roundB_outs hr.1,
    after_keep_below roundA _ 12 roundA_outs (hr.2 h)]

set_option maxRecDepth 8192 in
theorem line_result (V : Valuation τ sig (Elt F)) :
    after (ops line) V (Proc.devRef .tc main_v734)
      = RefTerm.result ⟪V, main_arg1⟫ ⟪V, main_arg2⟫ ⟪V, main_arg4⟫ ⟪V, main_arg5⟫ ⟪V, main_arg6⟫ ⟪V, main_arg7⟫ ⟪V, main_arg8⟫ ⟪V, main_arg9⟫
          ⟪V, main_arg10⟫ ⟪V, main_arg11⟫ ⟪V, main_arg0⟫ ⟪V, main_arg3⟫ := by
  have hA : ∀ r ∈ ARGS, ⟪after (ops roundA) V, r⟫ = ⟪V, r⟫ := fun r h =>
    after_keep_below roundA V 12 roundA_outs ((args_below r (List.mem_append_left _ h)).2 h)
  have hB : ∀ r ∈ ARGS ++ [main_v1, main_v3], ⟪after (ops roundB) (after (ops roundA) V), r⟫ = ⟪after (ops roundA) V, r⟫ := fun r h =>
    after_keep_below roundB _ 16 roundB_outs (args_below r h).1
  have h1A : ⟪after (ops roundA) V, main_v1⟫ = edgeRow0 ⟪after (ops roundA) V, main_arg1⟫ := by rw [roundA_v1, hA main_arg1 (by decide)]
  have h3A : ⟪after (ops roundA) V, main_v3⟫ = edgeRow1 ⟪after (ops roundA) V, main_arg1⟫ := by rw [roundA_v3, hA main_arg1 (by decide)]
  have h1B : ⟪after (ops roundB) (after (ops roundA) V), main_v1⟫ = edgeRow0 ⟪after (ops roundB) (after (ops roundA) V), main_arg1⟫ := by
    rw [hB main_v1 (by decide), hB main_arg1 (by decide), h1A]
  have h3B : ⟪after (ops roundB) (after (ops roundA) V), main_v3⟫ = edgeRow1 ⟪after (ops roundB) (after (ops roundA) V), main_arg1⟫ := by
    rw [hB main_v3 (by decide), hB main_arg1 (by decide), h3A]
  rw [after_line, roundC_out _ h1B h3B, roundB_out _ h1A h3A, roundA_out]
  simp (disch := decide) only [hA, hB]
  rfl

/-- Every weakly fair execution of @main ends with the result buffer at `RefTerm.result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v734)
        = Cert.ReferenceIdeal.RefTerm.result (m ((c.tc : Thread nD τ).loc main_arg1)) (m ((c.tc : Thread nD τ).loc main_arg2)) (m ((c.tc : Thread nD τ).loc main_arg4)) (m ((c.tc : Thread nD τ).loc main_arg5))
            (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
            (m ((c.tc : Thread nD τ).loc main_arg0)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v734).trans (line_result (launchContents m c)),
      (h c main_arg0).trans (line_arg (launchContents m c) main_arg0 (by decide)),
      (h c main_arg1).trans (line_arg (launchContents m c) main_arg1 (by decide)),
      (h c main_arg2).trans (line_arg (launchContents m c) main_arg2 (by decide)),
      (h c main_arg3).trans (line_arg (launchContents m c) main_arg3 (by decide)),
      (h c main_arg4).trans (line_arg (launchContents m c) main_arg4 (by decide)),
      (h c main_arg5).trans (line_arg (launchContents m c) main_arg5 (by decide)),
      (h c main_arg6).trans (line_arg (launchContents m c) main_arg6 (by decide)),
      (h c main_arg7).trans (line_arg (launchContents m c) main_arg7 (by decide)),
      (h c main_arg8).trans (line_arg (launchContents m c) main_arg8 (by decide)),
      (h c main_arg9).trans (line_arg (launchContents m c) main_arg9 (by decide)),
      (h c main_arg10).trans (line_arg (launchContents m c) main_arg10 (by decide)),
      (h c main_arg11).trans (line_arg (launchContents m c) main_arg11 (by decide))⟩)
    (run_seq scopedRefs_eq scopedSems_eq defs main (fun _ => ops line) main_eq (fun _ => ops_sub line) m ρ (fun _ => ops_fresh line))

end Cert.ReferenceIdeal.RefRun

end
-- ==== Proof.RefLeaves.lean ====
import proofs.«416992_j9088150798514_2_alg».proof.Proof.RefTerms
import proofs.«416992_j9088150798514_2_alg».proof.Proof.Spec
import proofs.«416992_j9088150798514_2_alg».proof.Proof.LibCoe
import proofs.«416992_j9088150798514_2_alg».proof.Proof.LibScatter
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx

theorem rowB_apply (v : FVec Ideal S64 .f32) (n : Fin 100000) (d : Fin 64) :
    Cert.ReferenceIdeal.RefTerm.rowB v (ix2 n d) = v (ix1 d) := by
  unfold Cert.ReferenceIdeal.RefTerm.rowB
  refine (broadcastInDim_apply _ _ _ (ix2 n d) (ix2 (0 : Fin 1) d) (fun a => ?_)).trans ?_
  · match a with
    | ⟨0, _⟩ => rfl
    | ⟨1, _⟩ => rfl
  · refine (broadcastInDim_apply _ _ _ (ix2 (0 : Fin 1) d) (ix1 d) (fun a => ?_))
    match a with
    | ⟨0, _⟩ => rfl

theorem bcastRow_apply (v : FVec Ideal S1x64 .f32) (n : Fin 100000) (d : Fin 64) :
    (broadcastInDim S100000x64 ![0, 1] bcast_S1x64_S100000x64_0_1 v : FVec Ideal S100000x64 .f32) (ix2 n d) = v (ix2 (0 : Fin 1) d) := by
  refine (broadcastInDim_apply _ _ _ (ix2 n d) (ix2 (0 : Fin 1) d) (fun a => ?_))
  match a with
  | ⟨0, _⟩ => rfl
  | ⟨1, _⟩ => rfl

theorem zeroX_apply (n : Fin 100000) (d : Fin 64) :
    Cert.ReferenceIdeal.RefTerm.zeroX (F := Ideal) (ix2 n d) = ((0 : ℝ) : EReal) := by
  unfold Cert.ReferenceIdeal.RefTerm.zeroX
  refine (broadcastInDim_apply _ _ _ (ix2 n d) ix0 (fun a => a.elim0)).trans ?_
  exact Gnn.Coe.ofBits_zero_coe

theorem bcastS1x64_apply {α : Type} (v : S_.Idx → α) (d : Fin 64) :
    broadcastInDim S1x64 ![] bcast_S_S1x64 v (ix2 (0 : Fin 1) d) = v ix0 :=
  broadcastInDim_apply _ _ _ (ix2 (0 : Fin 1) d) ix0 (fun a => a.elim0)

theorem dot_lhs0 (j : S100000x64.Idx) (k : dot_S100000x64_S64x64_S100000x64_1_0_0_1_n_n.contr.Idx) :
    (dot_S100000x64_S64x64_S100000x64_1_0_0_1_n_n.lhsIdx j k 0).val = (j 0).val := rfl
theorem dot_lhs1 (j : S100000x64.Idx) (k : dot_S100000x64_S64x64_S100000x64_1_0_0_1_n_n.contr.Idx) :
    (dot_S100000x64_S64x64_S100000x64_1_0_0_1_n_n.lhsIdx j k 1).val = (k ⟨0, by decide⟩).val := rfl
theorem dot_rhs0 (j : S100000x64.Idx) (k : dot_S100000x64_S64x64_S100000x64_1_0_0_1_n_n.contr.Idx) :
    (dot_S100000x64_S64x64_S100000x64_1_0_0_1_n_n.rhsIdx j k 0).val = (k ⟨0, by decide⟩).val := rfl
theorem dot_rhs1 (j : S100000x64.Idx) (k : dot_S100000x64_S64x64_S100000x64_1_0_0_1_n_n.contr.Idx) :
    (dot_S100000x64_S64x64_S100000x64_1_0_0_1_n_n.rhsIdx j k 1).val = (j 1).val := rfl

theorem dot_apply (a : FVec Ideal S100000x64 .f32) (w : FVec Ideal S64x64 .f32) (n : Fin 100000) (d : Fin 64) :
    (Host.dotGeneral dot_S100000x64_S64x64_S100000x64_1_0_0_1_n_n none a w : FVec Ideal S100000x64 .f32) (ix2 n d)
      = ∑ k : Fin 64, a (ix2 n k) * w (ix2 k d) := by
  refine (Ideal.dotGeneral_apply _ none .single a w (ix2 n d)).trans ?_
  rw [← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have h1 : dot_S100000x64_S64x64_S100000x64_1_0_0_1_n_n.lhsIdx (ix2 n d) ((contrEquiv1 dot_S100000x64_S64x64_S100000x64_1_0_0_1_n_n 64 rfl rfl).symm k) = ix2 n k := by
    funext ax
    refine Fin.ext ?_
    match ax with
    | ⟨0, _⟩ => exact dot_lhs0 _ _
    | ⟨1, _⟩ => exact (dot_lhs1 _ _).trans hk
  have h2 : dot_S100000x64_S64x64_S100000x64_1_0_0_1_n_n.rhsIdx (ix2 n d) ((contrEquiv1 dot_S100000x64_S64x64_S100000x64_1_0_0_1_n_n 64 rfl rfl).symm k) = ix2 k d := by
    funext ax
    refine Fin.ext ?_
    match ax with
    | ⟨0, _⟩ => exact (dot_rhs0 _ _).trans hk
    | ⟨1, _⟩ => exact dot_rhs1 _ _
  rw [h1, h2]

theorem dot_coe (a : FVec Ideal S100000x64 .f32) (w : FVec Ideal S64x64 .f32) (ar : Fin 100000 → Fin 64 → ℝ) (wr : Fin 64 → Fin 64 → ℝ)
    (ha : ∀ n k, a (ix2 n k) = ((ar n k : ℝ) : EReal)) (hw : ∀ k d, w (ix2 k d) = ((wr k d : ℝ) : EReal)) (n : Fin 100000) (d : Fin 64) :
    (Host.dotGeneral dot_S100000x64_S64x64_S100000x64_1_0_0_1_n_n none a w : FVec Ideal S100000x64 .f32) (ix2 n d)
      = ((∑ k, ar n k * wr k d : ℝ) : EReal) := by
  rw [dot_apply]
  exact Gnn.Coe.sum_eq_coe Finset.univ _ (fun k => ar n k * wr k d) (fun k _ => by rw [ha, hw, Gnn.Coe.mul_coe])

theorem reduces_d0 : Shape.Reduces S100000x64 [0] S64 := by decide

theorem colMean_apply (z : FVec Ideal S100000x64 .f32) (d : Fin 64) :
    Cert.ReferenceIdeal.RefTerm.colMean z (ix2 (0 : Fin 1) d) = Ideal.div (∑ n : Fin 100000, z (ix2 n d)) ((100000 : ℝ) : EReal) := by
  unfold Cert.ReferenceIdeal.RefTerm.colMean
  have hA : (broadcastInDim S1x64 ![1] bcast_S64_S1x64_1 (Host.reduceAdd z (constant (F := Ideal) S_ .f32 0x00000000#32) reducesTo_S100000x64_S64_d0 h_S_)) (ix2 (0 : Fin 1) d)
      = ∑ n : Fin 100000, z (ix2 n d) := by
    refine (broadcastInDim_apply _ _ _ (ix2 (0 : Fin 1) d) (ix1 d) (fun a => ?_)).trans ?_
    · match a with
      | ⟨0, _⟩ => rfl
    · refine (Ideal.hostReduceAdd_single reducesTo_S100000x64_S64_d0 reduces_d0 z _ (ix1 d)).trans ?_
      show Ideal.ofBits .f32 0x00000000#32 + ∑ k : Fin 100000, z (reduces_d0.lift (ix1 d) k) = _
      rw [Gnn.Coe.ofBits_zero, zero_add]
      refine Finset.sum_congr rfl fun k _ => congrArg z ?_
      funext a
      refine Fin.ext ?_
      match a with
      | ⟨0, _⟩ => rfl
      | ⟨1, _⟩ => rfl
  have hB : (broadcastInDim S1x64 ![] bcast_S_S1x64 (constant (F := Ideal) S_ .f32 0x47C35000#32)) (ix2 (0 : Fin 1) d) = ((100000 : ℝ) : EReal) :=
    (bcastS1x64_apply _ d).trans Gnn.Coe.ofBits_100000
  show Ideal.div _ _ = _
  rw [hA, hB]

theorem colMean_coe (z : FVec Ideal S100000x64 .f32) (zr : Fin 100000 → Fin 64 → ℝ)
    (hz : ∀ n d, z (ix2 n d) = ((zr n d : ℝ) : EReal)) (d : Fin 64) :
    Cert.ReferenceIdeal.RefTerm.colMean z (ix2 (0 : Fin 1) d) = (((∑ n, zr n d) / 100000 : ℝ) : EReal) := by
  rw [colMean_apply, Gnn.Coe.sum_eq_coe Finset.univ _ (fun n => zr n d) (fun n _ => hz n d), Gnn.Coe.div_coe' _ _ (by norm_num)]

theorem edgeRow_apply (ei : IVec S2x1200000 32) (ho : Nat) (h : Fin 2) (hh : h.val = ho) (h1 : S2x1200000.Slices ![ho, 0] S1x1200000)
    (h2 : S1x1200000.ShapeCasts S1200000) (e : Fin 1200000) :
    shapeCast S1200000 (extractStridedSlice S1x1200000 ![ho, 0] ei h1) h2 (ix1 e) = ei (ix2 h e) := by
  refine (shapeCast_apply _ h2 (ix1 e) (ix2 (0 : Fin 1) e) ?_).trans ?_
  · rw [Shape.rowMajor_val_two, Shape.rowMajor_val_one]
    show 0 * 1200000 + e.val = e.val
    omega
  · refine extractStridedSlice_apply _ ei h1 _ (ix2 h e) (fun a => ?_)
    match a with
    | ⟨0, _⟩ => show h.val = ho + 0; omega
    | ⟨1, _⟩ => show e.val = 0 + e.val; omega

theorem edgeCol_apply {α : Type} (v : S1200000.Idx → α) (e : Fin 1200000) :
    broadcastInDim S1200000x1 ![0] bcast_S1200000_S1200000x1_0 v (ix2 e (⟨0, Nat.one_pos⟩ : Fin 1)) = v (ix1 e) := by
  refine broadcastInDim_apply _ _ _ _ (ix1 e) (fun a => ?_)
  match a with
  | ⟨0, _⟩ => rfl

theorem dstIdx_apply (ei : IVec S2x1200000 32) (e : Fin 1200000) :
    Cert.ReferenceIdeal.RefTerm.dstIdx ei (ix2 e (⟨0, Nat.one_pos⟩ : Fin 1)) = ei (ix2 (1 : Fin 2) e) := by
  unfold Cert.ReferenceIdeal.RefTerm.dstIdx
  exact (edgeCol_apply _ e).trans (edgeRow_apply ei 1 1 rfl _ _ e)

theorem srcIdx_apply (ei : IVec S2x1200000 32) (e : Fin 1200000) :
    Cert.ReferenceIdeal.RefTerm.srcIdx ei (ix2 e (⟨0, Nat.one_pos⟩ : Fin 1))
      = if (ei (ix2 (0 : Fin 2) e)).toInt < 0 then ei (ix2 (0 : Fin 2) e) + 100000#32 else ei (ix2 (0 : Fin 2) e) := by
  unfold Cert.ReferenceIdeal.RefTerm.srcIdx
  refine (edgeCol_apply _ e).trans ?_
  have hv := edgeRow_apply ei 0 0 rfl slices_S2x1200000_S1x1200000_0_0 shapeCasts_S1x1200000_S1200000 e
  show Scalar.select (IntOp.cmpi .slt (shapeCast S1200000 (extractStridedSlice S1x1200000 ![0, 0] ei slices_S2x1200000_S1x1200000_0_0) shapeCasts_S1x1200000_S1200000 (ix1 e)) 0#32)
      (IntOp.addi (shapeCast S1200000 (extractStridedSlice S1x1200000 ![0, 0] ei slices_S2x1200000_S1x1200000_0_0) shapeCasts_S1x1200000_S1200000 (ix1 e)) 100000#32)
      (shapeCast S1200000 (extractStridedSlice S1x1200000 ![0, 0] ei slices_S2x1200000_S1x1200000_0_0) shapeCasts_S1x1200000_S1200000 (ix1 e)) = _
  rw [hv]
  generalize ei (ix2 (0 : Fin 2) e) = b
  by_cases hb : b.toInt < 0
  · rw [if_pos hb]
    have : IntOp.cmpi .slt b 0#32 = 1#1 := by
      simp [IntOp.cmpi, BitVec.slt, hb]
    rw [this, select_one]; rfl
  · rw [if_neg hb]
    have : IntOp.cmpi .slt b 0#32 = 0#1 := by
      simp [IntOp.cmpi, BitVec.slt, hb]
    rw [this, select_zero]

theorem msgs_apply (x : FVec Ideal S100000x64 .f32) (ei : IVec S2x1200000 32) (G : Gnn.Words)
    (hG0 : ∀ e, ei (ix2 (0 : Fin 2) e) = G.e0 e) (e : Fin 1200000) (k : Fin 64) :
    (Host.gather gather_S100000x64_S1200000x1_S1200000x64_1_0_n_n_0_1_164 x (Cert.ReferenceIdeal.RefTerm.srcIdx ei) : FVec Ideal S1200000x64 .f32) (ix2 e k)
      = x (ix2 (Gnn.src G e) k) := by
  refine (Gnn.Scatter.gather_row_apply (N := 100000) (E := 1200000) (C := 64) (by norm_num) gather_S100000x64_S1200000x1_S1200000x64_1_0_n_n_0_1_164_wf x (Cert.ReferenceIdeal.RefTerm.srcIdx ei) e k).trans ?_
  refine congrArg x ?_
  refine congrArg (fun q => ix2 q k) ?_
  refine Fin.ext ?_
  show min (Cert.ReferenceIdeal.RefTerm.srcIdx ei (ix2 e ⟨0, Nat.one_pos⟩)).toInt.toNat (100000 - 1) = _
  rw [srcIdx_apply, hG0]
  rfl

theorem slice4_apply {α : Type} (w : S3x4x64x64.Idx → α) (lo ro : Nat) (l : Fin 3) (r : Fin 4) (hl : l.val = lo) (hr : r.val = ro)
    (h1 : S3x4x64x64.Slices ![lo, ro, 0, 0] S1x1x64x64) (h2 : S1x1x64x64.ShapeCasts S64x64) (k d : Fin 64) :
    shapeCast S64x64 (extractStridedSlice S1x1x64x64 ![lo, ro, 0, 0] w h1) h2 (ix2 k d) = w (ix4 l r k d) := by
  refine (shapeCast_apply _ h2 (ix2 k d) (ix4 (0 : Fin 1) (0 : Fin 1) k d) ?_).trans ?_
  · rw [Shape.rowMajor_val_four, Shape.rowMajor_val_two]
    show ((0 * 1 + 0) * 64 + k.val) * 64 + d.val = k.val * 64 + d.val
    omega
  · refine extractStridedSlice_apply _ w h1 _ (ix4 l r k d) (fun a => ?_)
    match a with
    | ⟨0, _⟩ => show l.val = lo + 0; omega
    | ⟨1, _⟩ => show r.val = ro + 0; omega
    | ⟨2, _⟩ => show k.val = 0 + k.val; omega
    | ⟨3, _⟩ => show d.val = 0 + d.val; omega

theorem slice3_apply {α : Type} (b : S3x4x64.Idx → α) (lo ro : Nat) (l : Fin 3) (r : Fin 4) (hl : l.val = lo) (hr : r.val = ro)
    (h1 : S3x4x64.Slices ![lo, ro, 0] S1x1x64) (h2 : S1x1x64.ShapeCasts S64) (d : Fin 64) :
    shapeCast S64 (extractStridedSlice S1x1x64 ![lo, ro, 0] b h1) h2 (ix1 d) = b (ix3 l r d) := by
  refine (shapeCast_apply _ h2 (ix1 d) (ix3 (0 : Fin 1) (0 : Fin 1) d) ?_).trans ?_
  · rw [Shape.rowMajor_val_three, Shape.rowMajor_val_one]
    show (0 * 1 + 0) * 64 + d.val = d.val
    omega
  · refine extractStridedSlice_apply _ b h1 _ (ix3 l r d) (fun a => ?_)
    match a with
    | ⟨0, _⟩ => show l.val = lo + 0; omega
    | ⟨1, _⟩ => show r.val = ro + 0; omega
    | ⟨2, _⟩ => show d.val = 0 + d.val; omega

theorem sliceW_apply {α : Type} (w : S3x64x64.Idx → α) (lo : Nat) (l : Fin 3) (hl : l.val = lo)
    (h1 : S3x64x64.Slices ![lo, 0, 0] S1x64x64) (h2 : S1x64x64.ShapeCasts S64x64) (k d : Fin 64) :
    shapeCast S64x64 (extractStridedSlice S1x64x64 ![lo, 0, 0] w h1) h2 (ix2 k d) = w (ix3 l k d) := by
  refine (shapeCast_apply _ h2 (ix2 k d) (ix3 (0 : Fin 1) k d) ?_).trans ?_
  · rw [Shape.rowMajor_val_three, Shape.rowMajor_val_two]
    show (0 * 64 + k.val) * 64 + d.val = k.val * 64 + d.val
    omega
  · refine extractStridedSlice_apply _ w h1 _ (ix3 l k d) (fun a => ?_)
    match a with
    | ⟨0, _⟩ => show l.val = lo + 0; omega
    | ⟨1, _⟩ => show k.val = 0 + k.val; omega
    | ⟨2, _⟩ => show d.val = 0 + d.val; omega

theorem sliceB_apply {α : Type} (b : S3x64.Idx → α) (lo : Nat) (l : Fin 3) (hl : l.val = lo)
    (h1 : S3x64.Slices ![lo, 0] S1x64) (h2 : S1x64.ShapeCasts S64) (d : Fin 64) :
    shapeCast S64 (extractStridedSlice S1x64 ![lo, 0] b h1) h2 (ix1 d) = b (ix2 l d) := by
  refine (shapeCast_apply _ h2 (ix1 d) (ix2 (0 : Fin 1) d) ?_).trans ?_
  · rw [Shape.rowMajor_val_two, Shape.rowMajor_val_one]
    show 0 * 64 + d.val = d.val
    omega
  · refine extractStridedSlice_apply _ b h1 _ (ix2 l d) (fun a => ?_)
    match a with
    | ⟨0, _⟩ => show l.val = lo + 0; omega
    | ⟨1, _⟩ => show d.val = 0 + d.val; omega

theorem wslSlice_apply (l : Fin 3) (w : FVec Ideal S3x64x64 .f32) (h : S3x64x64.Slices ![l.val, 0, 0] S1x64x64) (k d : Fin 64) :
    (shapeCast S64x64 (extractStridedSlice S1x64x64 ![l.val, 0, 0] w h) shapeCasts_S1x64x64_S64x64 : FVec Ideal S64x64 .f32) (ix2 k d) = w (ix3 l k d) :=
  sliceW_apply w l.val l rfl h _ k d

theorem bslSlice_apply (l : Fin 3) (w : FVec Ideal S3x64 .f32) (h : S3x64.Slices ![l.val, 0] S1x64) (d : Fin 64) :
    (shapeCast S64 (extractStridedSlice S1x64 ![l.val, 0] w h) shapeCasts_S1x64_S64 : FVec Ideal S64 .f32) (ix1 d) = w (ix2 l d) :=
  sliceB_apply w l.val l rfl h _ d

theorem matSlice_apply (l : Fin 3) (q : Fin 4) (w : FVec Ideal S3x4x64x64 .f32) (h : S3x4x64x64.Slices ![l.val, q.val, 0, 0] S1x1x64x64) (k d : Fin 64) :
    (shapeCast S64x64 (extractStridedSlice S1x1x64x64 ![l.val, q.val, 0, 0] w h) shapeCasts_S1x1x64x64_S64x64 : FVec Ideal S64x64 .f32) (ix2 k d) = w (ix4 l q k d) :=
  slice4_apply w l.val q.val l q rfl rfl h _ k d

theorem vecSlice_apply (l : Fin 3) (q : Fin 4) (w : FVec Ideal S3x4x64 .f32) (h : S3x4x64.Slices ![l.val, q.val, 0] S1x1x64) (d : Fin 64) :
    (shapeCast S64 (extractStridedSlice S1x1x64 ![l.val, q.val, 0] w h) shapeCasts_S1x1x64_S64 : FVec Ideal S64 .f32) (ix1 d) = w (ix3 l q d) :=
  slice3_apply w l.val q.val l q rfl rfl h _ d

theorem hostDivf_apply {s : Shape} (a b : FVec Ideal s .f32) (i : s.Idx) : Host.divf a b i = Ideal.div (a i) (b i) := rfl

theorem scatterAdd_def {s si u : Shape} {w : Nat} (dd : ScatterDims s si u) (x : FVec Ideal s .f32) (idx : IVec si w) (upd : FVec Ideal u .f32) :
    Host.scatterAdd dd x idx upd = Ideal.hostScatterAdd dd x idx upd := rfl

theorem scatterRow_eq : scatter_S100000x64_S1200000x1_S1200000x64_1_0_0_1
    = Gnn.Scatter.rowScatter 100000 1200000 64 scatter_S100000x64_S1200000x1_S1200000x64_1_0_0_1_wf := rfl
theorem scatterPool_eq : scatter_S128x64_S100000x1_S100000x64_1_0_0_1
    = Gnn.Scatter.rowScatter 128 100000 64 scatter_S128x64_S100000x1_S100000x64_1_0_0_1_wf := rfl
theorem scatterCount_eq : scatter_S128_S100000x1_S100000_n_0_0_1
    = Gnn.Scatter.vecScatter 128 100000 scatter_S128_S100000x1_S100000_n_0_0_1_wf := rfl

theorem nodeCol_apply {α : Type} (v : S100000.Idx → α) (n : Fin 100000) :
    broadcastInDim S100000x1 ![0] bcast_S100000_S100000x1_0 v (ix2 n (⟨0, Nat.one_pos⟩ : Fin 1)) = v (ix1 n) := by
  refine broadcastInDim_apply _ _ _ _ (ix1 n) (fun a => ?_)
  match a with
  | ⟨0, _⟩ => rfl

theorem poolSum_coe (x : FVec Ideal S100000x64 .f32) (gr : IVec S100000 32) (G : Gnn.Words) (xr : Gnn.Feat)
    (hx : ∀ n k, x (ix2 n k) = ((xr n k : ℝ) : EReal)) (hgr : ∀ n, gr (ix1 n) = G.gr n) (g : Fin 128) (d : Fin 64) :
    (Host.scatterAdd scatter_S128x64_S100000x1_S100000x64_1_0_0_1 (broadcastInDim S128x64 ![] bcast_S_S128x64 (constant S_ .f32 0x00000000#32))
      (broadcastInDim S100000x1 ![0] bcast_S100000_S100000x1_0 gr) x : FVec Ideal S128x64 .f32) (ix2 g d)
      = ((∑ n ∈ Gnn.members G g, xr n d : ℝ) : EReal) := by
  rw [scatterAdd_def, scatterPool_eq]
  refine (Gnn.Scatter.scatterAdd_row_apply (M := 128) (E := 100000) (C := 64) scatter_S128x64_S100000x1_S100000x64_1_0_0_1_wf _ _ x g d).trans ?_
  have h0 : (broadcastInDim S128x64 ![] bcast_S_S128x64 (constant (F := Ideal) S_ .f32 0x00000000#32)) (ix2 g d) = 0 :=
    (broadcastInDim_apply _ _ _ (ix2 g d) ix0 (fun a => a.elim0)).trans Gnn.Coe.ofBits_zero
  rw [h0, zero_add, Gnn.Coe.sum_eq_coe _ _ (fun n => xr n d) (fun n _ => hx n d)]
  refine congrArg _ ?_
  unfold Gnn.members
  refine Finset.sum_congr (Finset.filter_congr fun n _ => ?_) (fun _ _ => rfl)
  rw [nodeCol_apply, hgr]

theorem poolCount_coe (gr : IVec S100000 32) (G : Gnn.Words) (hgr : ∀ n, gr (ix1 n) = G.gr n) (g : Fin 128) :
    (Host.scatterAdd scatter_S128_S100000x1_S100000_n_0_0_1 (broadcastInDim S128 ![] bcast_S_S128 (constant S_ .f32 0x00000000#32))
      (broadcastInDim S100000x1 ![0] bcast_S100000_S100000x1_0 gr) (broadcastInDim S100000 ![] bcast_S_S100000 (constant S_ .f32 0x3F800000#32)) : FVec Ideal S128 .f32) (ix1 g)
      = (((Gnn.members G g).card : ℝ) : EReal) := by
  rw [scatterAdd_def, scatterCount_eq]
  refine (Gnn.Scatter.scatterAdd_vec_apply (M := 128) (E := 100000) scatter_S128_S100000x1_S100000_n_0_0_1_wf _ _ _ g).trans ?_
  have h0 : (broadcastInDim S128 ![] bcast_S_S128 (constant (F := Ideal) S_ .f32 0x00000000#32)) (ix1 g) = 0 :=
    (broadcastInDim_apply _ _ _ (ix1 g) ix0 (fun a => a.elim0)).trans Gnn.Coe.ofBits_zero
  have h1 : ∀ n : Fin 100000, (broadcastInDim S100000 ![] bcast_S_S100000 (constant (F := Ideal) S_ .f32 0x3F800000#32)) (ix1 n) = ((1 : ℝ) : EReal) :=
    fun n => (broadcastInDim_apply _ _ _ (ix1 n) ix0 (fun a => a.elim0)).trans Gnn.Coe.ofBits_one
  rw [h0, zero_add, Gnn.Coe.sum_eq_coe _ _ (fun _ => (1 : ℝ)) (fun n _ => h1 n)]
  refine congrArg _ ?_
  rw [Finset.sum_const, nsmul_eq_mul, mul_one]
  refine congrArg _ ?_
  unfold Gnn.members
  refine congrArg Finset.card (Finset.filter_congr fun n _ => ?_)
  rw [nodeCol_apply, hgr]

theorem poolTerm_coe (x : FVec Ideal S100000x64 .f32) (gr : IVec S100000 32) (G : Gnn.Words) (xr : Gnn.Feat)
    (hx : ∀ n k, x (ix2 n k) = ((xr n k : ℝ) : EReal)) (hgr : ∀ n, gr (ix1 n) = G.gr n) (g : Fin 128) (d : Fin 64) :
    Cert.ReferenceIdeal.RefTerm.poolTerm x gr (ix2 g d) = ((Gnn.pool G xr g d : ℝ) : EReal) := by
  unfold Cert.ReferenceIdeal.RefTerm.poolTerm
  have hB : (broadcastInDim S128x64 ![0, 1] bcast_S128x1_S128x64_0_1 (broadcastInDim S128x1 ![0] bcast_S128_S128x1_0
      (maximumf (Host.scatterAdd scatter_S128_S100000x1_S100000_n_0_0_1 (broadcastInDim S128 ![] bcast_S_S128 (constant S_ .f32 0x00000000#32))
          (broadcastInDim S100000x1 ![0] bcast_S100000_S100000x1_0 gr) (broadcastInDim S100000 ![] bcast_S_S100000 (constant S_ .f32 0x3F800000#32)))
        (broadcastInDim S128 ![] bcast_S_S128 (constant S_ .f32 0x3F800000#32)))) : FVec Ideal S128x64 .f32) (ix2 g d)
      = ((max ((Gnn.members G g).card : ℝ) 1 : ℝ) : EReal) := by
    refine (broadcastInDim_apply _ _ _ (ix2 g d) (ix2 g (⟨0, Nat.one_pos⟩ : Fin 1)) (fun a => ?_)).trans ?_
    · match a with
      | ⟨0, _⟩ => rfl
      | ⟨1, _⟩ => rfl
    refine (broadcastInDim_apply _ _ _ (ix2 g (⟨0, Nat.one_pos⟩ : Fin 1)) (ix1 g) (fun a => ?_)).trans ?_
    · match a with
      | ⟨0, _⟩ => rfl
    have h1 : (broadcastInDim S128 ![] bcast_S_S128 (constant (F := Ideal) S_ .f32 0x3F800000#32)) (ix1 g) = ((1 : ℝ) : EReal) :=
      (broadcastInDim_apply _ _ _ (ix1 g) ix0 (fun a => a.elim0)).trans Gnn.Coe.ofBits_one
    rw [maximumf_apply, poolCount_coe gr G hgr g, h1, Gnn.Coe.max_coe]
  rw [hostDivf_apply, poolSum_coe x gr G xr hx hgr g d, hB,
    Gnn.Coe.div_coe' _ _ (ne_of_gt (lt_of_lt_of_le one_pos (le_max_right _ _)))]
  rfl

theorem relWord (r : Fin 4) (b : BitVec 32) : b = BitVec.ofNat 32 r.val ↔ b.toInt = (r.val : ℤ) := by
  have h : (BitVec.ofNat 32 r.val).toInt = (r.val : ℤ) := by
    match r with
    | ⟨0, _⟩ => show (BitVec.ofNat 32 0).toInt = ((0 : ℕ) : ℤ); decide
    | ⟨1, _⟩ => show (BitVec.ofNat 32 1).toInt = ((1 : ℕ) : ℤ); decide
    | ⟨2, _⟩ => show (BitVec.ofNat 32 2).toInt = ((2 : ℕ) : ℤ); decide
    | ⟨3, _⟩ => show (BitVec.ofNat 32 3).toInt = ((3 : ℕ) : ℤ); decide
  rw [← h]
  exact BitVec.toInt_inj.symm

theorem mask_apply (rw : BitVec 32) (et : IVec S1200000 32) (e : Fin 1200000) (k : Fin 64) :
    (broadcastInDim S1200000x64 ![0, 1] bcast_S1200000x1_S1200000x64_0_1
      (broadcastInDim S1200000x1 ![0] bcast_S1200000_S1200000x1_0
        (uitofp (F := Ideal) .f32 (cmpi .eq et (broadcastInDim S1200000 ![] bcast_S_S1200000 (constantI S_ 32 rw)))))) (ix2 e k)
      = if et (ix1 e) = rw then ((1 : ℝ) : EReal) else ((0 : ℝ) : EReal) := by
  refine (broadcastInDim_apply _ _ _ (ix2 e k) (ix2 e (⟨0, Nat.one_pos⟩ : Fin 1)) (fun a => ?_)).trans ?_
  · match a with
    | ⟨0, _⟩ => rfl
    | ⟨1, _⟩ => rfl
  refine (edgeCol_apply _ e).trans ?_
  show FloatOps.uitofp (F := Ideal) .f32 (IntOp.cmpi .eq (et (ix1 e)) ((broadcastInDim S1200000 ![] bcast_S_S1200000 (constantI S_ 32 rw)) (ix1 e))) = _
  have hc : (broadcastInDim S1200000 ![] bcast_S_S1200000 (constantI S_ 32 rw)) (ix1 e) = rw :=
    broadcastInDim_apply _ _ _ (ix1 e) ix0 (fun a => a.elim0)
  rw [hc, Gnn.Coe.uitofp_bit]
  generalize et (ix1 e) = b
  by_cases hb : b = rw
  · rw [if_pos hb, if_pos]
    simp [IntOp.cmpi, hb]
  · rw [if_neg hb, if_neg]
    have hbf : (b == rw) = false := beq_eq_false_iff_ne.mpr hb
    simp [IntOp.cmpi, hbf]

theorem agg_coe (G : Gnn.Words) (r : Fin 4) (rw : BitVec 32) (hrw : ∀ b : BitVec 32, b = rw ↔ b.toInt = (r.val : ℤ))
    (msgs : FVec Ideal S1200000x64 .f32) (dsti : IVec S1200000x1 32) (mask : FVec Ideal S1200000x64 .f32)
    (xr : Gnn.Feat)
    (hmsgs : ∀ e k, msgs (ix2 e k) = ((xr (Gnn.src G e) k : ℝ) : EReal))
    (hdst : ∀ e, dsti (ix2 e (⟨0, Nat.one_pos⟩ : Fin 1)) = G.e1 e)
    (hmask : ∀ e k, mask (ix2 e k) = if G.ty e = rw then ((1 : ℝ) : EReal) else ((0 : ℝ) : EReal))
    (n : Fin 100000) (k : Fin 64) :
    (Host.scatterAdd scatter_S100000x64_S1200000x1_S1200000x64_1_0_0_1 Cert.ReferenceIdeal.RefTerm.zeroX dsti (mulf msgs mask) : FVec Ideal S100000x64 .f32) (ix2 n k)
      = ((Gnn.agg G xr r n k : ℝ) : EReal) := by
  rw [scatterAdd_def, scatterRow_eq]
  refine (Gnn.Scatter.scatterAdd_row_apply (M := 100000) (E := 1200000) (C := 64) scatter_S100000x64_S1200000x1_S1200000x64_1_0_0_1_wf
    (Cert.ReferenceIdeal.RefTerm.zeroX (F := Ideal)) dsti (mulf msgs mask) n k).trans ?_
  have hterm : ∀ e ∈ Finset.univ.filter (fun e : Fin 1200000 => (dsti (ix2 e ⟨0, Nat.one_pos⟩)).toInt = (n.val : ℤ)),
      (mulf msgs mask) (ix2 e k) = (((if (G.ty e).toInt = (r.val : ℤ) then xr (Gnn.src G e) k else 0 : ℝ)) : EReal) := by
    intro e _
    rw [mulf_apply, hmsgs, hmask]
    by_cases h : G.ty e = rw
    · rw [if_pos h, if_pos ((hrw _).mp h), Gnn.Coe.mul_coe_one]
    · rw [if_neg h, if_neg (fun h' => h ((hrw _).mpr h')), Gnn.Coe.mul_coe_zero, EReal.coe_zero]
  rw [zeroX_apply, Gnn.Coe.sum_eq_coe _ _ _ hterm, Gnn.Coe.add_coe, zero_add]
  refine congrArg _ ?_
  unfold Gnn.agg Gnn.inn
  rw [← Finset.sum_filter, Finset.filter_filter]
  refine Finset.sum_congr (Finset.filter_congr fun e _ => ?_) (fun _ _ => rfl)
  rw [hdst]

theorem maskedAgg_coe (msgs : FVec Ideal S1200000x64 .f32) (ei : IVec S2x1200000 32) (et : IVec S1200000 32) (G : Gnn.Words) (xr : Gnn.Feat)
    (hm : ∀ e k, msgs (ix2 e k) = ((xr (Gnn.src G e) k : ℝ) : EReal))
    (hG1 : ∀ e, ei (ix2 (1 : Fin 2) e) = G.e1 e) (hty : ∀ e, et (ix1 e) = G.ty e) (r : Fin 4) (n : Fin 100000) (k : Fin 64) :
    (Host.scatterAdd scatter_S100000x64_S1200000x1_S1200000x64_1_0_0_1 Cert.ReferenceIdeal.RefTerm.zeroX (Cert.ReferenceIdeal.RefTerm.dstIdx ei)
      (mulf msgs (broadcastInDim S1200000x64 ![0, 1] bcast_S1200000x1_S1200000x64_0_1
        (broadcastInDim S1200000x1 ![0] bcast_S1200000_S1200000x1_0
          (uitofp .f32 (cmpi .eq et (broadcastInDim S1200000 ![] bcast_S_S1200000 (constantI S_ 32 (BitVec.ofNat 32 r.val)))))))) : FVec Ideal S100000x64 .f32) (ix2 n k)
      = ((Gnn.agg G xr r n k : ℝ) : EReal) :=
  agg_coe G r (BitVec.ofNat 32 r.val) (relWord r) msgs (Cert.ReferenceIdeal.RefTerm.dstIdx ei) _ xr hm
    (fun e => (dstIdx_apply ei e).trans (hG1 e))
    (fun e k => (mask_apply (BitVec.ofNat 32 r.val) et e k).trans (by rw [hty])) n k

end Cert.ReferenceIdeal.RefValue

end
-- ==== Proof.RefValue.lean ====
import proofs.«416992_j9088150798514_2_alg».proof.Proof.RefTerms
import proofs.«416992_j9088150798514_2_alg».proof.Proof.Spec
import proofs.«416992_j9088150798514_2_alg».proof.Proof.LibCoe
import proofs.«416992_j9088150798514_2_alg».proof.Proof.LibScatter
import proofs.«416992_j9088150798514_2_alg».proof.Proof.RefLeaves
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx
open Cert.ReferenceIdeal.RefTerm

abbrev wordsOf (ei : IVec S2x1200000 32) (et : IVec S1200000 32) (gr : IVec S100000 32) : Gnn.Words :=
  ⟨fun e => ei (ix2 (0 : Fin 2) e), fun e => ei (ix2 (1 : Fin 2) e), fun e => et (ix1 e), fun n => gr (ix1 n)⟩

set_option maxHeartbeats 1000000 in

theorem relStep_apply (ei : IVec S2x1200000 32) (et : IVec S1200000 32) (G : Gnn.Words) (P : Gnn.LayerP) (r : Fin 4) (rw : BitVec 32)
    (hrw : rw = BitVec.ofNat 32 r.val)
    (hG1 : ∀ e, ei (ix2 (1 : Fin 2) e) = G.e1 e) (hty : ∀ e, et (ix1 e) = G.ty e)
    (x : FVec Ideal S100000x64 .f32) (msgs : FVec Ideal S1200000x64 .f32)
    (w1 : FVec Ideal S64x64 .f32) (b1 ga be : FVec Ideal S64 .f32) (w2 : FVec Ideal S64x64 .f32) (b2 : FVec Ideal S64 .f32)
    (acc : FVec Ideal S100000x64 .f32) (xr accR : Gnn.Feat)
    (hx : ∀ n k, x (ix2 n k) = ((xr n k : ℝ) : EReal))
    (hmsgs : ∀ e k, msgs (ix2 e k) = ((xr (Gnn.src G e) k : ℝ) : EReal))
    (hw1 : ∀ k d, w1 (ix2 k d) = ((P.w1 r k d : ℝ) : EReal)) (hb1 : ∀ d, b1 (ix1 d) = ((P.b1 r d : ℝ) : EReal))
    (hga : ∀ d, ga (ix1 d) = ((P.ga r d : ℝ) : EReal)) (hbe : ∀ d, be (ix1 d) = ((P.be r d : ℝ) : EReal))
    (hw2 : ∀ k d, w2 (ix2 k d) = ((P.w2 r k d : ℝ) : EReal)) (hb2 : ∀ d, b2 (ix1 d) = ((P.b2 r d : ℝ) : EReal))
    (hacc : ∀ n d, acc (ix2 n d) = ((accR n d : ℝ) : EReal)) (n : Fin 100000) (d : Fin 64) :
    relStep rw x msgs (dstIdx ei) et w1 b1 ga be w2 b2 acc (ix2 n d)
      = ((Gnn.stepOf P (Gnn.actOf Gnn.epsR P (Gnn.preOf P.w1 P.b1 xr (Gnn.agg G xr)) (Gnn.mean G P xr) (Gnn.var G P xr)) r accR n d : ℝ) : EReal) := by
  subst hrw
  simp -zeta only [relStep]
  extract_lets mask agg z mu c va rs zn zr
  have hagg : ∀ n k, agg (ix2 n k) = ((Gnn.agg G xr r n k : ℝ) : EReal) :=
    fun n k => maskedAgg_coe msgs ei et G xr hmsgs hG1 hty r n k
  have hz : ∀ n d, z (ix2 n d) = ((Gnn.pre G P xr r n d : ℝ) : EReal) := by
    intro n d
    show addf (Host.dotGeneral dot_S100000x64_S64x64_S100000x64_1_0_0_1_n_n none (addf x agg) w1) (rowB b1) (ix2 n d) = _
    rw [addf_apply, rowB_apply, hb1, dot_coe (addf x agg) w1 (fun n k => xr n k + Gnn.agg G xr r n k) (P.w1 r)
      (fun n k => by rw [addf_apply, hx, hagg, Gnn.Coe.add_coe]) hw1, Gnn.Coe.add_coe]
    rfl
  have hmu : ∀ d, mu (ix2 (0 : Fin 1) d) = ((Gnn.mean G P xr r d : ℝ) : EReal) := fun d => colMean_coe z _ hz d
  have hc : ∀ n d, c (ix2 n d) = ((Gnn.pre G P xr r n d - Gnn.mean G P xr r d : ℝ) : EReal) := by
    intro n d
    show subf z (broadcastInDim S100000x64 ![0, 1] bcast_S1x64_S100000x64_0_1 mu) (ix2 n d) = _
    rw [subf_apply, bcastRow_apply, hz, hmu, Gnn.Coe.sub_coe]
  have hva : ∀ d, va (ix2 (0 : Fin 1) d) = ((Gnn.var G P xr r d : ℝ) : EReal) := by
    intro d
    exact colMean_coe (mulf c c) (fun n d => (Gnn.pre G P xr r n d - Gnn.mean G P xr r d) * (Gnn.pre G P xr r n d - Gnn.mean G P xr r d))
      (fun n d => by rw [mulf_apply, hc, Gnn.Coe.mul_coe]) d
  have hrs : ∀ d, rs (ix2 (0 : Fin 1) d) = (((Real.sqrt (Gnn.var G P xr r d + Gnn.epsR))⁻¹ : ℝ) : EReal) := by
    intro d
    show Ideal.rsqrt ((addf va (broadcastInDim S1x64 ![] bcast_S_S1x64 (constant (F := Ideal) S_ .f32 0x3727C5AC#32))) (ix2 (0 : Fin 1) d)) = _
    rw [addf_apply, hva, bcastS1x64_apply, constant_apply, Gnn.Coe.ofBits_eps, Gnn.Coe.add_coe]
    exact Gnn.Coe.rsqrt_coe _ (add_pos_of_nonneg_of_pos (Gnn.var_nonneg G P xr r d) Gnn.epsR_pos)
  have hzr : ∀ n d, zr (ix2 n d) = ((Gnn.actOf Gnn.epsR P (Gnn.preOf P.w1 P.b1 xr (Gnn.agg G xr)) (Gnn.mean G P xr) (Gnn.var G P xr) r n d : ℝ) : EReal) := by
    intro n d
    show maximumf (addf (mulf (mulf (subf z (broadcastInDim S100000x64 ![0, 1] bcast_S1x64_S100000x64_0_1 mu))
      (broadcastInDim S100000x64 ![0, 1] bcast_S1x64_S100000x64_0_1 rs)) (rowB ga)) (rowB be)) zeroX (ix2 n d) = _
    rw [maximumf_apply, zeroX_apply, addf_apply, mulf_apply, mulf_apply, subf_apply, bcastRow_apply, bcastRow_apply, rowB_apply, rowB_apply,
      hz, hmu, hrs, hga, hbe, Gnn.Coe.sub_coe, Gnn.Coe.mul_coe, Gnn.Coe.mul_coe, Gnn.Coe.add_coe, Gnn.Coe.max_coe]
    rfl
  show addf (addf acc (Host.dotGeneral dot_S100000x64_S64x64_S100000x64_1_0_0_1_n_n none zr w2)) (rowB b2) (ix2 n d) = _
  rw [addf_apply, addf_apply, rowB_apply, hb2, hacc, dot_coe zr w2 _ (P.w2 r) hzr hw2, Gnn.Coe.add_coe, Gnn.Coe.add_coe]
  rfl

theorem selfTerm_coe (P : Gnn.LayerP) (x : FVec Ideal S100000x64 .f32) (wsl : FVec Ideal S64x64 .f32) (bsl : FVec Ideal S64 .f32) (xr : Gnn.Feat)
    (hx : ∀ n k, x (ix2 n k) = ((xr n k : ℝ) : EReal))
    (hwsl : ∀ k d, wsl (ix2 k d) = ((P.wsl k d : ℝ) : EReal)) (hbsl : ∀ d, bsl (ix1 d) = ((P.bsl d : ℝ) : EReal)) (n : Fin 100000) (d : Fin 64) :
    selfTerm x wsl bsl (ix2 n d) = ((Gnn.self P xr n d : ℝ) : EReal) := by
  unfold selfTerm
  rw [addf_apply, rowB_apply, hbsl, dot_coe x wsl xr P.wsl hx hwsl, Gnn.Coe.add_coe]
  rfl

set_option maxHeartbeats 1000000 in

theorem round_apply (ei : IVec S2x1200000 32) (et : IVec S1200000 32) (gr : IVec S100000 32)
    (wsl : FVec Ideal S3x64x64 .f32) (bsl : FVec Ideal S3x64 .f32) (w1 : FVec Ideal S3x4x64x64 .f32) (b1 ga be : FVec Ideal S3x4x64 .f32)
    (w2 : FVec Ideal S3x4x64x64 .f32) (b2 : FVec Ideal S3x4x64 .f32)
    (wslR : Fin 3 → Fin 64 → Fin 64 → ℝ) (bslR : Fin 3 → Fin 64 → ℝ)
    (w1R : Fin 3 → Fin 4 → Fin 64 → Fin 64 → ℝ) (b1R gaR beR : Fin 3 → Fin 4 → Fin 64 → ℝ)
    (w2R : Fin 3 → Fin 4 → Fin 64 → Fin 64 → ℝ) (b2R : Fin 3 → Fin 4 → Fin 64 → ℝ)
    (hwsl : ∀ l k d, wsl (ix3 l k d) = ((wslR l k d : ℝ) : EReal)) (hbsl : ∀ l d, bsl (ix2 l d) = ((bslR l d : ℝ) : EReal))
    (hw1 : ∀ l q k d, w1 (ix4 l q k d) = ((w1R l q k d : ℝ) : EReal)) (hb1 : ∀ l q d, b1 (ix3 l q d) = ((b1R l q d : ℝ) : EReal))
    (hga : ∀ l q d, ga (ix3 l q d) = ((gaR l q d : ℝ) : EReal)) (hbe : ∀ l q d, be (ix3 l q d) = ((beR l q d : ℝ) : EReal))
    (hw2 : ∀ l q k d, w2 (ix4 l q k d) = ((w2R l q k d : ℝ) : EReal)) (hb2 : ∀ l q d, b2 (ix3 l q d) = ((b2R l q d : ℝ) : EReal))
    (l : Fin 3) (lo : Nat) (hl : l.val = lo)
    (s40 : S3x4x64x64.Slices ![lo, 0, 0, 0] S1x1x64x64) (s41 : S3x4x64x64.Slices ![lo, 1, 0, 0] S1x1x64x64)
    (s42 : S3x4x64x64.Slices ![lo, 2, 0, 0] S1x1x64x64) (s43 : S3x4x64x64.Slices ![lo, 3, 0, 0] S1x1x64x64)
    (s30 : S3x4x64.Slices ![lo, 0, 0] S1x1x64) (s31 : S3x4x64.Slices ![lo, 1, 0] S1x1x64)
    (s32 : S3x4x64.Slices ![lo, 2, 0] S1x1x64) (s33 : S3x4x64.Slices ![lo, 3, 0] S1x1x64)
    (sw : S3x64x64.Slices ![lo, 0, 0] S1x64x64) (sb : S3x64.Slices ![lo, 0] S1x64)
    (x : FVec Ideal S100000x64 .f32) (xr : Gnn.Feat) (hx : ∀ n k, x (ix2 n k) = ((xr n k : ℝ) : EReal)) (n : Fin 100000) (d : Fin 64) :
    (relStep 3#32 x (Host.gather gather_S100000x64_S1200000x1_S1200000x64_1_0_n_n_0_1_164 x (srcIdx ei)) (dstIdx ei) et
      (shapeCast _ (extractStridedSlice S1x1x64x64 ![lo, 3, 0, 0] w1 s43) shapeCasts_S1x1x64x64_S64x64) (shapeCast _ (extractStridedSlice S1x1x64 ![lo, 3, 0] b1 s33) shapeCasts_S1x1x64_S64)
      (shapeCast _ (extractStridedSlice S1x1x64 ![lo, 3, 0] ga s33) shapeCasts_S1x1x64_S64) (shapeCast _ (extractStridedSlice S1x1x64 ![lo, 3, 0] be s33) shapeCasts_S1x1x64_S64)
      (shapeCast _ (extractStridedSlice S1x1x64x64 ![lo, 3, 0, 0] w2 s43) shapeCasts_S1x1x64x64_S64x64) (shapeCast _ (extractStridedSlice S1x1x64 ![lo, 3, 0] b2 s33) shapeCasts_S1x1x64_S64)
      (relStep 2#32 x (Host.gather gather_S100000x64_S1200000x1_S1200000x64_1_0_n_n_0_1_164 x (srcIdx ei)) (dstIdx ei) et
      (shapeCast _ (extractStridedSlice S1x1x64x64 ![lo, 2, 0, 0] w1 s42) shapeCasts_S1x1x64x64_S64x64) (shapeCast _ (extractStridedSlice S1x1x64 ![lo, 2, 0] b1 s32) shapeCasts_S1x1x64_S64)
      (shapeCast _ (extractStridedSlice S1x1x64 ![lo, 2, 0] ga s32) shapeCasts_S1x1x64_S64) (shapeCast _ (extractStridedSlice S1x1x64 ![lo, 2, 0] be s32) shapeCasts_S1x1x64_S64)
      (shapeCast _ (extractStridedSlice S1x1x64x64 ![lo, 2, 0, 0] w2 s42) shapeCasts_S1x1x64x64_S64x64) (shapeCast _ (extractStridedSlice S1x1x64 ![lo, 2, 0] b2 s32) shapeCasts_S1x1x64_S64)
      (relStep 1#32 x (Host.gather gather_S100000x64_S1200000x1_S1200000x64_1_0_n_n_0_1_164 x (srcIdx ei)) (dstIdx ei) et
      (shapeCast _ (extractStridedSlice S1x1x64x64 ![lo, 1, 0, 0] w1 s41) shapeCasts_S1x1x64x64_S64x64) (shapeCast _ (extractStridedSlice S1x1x64 ![lo, 1, 0] b1 s31) shapeCasts_S1x1x64_S64)
      (shapeCast _ (extractStridedSlice S1x1x64 ![lo, 1, 0] ga s31) shapeCasts_S1x1x64_S64) (shapeCast _ (extractStridedSlice S1x1x64 ![lo, 1, 0] be s31) shapeCasts_S1x1x64_S64)
      (shapeCast _ (extractStridedSlice S1x1x64x64 ![lo, 1, 0, 0] w2 s41) shapeCasts_S1x1x64x64_S64x64) (shapeCast _ (extractStridedSlice S1x1x64 ![lo, 1, 0] b2 s31) shapeCasts_S1x1x64_S64)
      (relStep 0#32 x (Host.gather gather_S100000x64_S1200000x1_S1200000x64_1_0_n_n_0_1_164 x (srcIdx ei)) (dstIdx ei) et
      (shapeCast _ (extractStridedSlice S1x1x64x64 ![lo, 0, 0, 0] w1 s40) shapeCasts_S1x1x64x64_S64x64) (shapeCast _ (extractStridedSlice S1x1x64 ![lo, 0, 0] b1 s30) shapeCasts_S1x1x64_S64)
      (shapeCast _ (extractStridedSlice S1x1x64 ![lo, 0, 0] ga s30) shapeCasts_S1x1x64_S64) (shapeCast _ (extractStridedSlice S1x1x64 ![lo, 0, 0] be s30) shapeCasts_S1x1x64_S64)
      (shapeCast _ (extractStridedSlice S1x1x64x64 ![lo, 0, 0, 0] w2 s40) shapeCasts_S1x1x64x64_S64x64) (shapeCast _ (extractStridedSlice S1x1x64 ![lo, 0, 0] b2 s30) shapeCasts_S1x1x64_S64)
      (selfTerm x (shapeCast _ (extractStridedSlice S1x64x64 ![lo, 0, 0] wsl sw) shapeCasts_S1x64x64_S64x64) (shapeCast _ (extractStridedSlice S1x64 ![lo, 0] bsl sb) shapeCasts_S1x64_S64)))))) (ix2 n d)
      = ((Gnn.core Gnn.epsR (wordsOf ei et gr) (Gnn.layerP wslR bslR w1R b1R gaR beR w2R b2R l) xr n d : ℝ) : EReal) := by
  subst hl
  have hG0 : ∀ e, ei (ix2 (0 : Fin 2) e) = (wordsOf ei et gr).e0 e := fun _ => rfl
  have hG1 : ∀ e, ei (ix2 (1 : Fin 2) e) = (wordsOf ei et gr).e1 e := fun _ => rfl
  have hty : ∀ e, et (ix1 e) = (wordsOf ei et gr).ty e := fun _ => rfl
  have hmsgs : ∀ e k, (Host.gather gather_S100000x64_S1200000x1_S1200000x64_1_0_n_n_0_1_164 x (srcIdx ei) : FVec Ideal S1200000x64 .f32) (ix2 e k)
      = ((xr (Gnn.src (wordsOf ei et gr) e) k : ℝ) : EReal) :=
    fun e k => (msgs_apply x ei (wordsOf ei et gr) hG0 e k).trans (hx _ k)
  unfold Gnn.core Gnn.coreOf
  refine relStep_apply ei et (wordsOf ei et gr) (Gnn.layerP wslR bslR w1R b1R gaR beR w2R b2R l) 3 3#32 rfl hG1 hty x _ _ _ _ _ _ _ _ xr _ hx hmsgs
    (fun k d => (matSlice_apply l 3 w1 s43 k d).trans (hw1 l 3 k d)) (fun d => (vecSlice_apply l 3 b1 s33 d).trans (hb1 l 3 d))
    (fun d => (vecSlice_apply l 3 ga s33 d).trans (hga l 3 d)) (fun d => (vecSlice_apply l 3 be s33 d).trans (hbe l 3 d))
    (fun k d => (matSlice_apply l 3 w2 s43 k d).trans (hw2 l 3 k d)) (fun d => (vecSlice_apply l 3 b2 s33 d).trans (hb2 l 3 d)) ?_ n d
  intro n d
  refine relStep_apply ei et (wordsOf ei et gr) (Gnn.layerP wslR bslR w1R b1R gaR beR w2R b2R l) 2 2#32 rfl hG1 hty x _ _ _ _ _ _ _ _ xr _ hx hmsgs
    (fun k d => (matSlice_apply l 2 w1 s42 k d).trans (hw1 l 2 k d)) (fun d => (vecSlice_apply l 2 b1 s32 d).trans (hb1 l 2 d))
    (fun d => (vecSlice_apply l 2 ga s32 d).trans (hga l 2 d)) (fun d => (vecSlice_apply l 2 be s32 d).trans (hbe l 2 d))
    (fun k d => (matSlice_apply l 2 w2 s42 k d).trans (hw2 l 2 k d)) (fun d => (vecSlice_apply l 2 b2 s32 d).trans (hb2 l 2 d)) ?_ n d
  intro n d
  refine relStep_apply ei et (wordsOf ei et gr) (Gnn.layerP wslR bslR w1R b1R gaR beR w2R b2R l) 1 1#32 rfl hG1 hty x _ _ _ _ _ _ _ _ xr _ hx hmsgs
    (fun k d => (matSlice_apply l 1 w1 s41 k d).trans (hw1 l 1 k d)) (fun d => (vecSlice_apply l 1 b1 s31 d).trans (hb1 l 1 d))
    (fun d => (vecSlice_apply l 1 ga s31 d).trans (hga l 1 d)) (fun d => (vecSlice_apply l 1 be s31 d).trans (hbe l 1 d))
    (fun k d => (matSlice_apply l 1 w2 s41 k d).trans (hw2 l 1 k d)) (fun d => (vecSlice_apply l 1 b2 s31 d).trans (hb2 l 1 d)) ?_ n d
  intro n d
  refine relStep_apply ei et (wordsOf ei et gr) (Gnn.layerP wslR bslR w1R b1R gaR beR w2R b2R l) 0 0#32 rfl hG1 hty x _ _ _ _ _ _ _ _ xr _ hx hmsgs
    (fun k d => (matSlice_apply l 0 w1 s40 k d).trans (hw1 l 0 k d)) (fun d => (vecSlice_apply l 0 b1 s30 d).trans (hb1 l 0 d))
    (fun d => (vecSlice_apply l 0 ga s30 d).trans (hga l 0 d)) (fun d => (vecSlice_apply l 0 be s30 d).trans (hbe l 0 d))
    (fun k d => (matSlice_apply l 0 w2 s40 k d).trans (hw2 l 0 k d)) (fun d => (vecSlice_apply l 0 b2 s30 d).trans (hb2 l 0 d)) ?_ n d
  intro n d
  exact selfTerm_coe (Gnn.layerP wslR bslR w1R b1R gaR beR w2R b2R l) x _ _ xr hx
    (fun k d => (wslSlice_apply l wsl sw k d).trans (hwsl l k d)) (fun d => (bslSlice_apply l bsl sb d).trans (hbsl l d)) n d

theorem core0_apply (ei : IVec S2x1200000 32) (et : IVec S1200000 32) (gr : IVec S100000 32)
    (wsl : FVec Ideal S3x64x64 .f32) (bsl : FVec Ideal S3x64 .f32) (w1 : FVec Ideal S3x4x64x64 .f32) (b1 ga be : FVec Ideal S3x4x64 .f32)
    (w2 : FVec Ideal S3x4x64x64 .f32) (b2 : FVec Ideal S3x4x64 .f32)
    (wslR : Fin 3 → Fin 64 → Fin 64 → ℝ) (bslR : Fin 3 → Fin 64 → ℝ)
    (w1R : Fin 3 → Fin 4 → Fin 64 → Fin 64 → ℝ) (b1R gaR beR : Fin 3 → Fin 4 → Fin 64 → ℝ)
    (w2R : Fin 3 → Fin 4 → Fin 64 → Fin 64 → ℝ) (b2R : Fin 3 → Fin 4 → Fin 64 → ℝ)
    (hwsl : ∀ l k d, wsl (ix3 l k d) = ((wslR l k d : ℝ) : EReal)) (hbsl : ∀ l d, bsl (ix2 l d) = ((bslR l d : ℝ) : EReal))
    (hw1 : ∀ l q k d, w1 (ix4 l q k d) = ((w1R l q k d : ℝ) : EReal)) (hb1 : ∀ l q d, b1 (ix3 l q d) = ((b1R l q d : ℝ) : EReal))
    (hga : ∀ l q d, ga (ix3 l q d) = ((gaR l q d : ℝ) : EReal)) (hbe : ∀ l q d, be (ix3 l q d) = ((beR l q d : ℝ) : EReal))
    (hw2 : ∀ l q k d, w2 (ix4 l q k d) = ((w2R l q k d : ℝ) : EReal)) (hb2 : ∀ l q d, b2 (ix3 l q d) = ((b2R l q d : ℝ) : EReal))
    (x : FVec Ideal S100000x64 .f32) (xr : Gnn.Feat) (hx : ∀ n k, x (ix2 n k) = ((xr n k : ℝ) : EReal)) (n : Fin 100000) (d : Fin 64) :
    core0 ei et wsl bsl w1 b1 ga be w2 b2 x (ix2 n d)
      = ((Gnn.core Gnn.epsR (wordsOf ei et gr) (Gnn.layerP wslR bslR w1R b1R gaR beR w2R b2R 0) xr n d : ℝ) : EReal) := by
  unfold core0
  exact round_apply ei et gr wsl bsl w1 b1 ga be w2 b2 wslR bslR w1R b1R gaR beR w2R b2R hwsl hbsl hw1 hb1 hga hbe hw2 hb2 0 0 rfl _ _ _ _ _ _ _ _ _ _ x xr hx n d

theorem core1_apply (ei : IVec S2x1200000 32) (et : IVec S1200000 32) (gr : IVec S100000 32)
    (wsl : FVec Ideal S3x64x64 .f32) (bsl : FVec Ideal S3x64 .f32) (w1 : FVec Ideal S3x4x64x64 .f32) (b1 ga be : FVec Ideal S3x4x64 .f32)
    (w2 : FVec Ideal S3x4x64x64 .f32) (b2 : FVec Ideal S3x4x64 .f32)
    (wslR : Fin 3 → Fin 64 → Fin 64 → ℝ) (bslR : Fin 3 → Fin 64 → ℝ)
    (w1R : Fin 3 → Fin 4 → Fin 64 → Fin 64 → ℝ) (b1R gaR beR : Fin 3 → Fin 4 → Fin 64 → ℝ)
    (w2R : Fin 3 → Fin 4 → Fin 64 → Fin 64 → ℝ) (b2R : Fin 3 → Fin 4 → Fin 64 → ℝ)
    (hwsl : ∀ l k d, wsl (ix3 l k d) = ((wslR l k d : ℝ) : EReal)) (hbsl : ∀ l d, bsl (ix2 l d) = ((bslR l d : ℝ) : EReal))
    (hw1 : ∀ l q k d, w1 (ix4 l q k d) = ((w1R l q k d : ℝ) : EReal)) (hb1 : ∀ l q d, b1 (ix3 l q d) = ((b1R l q d : ℝ) : EReal))
    (hga : ∀ l q d, ga (ix3 l q d) = ((gaR l q d : ℝ) : EReal)) (hbe : ∀ l q d, be (ix3 l q d) = ((beR l q d : ℝ) : EReal))
    (hw2 : ∀ l q k d, w2 (ix4 l q k d) = ((w2R l q k d : ℝ) : EReal)) (hb2 : ∀ l q d, b2 (ix3 l q d) = ((b2R l q d : ℝ) : EReal))
    (x : FVec Ideal S100000x64 .f32) (xr : Gnn.Feat) (hx : ∀ n k, x (ix2 n k) = ((xr n k : ℝ) : EReal)) (n : Fin 100000) (d : Fin 64) :
    core1 ei et wsl bsl w1 b1 ga be w2 b2 x (ix2 n d)
      = ((Gnn.core Gnn.epsR (wordsOf ei et gr) (Gnn.layerP wslR bslR w1R b1R gaR beR w2R b2R 1) xr n d : ℝ) : EReal) := by
  unfold core1
  exact round_apply ei et gr wsl bsl w1 b1 ga be w2 b2 wslR bslR w1R b1R gaR beR w2R b2R hwsl hbsl hw1 hb1 hga hbe hw2 hb2 1 1 rfl _ _ _ _ _ _ _ _ _ _ x xr hx n d

theorem core2_apply (ei : IVec S2x1200000 32) (et : IVec S1200000 32) (gr : IVec S100000 32)
    (wsl : FVec Ideal S3x64x64 .f32) (bsl : FVec Ideal S3x64 .f32) (w1 : FVec Ideal S3x4x64x64 .f32) (b1 ga be : FVec Ideal S3x4x64 .f32)
    (w2 : FVec Ideal S3x4x64x64 .f32) (b2 : FVec Ideal S3x4x64 .f32)
    (wslR : Fin 3 → Fin 64 → Fin 64 → ℝ) (bslR : Fin 3 → Fin 64 → ℝ)
    (w1R : Fin 3 → Fin 4 → Fin 64 → Fin 64 → ℝ) (b1R gaR beR : Fin 3 → Fin 4 → Fin 64 → ℝ)
    (w2R : Fin 3 → Fin 4 → Fin 64 → Fin 64 → ℝ) (b2R : Fin 3 → Fin 4 → Fin 64 → ℝ)
    (hwsl : ∀ l k d, wsl (ix3 l k d) = ((wslR l k d : ℝ) : EReal)) (hbsl : ∀ l d, bsl (ix2 l d) = ((bslR l d : ℝ) : EReal))
    (hw1 : ∀ l q k d, w1 (ix4 l q k d) = ((w1R l q k d : ℝ) : EReal)) (hb1 : ∀ l q d, b1 (ix3 l q d) = ((b1R l q d : ℝ) : EReal))
    (hga : ∀ l q d, ga (ix3 l q d) = ((gaR l q d : ℝ) : EReal)) (hbe : ∀ l q d, be (ix3 l q d) = ((beR l q d : ℝ) : EReal))
    (hw2 : ∀ l q k d, w2 (ix4 l q k d) = ((w2R l q k d : ℝ) : EReal)) (hb2 : ∀ l q d, b2 (ix3 l q d) = ((b2R l q d : ℝ) : EReal))
    (x : FVec Ideal S100000x64 .f32) (xr : Gnn.Feat) (hx : ∀ n k, x (ix2 n k) = ((xr n k : ℝ) : EReal)) (n : Fin 100000) (d : Fin 64) :
    core2 ei et wsl bsl w1 b1 ga be w2 b2 x (ix2 n d)
      = ((Gnn.core Gnn.epsR (wordsOf ei et gr) (Gnn.layerP wslR bslR w1R b1R gaR beR w2R b2R 2) xr n d : ℝ) : EReal) := by
  unfold core2
  exact round_apply ei et gr wsl bsl w1 b1 ga be w2 b2 wslR bslR w1R b1R gaR beR w2R b2R hwsl hbsl hw1 hb1 hga hbe hw2 hb2 2 2 rfl _ _ _ _ _ _ _ _ _ _ x xr hx n d

theorem result_apply (ei : IVec S2x1200000 32) (et : IVec S1200000 32)
    (wsl : FVec Ideal S3x64x64 .f32) (bsl : FVec Ideal S3x64 .f32) (w1 : FVec Ideal S3x4x64x64 .f32) (b1 ga be : FVec Ideal S3x4x64 .f32)
    (w2 : FVec Ideal S3x4x64x64 .f32) (b2 : FVec Ideal S3x4x64 .f32) (x : FVec Ideal S100000x64 .f32) (gr : IVec S100000 32)
    (xr : Fin 100000 → Fin 64 → ℝ) (wslR : Fin 3 → Fin 64 → Fin 64 → ℝ) (bslR : Fin 3 → Fin 64 → ℝ)
    (w1R : Fin 3 → Fin 4 → Fin 64 → Fin 64 → ℝ) (b1R gaR beR : Fin 3 → Fin 4 → Fin 64 → ℝ)
    (w2R : Fin 3 → Fin 4 → Fin 64 → Fin 64 → ℝ) (b2R : Fin 3 → Fin 4 → Fin 64 → ℝ)
    (hx : ∀ n k, x (ix2 n k) = ((xr n k : ℝ) : EReal))
    (hwsl : ∀ l k d, wsl (ix3 l k d) = ((wslR l k d : ℝ) : EReal)) (hbsl : ∀ l d, bsl (ix2 l d) = ((bslR l d : ℝ) : EReal))
    (hw1 : ∀ l q k d, w1 (ix4 l q k d) = ((w1R l q k d : ℝ) : EReal)) (hb1 : ∀ l q d, b1 (ix3 l q d) = ((b1R l q d : ℝ) : EReal))
    (hga : ∀ l q d, ga (ix3 l q d) = ((gaR l q d : ℝ) : EReal)) (hbe : ∀ l q d, be (ix3 l q d) = ((beR l q d : ℝ) : EReal))
    (hw2 : ∀ l q k d, w2 (ix4 l q k d) = ((w2R l q k d : ℝ) : EReal)) (hb2 : ∀ l q d, b2 (ix3 l q d) = ((b2R l q d : ℝ) : EReal))
    (g : Fin 128) (d : Fin 64) :
    Cert.ReferenceIdeal.RefTerm.result (F := Ideal) ei et wsl bsl w1 b1 ga be w2 b2 x gr (ix2 g d)
      = ((Gnn.result Gnn.epsR ⟨fun e => ei (ix2 (0 : Fin 2) e), fun e => ei (ix2 (1 : Fin 2) e), fun e => et (ix1 e), fun n => gr (ix1 n)⟩
          (Gnn.layerP wslR bslR w1R b1R gaR beR w2R b2R 0) (Gnn.layerP wslR bslR w1R b1R gaR beR w2R b2R 1) (Gnn.layerP wslR bslR w1R b1R gaR beR w2R b2R 2) xr g d : ℝ) : EReal) := by
  unfold Cert.ReferenceIdeal.RefTerm.result
  have h0 : ∀ n k, (maximumf (core0 ei et wsl bsl w1 b1 ga be w2 b2 x) zeroX : FVec Ideal S100000x64 .f32) (ix2 n k)
      = ((Gnn.layer true Gnn.epsR (wordsOf ei et gr) (Gnn.layerP wslR bslR w1R b1R gaR beR w2R b2R 0) xr n k : ℝ) : EReal) := by
    intro n k
    rw [maximumf_apply, zeroX_apply, core0_apply ei et gr wsl bsl w1 b1 ga be w2 b2 wslR bslR w1R b1R gaR beR w2R b2R hwsl hbsl hw1 hb1 hga hbe hw2 hb2 x xr hx n k, Gnn.Coe.max_coe]
    rfl
  have h1 : ∀ n k, (maximumf (core1 ei et wsl bsl w1 b1 ga be w2 b2 (maximumf (core0 ei et wsl bsl w1 b1 ga be w2 b2 x) zeroX)) zeroX : FVec Ideal S100000x64 .f32) (ix2 n k)
      = ((Gnn.layer true Gnn.epsR (wordsOf ei et gr) (Gnn.layerP wslR bslR w1R b1R gaR beR w2R b2R 1)
          (Gnn.layer true Gnn.epsR (wordsOf ei et gr) (Gnn.layerP wslR bslR w1R b1R gaR beR w2R b2R 0) xr) n k : ℝ) : EReal) := by
    intro n k
    rw [maximumf_apply, zeroX_apply, core1_apply ei et gr wsl bsl w1 b1 ga be w2 b2 wslR bslR w1R b1R gaR beR w2R b2R hwsl hbsl hw1 hb1 hga hbe hw2 hb2 _ _ h0 n k, Gnn.Coe.max_coe]
    rfl
  have h2 : ∀ n k, (core2 ei et wsl bsl w1 b1 ga be w2 b2
        (maximumf (core1 ei et wsl bsl w1 b1 ga be w2 b2 (maximumf (core0 ei et wsl bsl w1 b1 ga be w2 b2 x) zeroX)) zeroX) : FVec Ideal S100000x64 .f32) (ix2 n k)
      = ((Gnn.layer false Gnn.epsR (wordsOf ei et gr) (Gnn.layerP wslR bslR w1R b1R gaR beR w2R b2R 2)
          (Gnn.layer true Gnn.epsR (wordsOf ei et gr) (Gnn.layerP wslR bslR w1R b1R gaR beR w2R b2R 1)
            (Gnn.layer true Gnn.epsR (wordsOf ei et gr) (Gnn.layerP wslR bslR w1R b1R gaR beR w2R b2R 0) xr)) n k : ℝ) : EReal) := by
    intro n k
    rw [core2_apply ei et gr wsl bsl w1 b1 ga be w2 b2 wslR bslR w1R b1R gaR beR w2R b2R hwsl hbsl hw1 hb1 hga hbe hw2 hb2 _ _ h1 n k]
    rfl
  exact poolTerm_coe _ gr (wordsOf ei et gr) _ h2 (fun _ => rfl) g d

end Cert.ReferenceIdeal.RefValue

end
-- ==== Proof.lean ====
import proofs.«416992_j9088150798514_2_alg».proof.Defs
import proofs.«416992_j9088150798514_2_alg».proof.Proof.Gen.Kernel
import proofs.«416992_j9088150798514_2_alg».proof.Proof.Gen.Kernel.Skeleton
import proofs.«416992_j9088150798514_2_alg».proof.Proof.Gen.Kernel.Launch
import proofs.«416992_j9088150798514_2_alg».proof.Proof.Gen.Kernel.Points
import proofs.«416992_j9088150798514_2_alg».proof.Proof.Gen.Kernel.Frame
import proofs.«416992_j9088150798514_2_alg».proof.Proof.Gen.KernelIdeal
import proofs.«416992_j9088150798514_2_alg».proof.Proof.Gen.KernelIdeal.Skeleton
import proofs.«416992_j9088150798514_2_alg».proof.Proof.Gen.KernelIdeal.Launch
import proofs.«416992_j9088150798514_2_alg».proof.Proof.Gen.KernelIdeal.Points
import proofs.«416992_j9088150798514_2_alg».proof.Proof.Gen.KernelIdeal.Frame
import proofs.«416992_j9088150798514_2_alg».proof.Proof.Gen.ReferenceIdeal
import proofs.«416992_j9088150798514_2_alg».proof.Proof.Gen.Pre_finite_inputs
import proofs.«416992_j9088150798514_2_alg».proof.Proof.PreDecode
import proofs.«416992_j9088150798514_2_alg».proof.Proof.KRun
import proofs.«416992_j9088150798514_2_alg».proof.Proof.KThread
import proofs.«416992_j9088150798514_2_alg».proof.Proof.RefRun
import proofs.«416992_j9088150798514_2_alg».proof.Proof.RefValue
import Idealize.ShloMosaic.Adequacy
import Idealize.ShloMosaic.Init

noncomputable section

namespace Cert.Proof

open Idealize.ShloMosaic Idealize.ShloMosaic.ValueIdx Idealize.SL.Sem

theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.RefRun.run (F := Ideal) m ρ)

theorem algebraic : @Cert.algebraic_KernelIdeal_ReferenceIdeal Cert.KernelIdeal.Gen.facts Cert.ReferenceIdeal.Gen.facts Cert.Pre_finite_inputs.Gen.facts := by
  intro m ρ m' ρ' hpre hagree
  refine ⟨fun c => Cert.KernelIdeal.Gen.W15 (F := Ideal) m ρ c (Proc.devRef .tc Cert.KernelIdeal.main_v152),
    Cert.KernelIdeal.Gen.run_value (F := Ideal) m ρ, ?_⟩
  refine (θ_run Cert.ReferenceIdeal.defs _ _).mono (fun _ h c => ⟨(h c).1.trans ?_, (h c).2⟩)
    (Cert.ReferenceIdeal.RefRun.run (F := Ideal) m' ρ')
  obtain ⟨⟨xr, hx⟩, ⟨wslR, hwsl⟩, ⟨bslR, hbsl⟩, ⟨w1R, hw1⟩, ⟨b1R, hb1⟩, ⟨gaR, hga⟩, ⟨beR, hbe⟩, ⟨w2R, hw2⟩, ⟨b2R, hb2⟩, hdst, het, hgr⟩ :=
    Gnn.PreDecode.decode (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)) (hpre c)
  obtain ⟨h0, h1, h2, h3, h4, h5, h6, h7, h8, h9, h10, h11⟩ := hagree c
  rw [h0, h1, h2, h3, h4, h5, h6, h7, h8, h9, h10, h11]
  funext i
  obtain ⟨g, d, rfl⟩ : ∃ (g : Fin 128) (d : Fin 64), i = ix2 g d := ⟨i 0, i 1, eq_ix2 i⟩
  exact (Cert.ReferenceIdeal.RefValue.result_apply _ _ _ _ _ _ _ _ _ _ _ _ xr wslR bslR w1R b1R gaR beR w2R b2R
      hx hwsl hbsl hw1 hb1 hga hbe hw2 hb2 g d).trans
    (Cert.KernelIdeal.GnnK.kernel_value m ρ c xr wslR bslR w1R b1R gaR beR w2R b2R
      hx hwsl hbsl hw1 hb1 hga hbe hw2 hb2 hdst het hgr g d).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, fun m ρ _ => Cert.KernelIdeal.Gen.frame m ρ, frame_ri, trivial, algebraic⟩

end Cert.Proof

end
